-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v84_1) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2x32768 : Shape := ⟨2, ![2, 32768]⟩
abbrev S32768x1 : Shape := ⟨2, ![32768, 1]⟩
abbrev S260x128 : Shape := ⟨2, ![260, 128]⟩
abbrev S128 : Shape := ⟨1, ![128]⟩
abbrev S128x128 : Shape := ⟨2, ![128, 128]⟩
abbrev S129x128 : Shape := ⟨2, ![129, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S260x128 : S_.BroadcastsInDim S260x128 (![] : Fin 0 → Fin S260x128.rank)
  reducesTo_S260x128_S_d0_1 : S260x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S129x128 : S_.BroadcastsInDim S129x128 (![] : Fin 0 → Fin S129x128.rank)
  reducesTo_S129x128_S_d0_1 : S129x128.ReducesTo [0, 1] S_
  bcast_S_S2x32768 : S_.BroadcastsInDim S2x32768 (![] : Fin 0 → Fin S2x32768.rank)
  reducesTo_S2x32768_S_d0_1 : S2x32768.ReducesTo [0, 1] S_

variable [Facts]

def fn_part5 {F : FTy → Type} [FloatOps F] (main_arg2 : IVec S2x32768 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S2x32768 32 := broadcastInDim S2x32768 ![] bcast_S_S2x32768 main_c_34
  let main_v90 : IVec S2x32768 1 := cmpi .sge main_arg2 main_v89
  let main_c_35 : IVec S_ 32 := constantI S_ 32 2048#32
  let main_v91 : IVec S2x32768 32 := broadcastInDim S2x32768 ![] bcast_S_S2x32768 main_c_35
  let main_v92 : IVec S2x32768 1 := cmpi .slt main_arg2 main_v91
  let main_v93 : IVec S2x32768 1 := andi main_v90 main_v92
  let main_c_36 : IVec S_ 1 := constantI S_ 1 1#1
  let main_v94 : IVec S_ 1 := (fun x v => Host.reduce IntOp.andi x v reducesTo_S2x32768_S_d0_1 h_S_) main_v93 main_c_36
  let main_v95 : IVec S_ 1 := andi main_v88 main_v94
  main_v95

def fn_part4 {F : FTy → Type} [FloatOps F] (main_arg2 : IVec S2x32768 32) (main_arg15 : FVec F S129x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S129x128 .f32 := Host.absf main_arg15
  let main_cst_26 : FVec F S_ .f32 := constant S_ .f32 0x7F800000#32
  let main_v70 : FVec F S129x128 .f32 := broadcastInDim S129x128 ![] bcast_S_S129x128 main_cst_26
  let main_v71 : IVec S129x128 1 := cmpf .olt main_v69 main_v70
  let main_c_27 : IVec S_ 1 := constantI S_ 1 1#1
  let main_v72 : IVec S_ 1 := (fun x v => Host.reduce IntOp.andi x v reducesTo_S129x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2x32768 32) (main_arg12 : FVec F S128 .f32) (main_arg13 : FVec F S128x128 .f32) (main_arg14 : FVec F S128 .f32) (main_arg15 : FVec F S129x128 .f32) (main_arg16 : FVec F S128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_v63 main_v67

def fn_part2 {F : FTy → Type} [FloatOps F] (main_arg2 : IVec S2x32768 32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S129x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_arg18 main_v48 main_v49 main_v50

def fn_part1 {F : FTy → Type} [FloatOps F] (main_arg2 : IVec S2x32768 32) (main_arg5 : FVec F S32768x1 .f32) (main_arg6 : FVec F S32768x1 .f32) (main_arg7 : FVec F S260x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S129x128 .f32) (main_arg16 : FVec F S128 .f32) (main_arg17 : FVec F S128x128 .f32) (main_arg18 : FVec F S128 .f32) (main_v13 : IVec S_ 1) (main_v16 : IVec S32768x1 1) : IVec S_ 1 :=
  let main_c_5 : IVec S_ 1 := constantI S_ 1 1#1
  let main_v17 : IVec S_ 1 := (fun x v => Host.reduce IntOp.andi x v reducesTo_S32768x1_S_d0_1 h_S_) main_v16 main_c_5
  let main_v18 : IVec S_ 1 := andi main_v13 main_v17
  let main_v19 : FVec F S32768x1 .f32 := Host.absf main_arg5
  let main_cst_6 : FVec F S_ .f32 := constant S_ .f32 0x7F800000#32
  let main_v20 : FVec F S32768x1 .f32 := broadcastInDim S32768x1 ![] bcast_S_S32768x1 main_cst_6
  let main_v21 : IVec S32768x1 1 := cmpf .olt main_v19 main_v20
  let main_c_7 : IVec S_ 1 := constantI S_ 1 1#1
  let main_v22 : IVec S_ 1 := (fun x v => Host.reduce IntOp.andi x v reducesTo_S32768x1_S_d0_1 h_S_) main_v21 main_c_7
  let main_v23 : IVec S_ 1 := andi main_v18 main_v22
  let main_v24 : FVec F S32768x1 .f32 := Host.absf main_arg6
  let main_cst_8 : FVec F S_ .f32 := constant S_ .f32 0x7F800000#32
  let main_v25 : FVec F S32768x1 .f32 := broadcastInDim S32768x1 ![] bcast_S_S32768x1 main_cst_8
  let main_v26 : IVec S32768x1 1 := cmpf .olt main_v24 main_v25
  let main_c_9 : IVec S_ 1 := constantI S_ 1 1#1
  let main_v27 : IVec S_ 1 := (fun x v => Host.reduce IntOp.andi x v reducesTo_S32768x1_S_d0_1 h_S_) main_v26 main_c_9
  let main_v28 : IVec S_ 1 := andi main_v23 main_v27
  let main_v29 : FVec F S260x128 .f32 := Host.absf main_arg7
  let main_cst_10 : FVec F S_ .f32 := constant S_ .f32 0x7F800000#32
  let main_v30 : FVec F S260x128 .f32 := broadcastInDim S260x128 ![] bcast_S_S260x128 main_cst_10
  let main_v31 : IVec S260x128 1 := cmpf .olt main_v29 main_v30
  let main_c_11 : IVec S_ 1 := constantI S_ 1 1#1
  let main_v32 : IVec S_ 1 := (fun x v => Host.reduce IntOp.andi x v reducesTo_S260x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S2048x128 .f32) (main_arg1 : FVec F S2048x128 .f32) (main_arg2 : IVec S2x32768 32) (main_arg3 : FVec F S32768x1 .f32) (main_arg4 : FVec F S32768x1 .f32) (main_arg5 : FVec F S32768x1 .f32) (main_arg6 : FVec F S32768x1 .f32) (main_arg7 : FVec F S260x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S129x128 .f32) (main_arg16 : FVec F S128 .f32) (main_arg17 : FVec F S128x128 .f32) (main_arg18 : FVec F S128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S32768x1 .f32 := Host.absf main_arg3
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S32768x1 .f32 := Host.absf main_arg4
  let main_cst_4 : FVec F S_ .f32 := constant S_ .f32 0x7F800000#32
  let main_v15 : FVec F S32768x1 .f32 := broadcastInDim S32768x1 ![] bcast_S_S32768x1 main_cst_4
  let main_v16 : IVec S32768x1 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S2048x128 : Shape := ⟨2, ![2048, 128]⟩
abbrev S2x32768 : Shape := ⟨2, ![2, 32768]⟩
abbrev S32768x1 : Shape := ⟨2, ![32768, 1]⟩
abbrev S260x128 : Shape := ⟨2, ![260, 128]⟩
abbrev S128 : Shape := ⟨1, ![128]⟩
abbrev S128x128 : Shape := ⟨2, ![128, 128]⟩
abbrev S129x128 : Shape := ⟨2, ![129, 128]⟩
abbrev S1x32768 : Shape := ⟨2, ![1, 32768]⟩
abbrev S32768 : Shape := ⟨1, ![32768]⟩
abbrev S_ : Shape := ⟨0, ![]⟩
abbrev S2048x2048 : Shape := ⟨2, ![2048, 2048]⟩
abbrev S32768x2 : Shape := ⟨2, ![32768, 2]⟩
abbrev S512x512 : Shape := ⟨2, ![512, 512]⟩
abbrev S2048x1 : Shape := ⟨2, ![2048, 1]⟩
abbrev S2048x3 : Shape := ⟨2, ![2048, 3]⟩
abbrev S32768x5 : Shape := ⟨2, ![32768, 5]⟩
abbrev S2048x256 : Shape := ⟨2, ![2048, 256]⟩
abbrev S2x2048x128 : Shape := ⟨3, ![2, 2048, 128]⟩
abbrev S2x1024 : Shape := ⟨2, ![2, 1024]⟩
abbrev S1024x5 : Shape := ⟨2, ![1024, 5]⟩
abbrev S1x2048x128 : Shape := ⟨3, ![1, 2048, 128]⟩
abbrev S1x1024 : Shape := ⟨2, ![1, 1024]⟩
abbrev S1024 : Shape := ⟨1, ![1024]⟩
abbrev S1024x4 : Shape := ⟨2, ![1024, 4]⟩
abbrev S1024x1 : Shape := ⟨2, ![1024, 1]⟩
abbrev S1024x2048 : Shape := ⟨2, ![1024, 2048]⟩
abbrev S2048x1024 : Shape := ⟨2, ![2048, 1024]⟩
abbrev S1024x256 : Shape := ⟨2, ![1024, 256]⟩
abbrev S1024x128 : Shape := ⟨2, ![1024, 128]⟩
abbrev S1024x260 : Shape := ⟨2, ![1024, 260]⟩
abbrev S1x128 : Shape := ⟨2, ![1, 128]⟩
abbrev S2x1024x128 : Shape := ⟨3, ![2, 1024, 128]⟩
abbrev S1024x3 : Shape := ⟨2, ![1024, 3]⟩
abbrev S1x1024x128 : Shape := ⟨3, ![1, 1024, 128]⟩
abbrev S1024x129 : Shape := ⟨2, ![1024, 129]⟩

abbrev nBuf : Space → Nat
  | .hbm => 125
  | .vmem => 39
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2x32768, .i32⟩
  | .hbm, ⟨3, _⟩ => ⟨S32768x1, .f32⟩
  | .hbm, ⟨4, _⟩ => ⟨S32768x1, .f32⟩
  | .hbm, ⟨5, _⟩ => ⟨S32768x1, .f32⟩
  | .hbm, ⟨6, _⟩ => ⟨S32768x1, .f32⟩
  | .hbm, ⟨7, _⟩ => ⟨S260x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S129x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x32768, .i32⟩
  | .hbm, ⟨20, _⟩ => ⟨S32768, .i32⟩
  | .hbm, ⟨21, _⟩ => ⟨S1x32768, .i32⟩
  | .hbm, ⟨22, _⟩ => ⟨S32768, .i32⟩
  | .hbm, ⟨23, _⟩ => ⟨S1x32768, .i32⟩
  | .hbm, ⟨24, _⟩ => ⟨S32768, .i32⟩
  | .hbm, ⟨25, _⟩ => ⟨S32768, .f32⟩
  | .hbm, ⟨26, _⟩ => ⟨S_, .f32⟩
  | .hbm, ⟨27, _⟩ => ⟨S2048x2048, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S32768x1, .i32⟩
  | .hbm, ⟨44, _⟩ => ⟨S32768x2, .i32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .i32⟩
  | .hbm, ⟨49, _⟩ => ⟨S32768, .i32⟩
  | .hbm, ⟨50, _⟩ => ⟨S32768, .i1⟩
  | .hbm, ⟨51, _⟩ => ⟨S_, .i32⟩
  | .hbm, ⟨52, _⟩ => ⟨S32768, .i32⟩
  | .hbm, ⟨53, _⟩ => ⟨S32768, .i32⟩
  | .hbm, ⟨54, _⟩ => ⟨S32768, .i32⟩
  | .hbm, ⟨55, _⟩ => ⟨S_, .i32⟩
  | .hbm, ⟨56, _⟩ => ⟨S32768, .i32⟩
  | .hbm, ⟨57, _⟩ => ⟨S32768, .i1⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768, .i32⟩
  | .hbm, ⟨62, _⟩ => ⟨S32768x1, .i32⟩
  | .hbm, ⟨63, _⟩ => ⟨S32768x1, .i32⟩
  | .hbm, ⟨64, _⟩ => ⟨S32768x2, .i32⟩
  | .hbm, ⟨65, _⟩ => ⟨S32768, .f32⟩
  | .hbm, ⟨66, _⟩ => ⟨S_, .i32⟩
  | .hbm, ⟨67, _⟩ => ⟨S32768, .i32⟩
  | .hbm, ⟨68, _⟩ => ⟨S32768, .i1⟩
  | .hbm, ⟨69, _⟩ => ⟨S_, .i32⟩
  | .hbm, ⟨70, _⟩ => ⟨S32768, .i32⟩
  | .hbm, ⟨71, _⟩ => ⟨S32768, .i32⟩
  | .hbm, ⟨72, _⟩ => ⟨S32768, .i32⟩
  | .hbm, ⟨73, _⟩ => ⟨S_, .i32⟩
  | .hbm, ⟨74, _⟩ => ⟨S32768, .i32⟩
  | .hbm, ⟨75, _⟩ => ⟨S32768, .i1⟩
  | .hbm, ⟨76, _⟩ => ⟨S_, .i32⟩
  | .hbm, ⟨77, _⟩ => ⟨S32768, .i32⟩
  | .hbm, ⟨78, _⟩ => ⟨S32768, .i32⟩
  | .hbm, ⟨79, _⟩ => ⟨S32768, .i32⟩
  | .hbm, ⟨80, _⟩ => ⟨S32768x1, .i32⟩
  | .hbm, ⟨81, _⟩ => ⟨S32768x1, .i32⟩
  | .hbm, ⟨82, _⟩ => ⟨S32768x2, .i32⟩
  | .hbm, ⟨83, _⟩ => ⟨S32768, .f32⟩
  | .hbm, ⟨84, _⟩ => ⟨S_, .f32⟩
  | .hbm, ⟨85, _⟩ => ⟨S32768, .f32⟩
  | .hbm, ⟨86, _⟩ => ⟨S32768, .i1⟩
  | .hbm, ⟨87, _⟩ => ⟨S_, .f32⟩
  | .hbm, ⟨88, _⟩ => ⟨S32768, .f32⟩
  | .hbm, ⟨89, _⟩ => ⟨S32768, .f32⟩
  | .hbm, ⟨90, _⟩ => ⟨S32768, .f32⟩
  | .hbm, ⟨91, _⟩ => ⟨S32768, .f32⟩
  | .hbm, ⟨92, _⟩ => ⟨S32768, .f32⟩
  | .hbm, ⟨93, _⟩ => ⟨S32768, .f32⟩
  | .hbm, ⟨94, _⟩ => ⟨S32768x1, .f32⟩
  | .hbm, ⟨95, _⟩ => ⟨S32768x1, .f32⟩
  | .hbm, ⟨96, _⟩ => ⟨S32768x1, .f32⟩
  | .hbm, ⟨97, _⟩ => ⟨S_, .f32⟩
  | .hbm, ⟨98, _⟩ => ⟨S2048x1, .f32⟩
  | .hbm, ⟨99, _⟩ => ⟨S32768x1, .i32⟩
  | .hbm, ⟨100, _⟩ => ⟨S2048x1, .f32⟩
  | .hbm, ⟨101, _⟩ => ⟨S_, .f32⟩
  | .hbm, ⟨102, _⟩ => ⟨S2048x1, .f32⟩
  | .hbm, ⟨103, _⟩ => ⟨S32768x1, .i32⟩
  | .hbm, ⟨104, _⟩ => ⟨S2048x1, .f32⟩
  | .hbm, ⟨105, _⟩ => ⟨S_, .f32⟩
  | .hbm, ⟨106, _⟩ => ⟨S32768x1, .f32⟩
  | .hbm, ⟨107, _⟩ => ⟨S_, .f32⟩
  | .hbm, ⟨108, _⟩ => ⟨S2048x1, .f32⟩
  | .hbm, ⟨109, _⟩ => ⟨S32768x1, .i32⟩
  | .hbm, ⟨110, _⟩ => ⟨S2048x1, .f32⟩
  | .hbm, ⟨111, _⟩ => ⟨S2048x3, .f32⟩
  | .hbm, ⟨112, _⟩ => ⟨S32768x5, .f32⟩
  | .hbm, ⟨113, _⟩ => ⟨S2048x128, .bf16⟩
  | .hbm, ⟨114, _⟩ => ⟨S2048x128, .bf16⟩
  | .hbm, ⟨115, _⟩ => ⟨S2048x256, .bf16⟩
  | .hbm, ⟨116, _⟩ => ⟨S260x128, .bf16⟩
  | .hbm, ⟨117, _⟩ => ⟨S128x128, .bf16⟩
  | .hbm, ⟨118, _⟩ => ⟨S2x2048x128, .f32⟩
  | .hbm, ⟨119, _⟩ => ⟨S128x128, .bf16⟩
  | .hbm, ⟨120, _⟩ => ⟨S128x128, .bf16⟩
  | .hbm, ⟨121, _⟩ => ⟨S129x128, .bf16⟩
  | .hbm, ⟨122, _⟩ => ⟨S128x128, .bf16⟩
  | .hbm, ⟨123, _⟩ => ⟨S2048x128, .f32⟩
  | .hbm, ⟨124, _⟩ => ⟨S2048x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2x1024, .i32⟩
  | .local _ .vmem, ⟨11, _⟩ => ⟨S2x1024, .i32⟩
  | .local _ .vmem, ⟨12, _⟩ => ⟨S1024x5, .f32⟩
  | .local _ .vmem, ⟨13, _⟩ => ⟨S1024x5, .f32⟩
  | .local _ .vmem, ⟨14, _⟩ => ⟨S2048x256, .bf16⟩
  | .local _ .vmem, ⟨15, _⟩ => ⟨S260x128, .bf16⟩
  | .local _ .vmem, ⟨16, _⟩ => ⟨S128, .f32⟩
  | .local _ .vmem, ⟨17, _⟩ => ⟨S128x128, .bf16⟩
  | .local _ .vmem, ⟨18, _⟩ => ⟨S128, .f32⟩
  | .local _ .vmem, ⟨19, _⟩ => ⟨S1x2048x128, .f32⟩
  | .local _ .vmem, ⟨20, _⟩ => ⟨S1x2048x128, .f32⟩
  | .local _ .vmem, ⟨21, _⟩ => ⟨S1024x128, .f32⟩
  | .local _ .vmem, ⟨22, _⟩ => ⟨S1024x128, .f32⟩
  | .local _ .vmem, ⟨23, _⟩ => ⟨S2x1024x128, .f32⟩
  | .local _ .vmem, ⟨24, _⟩ => ⟨S2x1024x128, .f32⟩
  | .local _ .vmem, ⟨25, _⟩ => ⟨S1024x3, .f32⟩
  | .local _ .vmem, ⟨26, _⟩ => ⟨S1024x3, .f32⟩
  | .local _ .vmem, ⟨27, _⟩ => ⟨S128x128, .bf16⟩
  | .local _ .vmem, ⟨28, _⟩ => ⟨S128, .f32⟩
  | .local _ .vmem, ⟨29, _⟩ => ⟨S128x128, .bf16⟩
  | .local _ .vmem, ⟨30, _⟩ => ⟨S128, .f32⟩
  | .local _ .vmem, ⟨31, _⟩ => ⟨S129x128, .bf16⟩
  | .local _ .vmem, ⟨32, _⟩ => ⟨S128, .f32⟩
  | .local _ .vmem, ⟨33, _⟩ => ⟨S128x128, .bf16⟩
  | .local _ .vmem, ⟨34, _⟩ => ⟨S128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84_0 : Ref sig .tc := ⟨.hbm, 123, rfl⟩
abbrev main_v84_1 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg11_1 : Ref sig .tc := ⟨.vmem, 36, rfl⟩
abbrev cc2_stg12_0 : Ref sig .tc := ⟨.vmem, 37, rfl⟩
abbrev cc2_stg12_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem11_1 : DmaSem sig := 34
abbrev cc2_sem12_0 : DmaSem sig := 35
abbrev cc2_sem12_1 : DmaSem sig := 36

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S260x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S129x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1024x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1024x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x32768_S1x32768_1_0 : S2x32768.Slices ![1, 0] S1x32768
  shapeCasts_S1x32768_S32768 : S1x32768.ShapeCasts S32768
  slices_S2x32768_S1x32768_0_0 : S2x32768.Slices ![0, 0] S1x32768
  shapeCasts_S32768x1_S32768 : S32768x1.ShapeCasts S32768
  bcast_S_S2048x2048 : S_.BroadcastsInDim S2048x2048 (![] : Fin 0 → Fin S2048x2048.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  natLt_1_32 : 1 < 32
  bitsLt_bf16_f32 : FTy.bits .bf16 < FTy.bits .f32
  bcast_S_S2048x1 : S_.BroadcastsInDim S2048x1 (![] : Fin 0 → Fin S2048x1.rank)
  bcast_S_S32768x1 : S_.BroadcastsInDim S32768x1 (![] : Fin 0 → Fin S32768x1.rank)
  concatenates_S2048x1_S2048x1_S2048x1_S2048x3_d1 : Shape.Concatenates [S2048x1, S2048x1, S2048x1] S2048x3 1
  concatenates_S32768x1_S32768x1_S32768x1_S32768x1_S32768x1_S32768x5_d1 : Shape.Concatenates [S32768x1, S32768x1, S32768x1, S32768x1, S32768x1] S32768x5 1
  concatenates_S2048x128_S2048x128_S2048x256_d1 : Shape.Concatenates [S2048x128, S2048x128] S2048x256 1
  inb_S1x2048x128_S1x2048x128_0_0_0 : ∀ a, (![0, 0, 0] : Fin 3 → Nat) a + S1x2048x128.size a ≤ S1x2048x128.size a
  h_S1x2048x128 : 0 < S1x2048x128.numel
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  inb_S2x1024_S1x1024_1_0 : ∀ a, (![1, 0] : Fin 2 → Nat) a + S1x1024.size a ≤ S2x1024.size a
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  slices_S1024x5_o0_0_S1024x4 : S1024x5.Slices ![0, 0] S1024x4
  slices_S1024x5_o0_4_S1024x1 : S1024x5.Slices ![0, 4] S1024x1
  iota_S1024x2048_d1_w32 : S1024x2048.Iotas .tc 32 [1]
  shapeCasts_S1024_S1024x1 : S1024.ShapeCasts S1024x1
  broadcasts_S1024x1_S1024x2048 : S1024x1.Broadcasts S1024x2048
  iota_S2048x1024_d0_w32 : S2048x1024.Iotas .tc 32 [0]
  shapeCasts_S1024_S1x1024 : S1024.ShapeCasts S1x1024
  broadcasts_S1x1024_S2048x1024 : S1x1024.Broadcasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S1024x256_o0_0_S1024x128 : S1024x256.Slices ![0, 0] S1024x128
  slices_S1024x256_o0_128_S1024x128 : S1024x256.Slices ![0, 128] S1024x128
  concatenates_S1024x128_S1024x128_S1024x4_S1024x260_d1 : Shape.Concatenates [S1024x128, S1024x128, S1024x4] S1024x260 1
  inb_S260x128_S260x128_0_0 : ∀ a, (![0, 0] : Fin 2 → Nat) a + S260x128.size a ≤ S260x128.size a
  h_S260x128 : 0 < S260x128.numel
  shapeCasts_S260x128_S260x128 : S260x128.ShapeCasts S260x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1024x1_S1024x128 : S1024x1.Broadcasts S1024x128
  shapeCasts_S1x2048x128_S1x2048x128 : S1x2048x128.ShapeCasts S1x2048x128
  shapeCasts_S2048x128_S1x2048x128 : S2048x128.ShapeCasts S1x2048x128
  inb_S1024x128_S1024x128_0_0 : ∀ a, (![0, 0] : Fin 2 → Nat) a + S1024x128.size a ≤ S1024x128.size a
  h_S1024x128 : 0 < S1024x128.numel
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  inb_S2x1024x128_S1x1024x128_1_0_0 : ∀ a, (![1, 0, 0] : Fin 3 → Nat) a + S1x1024x128.size a ≤ S2x1024x128.size a
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  concatenates_S1024x128_S1024x1_S1024x129_d1 : Shape.Concatenates [S1024x128, S1024x1] S1024x129 1
  inb_S129x128_S129x128_0_0 : ∀ a, (![0, 0] : Fin 2 → Nat) a + S129x128.size a ≤ S129x128.size a
  h_S129x128 : 0 < S129x128.numel
  shapeCasts_S129x128_S129x128 : S129x128.ShapeCasts S129x128
  scatter_S2048x2048_S32768x2_S32768_n_01_01_1_wf : ScatterDims.WF S2048x2048 S32768x2 S32768 [] [0, 1] [0, 1] 1
  dot_S512x512_S512x512_S512x512_1_0_0_1_n_n_wf : DotDims.WF S512x512 S512x512 S512x512 [1] [0] [0] [1] [] []
  gather_S2048x2048_S32768x2_S32768_n_01_n_n_01_1_11_wf : GatherDims.WF S2048x2048 S32768x2 S32768 [] [0, 1] [] [0, 1] [] 1 ![1, 1]
  scatter_S2048x1_S32768x1_S32768x1_1_0_0_1_wf : ScatterDims.WF S2048x1 S32768x1 S32768x1 [1] [0] [0] 1
  dot_S1024x2048_S2048x256_S1024x256_1_0_0_1_n_n_wf : DotDims.WF S1024x2048 S2048x256 S1024x256 [1] [0] [0] [1] [] []
  dot_S1024x260_S260x128_S1024x128_1_0_0_1_n_n_wf : DotDims.WF S1024x260 S260x128 S1024x128 [1] [0] [0] [1] [] []
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  dot_S1024x129_S129x128_S1024x128_1_0_0_1_n_n_wf : DotDims.WF S1024x129 S129x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .f32 = 32 ∨ (Rect.block (s := S2048x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024.size a ≤ S2x32768.size a
  hwx1_0 : ∀ i : grid1.Coords, EltTy.bits .i32 = 32 ∨ (Rect.block (s := S2x32768) S2x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x5.size a ≤ S32768x5.size a
  hwx1_1 : ∀ i : grid1.Coords, EltTy.bits .f32 = 32 ∨ (Rect.block (s := S32768x5) S1024x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .bf16 = 32 ∨ (Rect.block (s := S2048x256) S2048x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S260x128.size a ≤ S260x128.size a
  hwx1_3 : ∀ i : grid1.Coords, EltTy.bits .bf16 = 32 ∨ (Rect.block (s := S260x128) S260x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x128.size a ≤ S2x2048x128.size a
  hwx1_7 : ∀ i : grid1.Coords, EltTy.bits .f32 = 32 ∨ (Rect.block (s := S2x2048x128) S1x2048x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S2048x128.size a
  hwx2_0 : ∀ i : grid2.Coords, EltTy.bits .f32 = 32 ∨ (Rect.block (s := S2048x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x1024x128.size a ≤ S2x2048x128.size a
  hwx2_1 : ∀ i : grid2.Coords, EltTy.bits .f32 = 32 ∨ (Rect.block (s := S2x2048x128) S2x1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x3.size a ≤ S2048x3.size a
  hwx2_2 : ∀ i : grid2.Coords, EltTy.bits .f32 = 32 ∨ (Rect.block (s := S2048x3) S1024x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S129x128.size a ≤ S129x128.size a
  hwx2_7 : ∀ i : grid2.Coords, EltTy.bits .bf16 = 32 ∨ (Rect.block (s := S129x128) S129x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .bf16 = 32 ∨ (Rect.block (s := S128x128) S128x128.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x128.size a ≤ S2048x128.size a
  hwx2_11 : ∀ i : grid2.Coords, EltTy.bits .f32 = 32 ∨ (Rect.block (s := S2048x128) S1024x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1024x128.size a ≤ S2048x128.size a
  hwx2_12 : ∀ i : grid2.Coords, EltTy.bits .f32 = 32 ∨ (Rect.block (s := S2048x128) S1024x128.size (cc2_transform_12 i) (hinb2_12 i)).WholeWords (EltTy.packing .f32)

variable [Facts₀]

def scatter_S2048x2048_S32768x2_S32768_n_01_01_1 : ScatterDims S2048x2048 S32768x2 S32768 where
  updateWindowDims := []
  insertedWindowDims := [0, 1]
  scatterDimsToOperandDims := [0, 1]
  indexVectorDim := 1
  wf := scatter_S2048x2048_S32768x2_S32768_n_01_01_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def gather_S2048x2048_S32768x2_S32768_n_01_n_n_01_1_11 : GatherDims S2048x2048 S32768x2 S32768 where
  offsetDims := []
  collapsedSliceDims := [0, 1]
  operandBatchingDims := []
  startIndicesBatchingDims := []
  startIndexMap := [0, 1]
  indexVectorDim := 1
  sliceSizes := ![1, 1]
  wf := gather_S2048x2048_S32768x2_S32768_n_01_n_n_01_1_11_wf
def scatter_S2048x1_S32768x1_S32768x1_1_0_0_1 : ScatterDims S2048x1 S32768x1 S32768x1 where
  updateWindowDims := [1]
  insertedWindowDims := [0]
  scatterDimsToOperandDims := [0]
  indexVectorDim := 1
  wf := scatter_S2048x1_S32768x1_S32768x1_1_0_0_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x260_S260x128_S1024x128_1_0_0_1_n_n : DotDims S1024x260 S260x128 S1024x128 where
  lhsContracting := [1]
  rhsContracting := [0]
  lhsNonContracting := [0]
  rhsNonContracting := [1]
  lhsBatch := []
  rhsBatch := []
  wf := dot_S1024x260_S260x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x129_S129x128_S1024x128_1_0_0_1_n_n : DotDims S1024x129 S129x128 S1024x128 where
  lhsContracting := [1]
  rhsContracting := [0]
  lhsNonContracting := [0]
  rhsNonContracting := [1]
  lhsBatch := []
  rhsBatch := []
  wf := dot_S1024x129_S129x128_S1024x128_1_0_0_1_n_n_wf

abbrev win0_0 : Pipeline.Window sig grid0 :=
  Pipeline.Window.ofSpec (Memref.whole main_v21) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S2x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1024x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S260x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v79) S1x2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S2x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1024x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v82) S129x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v83) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg18) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v84_0) S1024x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v84_1) S1024x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S2048x128 : Shape := ⟨2, ![2048, 128]⟩
abbrev S2x32768 : Shape := ⟨2, ![2, 32768]⟩
abbrev S32768x1 : Shape := ⟨2, ![32768, 1]⟩
abbrev S260x128 : Shape := ⟨2, ![260, 128]⟩
abbrev S128 : Shape := ⟨1, ![128]⟩
abbrev S128x128 : Shape := ⟨2, ![128, 128]⟩
abbrev S129x128 : Shape := ⟨2, ![129, 128]⟩
abbrev S1x32768 : Shape := ⟨2, ![1, 32768]⟩
abbrev S32768 : Shape := ⟨1, ![32768]⟩
abbrev S_ : Shape := ⟨0, ![]⟩
abbrev S2048x2048 : Shape := ⟨2, ![2048, 2048]⟩
abbrev S32768x2 : Shape := ⟨2, ![32768, 2]⟩
abbrev S32768x2048 : Shape := ⟨2, ![32768, 2048]⟩
abbrev S2048x32768 : Shape := ⟨2, ![2048, 32768]⟩
abbrev S32768x4 : Shape := ⟨2, ![32768, 4]⟩
abbrev S32768x128 : Shape := ⟨2, ![32768, 128]⟩
abbrev S32768x260 : Shape := ⟨2, ![32768, 260]⟩
abbrev S1x128 : Shape := ⟨2, ![1, 128]⟩
abbrev S2048x1 : Shape := ⟨2, ![2048, 1]⟩
abbrev S2048x129 : Shape := ⟨2, ![2048, 129]⟩

abbrev nBuf : Space → Nat
  | .hbm => 196
  | .vmem => 0
  | .smem => 0
  | _ => 0

abbrev hbmTy0_0 (i : Nat) : BufTy := match i % 128 with
  | 0 => ⟨S2048x128, .f32⟩
  | 1 => ⟨S2048x128, .f32⟩
  | 2 => ⟨S2x32768, .i32⟩
  | 3 => ⟨S32768x1, .f32⟩
  | 4 => ⟨S32768x1, .f32⟩
  | 5 => ⟨S32768x1, .f32⟩
  | 6 => ⟨S32768x1, .f32⟩
  | 7 => ⟨S260x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S129x128, .f32⟩
  | 16 => ⟨S128, .f32⟩
  | 17 => ⟨S128x128, .f32⟩
  | 18 => ⟨S128, .f32⟩
  | 19 => ⟨S1x32768, .i32⟩
  | 20 => ⟨S32768, .i32⟩
  | 21 => ⟨S1x32768, .i32⟩
  | 22 => ⟨S32768, .i32⟩
  | 23 => ⟨S1x32768, .i32⟩
  | 24 => ⟨S32768, .i32⟩
  | 25 => ⟨S1x32768, .i32⟩
  | 26 => ⟨S32768, .i32⟩
  | 27 => ⟨S32768, .f32⟩
  | 28 => ⟨S_, .f32⟩
  | 29 => ⟨S2048x2048, .f32⟩
  | 30 => ⟨S_, .i32⟩
  | 31 => ⟨S32768, .i32⟩
  | 32 => ⟨S32768, .i1⟩
  | 33 => ⟨S_, .i32⟩
  | 34 => ⟨S32768, .i32⟩
  | 35 => ⟨S32768, .i32⟩
  | 36 => ⟨S32768, .i32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S32768x1, .i32⟩
  | 46 => ⟨S32768x2, .i32⟩
  | 47 => ⟨S2048x2048, .f32⟩
  | 48 => ⟨S_, .i32⟩
  | 49 => ⟨S32768, .i32⟩
  | 50 => ⟨S32768, .i1⟩
  | 51 => ⟨S_, .i32⟩
  | 52 => ⟨S32768, .i32⟩
  | 53 => ⟨S32768, .i32⟩
  | 54 => ⟨S32768, .i32⟩
  | 55 => ⟨S32768x1, .i32⟩
  | 56 => ⟨S32768x2048, .f32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S32768x1, .i32⟩
  | 65 => ⟨S2048x32768, .f32⟩
  | 66 => ⟨S32768x2048, .f32⟩
  | 67 => ⟨S_, .f32⟩
  | 68 => ⟨S32768x2048, .f32⟩
  | 69 => ⟨S32768x2048, .i1⟩
  | 70 => ⟨S_, .f32⟩
  | 71 => ⟨S32768x2048, .f32⟩
  | 72 => ⟨S32768x2048, .i1⟩
  | 73 => ⟨S32768x2048, .i1⟩
  | 74 => ⟨S32768x2048, .f32⟩
  | 75 => ⟨S_, .f32⟩
  | 76 => ⟨S_, .f32⟩
  | 77 => ⟨S32768x2048, .f32⟩
  | 78 => ⟨S32768x2048, .f32⟩
  | 79 => ⟨S32768x2048, .i32⟩
  | 80 => ⟨S_, .i32⟩
  | 81 => ⟨S32768, .i32⟩
  | 82 => ⟨S32768, .f32⟩
  | 83 => ⟨S_, .f32⟩
  | 84 => ⟨S32768, .f32⟩
  | 85 => ⟨S32768, .i1⟩
  | 86 => ⟨S_, .f32⟩
  | 87 => ⟨S32768, .f32⟩
  | 88 => ⟨S_, .f32⟩
  | 89 => ⟨S32768, .f32⟩
  | 90 => ⟨S32768, .f32⟩
  | 91 => ⟨S32768, .f32⟩
  | 92 => ⟨S32768, .f32⟩
  | 93 => ⟨S32768, .f32⟩
  | 94 => ⟨S32768, .f32⟩
  | 95 => ⟨S32768x1, .f32⟩
  | 96 => ⟨S32768x1, .f32⟩
  | 97 => ⟨S32768x1, .f32⟩
  | 98 => ⟨S32768x4, .f32⟩
  | 99 => ⟨S_, .i32⟩
  | 100 => ⟨S32768, .i32⟩
  | 101 => ⟨S32768, .i1⟩
  | 102 => ⟨S_, .i32⟩
  | 103 => ⟨S32768, .i32⟩
  | 104 => ⟨S32768, .i32⟩
  | 105 => ⟨S32768, .i32⟩
  | 106 => ⟨S32768x1, .i32⟩
  | 107 => ⟨S32768x128, .f32⟩
  | 108 => ⟨S_, .i32⟩
  | 109 => ⟨S32768, .i32⟩
  | 110 => ⟨S32768, .i1⟩
  | 111 => ⟨S_, .i32⟩
  | 112 => ⟨S32768, .i32⟩
  | 113 => ⟨S32768, .i32⟩
  | 114 => ⟨S32768, .i32⟩
  | 115 => ⟨S32768x1, .i32⟩
  | 116 => ⟨S32768x128, .f32⟩
  | 117 => ⟨S32768x260, .f32⟩
  | 118 => ⟨S32768x128, .f32⟩
  | 119 => ⟨S1x128, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S32768x128, .f32⟩
  | 126 => ⟨S1x128, .f32⟩
  | 127 => ⟨S32768x128, .f32⟩
  | _ => ⟨S2048x128, .f32⟩

abbrev hbmTy0_1 (i : Nat) : BufTy := match i % 128 with
  | 0 => ⟨S32768x128, .f32⟩
  | 1 => ⟨S32768x128, .f32⟩
  | 2 => ⟨S32768x128, .f32⟩
  | 3 => ⟨S_, .f32⟩
  | 4 => ⟨S2048x128, .f32⟩
  | 5 => ⟨S32768x1, .i32⟩
  | 6 => ⟨S2048x128, .f32⟩
  | 7 => ⟨S_, .f32⟩
  | 8 => ⟨S2048x1, .f32⟩
  | 9 => ⟨S32768x1, .i32⟩
  | 10 => ⟨S2048x1, .f32⟩
  | 11 => ⟨S_, .f32⟩
  | 12 => ⟨S2048x1, .f32⟩
  | 13 => ⟨S2048x1, .f32⟩
  | 14 => ⟨S2048x128, .f32⟩
  | 15 => ⟨S2048x128, .f32⟩
  | 16 => ⟨S2048x128, .f32⟩
  | 17 => ⟨S1x128, .f32⟩
  | 18 => ⟨S2048x128, .f32⟩
  | 19 => ⟨S2048x128, .f32⟩
  | 20 => ⟨S_, .f32⟩
  | 21 => ⟨S2048x128, .f32⟩
  | 22 => ⟨S2048x128, .f32⟩
  | 23 => ⟨S2048x128, .f32⟩
  | 24 => ⟨S1x128, .f32⟩
  | 25 => ⟨S2048x128, .f32⟩
  | 26 => ⟨S2048x128, .f32⟩
  | 27 => ⟨S2048x128, .f32⟩
  | 28 => ⟨S_, .f32⟩
  | 29 => ⟨S2048x1, .f32⟩
  | 30 => ⟨S32768x1, .i32⟩
  | 31 => ⟨S2048x1, .f32⟩
  | 32 => ⟨S_, .f32⟩
  | 33 => ⟨S32768x1, .f32⟩
  | 34 => ⟨S_, .f32⟩
  | 35 => ⟨S2048x1, .f32⟩
  | 36 => ⟨S32768x1, .i32⟩
  | 37 => ⟨S2048x1, .f32⟩
  | 38 => ⟨S_, .f32⟩
  | 39 => ⟨S2048x1, .f32⟩
  | 40 => ⟨S2048x1, .f32⟩
  | 41 => ⟨S2048x1, .f32⟩
  | 42 => ⟨S2048x129, .f32⟩
  | 43 => ⟨S2048x128, .f32⟩
  | 44 => ⟨S1x128, .f32⟩
  | 45 => ⟨S2048x128, .f32⟩
  | 46 => ⟨S2048x128, .f32⟩
  | 47 => ⟨S_, .f32⟩
  | 48 => ⟨S2048x128, .f32⟩
  | 49 => ⟨S2048x128, .f32⟩
  | 50 => ⟨S2048x128, .f32⟩
  | 51 => ⟨S1x128, .f32⟩
  | 52 => ⟨S2048x128, .f32⟩
  | 53 => ⟨S2048x128, .f32⟩
  | 54 => ⟨S_, .f32⟩
  | 55 => ⟨S2048x128, .f32⟩
  | 56 => ⟨S2048x128, .f32⟩
  | 57 => ⟨S2048x128, .f32⟩
  | 58 => ⟨S2048x128, .f32⟩
  | 59 => ⟨S2048x128, .i1⟩
  | 60 => ⟨S2048x128, .f32⟩
  | 61 => ⟨S2048x128, .f32⟩
  | 62 => ⟨S2048x128, .f32⟩
  | 63 => ⟨S2048x128, .f32⟩
  | 64 => ⟨S2048x128, .f32⟩
  | 65 => ⟨S2048x128, .f32⟩
  | 66 => ⟨S2048x128, .f32⟩
  | 67 => ⟨S2048x128, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_call0_v0 : Ref sig .tc := ⟨.hbm, 76, rfl⟩
abbrev main_call0_v1 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_c_17 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call2_cst : Ref sig .tc := ⟨.hbm, 122, rfl⟩
abbrev main_call2_v0 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_18 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_call3_cst : Ref sig .tc := ⟨.hbm, 148, rfl⟩
abbrev main_call3_v0 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_21 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_22 : Ref sig .tc := ⟨.hbm, 160, rfl⟩
abbrev main_v111 : Ref sig .tc := ⟨.hbm, 161, rfl⟩
abbrev main_cst_23 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call4_cst : Ref sig .tc := ⟨.hbm, 175, rfl⟩
abbrev main_call4_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call5_cst : Ref sig .tc := ⟨.hbm, 182, rfl⟩
abbrev main_call5_v0 : Ref sig .tc := ⟨.hbm, 183, rfl⟩
abbrev main_call5_v1 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_call5_v5 : Ref sig .tc := ⟨.hbm, 188, rfl⟩
abbrev main_call5_v6 : Ref sig .tc := ⟨.hbm, 189, rfl⟩
abbrev main_call5_v7 : Ref sig .tc := ⟨.hbm, 190, rfl⟩
abbrev main_call5_v8 : Ref sig .tc := ⟨.hbm, 191, rfl⟩
abbrev main_call5_v9 : Ref sig .tc := ⟨.hbm, 192, rfl⟩
abbrev main_call5_v10 : Ref sig .tc := ⟨.hbm, 193, rfl⟩
abbrev main_call5_v11 : Ref sig .tc := ⟨.hbm, 194, rfl⟩
abbrev main_v128 : Ref sig .tc := ⟨.hbm, 195, rfl⟩

abbrev nD : Nat := 1
abbrev τ : Topo := Topo.v7x

variable {F : FTy → Type} [FloatOps F]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  shapeCasts_S32768x1_S32768 : S32768x1.ShapeCasts S32768
  bcast_S_S2048x2048 : S_.BroadcastsInDim S2048x2048 (![] : Fin 0 → Fin S2048x2048.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  transposes_S2048x32768_S32768x2048_1_0 : S2048x32768.Transposes [1, 0] S32768x2048
  bcast_S_S32768x2048 : S_.BroadcastsInDim S32768x2048 (![] : Fin 0 → Fin S32768x2048.rank)
  natLt_1_32 : 1 < 32
  reducesTo_S32768x2048_S32768_d1 : S32768x2048.ReducesTo [1] S32768
  h_S_ : 0 < S_.numel
  concatenates_S32768x1_S32768x1_S32768x1_S32768x1_S32768x4_d1 : Shape.Concatenates [S32768x1, S32768x1, S32768x1, S32768x1] S32768x4 1
  concatenates_S32768x128_S32768x128_S32768x4_S32768x260_d1 : Shape.Concatenates [S32768x128, S32768x128, S32768x4] S32768x260 1
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S32768x1_S32768x128_0_1 : S32768x1.BroadcastsInDim S32768x128 (![0, 1] : Fin 2 → Fin S32768x128.rank)
  bcast_S_S2048x128 : S_.BroadcastsInDim S2048x128 (![] : Fin 0 → Fin S2048x128.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S_S32768x1 : S_.BroadcastsInDim S32768x1 (![] : Fin 0 → Fin S32768x1.rank)
  concatenates_S2048x128_S2048x1_S2048x129_d1 : Shape.Concatenates [S2048x128, S2048x1] S2048x129 1
  scatter_S2048x2048_S32768x2_S32768_n_01_01_1_wf : ScatterDims.WF S2048x2048 S32768x2 S32768 [] [0, 1] [0, 1] 1
  gather_S2048x2048_S32768x1_S32768x2048_1_0_n_n_0_1_12048_wf : GatherDims.WF S2048x2048 S32768x1 S32768x2048 [1] [0] [] [0] [] 1 ![1, 2048]
  gather_S2048x2048_S32768x1_S2048x32768_0_1_n_n_1_1_20481_wf : GatherDims.WF S2048x2048 S32768x1 S2048x32768 [0] [1] [] [1] [] 1 ![2048, 1]
  gather_S2048x128_S32768x1_S32768x128_1_0_n_n_0_1_1128_wf : GatherDims.WF S2048x128 S32768x1 S32768x128 [1] [0] [] [0] [] 1 ![1, 128]
  dot_S32768x260_S260x128_S32768x128_1_0_0_1_n_n_wf : DotDims.WF S32768x260 S260x128 S32768x128 [1] [0] [0] [1] [] []
  dot_S32768x128_S128x128_S32768x128_1_0_0_1_n_n_wf : DotDims.WF S32768x128 S128x128 S32768x128 [1] [0] [0] [1] [] []
  scatter_S2048x128_S32768x1_S32768x128_1_0_0_1_wf : ScatterDims.WF S2048x128 S32768x1 S32768x128 [1] [0] [0] 1
  scatter_S2048x1_S32768x1_S32768x1_1_0_0_1_wf : ScatterDims.WF S2048x1 S32768x1 S32768x1 [1] [0] [0] 1
  dot_S2048x128_S128x128_S2048x128_1_0_0_1_n_n_wf : DotDims.WF S2048x128 S128x128 S2048x128 [1] [0] [0] [1] [] []
  dot_S2048x129_S129x128_S2048x128_1_0_0_1_n_n_wf : DotDims.WF S2048x129 S129x128 S2048x128 [1] [0] [0] [1] [] []

variable [Facts₀]

def scatter_S2048x2048_S32768x2_S32768_n_01_01_1 : ScatterDims S2048x2048 S32768x2 S32768 where
  updateWindowDims := []
  insertedWindowDims := [0, 1]
  scatterDimsToOperandDims := [0, 1]
  indexVectorDim := 1
  wf := scatter_S2048x2048_S32768x2_S32768_n_01_01_1_wf
def gather_S2048x2048_S32768x1_S32768x2048_1_0_n_n_0_1_12048 : GatherDims S2048x2048 S32768x1 S32768x2048 where
  offsetDims := [1]
  collapsedSliceDims := [0]
  operandBatchingDims := []
  startIndicesBatchingDims := []
  startIndexMap := [0]
  indexVectorDim := 1
  sliceSizes := ![1, 2048]
  wf := gather_S2048x2048_S32768x1_S32768x2048_1_0_n_n_0_1_12048_wf
def gather_S2048x2048_S32768x1_S2048x32768_0_1_n_n_1_1_20481 : GatherDims S2048x2048 S32768x1 S2048x32768 where
  offsetDims := [0]
  collapsedSliceDims := [1]
  operandBatchingDims := []
  startIndicesBatchingDims := []
  startIndexMap := [1]
  indexVectorDim := 1
  sliceSizes := ![2048, 1]
  wf := gather_S2048x2048_S32768x1_S2048x32768_0_1_n_n_1_1_20481_wf
def gather_S2048x128_S32768x1_S32768x128_1_0_n_n_0_1_1128 : GatherDims S2048x128 S32768x1 S32768x128 where
  offsetDims := [1]
  collapsedSliceDims := [0]
  operandBatchingDims := []
  startIndicesBatchingDims := []
  startIndexMap := [0]
  indexVectorDim := 1
  sliceSizes := ![1, 128]
  wf := gather_S2048x128_S32768x1_S32768x128_1_0_n_n_0_1_1128_wf
def dot_S32768x260_S260x128_S32768x128_1_0_0_1_n_n : DotDims S32768x260 S260x128 S32768x128 where
  lhsContracting := [1]
  rhsContracting := [0]
  lhsNonContracting := [0]
  rhsNonContracting := [1]
  lhsBatch := []
  rhsBatch := []
  wf := dot_S32768x260_S260x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def scatter_S2048x128_S32768x1_S32768x128_1_0_0_1 : ScatterDims S2048x128 S32768x1 S32768x128 where
  updateWindowDims := [1]
  insertedWindowDims := [0]
  scatterDimsToOperandDims := [0]
  indexVectorDim := 1
  wf := scatter_S2048x128_S32768x1_S32768x128_1_0_0_1_wf
def scatter_S2048x1_S32768x1_S32768x1_1_0_0_1 : ScatterDims S2048x1 S32768x1 S32768x1 where
  updateWindowDims := [1]
  insertedWindowDims := [0]
  scatterDimsToOperandDims := [0]
  indexVectorDim := 1
  wf := scatter_S2048x1_S32768x1_S32768x1_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x129_S129x128_S2048x128_1_0_0_1_n_n : DotDims S2048x129 S129x128 S2048x128 where
  lhsContracting := [1]
  rhsContracting := [0]
  lhsNonContracting := [0]
  rhsNonContracting := [1]
  lhsBatch := []
  rhsBatch := []
  wf := dot_S2048x129_S129x128_S2048x128_1_0_0_1_n_n_wf

class Facts : Prop extends Facts₀ where

variable [Facts]
-- ==== Proof.KRun.lean ====
import proofs.«418543_j27023934227041_3_alg».proof.Proof.Gen.Kernel.Regions

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V8 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, hpre1 c, hpost1 c, hpre2 c, (hpost2 c).trans (sep_mono .rfl (hE3 c))⟩)
    (hinit := ?_) (QY := fun c s => ∀ b ∈ Pipeline.ucRefs τ sig, s.mem (((c : Thread nD τ)).1, b) = V8 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V8 m outs c) s')
    isplitl [Hh] <;> iassumption

end Cert.Kernel.Hand

end
-- ==== Proof.KRegion0Body.lean ====
import proofs.«418543_j27023934227041_3_alg».proof.Proof.Gen.Kernel.Launch
import proofs.«418543_j27023934227041_3_alg».proof.Proof.Gen.Kernel.Skeleton
import proofs.«418543_j27023934227041_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬t.val % 4 = 3 → cfg0.idle 2 (grid0.coords t) = true := by decide +kernel
theorem idleAt0_3 : ∀ t : Fin cfg0.N, ¬t.val % 4 = 3 → cfg0.idle 3 (grid0.coords t) = true := by decide +kernel
theorem liveAt0_2 : ∀ t : Fin cfg0.N, t.val % 4 = 3 → cfg0.idle 2 (grid0.coords t) = false := by decide +kernel
theorem liveAt0_3 : ∀ t : Fin cfg0.N, t.val % 4 = 3 → cfg0.idle 3 (grid0.coords t) = false := by decide +kernel
theorem noFlush0_2 (t : Fin cfg0.N) (h : ¬t.val % 4 = 3) : (cfg0.win 2).flush t = false :=
  Bool.eq_false_iff.mpr fun hf => h ((flush0_2 t).mp hf)
theorem noFlush0_3 (t : Fin cfg0.N) (h : ¬t.val % 4 = 3) : (cfg0.win 3).flush t = false :=
  Bool.eq_false_iff.mpr fun hf => h ((flush0_3 t).mp hf)

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)

abbrev scM0_0 : Memref sig .tc .vmem S512x512 .f32 := Memref.whole cc0_scratch0
abbrev scM0_1 : Memref sig .tc .vmem S512x512 .f32 := Memref.whole cc0_scratch1

abbrev VO0_2 : View sig .tc .vmem S512x512 .f32 := (Memref.whole cc0_stg2_0 : Memref sig .tc .vmem S512x512 .f32).view
abbrev VO0_3 : View sig .tc .vmem S512x512 .f32 := (Memref.whole cc0_stg3_0 : Memref sig .tc .vmem S512x512 .f32).view
abbrev VS0_0 : View sig .tc .vmem S512x512 .f32 := scM0_0.view
abbrev VS0_1 : View sig .tc .vmem S512x512 .f32 := scM0_1.view

section Cases

variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)

set_option maxHeartbeats 4000000 in
noncomputable def kernelRun0_A (hc0 : cond0_0 i) (hc1 : ¬cond0_1 i)
    (x0 : Vec F S512x512 .f32) (x1 : Vec F S512x512 .f32) :
    Σ' (LS0 : List (View.Piece (Elt F) S512x512 .f32)), { LS1 : List (View.Piece (Elt F) S512x512 .f32) //
      ∀ (xi2 : Vec F S512x512 .f32) (xi3 : Vec F S512x512 .f32) (E : Set ℕ) (K : PUnit → sProp 𝕄),
        iprop(owns (c : Thread nD τ) arg3 fullShare x0 ∗ owns (c : Thread nD τ) arg4 fullShare x1
            ∗ owns (c : Thread nD τ) arg5 fullShare xi2 ∗ owns (c : Thread nD τ) arg6 fullShare xi3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1
                ∗ owns (c : Thread nD τ) arg5 fullShare xi2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, fun xi2 xi3 E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 4000000 in
noncomputable def kernelRun0_B (hc0 : ¬cond0_0 i) (hc1 : ¬cond0_1 i)
    (x0 : Vec F S512x512 .f32) (x1 : Vec F S512x512 .f32) (xs0 : Vec F S512x512 .f32) (xs1 : Vec F S512x512 .f32) :
    Σ' (LS0 : List (View.Piece (Elt F) S512x512 .f32)), { LS1 : List (View.Piece (Elt F) S512x512 .f32) //
      ∀ (xi2 : Vec F S512x512 .f32) (xi3 : Vec F S512x512 .f32) (E : Set ℕ) (K : PUnit → sProp 𝕄),
        iprop(owns (c : Thread nD τ) arg3 fullShare x0 ∗ owns (c : Thread nD τ) arg4 fullShare x1
            ∗ owns (c : Thread nD τ) arg5 fullShare xi2 ∗ owns (c : Thread nD τ) arg6 fullShare xi3
            ∗ owns (c : Thread nD τ) arg7 fullShare xs0 ∗ owns (c : Thread nD τ) arg8 fullShare xs1
            ∗ (iprop(owns (c : Thread nD τ) arg3 fullShare x0 ∗ owns (c : Thread nD τ) arg4 fullShare x1
                ∗ owns (c : Thread nD τ) arg5 fullShare xi2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, fun xi2 xi3 E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 4000000 in
noncomputable def kernelRun0_C (hc0 : ¬cond0_0 i) (hc1 : cond0_1 i)
    (x0 : Vec F S512x512 .f32) (x1 : Vec F S512x512 .f32) (xs0 : Vec F S512x512 .f32) (xs1 : Vec F S512x512 .f32) :
    Σ' (L2 : List (View.Piece (Elt F) S512x512 .f32)) (L3 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, ?_, ?_, fun E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg3.eq_unread hf0; obtain rfl := harg4.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    iexists _; iexact HS1

theorem scover0_A_0 (hc0 : cond0_0 i) (hc1 : ¬cond0_1 i) (x0 x1 : Vec F S512x512 .f32) (y : S512x512.Idx) :
    ∃ pc ∈ (kernelRun0_A c i arg3 harg3 arg4 harg4 arg5 harg5 arg6 harg6 arg7 harg7 arg8 harg8 hc0 hc1 x0 x1).1, y ∈ pc.1.set :=
  View.cover_of_tiledL (kernelRun0_A c i arg3 harg3 arg4 harg4 arg5 harg5 arg6 harg6 arg7 harg7 arg8 harg8 hc0 hc1 x0 x1).1 S512x512.size (by sl_kernel_rfl) y
theorem scover0_A_1 (hc0 : cond0_0 i) (hc1 : ¬cond0_1 i) (x0 x1 : Vec F S512x512 .f32) (y : S512x512.Idx) :
    ∃ pc ∈ (kernelRun0_A c i arg3 harg3 arg4 harg4 arg5 harg5 arg6 harg6 arg7 harg7 arg8 harg8 hc0 hc1 x0 x1).2.1, y ∈ pc.1.set :=
  View.cover_of_tiledL (kernelRun0_A c i arg3 harg3 arg4 harg4 arg5 harg5 arg6 harg6 arg7 harg7 arg8 harg8 hc0 hc1 x0 x1).2.1 S512x512.size (by sl_kernel_rfl) y

def sout0_A_0 (hc0 : cond0_0 i) (hc1 : ¬cond0_1 i) (x0 x1 : Vec F S512x512 .f32) : Vec F S512x512 .f32 :=
  VS0_0.read (Elt F) (VS0_0.writes (Elt F) VS0_0.junk (kernelRun0_A c i arg3 harg3 arg4 harg4 arg5 harg5 arg6 harg6 arg7 harg7 arg8 harg8 hc0 hc1 x0 x1).1)

def sout0_A_1 (hc0 : cond0_0 i) (hc1 : ¬cond0_1 i) (x0 x1 : Vec F S512x512 .f32) : Vec F S512x512 .f32 :=
  VS0_1.read (Elt F) (VS0_1.writes (Elt F) VS0_1.junk (kernelRun0_A c i arg3 harg3 arg4 harg4 arg5 harg5 arg6 harg6 arg7 harg7 arg8 harg8 hc0 hc1 x0 x1).2.1)

theorem scover0_B_0 (hc0 : ¬cond0_0 i) (hc1 : ¬cond0_1 i) (x0 x1 xs0 xs1 : Vec F S512x512 .f32) (y : S512x512.Idx) :
    ∃ pc ∈ (kernelRun0_B c i arg3 harg3 arg4 harg4 arg5 harg5 arg6 harg6 arg7 harg7 arg8 harg8 hc0 hc1 x0 x1 xs0 xs1).1, y ∈ pc.1.set :=
  View.cover_of_tiledL (kernelRun0_B c i arg3 harg3 arg4 harg4 arg5 harg5 arg6 harg6 arg7 harg7 arg8 harg8 hc0 hc1 x0 x1 xs0 xs1).1 S512x512.size (by sl_kernel_rfl) y
theorem scover0_B_1 (hc0 : ¬cond0_0 i) (hc1 : ¬cond0_1 i) (x0 x1 xs0 xs1 : Vec F S512x512 .f32) (y : S512x512.Idx) :
    ∃ pc ∈ (kernelRun0_B c i arg3 harg3 arg4 harg4 arg5 harg5 arg6 harg6 arg7 harg7 arg8 harg8 hc0 hc1 x0 x1 xs0 xs1).2.1, y ∈ pc.1.set :=
  View.cover_of_tiledL (kernelRun0_B c i arg3 harg3 arg4 harg4 arg5 harg5 arg6 harg6 arg7 harg7 arg8 harg8 hc0 hc1 x0 x1 xs0 xs1).2.1 S512x512.size (by sl_kernel_rfl) y

def sout0_B_0 (hc0 : ¬cond0_0 i) (hc1 : ¬cond0_1 i) (x0 x1 xs0 xs1 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 hc0 hc1 x0 x1 xs0 xs1).1)
def sout0_B_1 (hc0 : ¬cond0_0 i) (hc1 : ¬cond0_1 i) (x0 x1 xs0 xs1 : Vec F S512x512 .f32) : Vec F S512x512 .f32 :=
  VS0_1.read (Elt F) (VS0_1.writes (Elt F) VS0_1.junk (kernelRun0_B c i arg3 harg3 arg4 harg4 arg5 harg5 arg6 harg6 arg7 harg7 arg8 harg8 hc0 hc1 x0 x1 xs0 xs1).2.1)

theorem cover0_C_2 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).1, y ∈ pc.1.set :=
  View.cover_of_tiledL (kernelRun0_C c i arg3 harg3 arg4 harg4 arg5 harg5 arg6 harg6 arg7 harg7 arg8 harg8 hc0 hc1 x0 x1 xs0 xs1).1 S512x512.size (by sl_kernel_rfl) y
theorem cover0_C_3 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.1, y ∈ pc.1.set :=
  View.cover_of_tiledL (kernelRun0_C c i arg3 harg3 arg4 harg4 arg5 harg5 arg6 harg6 arg7 harg7 arg8 harg8 hc0 hc1 x0 x1 xs0 xs1).2.1 S512x512.size (by sl_kernel_rfl) y
theorem scover0_C_0 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.2.1, y ∈ pc.1.set :=
  View.cover_of_tiledL (kernelRun0_C c i arg3 harg3 arg4 harg4 arg5 harg5 arg6 harg6 arg7 harg7 arg8 harg8 hc0 hc1 x0 x1 xs0 xs1).2.2.1 S512x512.size (by sl_kernel_rfl) y
theorem scover0_C_1 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.2.2.1, y ∈ pc.1.set :=
  View.cover_of_tiledL (kernelRun0_C c i arg3 harg3 arg4 harg4 arg5 harg5 arg6 harg6 arg7 harg7 arg8 harg8 hc0 hc1 x0 x1 xs0 xs1).2.2.2.1 S512x512.size (by sl_kernel_rfl) y

def out0_C_2 (hc0 : ¬cond0_0 i) (hc1 : cond0_1 i) (x0 x1 xs0 xs1 : Vec F S512x512 .f32) : Vec F S512x512 .f32 :=
  VO0_2.read (Elt F) (VO0_2.writes (Elt F) VO0_2.junk (kernelRun0_C c i arg3 harg3 arg4 harg4 arg5 harg5 arg6 harg6 arg7 harg7 arg8 harg8 hc0 hc1 x0 x1 xs0 xs1).1)
def out0_C_3 (hc0 : ¬cond0_0 i) (hc1 : cond0_1 i) (x0 x1 xs0 xs1 : Vec F S512x512 .f32) : Vec F S512x512 .f32 :=
  VO0_3.read (Elt F) (VO0_3.writes (Elt F) VO0_3.junk (kernelRun0_C c i arg3 harg3 arg4 harg4 arg5 harg5 arg6 harg6 arg7 harg7 arg8 harg8 hc0 hc1 x0 x1 xs0 xs1).2.1)
def sout0_C_0 (hc0 : ¬cond0_0 i) (hc1 : cond0_1 i) (x0 x1 xs0 xs1 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 hc0 hc1 x0 x1 xs0 xs1).2.2.1)
def sout0_C_1 (hc0 : ¬cond0_0 i) (hc1 : cond0_1 i) (x0 x1 xs0 xs1 : Vec F S512x512 .f32) : Vec F S512x512 .f32 :=
  VS0_1.read (Elt F) (VS0_1.writes (Elt F) VS0_1.junk (kernelRun0_C c i arg3 harg3 arg4 harg4 arg5 harg5 arg6 harg6 arg7 harg7 arg8 harg8 hc0 hc1 x0 x1 xs0 xs1).2.2.2.1)

end Cases

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def idleO : Vec F S512x512 .f32 := VO0_2.read (Elt F) VO0_2.junk

def outsAt0 (c : Dev nD) : (n : ℕ) → n < cfg0.N → Vec F S512x512 .f32 × Vec F S512x512 .f32 × Vec F S512x512 .f32 × Vec F S512x512 .f32
  | 0, hn => (idleO, idleO,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      (idleO, idleO,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (idleO, idleO,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

abbrev prevLt (t : Fin cfg0.N) : t.val - 1 < cfg0.N := Nat.lt_of_le_of_lt (Nat.sub_le _ _) t.isLt

theorem outsAt0_A (c : Dev nD) (t : Fin cfg0.N) (h0 : t.val % 4 = 0) (h1 : ¬t.val % 4 = 3) :
    outsAt0 V c t.val t.isLt = (idleO, idleO,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleO, idleO,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (prevLt t)).2.2.1 (outsAt0 V c (t.val - 1) (prevLt t)).2.2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (prevLt t)).2.2.1 (outsAt0 V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt =
     (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

abbrev restBut (c : Dev nD) : sProp 𝕄 :=
  Pipeline.scopedRestBut (Ix := Unit) (Name := ℕ) (U := UR sig nD τ) (Lvl := ℕ) (Val := Elt F) spec0 c [cc0_scratch0, cc0_scratch1]

def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ restBut c ∗ (∃ r, prngReg c r))
  | n + 1, hn => iprop(owns (c : Thread nD τ) scM0_0 fullShare (outsAt0 V c n hn).2.2.1 ∗ owns (c : Thread nD τ) scM0_1 fullShare (outsAt0 V c n hn).2.2.2 ∗ restBut c ∗ (∃ r, prngReg c r))

theorem PhiS_zero (c : Dev nD) (n : ℕ) (h : n ≤ cfg0.N) (hz : n = 0) :
    PhiS V c n h = iprop((∃ d, owns (c : Thread nD τ) scM0_0 fullShare d) ∗ (∃ d, owns (c : Thread nD τ) scM0_1 fullShare d) ∗ restBut c ∗ (∃ r, prngReg c r)) := by
  subst hz; rfl

theorem PhiS_succ (c : Dev nD) (n : ℕ) (hn : n < cfg0.N) :
    PhiS V c (n + 1) hn = iprop(owns (c : Thread nD τ) scM0_0 fullShare (outsAt0 V c n hn).2.2.1 ∗ owns (c : Thread nD τ) scM0_1 fullShare (outsAt0 V c n hn).2.2.2 ∗ restBut c ∗ (∃ r, prngReg c r)) := rfl

theorem PhiS_pos (c : Dev nD) (n : ℕ) (h : n ≤ cfg0.N) (hz : n ≠ 0) :
    PhiS V c n h = iprop(owns (c : Thread nD τ) scM0_0 fullShare (outsAt0 V c (n - 1) (by omega)).2.2.1 ∗ owns (c : Thread nD τ) scM0_1 fullShare (outsAt0 V c (n - 1) (by omega)).2.2.2 ∗ restBut c ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem arrAt_in0 (c : Dev nD) (w : Fin cfg0.W) (hw : (cfg0.win w).isOut = false) (n : ℕ) :
    (dat0 V c).arrAt w n = V c (Pipeline.arrRef spec0 w) :=
  ((dat0 V c).arrAt_in w hw n).trans (A_eq0 V c w)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases h0 : t.val % 4 = 0
  · have h1 : ¬t.val % 4 = 3 := by omega
    rw [Dat.leavesExact_idle (dat0 V c) 2 t (idleAt0_2 t h1) (noFlush0_2 t h1)]
    rw [Dat.leavesExact_idle (dat0 V c) 3 t (idleAt0_3 t h1) (noFlush0_3 t h1)]
    rw [outsAt0_A V c t h0 h1]
    unfold sout0_A_0 sout0_A_1; (try dsimp only)
    by_cases hz : t.val = 0
    · rw [PhiS_castSucc V c t, PhiS_zero V c _ _ hz]
      iintro ⟨⟨HS0, HS1, HR, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t h1], after0_2]
      rw [show (dat0 V c).leavesExact 3 t = owns (c : Thread nD τ) (ms0_3 t) fullShare ((dat0 V c).after 3 t) from by
        unfold Dat.leavesExact; rw [liveAt0_3 t h1], after0_3]
      rw [outsAt0_C V c t h0 h1]
      unfold out0_C_2 out0_C_3 sout0_C_0 sout0_C_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_C_0 c _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [Dat.leavesExact_idle (dat0 V c) 2 t (idleAt0_2 t h1) (noFlush0_2 t h1)]
      rw [Dat.leavesExact_idle (dat0 V c) 3 t (idleAt0_3 t h1) (noFlush0_3 t h1)]
      rw [outsAt0_B V c t h0 h1]
      unfold sout0_B_0 sout0_B_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

theorem Phi0_in (c : Dev nD) :
    iprop((∃ r, prngReg c r) ∗ (Pipeline.scopedRest (Ix := Unit) (Name := ℕ) (U := UR sig nD τ) (Lvl := ℕ) (Val := Elt F) spec0 c : sProp 𝕄))
      ⊢ (dat0 V c).Φ 0 := by
  rw [show (dat0 V c).Φ 0 = PhiS V c 0 (Nat.zero_le _) from rfl, PhiS_zero V c 0 _ rfl, scopedRest0_split]
  simp only [scM0_0, scM0_1, owns_whole]
  iintro ⟨Hg, ⟨HS0, HS1⟩, HR⟩
  isplitl [HS0]; · iexact HS0
  isplitl [HS1]; · iexact HS1
  isplitl [HR]; · iexact HR
  iexact Hg

theorem Phi0_out (c : Dev nD) :
    (dat0 V c).Φ (Fin.last cfg0.N)
      ⊢ iprop((∃ r, prngReg c r) ∗ (Pipeline.scopedRest (Ix := Unit) (Name := ℕ) (U := UR sig nD τ) (Lvl := ℕ) (Val := Elt F) spec0 c : sProp 𝕄)) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), scopedRest0_split]
  simp only [scM0_0, scM0_1, owns_whole]
  iintro ⟨HS0, HS1, HR, Hg⟩
  isplitl [Hg]; · iexact Hg
  isplitl [HS0 HS1]
  · isplitl [HS0]
    · iexists _; iexact HS0
    iexists _; iexact HS1
  iexact HR

end Region

end Cert.Kernel.R0

end
-- ==== Proof.KRegion1Body.lean ====
import proofs.«418543_j27023934227041_3_alg».proof.Proof.Gen.Kernel.Launch
import proofs.«418543_j27023934227041_3_alg».proof.Proof.Gen.Kernel.Skeleton
import proofs.«418543_j27023934227041_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirst (i : grid1.Coords) : Prop :=
  (Scalar.cmpi .ne (Scalar.extui (Scalar.cmpi .eq (BitVec.ofNat 32 (i 1).val) 0#32)) 0#32) = 1#1

theorem isFirst_iff : ∀ t : Fin cfg1.N, isFirst (grid1.coords t) ↔ t.val % 16 = 0 :=
  (by decide +kernel : ∀ t : Fin grid1.N, isFirst (grid1.coords t) ↔ t.val % 16 = 0)

section Cases

variable (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole)

set_option maxHeartbeats 1000000 in
noncomputable def runFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) :
    { L : List (View.Piece (Elt F) S1x2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
                ∗ (∃ f, a7.view.loc (c : Thread nD τ) ↦[a7.view.set]{fullShare} a7.view.writes (Elt F) f L)) -∗ K ⟨⟩))
          ⊢ wp frame (wpE (defs₀ (F := F)) Variants.none c none) E (cc1__kernel_a i a0 w0 a1 w1 a2 w2 a3 w3 a4 w4 a5 w5 a6 w6 a7 w7) K } := by
  refine ⟨?_, fun E K => ?run⟩
  case run =>
    simp only [cc1__kernel_a_eq_skeleton]; unfold cc1__kernel_a_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := w6.eq_unread hf6
    sl_exec (disch := first | exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    iexists _; iexact H7

set_option maxHeartbeats 1000000 in
noncomputable def runLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) :
    { L : List (View.Piece (Elt F) S1x2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
                ∗ (∃ f, a7.view.loc (c : Thread nD τ) ↦[a7.view.set]{fullShare} a7.view.writes (Elt F) f L)) -∗ K ⟨⟩))
          ⊢ wp frame (wpE (defs₀ (F := F)) Variants.none c none) E (cc1__kernel_a i a0 w0 a1 w1 a2 w2 a3 w3 a4 w4 a5 w5 a6 w6 a7 w7) K } := by
  refine ⟨?_, fun E K => ?run⟩
  case run =>
    simp only [cc1__kernel_a_eq_skeleton]; unfold cc1__kernel_a_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := w6.eq_unread hf6; obtain rfl := w7.eq_unread hf7
    sl_exec (disch := first | exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    iexists _; iexact H7

end Cases

section Region

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

abbrev sm0 (t : Fin cfg1.N) : Memref sig .tc .vmem S2x1024 .i32 := win1_0.stage (cfg1.slots t 0)
abbrev sw0 (t : Fin cfg1.N) : (sm0 t).IsWhole := hstage1_0 ((cfg1.slots t 0).cast nbuf1_0)
abbrev sm1 (t : Fin cfg1.N) : Memref sig .tc .vmem S1024x5 .f32 := win1_1.stage (cfg1.slots t 1)
abbrev sw1 (t : Fin cfg1.N) : (sm1 t).IsWhole := hstage1_1 ((cfg1.slots t 1).cast nbuf1_1)
abbrev sm2 (t : Fin cfg1.N) : Memref sig .tc .vmem S2048x256 .bf16 := win1_2.stage (cfg1.slots t 2)
abbrev sw2 (t : Fin cfg1.N) : (sm2 t).IsWhole := hstage1_2 ((cfg1.slots t 2).cast nbuf1_2)
abbrev sm3 (t : Fin cfg1.N) : Memref sig .tc .vmem S260x128 .bf16 := win1_3.stage (cfg1.slots t 3)
abbrev sw3 (t : Fin cfg1.N) : (sm3 t).IsWhole := hstage1_3 ((cfg1.slots t 3).cast nbuf1_3)
abbrev sm4 (t : Fin cfg1.N) : Memref sig .tc .vmem S128 .f32 := win1_4.stage (cfg1.slots t 4)
abbrev sw4 (t : Fin cfg1.N) : (sm4 t).IsWhole := hstage1_4 ((cfg1.slots t 4).cast nbuf1_4)
abbrev sm5 (t : Fin cfg1.N) : Memref sig .tc .vmem S128x128 .bf16 := win1_5.stage (cfg1.slots t 5)
abbrev sw5 (t : Fin cfg1.N) : (sm5 t).IsWhole := hstage1_5 ((cfg1.slots t 5).cast nbuf1_5)
abbrev sm6 (t : Fin cfg1.N) : Memref sig .tc .vmem S128 .f32 := win1_6.stage (cfg1.slots t 6)
abbrev sw6 (t : Fin cfg1.N) : (sm6 t).IsWhole := hstage1_6 ((cfg1.slots t 6).cast nbuf1_6)
abbrev sm7 (t : Fin cfg1.N) : Memref sig .tc .vmem S1x2048x128 .f32 := win1_7.stage (cfg1.slots t 7)
abbrev sw7 (t : Fin cfg1.N) : (sm7 t).IsWhole := hstage1_7 ((cfg1.slots t 7).cast nbuf1_7)

abbrev accView : View sig .tc .vmem S1x2048x128 .f32 := (Memref.whole cc1_stg7_0 : Memref sig .tc .vmem S1x2048x128 .f32).view

section Cases

variable (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole)

theorem coverFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (y : S1x2048x128.Idx) :
    ∃ pc ∈ (runFirst c i a0 w0 a1 w1 a2 w2 a3 w3 a4 w4 a5 w5 a6 w6 a7 w7 hc x0 x1 x2 x3 x4 x5 x6).1, y ∈ pc.1.set :=
  View.cover_of_tiledL (runFirst c i a0 w0 a1 w1 a2 w2 a3 w3 a4 w4 a5 w5 a6 w6 a7 w7 hc x0 x1 x2 x3 x4 x5 x6).1 S1x2048x128.size (by sl_kernel_rfl) y

def accFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) : Vec F S1x2048x128 .f32 :=
  accView.read (Elt F) (accView.writes (Elt F) accView.junk (runFirst c i a0 w0 a1 w1 a2 w2 a3 w3 a4 w4 a5 w5 a6 w6 a7 w7 hc x0 x1 x2 x3 x4 x5 x6).1)

theorem coverLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) (y : S1x2048x128.Idx) :
    ∃ pc ∈ (runLater c i a0 w0 a1 w1 a2 w2 a3 w3 a4 w4 a5 w5 a6 w6 a7 w7 hc x0 x1 x2 x3 x4 x5 x6 xo).1, y ∈ pc.1.set :=
  View.cover_of_tiledL (runLater c i a0 w0 a1 w1 a2 w2 a3 w3 a4 w4 a5 w5 a6 w6 a7 w7 hc x0 x1 x2 x3 x4 x5 x6 xo).1 S1x2048x128.size (by sl_kernel_rfl) y

def accLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) : Vec F S1x2048x128 .f32 :=
  accView.read (Elt F) (accView.writes (Elt F) accView.junk (runLater c i a0 w0 a1 w1 a2 w2 a3 w3 a4 w4 a5 w5 a6 w6 a7 w7 hc x0 x1 x2 x3 x4 x5 x6 xo).1)

end Cases

def accAt (c : Dev nD) : (n : ℕ) → n < cfg1.N → Vec F S1x2048x128 .f32
  | 0, hn => accFirst c (grid1.coords ⟨0, hn⟩) (sm0 ⟨0, hn⟩) (sw0 ⟨0, hn⟩) (sm1 ⟨0, hn⟩) (sw1 ⟨0, hn⟩) (sm2 ⟨0, hn⟩) (sw2 ⟨0, hn⟩) (sm3 ⟨0, hn⟩) (sw3 ⟨0, hn⟩) (sm4 ⟨0, hn⟩) (sw4 ⟨0, hn⟩) (sm5 ⟨0, hn⟩) (sw5 ⟨0, hn⟩) (sm6 ⟨0, hn⟩) (sw6 ⟨0, hn⟩) (sm7 ⟨0, hn⟩) (sw7 ⟨0, hn⟩) ((isFirst_iff ⟨0, hn⟩).mpr (Nat.zero_mod _)) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩)
  | n + 1, hn =>
    if h0 : (n + 1) % 16 = 0 then
      accFirst c (grid1.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (sm5 ⟨n + 1, hn⟩) (sw5 ⟨n + 1, hn⟩) (sm6 ⟨n + 1, hn⟩) (sw6 ⟨n + 1, hn⟩) (sm7 ⟨n + 1, hn⟩) (sw7 ⟨n + 1, hn⟩) ((isFirst_iff ⟨n + 1, hn⟩).mpr h0) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩)
    else
      accLater c (grid1.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (sm5 ⟨n + 1, hn⟩) (sw5 ⟨n + 1, hn⟩) (sm6 ⟨n + 1, hn⟩) (sw6 ⟨n + 1, hn⟩) (sm7 ⟨n + 1, hn⟩) (sw7 ⟨n + 1, hn⟩) (fun h => h0 ((isFirst_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn))

theorem accAt_first (c : Dev nD) (t : Fin cfg1.N) (h0 : t.val % 16 = 0) :
    accAt V c t.val t.isLt = accFirst c (grid1.coords t) (sm0 t) (sw0 t) (sm1 t) (sw1 t) (sm2 t) (sw2 t) (sm3 t) (sw3 t) (sm4 t) (sw4 t) (sm5 t) (sw5 t) (sm6 t) (sw6 t) (sm7 t) (sw7 t) ((isFirst_iff t).mpr h0) (blk V c 0 t) (blk V c 1 t) (blk V c 2 t) (blk V c 3 t) (blk V c 4 t) (blk V c 5 t) (blk V c 6 t) := by
  obtain ⟨n, hn⟩ := t
  cases n with
  | zero => exact rfl
  | succ n => exact (dif_pos h0).trans rfl

theorem accAt_later (c : Dev nD) (t : Fin cfg1.N) (h0 : ¬t.val % 16 = 0) :
    accAt V c t.val t.isLt = accLater c (grid1.coords t) (sm0 t) (sw0 t) (sm1 t) (sw1 t) (sm2 t) (sw2 t) (sm3 t) (sw3 t) (sm4 t) (sw4 t) (sm5 t) (sw5 t) (sm6 t) (sw6 t) (sm7 t) (sw7 t) (fun h => h0 ((isFirst_iff t).mp h)) (blk V c 0 t) (blk V c 1 t) (blk V c 2 t) (blk V c 3 t) (blk V c 4 t) (blk V c 5 t) (blk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after_in0 (c : Dev nD) (t : Fin cfg1.N) : (dat1 V c).after 0 t = blk V c 0 t := by dsimp only [dat1]
theorem after_in1 (c : Dev nD) (t : Fin cfg1.N) : (dat1 V c).after 1 t = blk V c 1 t := by dsimp only [dat1]
theorem after_in2 (c : Dev nD) (t : Fin cfg1.N) : (dat1 V c).after 2 t = blk V c 2 t := by dsimp only [dat1]
theorem after_in3 (c : Dev nD) (t : Fin cfg1.N) : (dat1 V c).after 3 t = blk V c 3 t := by dsimp only [dat1]
theorem after_in4 (c : Dev nD) (t : Fin cfg1.N) : (dat1 V c).after 4 t = blk V c 4 t := by dsimp only [dat1]
theorem after_in5 (c : Dev nD) (t : Fin cfg1.N) : (dat1 V c).after 5 t = blk V c 5 t := by dsimp only [dat1]
theorem after_in6 (c : Dev nD) (t : Fin cfg1.N) : (dat1 V c).after 6 t = blk V c 6 t := by dsimp only [dat1]
theorem after_out (c : Dev nD) (t : Fin cfg1.N) : (dat1 V c).after 7 t = accAt V c t.val t.isLt := by dsimp only [dat1]

theorem before_in0 (c : Dev nD) (t : Fin cfg1.N) (d) : (dat1 V c).before 0 t d = blk V c 0 t :=
  before_in0_of V (dat1 V c) (A_eq1 V c 0) (after_in0 V c) t d
theorem before_in1 (c : Dev nD) (t : Fin cfg1.N) (d) : (dat1 V c).before 1 t d = blk V c 1 t :=
  before_in1_of V (dat1 V c) (A_eq1 V c 1) (after_in1 V c) t d
theorem before_in2 (c : Dev nD) (t : Fin cfg1.N) (d) : (dat1 V c).before 2 t d = blk V c 2 t :=
  before_in2_of V (dat1 V c) (A_eq1 V c 2) (after_in2 V c) t d
theorem before_in3 (c : Dev nD) (t : Fin cfg1.N) (d) : (dat1 V c).before 3 t d = blk V c 3 t :=
  before_in3_of V (dat1 V c) (A_eq1 V c 3) (after_in3 V c) t d
theorem before_in4 (c : Dev nD) (t : Fin cfg1.N) (d) : (dat1 V c).before 4 t d = blk V c 4 t :=
  before_in4_of V (dat1 V c) (A_eq1 V c 4) (after_in4 V c) t d
theorem before_in5 (c : Dev nD) (t : Fin cfg1.N) (d) : (dat1 V c).before 5 t d = blk V c 5 t :=
  before_in5_of V (dat1 V c) (A_eq1 V c 5) (after_in5 V c) t d
theorem before_in6 (c : Dev nD) (t : Fin cfg1.N) (d) : (dat1 V c).before 6 t d = blk V c 6 t :=
  before_in6_of V (dat1 V c) (A_eq1 V c 6) (after_in6 V c) t d

theorem before_out_later (c : Dev nD) (t : Fin cfg1.N) (h0 : ¬t.val % 16 = 0) (d) :
    (dat1 V c).before 7 t d = accAt V c (t.val - 1) (Nat.lt_of_le_of_lt (Nat.sub_le _ _) t.isLt) := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre (c : Dev nD) (t : Fin cfg1.N) : sProp 𝕄 :=
  iprop((dat1 V c).Φ t.castSucc ∗ (dat1 V c).owesAt () t.castSucc
    ∗ (∃ d, owns (c : Thread nD τ) (sm0 t) fullShare ((dat1 V c).before 0 t d))
    ∗ (∃ d, owns (c : Thread nD τ) (sm1 t) fullShare ((dat1 V c).before 1 t d))
    ∗ (∃ d, owns (c : Thread nD τ) (sm2 t) fullShare ((dat1 V c).before 2 t d))
    ∗ (∃ d, owns (c : Thread nD τ) (sm3 t) fullShare ((dat1 V c).before 3 t d))
    ∗ (∃ d, owns (c : Thread nD τ) (sm4 t) fullShare ((dat1 V c).before 4 t d))
    ∗ (∃ d, owns (c : Thread nD τ) (sm5 t) fullShare ((dat1 V c).before 5 t d))
    ∗ (∃ d, owns (c : Thread nD τ) (sm6 t) fullShare ((dat1 V c).before 6 t d))
    ∗ (∃ d, owns (c : Thread nD τ) (sm7 t) fullShare ((dat1 V c).before 7 t d)))

def bodyPost (c : Dev nD) (t : Fin cfg1.N) : sProp 𝕄 :=
  iprop((dat1 V c).Φ t.succ ∗ (dat1 V c).owesAt () t.succ
    ∗ owns (c : Thread nD τ) (sm0 t) fullShare ((dat1 V c).after 0 t)
    ∗ owns (c : Thread nD τ) (sm1 t) fullShare ((dat1 V c).after 1 t)
    ∗ owns (c : Thread nD τ) (sm2 t) fullShare ((dat1 V c).after 2 t)
    ∗ owns (c : Thread nD τ) (sm3 t) fullShare ((dat1 V c).after 3 t)
    ∗ owns (c : Thread nD τ) (sm4 t) fullShare ((dat1 V c).after 4 t)
    ∗ owns (c : Thread nD τ) (sm5 t) fullShare ((dat1 V c).after 5 t)
    ∗ owns (c : Thread nD τ) (sm6 t) fullShare ((dat1 V c).after 6 t)
    ∗ owns (c : Thread nD τ) (sm7 t) fullShare ((dat1 V c).after 7 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5, before_in6]
  rw [show (dat1 V c).Φ t.succ = (dat1 V c).Φ t.castSucc from rfl,
    show (dat1 V c).owesAt () t.succ = (dat1 V c).owesAt () t.castSucc from rfl,
    after_in0, after_in1, after_in2, after_in3, after_in4, after_in5, after_in6, after_out]
  have hN : t.val < 32 := lt_of_lt_of_eq t.isLt (show cfg1.N = 32 from N_1)
  by_cases h0 : t.val % 16 = 0
  · rw [accAt_first V c t h0]
    unfold accFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid1.coords t) _ _ _ _ _ _ _ _ _ _ _ _ _ _ _ _ ((isFirst_iff t).mpr h0) (blk V c 0 t) (blk V c 1 t) (blk V c 2 t) (blk V c 3 t) (blk V c 4 t) (blk V c 5 t) (blk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _)
  · rw [accAt_later V c t h0]
    simp only [before_out_later V c t h0]
    unfold accLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid1.coords t) _ _ _ _ _ _ _ _ _ _ _ _ _ _ _ _ (fun h => h0 ((isFirst_iff t).mp h)) (blk V c 0 t) (blk V c 1 t) (blk V c 2 t) (blk V c 3 t) (blk V c 4 t) (blk V c 5 t) (blk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLater c _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body V c t

end Region

end Cert.Kernel.R1

end
-- ==== Proof.KRegion2Body.lean ====
import proofs.«418543_j27023934227041_3_alg».proof.Proof.Gen.Kernel.Launch
import proofs.«418543_j27023934227041_3_alg».proof.Proof.Gen.Kernel.Skeleton
import proofs.«418543_j27023934227041_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rN : Rect S1024x128 := Rect.unit (s := S1024x128) ![0, 0] S1024x128.size inb_S1024x128_S1024x128_0_0

abbrev rA0 : Rect S2x1024x128 := Rect.unit (s := S2x1024x128) ![0, 0, 0] S1x1024x128.size inb_S2x1024x128_S1x1024x128_0_0_0
abbrev rA1 : Rect S2x1024x128 := Rect.unit (s := S2x1024x128) ![1, 0, 0] S1x1024x128.size inb_S2x1024x128_S1x1024x128_1_0_0

abbrev rS : Rect S1024x3 := Rect.unit (s := S1024x3) ![0, 0] S1024x3.size inb_S1024x3_S1024x3_0_0

abbrev rW : Rect S128x128 := Rect.unit (s := S128x128) ![0, 0] S128x128.size inb_S128x128_S128x128_0_0
abbrev rW9 : Rect S129x128 := Rect.unit (s := S129x128) ![0, 0] S129x128.size inb_S129x128_S129x128_0_0
abbrev rB : Rect S128 := Rect.unit (s := S128) ![0] S128.size inb_S128_S128_0

def out2_11 (x0 : Vec F S1024x128 .f32) (x1 : Vec F S2x1024x128 .f32) (x2 : Vec F S1024x3 .f32) (x3 : Vec F S128x128 .bf16)
    (x4 : Vec F S128 .f32) (x5 : Vec F S128x128 .bf16) (x6 : Vec F S128 .f32) : Vec F S1024x128 .f32 :=
  View.canon [⟨rN, k2_pay5 (View.ld x0 rN) (View.ld x1 rA0) (View.ld x1 rA1) (View.ld x2 rS) (View.ld x3 rW) (View.ld x4 rB) (View.ld x5 rW) (View.ld x6 rB)⟩]

def out2_12 (x1 : Vec F S2x1024x128 .f32) (x2 : Vec F S1024x3 .f32) (x7 : Vec F S129x128 .bf16) (x8 : Vec F S128 .f32)
    (x9 : Vec F S128x128 .bf16) (x10 : Vec F S128 .f32) : Vec F S1024x128 .f32 :=
  View.canon [⟨rN, k2_pay1 (k2_pay3 (View.ld x1 rA0) (View.ld x1 rA1) (View.ld x2 rS)) (k2_pay4 (View.ld x2 rS)) (View.ld x7 rW9) (View.ld x8 rB) (View.ld x9 rW) (View.ld x10 rB)⟩]

theorem cover2 (p0 : Vec F S1024x128 .f32) (y : S1024x128.Idx) :
    ∃ pc ∈ ([⟨rN, p0⟩] : List (View.Piece (Elt F) S1024x128 .f32)), y ∈ pc.1.set :=
  View.cover_of_tiled [⟨rN, p0⟩] S1024x128.size (by rfl) y

set_option maxHeartbeats 4000000 in
theorem sound_kernel2 (c : Dev nD) (E : Set ℕ) (i : grid2.Coords) (arg1 : Memref sig .tc .vmem S1024x128 .f32) (harg1 : arg1.IsWhole) (arg2 : Memref sig .tc .vmem S2x1024x128 .f32) (harg2 : arg2.IsWhole) (arg3 : Memref sig .tc .vmem S1024x3 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S129x128 .bf16) (harg8 : arg8.IsWhole) (arg9 : Memref sig .tc .vmem S128 .f32) (harg9 : arg9.IsWhole) (arg10 : Memref sig .tc .vmem S128x128 .bf16) (harg10 : arg10.IsWhole) (arg11 : Memref sig .tc .vmem S128 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S2x1024x128 .f32) (x2 : Vec F S1024x3 .f32) (x3 : Vec F S128x128 .bf16) (x4 : Vec F S128 .f32) (x5 : Vec F S128x128 .bf16) (x6 : Vec F S128 .f32) (x7 : Vec F S129x128 .bf16) (x8 : Vec F S128 .f32) (x9 : Vec F S128x128 .bf16) (x10 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6) ∗ owns (c : Thread nD τ) arg13 fullShare (out2_12 x1 x2 x7 x8 x9 x10)) -∗ K ⟨⟩))
      ⊢ wp frame (wpE (defs₀ (F := F)) Variants.none c none) E (cc2__kernel_b i arg1 harg1 arg2 harg2 arg3 harg3 arg4 harg4 arg5 harg5 arg6 harg6 arg7 harg7 arg8 harg8 arg9 harg9 arg10 harg10 arg11 harg11 arg12 harg12 arg13 harg13) K := by
  simp only [cc2__kernel_b_eq_skeleton]; unfold cc2__kernel_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover2 _)
  iexists _; isplitr
  swap; · iexact H12
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t)
    | ⟨12, _⟩ => out2_12 (iblk2 V c 1 t) (iblk2 V c 2 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t
    = out2_11 (iblk2 V c 0 t) (iblk2 V c 1 t) (iblk2 V c 2 t) (iblk2 V c 3 t) (iblk2 V c 4 t) (iblk2 V c 5 t) (iblk2 V c 6 t) := by dsimp only [dat2]
theorem after2_12 (c : Dev nD) (t : Fin cfg2.N) : (dat2 V c).after 12 t
    = out2_12 (iblk2 V c 1 t) (iblk2 V c 2 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl)
    (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (fun _ => rfl) (fun _ _ _ => rfl)
    (fun t => by rw [after2_9]; unfold Dat.blockOf iblk2; rw [A_eq2]; try rfl) t d).trans
    (by unfold Dat.fetched Dat.blockOf iblk2; rw [A_eq2]; try rfl)
theorem before2_10 (c : Dev nD) (t : Fin cfg2.N) (d) : (dat2 V c).before 10 t d = iblk2 V c 10 t :=
  ((dat2 V c).before_in_eq_fetched 10 rfl (fun _ => rfl) (fun _ _ _ => rfl)
    (fun t => by rw [after2_10]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation2 (c : Dev nD) : BodyObligation (dat2 (F := F) V c) (defs₀ (F := F)) Variants.none () Set.univ := fun t => by
  rw [bigSep_W2, bigSep_W2]
  exact sound_body2 V c t

end Cert.Kernel.R2

end
-- ==== Proof.KShare0.lean ====
import proofs.«418543_j27023934227041_3_alg».proof.Proof.Gen.Kernel.Launch
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

theorem arrays0_eq {c : Dev nD} (dat : Dat τ (Elt F) Unit ℕ (UR sig nD τ) ℕ cfg0 c)
    (hs0 : dat.share 0 = fullShare.left) (hs1 : dat.share 1 = fullShare.right)
    (hs2 : dat.share 2 = fullShare) (hs3 : dat.share 3 = fullShare)
    (V : (b : Ref sig .tc) → Buf (Elt F) ((c : Thread nD τ).loc b))
    (G : (w : Fin cfg0.W) → Buf (Elt F) ((cfg0.win w).arr.view.loc (c.tc : Thread nD τ)))
    (h0 : G 0 = V main_v21) (h1 : G 1 = V main_v21) (h2 : G 2 = V main_v22_0) (h3 : G 3 = V main_v22_1) :
    (Pipeline.arrBufs (Ix := Unit) (Name := ℕ) (U := UR sig nD τ) (Lvl := ℕ) spec0 c V : sProp 𝕄) = dat.arrays G := by
  unfold Pipeline.arrBufs Dat.arrays

  have hset : ∀ w : Fin cfg0.W,
      (((cfg0.win w).arr.view.loc (c.tc : Thread nD τ)) ↦[(cfg0.win w).arr.view.set]{dat.share w} G w : sProp 𝕄)
        = (((cfg0.win w).arr.view.loc (c.tc : Thread nD τ)) ↦{dat.share w} G w) := fun w => by
    rw [(arr_whole0 w).set_eq_univ]
  rw [bigSep_congr (fun w _ => hset w), bigSep_W0]
  have himg : Finset.univ.image (Pipeline.arrRef spec0) = ({main_v21, main_v22_0, main_v22_1} : Finset (Ref sig .tc)) := by decide
  rw [himg, bigSep_insert (by decide), bigSep_insert (by decide), bigSep_singleton]
  rw [hs0, hs1, hs2, hs3, h0, h1, h2, h3]

  have hsh : (((c.tc : Thread nD τ).loc main_v21) ↦{fullShare} V main_v21 : sProp 𝕄)
      = iprop((((c.tc : Thread nD τ).loc main_v21) ↦{fullShare.left} V main_v21)
          ∗ (((c.tc : Thread nD τ).loc main_v21) ↦{fullShare.right} V main_v21)) :=
    Entails.antisymm (pointsTo_share (PosShare.mem_left_op_right fullShare)).1
      (pointsTo_share (PosShare.mem_left_op_right fullShare)).2
  rw [hsh]
  have h1 : ∀ P Q R : sProp 𝕄, iprop((P ∗ Q) ∗ R) ⊢ iprop(P ∗ Q ∗ R) := fun P Q R => by
    iintro ⟨⟨HP, HQ⟩, HR⟩
    isplitl [HP]; · iexact HP
    isplitl [HQ]; · iexact HQ
    iexact HR
  have h2 : ∀ P Q R : sProp 𝕄, iprop(P ∗ Q ∗ R) ⊢ iprop((P ∗ Q) ∗ R) := fun P Q R => by
    iintro ⟨HP, HQ, HR⟩
    isplitr [HR]
    · isplitl [HP]; · iexact HP
      iexact HQ
    iexact HR
  exact Entails.antisymm (h1 _ _ _) (h2 _ _ _)

end Cert.Kernel.Hand

end
-- ==== Proof.KRegions.lean ====
import proofs.«418543_j27023934227041_3_alg».proof.Proof.KRun
import proofs.«418543_j27023934227041_3_alg».proof.Proof.KRegion0Body
import proofs.«418543_j27023934227041_3_alg».proof.Proof.KRegion1Body
import proofs.«418543_j27023934227041_3_alg».proof.Proof.KRegion2Body
import proofs.«418543_j27023934227041_3_alg».proof.Proof.KShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev L : GSem nD τ sig → Finset Unit := fun _ => ∅
abbrev lv : GSem nD τ sig → Unit → ℕ := fun _ _ => 0

abbrev Rr (c : Dev nD) : sProp 𝕄 :=
  iprop((∃ r, prngReg c r) ∗ ∃ W, owes (c : Thread nD τ) (0 : CellTallies nD τ sig Unit) W)

abbrev VR1 : (c : Dev nD) → (b : Ref sig .tc) → Buf (Elt F) ((c : Thread nD τ).loc b) := fun c b => V1 m c b
abbrev VR2 : (c : Dev nD) → (b : Ref sig .tc) → Buf (Elt F) ((c : Thread nD τ).loc b) := fun c b => V2 m outs c b
abbrev VR5 : (c : Dev nD) → (b : Ref sig .tc) → Buf (Elt F) ((c : Thread nD τ).loc b) := fun c b => V5 m outs c b
abbrev VR6 : (c : Dev nD) → (b : Ref sig .tc) → Buf (Elt F) ((c : Thread nD τ).loc b) := fun c b => V6 m outs c b
abbrev VR7 : (c : Dev nD) → (b : Ref sig .tc) → Buf (Elt F) ((c : Thread nD τ).loc b) := fun c b => V7 m outs c b
abbrev VR8 : (c : Dev nD) → (b : Ref sig .tc) → Buf (Elt F) ((c : Thread nD τ).loc b) := fun c b => V8 m outs c b

def pdats : (p : Fin 3) → (c : Dev nD) → Dat τ (Elt F) Unit ℕ (UR sig nD τ) ℕ (cfgs p) c
  | ⟨0, _⟩ => fun c => R0.dat0 (VR1 m) c
  | ⟨1, _⟩ => fun c => R1.dat1 (VR5 m outs) c
  | ⟨2, _⟩ => fun c => R2.dat2 (VR7 m outs) c

theorem V8_out0 (c : Dev nD) : V8 m outs c main_v84_0 = outs 8 main_v84_0 c := by
  simp only [V8, Function.update_of_ne (StableHlo.devRef_ne_of_ne (by decide : main_v84_0 ≠ main_v84_1) : (Proc.devRef .tc main_v84_0 : DevRef τ sig) ≠ Proc.devRef .tc main_v84_1), Function.update_self]
theorem V8_out1 (c : Dev nD) : V8 m outs c main_v84_1 = outs 8 main_v84_1 c := by
  simp only [V8, Function.update_self]

theorem hF2 (h11 : ∀ c, outs 8 main_v84_0 c = (R2.dat2 (VR7 m outs) c).arrAt 11 cfg2.N)
    (h12 : ∀ c, outs 8 main_v84_1 c = (R2.dat2 (VR7 m outs) c).arrAt 12 cfg2.N) (c : Dev nD) (w : Fin cfg2.W) :
    (pdats m outs 2 c).arrAt w cfg2.N = VR8 m outs c (Pipeline.arrRef spec2 w) := by
  by_cases hw : (cfg2.win w).isOut = false
  · have hne : ∀ w' : Fin cfg2.W, (cfg2.win w').isOut = false →
        Pipeline.arrRef spec2 w' ∉ ([main_v84_0, main_v84_1] : List (Ref sig .tc)) := by decide
    rw [(pdats m outs 2 c).arrAt_in w hw]
    exact (V8_of m outs c _ (hne w hw)).symm
  · have h2 : ∀ w' : Fin cfg2.W, ¬ (cfg2.win w').isOut = false → w' = 11 ∨ w' = 12 := by decide
    rcases h2 w hw with rfl | rfl
    · exact ((h11 c).symm.trans (V8_out0 m outs c).symm)
    · exact ((h12 c).symm.trans (V8_out1 m outs c).symm)

theorem hrest2 (c : Dev nD) : ∀ b, b ∉ Finset.univ.image (Pipeline.arrRef spec2) → VR8 m outs c b = VR7 m outs c b := by
  intro b hb
  refine V8_of m outs c b ?_
  intro hmem
  have h0 : main_v84_0 ∈ Finset.univ.image (Pipeline.arrRef spec2) := by decide
  have h1 : main_v84_1 ∈ Finset.univ.image (Pipeline.arrRef spec2) := by decide
  rcases List.mem_cons.mp hmem with rfl | hmem
  · exact hb h0
  · rcases List.mem_cons.mp hmem with rfl | hmem
    · exact hb h1
    · exact absurd hmem (List.not_mem_nil)

set_option backward.isDefEq.respectTransparency.types false in
def reg2 (h11 : ∀ c, outs 8 main_v84_0 c = (R2.dat2 (VR7 m outs) c).arrAt 11 cfg2.N)
    (h12 : ∀ c, outs 8 main_v84_1 c = (R2.dat2 (VR7 m outs) c).arrAt 12 cfg2.N) :
    RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (VR7 m outs) c).loose
  hwaits := Pipeline.hwaits_of_owed_zero _ _ _ _ L lv 2 fun _ _ => rfl
  pre c := iprop(StableHlo.held (c : Thread nD τ) (Pipeline.ucRefs τ sig) (V7 m outs c) ∗ Rr c)
  post c := iprop(StableHlo.held (c : Thread nD τ) (Pipeline.ucRefs τ sig) (V8 m outs c) ∗ Rr c)
  X c := iprop(∃ r, prngReg c r)
  Y c := iprop(∃ r, prngReg c r)
  Z c := Pipeline.unscopedRest (Ix := Unit) (Name := ℕ) (U := UR sig nD τ) (Lvl := ℕ) spec2 c (VR7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VR7 m outs c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m outs 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m outs 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VR7 m outs c) (VR8 m outs c) ((pdats m outs 2 c).arrAt · cfg2.N) (hF2 m outs h11 h12 c) (hrest2 m outs c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

theorem V6_out (c : Dev nD) : V6 m outs c main_v79 = outs 6 main_v79 c := by
  simp only [V6, Function.update_self]

theorem hF1 (h79 : ∀ c, outs 6 main_v79 c = (R1.dat1 (VR5 m outs) c).arrAt 7 cfg1.N) (c : Dev nD) (w : Fin cfg1.W) :
    (pdats m outs 1 c).arrAt w cfg1.N = VR6 m outs c (Pipeline.arrRef spec1 w) := by
  by_cases hw : (cfg1.win w).isOut = false
  · have hne : ∀ w' : Fin cfg1.W, (cfg1.win w').isOut = false →
        Pipeline.arrRef spec1 w' ∉ ([main_v79] : List (Ref sig .tc)) := by decide
    rw [(pdats m outs 1 c).arrAt_in w hw]
    exact (V6_of m outs c _ (hne w hw)).symm
  · have h1 : ∀ w' : Fin cfg1.W, ¬ (cfg1.win w').isOut = false → w' = 7 := by decide
    obtain rfl := h1 w hw
    exact ((h79 c).symm.trans (V6_out m outs c).symm)

theorem hrest1 (c : Dev nD) : ∀ b, b ∉ Finset.univ.image (Pipeline.arrRef spec1) → VR6 m outs c b = VR5 m outs c b := by
  intro b hb
  refine V6_of m outs c b ?_
  intro hmem
  have h0 : main_v79 ∈ Finset.univ.image (Pipeline.arrRef spec1) := by decide
  rcases List.mem_cons.mp hmem with rfl | hmem
  · exact hb h0
  · exact absurd hmem (List.not_mem_nil)

set_option backward.isDefEq.respectTransparency.types false in
def reg1 (h79 : ∀ c, outs 6 main_v79 c = (R1.dat1 (VR5 m outs) c).arrAt 7 cfg1.N) :
    RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (VR5 m outs) c).loose
  hwaits := Pipeline.hwaits_of_owed_zero _ _ _ _ L lv 1 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec1 c (VR5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR5 m outs c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m outs 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m outs 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR5 m outs c) (VR6 m outs c) ((pdats m outs 1 c).arrAt · cfg1.N) (hF1 m outs h79 c) (hrest1 m outs c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

theorem V2_out0 (c : Dev nD) : V2 m outs c main_v22_0 = outs 2 main_v22_0 c := by
  simp only [V2, Function.update_of_ne (StableHlo.devRef_ne_of_ne (by decide : main_v22_0 ≠ main_v22_1) : (Proc.devRef .tc main_v22_0 : DevRef τ sig) ≠ Proc.devRef .tc main_v22_1), Function.update_self]
theorem V2_out1 (c : Dev nD) : V2 m outs c main_v22_1 = outs 2 main_v22_1 c := by
  simp only [V2, Function.update_self]

theorem hrest0 (c : Dev nD) : ∀ b, b ∉ Finset.univ.image (Pipeline.arrRef spec0) → VR2 m outs c b = VR1 m c b := by
  intro b hb
  refine V2_of m outs c b ?_
  intro hmem
  have h0 : main_v22_0 ∈ Finset.univ.image (Pipeline.arrRef spec0) := by decide
  have h1 : main_v22_1 ∈ Finset.univ.image (Pipeline.arrRef spec0) := by decide
  rcases List.mem_cons.mp hmem with rfl | hmem
  · exact hb h0
  · rcases List.mem_cons.mp hmem with rfl | hmem
    · exact hb h1
    · exact absurd hmem (List.not_mem_nil)

theorem share0_0 (V : (c : Dev nD) → (b : Ref sig .tc) → Buf (Elt F) ((c : Thread nD τ).loc b)) (c : Dev nD) :
    (R0.dat0 V c).share 0 = fullShare.left := by
  unfold Dat.share; rw [if_neg (by decide)]; dsimp only [R0.dat0]
theorem share0_1 (V : (c : Dev nD) → (b : Ref sig .tc) → Buf (Elt F) ((c : Thread nD τ).loc b)) (c : Dev nD) :
    (R0.dat0 V c).share 1 = fullShare.right := by
  unfold Dat.share; rw [if_neg (by decide)]; dsimp only [R0.dat0]
theorem share0_2 (V : (c : Dev nD) → (b : Ref sig .tc) → Buf (Elt F) ((c : Thread nD τ).loc b)) (c : Dev nD) :
    (R0.dat0 V c).share 2 = fullShare := by
  unfold Dat.share; rw [if_pos (by decide)]
theorem share0_3 (V : (c : Dev nD) → (b : Ref sig .tc) → Buf (Elt F) ((c : Thread nD τ).loc b)) (c : Dev nD) :
    (R0.dat0 V c).share 3 = fullShare := by
  unfold Dat.share; rw [if_pos (by decide)]
theorem arr0_entry (V : (c : Dev nD) → (b : Ref sig .tc) → Buf (Elt F) ((c : Thread nD τ).loc b)) (c : Dev nD)
    (w : Fin cfg0.W) : (R0.dat0 V c).arrAt w 0 = V c (Pipeline.arrRef spec0 w) := by
  show (R0.dat0 V c).A w = _; dsimp only [R0.dat0]

set_option backward.isDefEq.respectTransparency.types false in
def reg0 (h2 : ∀ c, outs 2 main_v22_0 c = (R0.dat0 (VR1 m) c).arrAt 2 cfg0.N)
    (h3 : ∀ c, outs 2 main_v22_1 c = (R0.dat0 (VR1 m) c).arrAt 3 cfg0.N) :
    RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (R0.body_obligation0 (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    show _ ⊢ |={Set.univ}=> iprop((R0.dat0 (VR1 m) c).arrays ((R0.dat0 (VR1 m) c).arrAt · 0) ∗ _
        ∗ (R0.dat0 (VR1 m) c).owesAt () 0 ∗ _ ∗ _)
    have hsplit := Pipeline.unscopedBufs_split₀ (Ix := Unit) (Name := ℕ) (U := UR sig nD τ) (Lvl := ℕ) (Val := Elt F) cfgs 0
      winFacts₀0.arr_unscoped c (VR1 m c)
    have harr := arrays0_eq (R0.dat0 (VR1 m) c) (share0_0 _ c) (share0_1 _ c) (share0_2 _ c) (share0_3 _ c) (VR1 m c)
      ((R0.dat0 (VR1 m) c).arrAt · 0) (arr0_entry _ c 0) (arr0_entry _ c 1) (arr0_entry _ c 2) (arr0_entry _ c 3)
    rw [Pipeline.unscopedBufs_held] at hsplit
    have hsplit' : StableHlo.held (c : Thread nD τ) (Pipeline.ucRefs τ sig) (V1 m c)
        = iprop((R0.dat0 (VR1 m) c).arrays ((R0.dat0 (VR1 m) c).arrAt · 0)
            ∗ Pipeline.unscopedRest (Ix := Unit) (Name := ℕ) (U := UR sig nD τ) (Lvl := ℕ) spec0 c (VR1 m c)) := by
      rw [← harr]; exact hsplit
    have hent := Entails.of_eq hsplit'
    iintro ⟨⟨Hbufs, Hreg, Howes⟩, -, -⟩
    ihave Hs := hent $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    show _ ⊢ (R0.dat0 (VR1 m) c).Φ 0
    iintro ⟨Hreg, -, Hscoped⟩
    iapply (R0.Phi0_in (VR1 m) c)
    isplitl [Hreg] <;> iassumption
  hout c := by
    rw [Pipeline.ownSems0_none]
    show (R0.dat0 (VR1 m) c).Φ (Fin.last cfg0.N) ⊢ _
    iintro HΦ
    ihave H := (R0.Phi0_out (VR1 m) c) $$ HΦ
    icases H with ⟨Hreg, Hscoped⟩
    isplitl [Hreg]; · iexact Hreg
    isplitr; · iempintro
    iexact Hscoped
  hexit c := by
    show iprop((R0.dat0 (VR1 m) c).arrays ((R0.dat0 (VR1 m) c).arrAt · cfg0.N)
        ∗ (R0.dat0 (VR1 m) c).owesAt () (Fin.last cfg0.N) ∗ _ ∗ _) ⊢ _
    have hsplit := Pipeline.unscopedBufs_split₀ (Ix := Unit) (Name := ℕ) (U := UR sig nD τ) (Lvl := ℕ) (Val := Elt F) cfgs 0
      winFacts₀0.arr_unscoped c (VR2 m outs c)
    have e0 : (R0.dat0 (VR1 m) c).arrAt 0 cfg0.N = VR2 m outs c main_v21 :=
      (R0.arrAt_in0 (VR1 m) c 0 (by decide) _).trans (V2_of m outs c main_v21 (by decide)).symm
    have e1 : (R0.dat0 (VR1 m) c).arrAt 1 cfg0.N = VR2 m outs c main_v21 :=
      (R0.arrAt_in0 (VR1 m) c 1 (by decide) _).trans (V2_of m outs c main_v21 (by decide)).symm
    have e2 : (R0.dat0 (VR1 m) c).arrAt 2 cfg0.N = VR2 m outs c main_v22_0 := (h2 c).symm.trans (V2_out0 m outs c).symm
    have e3 : (R0.dat0 (VR1 m) c).arrAt 3 cfg0.N = VR2 m outs c main_v22_1 := (h3 c).symm.trans (V2_out1 m outs c).symm
    have hrestEq : Pipeline.unscopedRest (Ix := Unit) (Name := ℕ) (U := UR sig nD τ) (Lvl := ℕ) spec0 c (VR2 m outs c)
        = Pipeline.unscopedRest (Ix := Unit) (Name := ℕ) (U := UR sig nD τ) (Lvl := ℕ) spec0 c (VR1 m c) := by
      unfold Pipeline.unscopedRest
      exact bigSep_congr fun b hb => by rw [hrest0 m outs c b (Finset.mem_sdiff.mp hb).2]
    have harr := arrays0_eq (R0.dat0 (VR1 m) c) (share0_0 _ c) (share0_1 _ c) (share0_2 _ c) (share0_3 _ c) (VR2 m outs c)
      ((R0.dat0 (VR1 m) c).arrAt · cfg0.N) e0 e1 e2 e3
    rw [Pipeline.unscopedBufs_held] at hsplit
    have hsplit' : StableHlo.held (c : Thread nD τ) (Pipeline.ucRefs τ sig) (V2 m outs c)
        = iprop((R0.dat0 (VR1 m) c).arrays ((R0.dat0 (VR1 m) c).arrAt · cfg0.N)
            ∗ Pipeline.unscopedRest (Ix := Unit) (Name := ℕ) (U := UR sig nD τ) (Lvl := ℕ) spec0 c (VR1 m c)) := by
      rw [← harr, ← hrestEq]; exact hsplit
    have hback := Entails.of_eq hsplit'.symm
    iintro ⟨Harr, Howes, Hreg, Hrest⟩
    imodintro
    isplitl [Harr Hrest]
    · iapply hback; isplitl [Harr] <;> iassumption
    isplitl [Hreg]; · iexact Hreg
    unfold Pipeline.Dat.owesAt Pipeline.owesWithin
    icases Howes with ⟨%W, -, Howes⟩; iexists W; iexact Howes

end Cert.Kernel.Hand

end
-- ==== Proof.KFrame.lean ====
import proofs.«418543_j27023934227041_3_alg».proof.Proof.KRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pick {c : Dev nD} (r' r : Ref sig .tc) (x : Buf (Elt F) ((c : Thread nD τ).loc r'))
    (d : Buf (Elt F) ((c : Thread nD τ).loc r)) : Buf (Elt F) ((c : Thread nD τ).loc r) :=
  if h : r' = r then h ▸ x else d

theorem pick_self {c : Dev nD} (r : Ref sig .tc) (x d : Buf (Elt F) ((c : Thread nD τ).loc r)) : pick r r x d = x := by
  unfold pick; rw [dif_pos rfl]

theorem pick_of_ne {c : Dev nD} {r' r : Ref sig .tc} (h : r' ≠ r) (x : Buf (Elt F) ((c : Thread nD τ).loc r'))
    (d : Buf (Elt F) ((c : Thread nD τ).loc r)) : pick r' r x d = d := by
  unfold pick; rw [dif_neg h]

def outs0 (r : Ref sig .tc) (c : Dev nD) : Buf (Elt F) ((c : Thread nD τ).loc r) :=
  pick main_v22_0 r ((R0.dat0 (VR1 m) c).arrAt 2 cfg0.N) (pick main_v22_1 r ((R0.dat0 (VR1 m) c).arrAt 3 cfg0.N) (V1 m c r))
abbrev outsA : Outs (F := F) := fun _ r c => outs0 m r c

def outs1 (r : Ref sig .tc) (c : Dev nD) : Buf (Elt F) ((c : Thread nD τ).loc r) :=
  pick main_v79 r ((R1.dat1 (VR5 m (outsA m)) c).arrAt 7 cfg1.N) (outs0 m r c)
abbrev outsB : Outs (F := F) := fun J r c => if J = 2 then outs0 m r c else outs1 m r c

def outs2 (r : Ref sig .tc) (c : Dev nD) : Buf (Elt F) ((c : Thread nD τ).loc r) :=
  pick main_v84_0 r ((R2.dat2 (VR7 m (outsB m)) c).arrAt 11 cfg2.N)
    (pick main_v84_1 r ((R2.dat2 (VR7 m (outsB m)) c).arrAt 12 cfg2.N) (outs1 m r c))

def outs : Outs (F := F) := fun J r c => if J = 2 then outs0 m r c else if J = 6 then outs1 m r c else outs2 m r c

theorem outs_22_0 (c : Dev nD) : outs m 2 main_v22_0 c = (R0.dat0 (VR1 m) c).arrAt 2 cfg0.N := by
  show outs0 m main_v22_0 c = _
  unfold outs0; rw [pick_self]
theorem outs_22_1 (c : Dev nD) : outs m 2 main_v22_1 c = (R0.dat0 (VR1 m) c).arrAt 3 cfg0.N := by
  show outs0 m main_v22_1 c = _
  unfold outs0; rw [pick_of_ne (by decide), pick_self]
theorem outs_79 (c : Dev nD) : outs m 6 main_v79 c = (R1.dat1 (VR5 m (outs m)) c).arrAt 7 cfg1.N := by
  show outs1 m main_v79 c = _
  unfold outs1; rw [pick_self]; rfl
theorem outs_84_0 (c : Dev nD) : outs m 8 main_v84_0 c = (R2.dat2 (VR7 m (outs m)) c).arrAt 11 cfg2.N := by
  show outs2 m main_v84_0 c = _
  unfold outs2; rw [pick_self]; rfl
theorem outs_84_1 (c : Dev nD) : outs m 8 main_v84_1 c = (R2.dat2 (VR7 m (outs m)) c).arrAt 12 cfg2.N := by
  show outs2 m main_v84_1 c = _
  unfold outs2; rw [pick_of_ne (by decide), pick_self]; rfl

set_option backward.isDefEq.respectTransparency.types false in
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) :=
  run_cond m emb₁ () 𝒱₀ L lv (fun _ _ => rfl) ρ (outs m) (pdats m (outs m)) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, Howes, -, Hreg, -⟩, -⟩
      imodintro
      isplitl [Hreg]; · iexists _; iexact Hreg
      iexists ∅; iexact Howes)
    (hE3 := fun c => by iintro ⟨-, Howes⟩; iexact Howes)
    (reg0 m (outs m) (outs_22_0 m) (outs_22_1 m)) (fun _ => .rfl) (fun _ => .rfl)
    (reg1 m (outs m) (outs_79 m)) (fun _ => .rfl) (fun _ => .rfl)
    (reg2 m (outs m) (outs_84_0 m) (outs_84_1 m)) (fun _ => .rfl) (fun _ => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c (Proc.devRef .tc main_arg0) (Finset.mem_filter.mpr ⟨StableHlo.devRef_mem_tcRefs main_arg0, by decide⟩)).trans (V8_main_arg0 m (outs m) c),
        (h c (Proc.devRef .tc main_arg1) (Finset.mem_filter.mpr ⟨StableHlo.devRef_mem_tcRefs main_arg1, by decide⟩)).trans (V8_main_arg1 m (outs m) c),
        (h c (Proc.devRef .tc main_arg2) (Finset.mem_filter.mpr ⟨StableHlo.devRef_mem_tcRefs main_arg2, by decide⟩)).trans (V8_main_arg2 m (outs m) c),
        (h c (Proc.devRef .tc main_arg3) (Finset.mem_filter.mpr ⟨StableHlo.devRef_mem_tcRefs main_arg3, by decide⟩)).trans (V8_main_arg3 m (outs m) c),
        (h c (Proc.devRef .tc main_arg4) (Finset.mem_filter.mpr ⟨StableHlo.devRef_mem_tcRefs main_arg4, by decide⟩)).trans (V8_main_arg4 m (outs m) c),
        (h c (Proc.devRef .tc main_arg5) (Finset.mem_filter.mpr ⟨StableHlo.devRef_mem_tcRefs main_arg5, by decide⟩)).trans (V8_main_arg5 m (outs m) c),
        (h c (Proc.devRef .tc main_arg6) (Finset.mem_filter.mpr ⟨StableHlo.devRef_mem_tcRefs main_arg6, by decide⟩)).trans (V8_main_arg6 m (outs m) c),
        (h c (Proc.devRef .tc main_arg7) (Finset.mem_filter.mpr ⟨StableHlo.devRef_mem_tcRefs main_arg7, by decide⟩)).trans (V8_main_arg7 m (outs m) c),
        (h c (Proc.devRef .tc main_arg8) (Finset.mem_filter.mpr ⟨StableHlo.devRef_mem_tcRefs main_arg8, by decide⟩)).trans (V8_main_arg8 m (outs m) c),
        (h c (Proc.devRef .tc main_arg9) (Finset.mem_filter.mpr ⟨StableHlo.devRef_mem_tcRefs main_arg9, by decide⟩)).trans (V8_main_arg9 m (outs m) c),
        (h c (Proc.devRef .tc main_arg10) (Finset.mem_filter.mpr ⟨StableHlo.devRef_mem_tcRefs main_arg10, by decide⟩)).trans (V8_main_arg10 m (outs m) c),
        (h c (Proc.devRef .tc main_arg11) (Finset.mem_filter.mpr ⟨StableHlo.devRef_mem_tcRefs main_arg11, by decide⟩)).trans (V8_main_arg11 m (outs m) c),
        (h c (Proc.devRef .tc main_arg12) (Finset.mem_filter.mpr ⟨StableHlo.devRef_mem_tcRefs main_arg12, by decide⟩)).trans (V8_main_arg12 m (outs m) c),
        (h c (Proc.devRef .tc main_arg13) (Finset.mem_filter.mpr ⟨StableHlo.devRef_mem_tcRefs main_arg13, by decide⟩)).trans (V8_main_arg13 m (outs m) c),
        (h c (Proc.devRef .tc main_arg14) (Finset.mem_filter.mpr ⟨StableHlo.devRef_mem_tcRefs main_arg14, by decide⟩)).trans (V8_main_arg14 m (outs m) c),
        (h c (Proc.devRef .tc main_arg15) (Finset.mem_filter.mpr ⟨StableHlo.devRef_mem_tcRefs main_arg15, by decide⟩)).trans (V8_main_arg15 m (outs m) c),
        (h c (Proc.devRef .tc main_arg16) (Finset.mem_filter.mpr ⟨StableHlo.devRef_mem_tcRefs main_arg16, by decide⟩)).trans (V8_main_arg16 m (outs m) c),
        (h c (Proc.devRef .tc main_arg17) (Finset.mem_filter.mpr ⟨StableHlo.devRef_mem_tcRefs main_arg17, by decide⟩)).trans (V8_main_arg17 m (outs m) c),
        (h c (Proc.devRef .tc main_arg18) (Finset.mem_filter.mpr ⟨StableHlo.devRef_mem_tcRefs main_arg18, by decide⟩)).trans (V8_main_arg18 m (outs m) c)⟩) (run m ρ)

end Cert.Kernel.Hand

end
-- ==== Proof.KIRun.lean ====
import proofs.«418543_j27023934227041_3_alg».proof.Proof.Gen.KernelIdeal.Regions

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V8 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, hpre1 c, hpost1 c, hpre2 c, (hpost2 c).trans (sep_mono .rfl (hE3 c))⟩)
    (hinit := ?_) (QY := fun c s => ∀ b ∈ Pipeline.ucRefs τ sig, s.mem (((c : Thread nD τ)).1, b) = V8 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V8 m outs c) s')
    isplitl [Hh] <;> iassumption

end Cert.KernelIdeal.Hand

end
-- ==== Proof.Region0Body.lean ====
import proofs.«418543_j27023934227041_3_alg».proof.Proof.Gen.KernelIdeal.Launch
import proofs.«418543_j27023934227041_3_alg».proof.Proof.Gen.KernelIdeal.Skeleton
import proofs.«418543_j27023934227041_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬t.val % 4 = 3 → cfg0.idle 2 (grid0.coords t) = true := by decide +kernel
theorem idleAt0_3 : ∀ t : Fin cfg0.N, ¬t.val % 4 = 3 → cfg0.idle 3 (grid0.coords t) = true := by decide +kernel
theorem liveAt0_2 : ∀ t : Fin cfg0.N, t.val % 4 = 3 → cfg0.idle 2 (grid0.coords t) = false := by decide +kernel
theorem liveAt0_3 : ∀ t : Fin cfg0.N, t.val % 4 = 3 → cfg0.idle 3 (grid0.coords t) = false := by decide +kernel
theorem noFlush0_2 (t : Fin cfg0.N) (h : ¬t.val % 4 = 3) : (cfg0.win 2).flush t = false :=
  Bool.eq_false_iff.mpr fun hf => h ((flush0_2 t).mp hf)
theorem noFlush0_3 (t : Fin cfg0.N) (h : ¬t.val % 4 = 3) : (cfg0.win 3).flush t = false :=
  Bool.eq_false_iff.mpr fun hf => h ((flush0_3 t).mp hf)

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)

abbrev scM0_0 : Memref sig .tc .vmem S512x512 .f32 := Memref.whole cc0_scratch0
abbrev scM0_1 : Memref sig .tc .vmem S512x512 .f32 := Memref.whole cc0_scratch1

abbrev VO0_2 : View sig .tc .vmem S512x512 .f32 := (Memref.whole cc0_stg2_0 : Memref sig .tc .vmem S512x512 .f32).view
abbrev VO0_3 : View sig .tc .vmem S512x512 .f32 := (Memref.whole cc0_stg3_0 : Memref sig .tc .vmem S512x512 .f32).view
abbrev VS0_0 : View sig .tc .vmem S512x512 .f32 := scM0_0.view
abbrev VS0_1 : View sig .tc .vmem S512x512 .f32 := scM0_1.view

section Cases

variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)

set_option maxHeartbeats 4000000 in
noncomputable def kernelRun0_A (hc0 : cond0_0 i) (hc1 : ¬cond0_1 i)
    (x0 : Vec F S512x512 .f32) (x1 : Vec F S512x512 .f32) :
    Σ' (LS0 : List (View.Piece (Elt F) S512x512 .f32)), { LS1 : List (View.Piece (Elt F) S512x512 .f32) //
      ∀ (xi2 : Vec F S512x512 .f32) (xi3 : Vec F S512x512 .f32) (E : Set ℕ) (K : PUnit → sProp 𝕄),
        iprop(owns (c : Thread nD τ) arg3 fullShare x0 ∗ owns (c : Thread nD τ) arg4 fullShare x1
            ∗ owns (c : Thread nD τ) arg5 fullShare xi2 ∗ owns (c : Thread nD τ) arg6 fullShare xi3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1
                ∗ owns (c : Thread nD τ) arg5 fullShare xi2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, fun xi2 xi3 E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 4000000 in
noncomputable def kernelRun0_B (hc0 : ¬cond0_0 i) (hc1 : ¬cond0_1 i)
    (x0 : Vec F S512x512 .f32) (x1 : Vec F S512x512 .f32) (xs0 : Vec F S512x512 .f32) (xs1 : Vec F S512x512 .f32) :
    Σ' (LS0 : List (View.Piece (Elt F) S512x512 .f32)), { LS1 : List (View.Piece (Elt F) S512x512 .f32) //
      ∀ (xi2 : Vec F S512x512 .f32) (xi3 : Vec F S512x512 .f32) (E : Set ℕ) (K : PUnit → sProp 𝕄),
        iprop(owns (c : Thread nD τ) arg3 fullShare x0 ∗ owns (c : Thread nD τ) arg4 fullShare x1
            ∗ owns (c : Thread nD τ) arg5 fullShare xi2 ∗ owns (c : Thread nD τ) arg6 fullShare xi3
            ∗ owns (c : Thread nD τ) arg7 fullShare xs0 ∗ owns (c : Thread nD τ) arg8 fullShare xs1
            ∗ (iprop(owns (c : Thread nD τ) arg3 fullShare x0 ∗ owns (c : Thread nD τ) arg4 fullShare x1
                ∗ owns (c : Thread nD τ) arg5 fullShare xi2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, fun xi2 xi3 E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 4000000 in
noncomputable def kernelRun0_C (hc0 : ¬cond0_0 i) (hc1 : cond0_1 i)
    (x0 : Vec F S512x512 .f32) (x1 : Vec F S512x512 .f32) (xs0 : Vec F S512x512 .f32) (xs1 : Vec F S512x512 .f32) :
    Σ' (L2 : List (View.Piece (Elt F) S512x512 .f32)) (L3 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__residual_matmul_kernel i arg3 harg3 arg4 harg4 arg5 harg5 arg6 harg6 arg7 harg7 arg8 harg8) K } := by
  refine ⟨?_, ?_, ?_, ?_, fun E K => ?run⟩
  case run =>
    simp only [cc0__residual_matmul_kernel_eq_skeleton]; unfold cc0__residual_matmul_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg3.eq_unread hf0; obtain rfl := harg4.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    iexists _; iexact HS1

theorem scover0_A_0 (hc0 : cond0_0 i) (hc1 : ¬cond0_1 i) (x0 x1 : Vec F S512x512 .f32) (y : S512x512.Idx) :
    ∃ pc ∈ (kernelRun0_A c i arg3 harg3 arg4 harg4 arg5 harg5 arg6 harg6 arg7 harg7 arg8 harg8 hc0 hc1 x0 x1).1, y ∈ pc.1.set :=
  View.cover_of_tiledL (kernelRun0_A c i arg3 harg3 arg4 harg4 arg5 harg5 arg6 harg6 arg7 harg7 arg8 harg8 hc0 hc1 x0 x1).1 S512x512.size (by sl_kernel_rfl) y
theorem scover0_A_1 (hc0 : cond0_0 i) (hc1 : ¬cond0_1 i) (x0 x1 : Vec F S512x512 .f32) (y : S512x512.Idx) :
    ∃ pc ∈ (kernelRun0_A c i arg3 harg3 arg4 harg4 arg5 harg5 arg6 harg6 arg7 harg7 arg8 harg8 hc0 hc1 x0 x1).2.1, y ∈ pc.1.set :=
  View.cover_of_tiledL (kernelRun0_A c i arg3 harg3 arg4 harg4 arg5 harg5 arg6 harg6 arg7 harg7 arg8 harg8 hc0 hc1 x0 x1).2.1 S512x512.size (by sl_kernel_rfl) y

def sout0_A_0 (hc0 : cond0_0 i) (hc1 : ¬cond0_1 i) (x0 x1 : Vec F S512x512 .f32) : Vec F S512x512 .f32 :=
  VS0_0.read (Elt F) (VS0_0.writes (Elt F) VS0_0.junk (kernelRun0_A c i arg3 harg3 arg4 harg4 arg5 harg5 arg6 harg6 arg7 harg7 arg8 harg8 hc0 hc1 x0 x1).1)

def sout0_A_1 (hc0 : cond0_0 i) (hc1 : ¬cond0_1 i) (x0 x1 : Vec F S512x512 .f32) : Vec F S512x512 .f32 :=
  VS0_1.read (Elt F) (VS0_1.writes (Elt F) VS0_1.junk (kernelRun0_A c i arg3 harg3 arg4 harg4 arg5 harg5 arg6 harg6 arg7 harg7 arg8 harg8 hc0 hc1 x0 x1).2.1)

theorem scover0_B_0 (hc0 : ¬cond0_0 i) (hc1 : ¬cond0_1 i) (x0 x1 xs0 xs1 : Vec F S512x512 .f32) (y : S512x512.Idx) :
    ∃ pc ∈ (kernelRun0_B c i arg3 harg3 arg4 harg4 arg5 harg5 arg6 harg6 arg7 harg7 arg8 harg8 hc0 hc1 x0 x1 xs0 xs1).1, y ∈ pc.1.set :=
  View.cover_of_tiledL (kernelRun0_B c i arg3 harg3 arg4 harg4 arg5 harg5 arg6 harg6 arg7 harg7 arg8 harg8 hc0 hc1 x0 x1 xs0 xs1).1 S512x512.size (by sl_kernel_rfl) y
theorem scover0_B_1 (hc0 : ¬cond0_0 i) (hc1 : ¬cond0_1 i) (x0 x1 xs0 xs1 : Vec F S512x512 .f32) (y : S512x512.Idx) :
    ∃ pc ∈ (kernelRun0_B c i arg3 harg3 arg4 harg4 arg5 harg5 arg6 harg6 arg7 harg7 arg8 harg8 hc0 hc1 x0 x1 xs0 xs1).2.1, y ∈ pc.1.set :=
  View.cover_of_tiledL (kernelRun0_B c i arg3 harg3 arg4 harg4 arg5 harg5 arg6 harg6 arg7 harg7 arg8 harg8 hc0 hc1 x0 x1 xs0 xs1).2.1 S512x512.size (by sl_kernel_rfl) y

def sout0_B_0 (hc0 : ¬cond0_0 i) (hc1 : ¬cond0_1 i) (x0 x1 xs0 xs1 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 hc0 hc1 x0 x1 xs0 xs1).1)
def sout0_B_1 (hc0 : ¬cond0_0 i) (hc1 : ¬cond0_1 i) (x0 x1 xs0 xs1 : Vec F S512x512 .f32) : Vec F S512x512 .f32 :=
  VS0_1.read (Elt F) (VS0_1.writes (Elt F) VS0_1.junk (kernelRun0_B c i arg3 harg3 arg4 harg4 arg5 harg5 arg6 harg6 arg7 harg7 arg8 harg8 hc0 hc1 x0 x1 xs0 xs1).2.1)

theorem cover0_C_2 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).1, y ∈ pc.1.set :=
  View.cover_of_tiledL (kernelRun0_C c i arg3 harg3 arg4 harg4 arg5 harg5 arg6 harg6 arg7 harg7 arg8 harg8 hc0 hc1 x0 x1 xs0 xs1).1 S512x512.size (by sl_kernel_rfl) y
theorem cover0_C_3 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.1, y ∈ pc.1.set :=
  View.cover_of_tiledL (kernelRun0_C c i arg3 harg3 arg4 harg4 arg5 harg5 arg6 harg6 arg7 harg7 arg8 harg8 hc0 hc1 x0 x1 xs0 xs1).2.1 S512x512.size (by sl_kernel_rfl) y
theorem scover0_C_0 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.2.1, y ∈ pc.1.set :=
  View.cover_of_tiledL (kernelRun0_C c i arg3 harg3 arg4 harg4 arg5 harg5 arg6 harg6 arg7 harg7 arg8 harg8 hc0 hc1 x0 x1 xs0 xs1).2.2.1 S512x512.size (by sl_kernel_rfl) y
theorem scover0_C_1 (hc0 : ¬cond0_0 i) (hc1 : cond0_1 i) (x0 x1 xs0 xs1 : Vec F S512x512 .f32) (y : S512x512.Idx) :
    ∃ pc ∈ (kernelRun0_C c i arg3 harg3 arg4 harg4 arg5 harg5 arg6 harg6 arg7 harg7 arg8 harg8 hc0 hc1 x0 x1 xs0 xs1).2.2.2.1, y ∈ pc.1.set :=
  View.cover_of_tiledL (kernelRun0_C c i arg3 harg3 arg4 harg4 arg5 harg5 arg6 harg6 arg7 harg7 arg8 harg8 hc0 hc1 x0 x1 xs0 xs1).2.2.2.1 S512x512.size (by sl_kernel_rfl) y

def out0_C_2 (hc0 : ¬cond0_0 i) (hc1 : cond0_1 i) (x0 x1 xs0 xs1 : Vec F S512x512 .f32) : Vec F S512x512 .f32 :=
  VO0_2.read (Elt F) (VO0_2.writes (Elt F) VO0_2.junk (kernelRun0_C c i arg3 harg3 arg4 harg4 arg5 harg5 arg6 harg6 arg7 harg7 arg8 harg8 hc0 hc1 x0 x1 xs0 xs1).1)
def out0_C_3 (hc0 : ¬cond0_0 i) (hc1 : cond0_1 i) (x0 x1 xs0 xs1 : Vec F S512x512 .f32) : Vec F S512x512 .f32 :=
  VO0_3.read (Elt F) (VO0_3.writes (Elt F) VO0_3.junk (kernelRun0_C c i arg3 harg3 arg4 harg4 arg5 harg5 arg6 harg6 arg7 harg7 arg8 harg8 hc0 hc1 x0 x1 xs0 xs1).2.1)
def sout0_C_0 (hc0 : ¬cond0_0 i) (hc1 : cond0_1 i) (x0 x1 xs0 xs1 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 hc0 hc1 x0 x1 xs0 xs1).2.2.1)
def sout0_C_1 (hc0 : ¬cond0_0 i) (hc1 : cond0_1 i) (x0 x1 xs0 xs1 : Vec F S512x512 .f32) : Vec F S512x512 .f32 :=
  VS0_1.read (Elt F) (VS0_1.writes (Elt F) VS0_1.junk (kernelRun0_C c i arg3 harg3 arg4 harg4 arg5 harg5 arg6 harg6 arg7 harg7 arg8 harg8 hc0 hc1 x0 x1 xs0 xs1).2.2.2.1)

end Cases

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def idleO : Vec F S512x512 .f32 := VO0_2.read (Elt F) VO0_2.junk

def outsAt0 (c : Dev nD) : (n : ℕ) → n < cfg0.N → Vec F S512x512 .f32 × Vec F S512x512 .f32 × Vec F S512x512 .f32 × Vec F S512x512 .f32
  | 0, hn => (idleO, idleO,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      (idleO, idleO,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (idleO, idleO,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

abbrev prevLt (t : Fin cfg0.N) : t.val - 1 < cfg0.N := Nat.lt_of_le_of_lt (Nat.sub_le _ _) t.isLt

theorem outsAt0_A (c : Dev nD) (t : Fin cfg0.N) (h0 : t.val % 4 = 0) (h1 : ¬t.val % 4 = 3) :
    outsAt0 V c t.val t.isLt = (idleO, idleO,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleO, idleO,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (prevLt t)).2.2.1 (outsAt0 V c (t.val - 1) (prevLt t)).2.2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (prevLt t)).2.2.1 (outsAt0 V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt =
     (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (prevLt t)).2.2.1 (outsAt0 V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

abbrev restBut (c : Dev nD) : sProp 𝕄 :=
  Pipeline.scopedRestBut (Ix := Unit) (Name := ℕ) (U := UR sig nD τ) (Lvl := ℕ) (Val := Elt F) spec0 c [cc0_scratch0, cc0_scratch1]

def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ restBut c ∗ (∃ r, prngReg c r))
  | n + 1, hn => iprop(owns (c : Thread nD τ) scM0_0 fullShare (outsAt0 V c n hn).2.2.1 ∗ owns (c : Thread nD τ) scM0_1 fullShare (outsAt0 V c n hn).2.2.2 ∗ restBut c ∗ (∃ r, prngReg c r))

theorem PhiS_zero (c : Dev nD) (n : ℕ) (h : n ≤ cfg0.N) (hz : n = 0) :
    PhiS V c n h = iprop((∃ d, owns (c : Thread nD τ) scM0_0 fullShare d) ∗ (∃ d, owns (c : Thread nD τ) scM0_1 fullShare d) ∗ restBut c ∗ (∃ r, prngReg c r)) := by
  subst hz; rfl

theorem PhiS_succ (c : Dev nD) (n : ℕ) (hn : n < cfg0.N) :
    PhiS V c (n + 1) hn = iprop(owns (c : Thread nD τ) scM0_0 fullShare (outsAt0 V c n hn).2.2.1 ∗ owns (c : Thread nD τ) scM0_1 fullShare (outsAt0 V c n hn).2.2.2 ∗ restBut c ∗ (∃ r, prngReg c r)) := rfl

theorem PhiS_pos (c : Dev nD) (n : ℕ) (h : n ≤ cfg0.N) (hz : n ≠ 0) :
    PhiS V c n h = iprop(owns (c : Thread nD τ) scM0_0 fullShare (outsAt0 V c (n - 1) (by omega)).2.2.1 ∗ owns (c : Thread nD τ) scM0_1 fullShare (outsAt0 V c (n - 1) (by omega)).2.2.2 ∗ restBut c ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem arrAt_in0 (c : Dev nD) (w : Fin cfg0.W) (hw : (cfg0.win w).isOut = false) (n : ℕ) :
    (dat0 V c).arrAt w n = V c (Pipeline.arrRef spec0 w) :=
  ((dat0 V c).arrAt_in w hw n).trans (A_eq0 V c w)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases h0 : t.val % 4 = 0
  · have h1 : ¬t.val % 4 = 3 := by omega
    rw [Dat.leavesExact_idle (dat0 V c) 2 t (idleAt0_2 t h1) (noFlush0_2 t h1)]
    rw [Dat.leavesExact_idle (dat0 V c) 3 t (idleAt0_3 t h1) (noFlush0_3 t h1)]
    rw [outsAt0_A V c t h0 h1]
    unfold sout0_A_0 sout0_A_1; (try dsimp only)
    by_cases hz : t.val = 0
    · rw [PhiS_castSucc V c t, PhiS_zero V c _ _ hz]
      iintro ⟨⟨HS0, HS1, HR, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t h1], after0_2]
      rw [show (dat0 V c).leavesExact 3 t = owns (c : Thread nD τ) (ms0_3 t) fullShare ((dat0 V c).after 3 t) from by
        unfold Dat.leavesExact; rw [liveAt0_3 t h1], after0_3]
      rw [outsAt0_C V c t h0 h1]
      unfold out0_C_2 out0_C_3 sout0_C_0 sout0_C_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_C_0 c _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [Dat.leavesExact_idle (dat0 V c) 2 t (idleAt0_2 t h1) (noFlush0_2 t h1)]
      rw [Dat.leavesExact_idle (dat0 V c) 3 t (idleAt0_3 t h1) (noFlush0_3 t h1)]
      rw [outsAt0_B V c t h0 h1]
      unfold sout0_B_0 sout0_B_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

theorem Phi0_in (c : Dev nD) :
    iprop((∃ r, prngReg c r) ∗ (Pipeline.scopedRest (Ix := Unit) (Name := ℕ) (U := UR sig nD τ) (Lvl := ℕ) (Val := Elt F) spec0 c : sProp 𝕄))
      ⊢ (dat0 V c).Φ 0 := by
  rw [show (dat0 V c).Φ 0 = PhiS V c 0 (Nat.zero_le _) from rfl, PhiS_zero V c 0 _ rfl, scopedRest0_split]
  simp only [scM0_0, scM0_1, owns_whole]
  iintro ⟨Hg, ⟨HS0, HS1⟩, HR⟩
  isplitl [HS0]; · iexact HS0
  isplitl [HS1]; · iexact HS1
  isplitl [HR]; · iexact HR
  iexact Hg

theorem Phi0_out (c : Dev nD) :
    (dat0 V c).Φ (Fin.last cfg0.N)
      ⊢ iprop((∃ r, prngReg c r) ∗ (Pipeline.scopedRest (Ix := Unit) (Name := ℕ) (U := UR sig nD τ) (Lvl := ℕ) (Val := Elt F) spec0 c : sProp 𝕄)) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), scopedRest0_split]
  simp only [scM0_0, scM0_1, owns_whole]
  iintro ⟨HS0, HS1, HR, Hg⟩
  isplitl [Hg]; · iexact Hg
  isplitl [HS0 HS1]
  · isplitl [HS0]
    · iexists _; iexact HS0
    iexists _; iexact HS1
  iexact HR

end Region

end Cert.KernelIdeal.R0

end
-- ==== Proof.Region1Body.lean ====
import proofs.«418543_j27023934227041_3_alg».proof.Proof.Gen.KernelIdeal.Launch
import proofs.«418543_j27023934227041_3_alg».proof.Proof.Gen.KernelIdeal.Skeleton
import proofs.«418543_j27023934227041_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirst (i : grid1.Coords) : Prop :=
  (Scalar.cmpi .ne (Scalar.extui (Scalar.cmpi .eq (BitVec.ofNat 32 (i 1).val) 0#32)) 0#32) = 1#1

theorem isFirst_iff : ∀ t : Fin cfg1.N, isFirst (grid1.coords t) ↔ t.val % 16 = 0 :=
  (by decide +kernel : ∀ t : Fin grid1.N, isFirst (grid1.coords t) ↔ t.val % 16 = 0)

section Cases

variable (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole)

set_option maxHeartbeats 1000000 in
noncomputable def runFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) :
    { L : List (View.Piece (Elt F) S1x2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
                ∗ (∃ f, a7.view.loc (c : Thread nD τ) ↦[a7.view.set]{fullShare} a7.view.writes (Elt F) f L)) -∗ K ⟨⟩))
          ⊢ wp frame (wpE (defs₀ (F := F)) Variants.none c none) E (cc1__kernel_a i a0 w0 a1 w1 a2 w2 a3 w3 a4 w4 a5 w5 a6 w6 a7 w7) K } := by
  refine ⟨?_, fun E K => ?run⟩
  case run =>
    simp only [cc1__kernel_a_eq_skeleton]; unfold cc1__kernel_a_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := w6.eq_unread hf6
    sl_exec (disch := first | exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    iexists _; iexact H7

set_option maxHeartbeats 1000000 in
noncomputable def runLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) :
    { L : List (View.Piece (Elt F) S1x2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
                ∗ (∃ f, a7.view.loc (c : Thread nD τ) ↦[a7.view.set]{fullShare} a7.view.writes (Elt F) f L)) -∗ K ⟨⟩))
          ⊢ wp frame (wpE (defs₀ (F := F)) Variants.none c none) E (cc1__kernel_a i a0 w0 a1 w1 a2 w2 a3 w3 a4 w4 a5 w5 a6 w6 a7 w7) K } := by
  refine ⟨?_, fun E K => ?run⟩
  case run =>
    simp only [cc1__kernel_a_eq_skeleton]; unfold cc1__kernel_a_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := w0.eq_unread hf0; obtain rfl := w1.eq_unread hf1; obtain rfl := w2.eq_unread hf2; obtain rfl := w3.eq_unread hf3
    obtain rfl := w4.eq_unread hf4; obtain rfl := w5.eq_unread hf5; obtain rfl := w6.eq_unread hf6; obtain rfl := w7.eq_unread hf7
    sl_exec (disch := first | exact hc)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    iexists _; iexact H7

end Cases

section Region

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

abbrev sm0 (t : Fin cfg1.N) : Memref sig .tc .vmem S2x1024 .i32 := win1_0.stage (cfg1.slots t 0)
abbrev sw0 (t : Fin cfg1.N) : (sm0 t).IsWhole := hstage1_0 ((cfg1.slots t 0).cast nbuf1_0)
abbrev sm1 (t : Fin cfg1.N) : Memref sig .tc .vmem S1024x5 .f32 := win1_1.stage (cfg1.slots t 1)
abbrev sw1 (t : Fin cfg1.N) : (sm1 t).IsWhole := hstage1_1 ((cfg1.slots t 1).cast nbuf1_1)
abbrev sm2 (t : Fin cfg1.N) : Memref sig .tc .vmem S2048x256 .bf16 := win1_2.stage (cfg1.slots t 2)
abbrev sw2 (t : Fin cfg1.N) : (sm2 t).IsWhole := hstage1_2 ((cfg1.slots t 2).cast nbuf1_2)
abbrev sm3 (t : Fin cfg1.N) : Memref sig .tc .vmem S260x128 .bf16 := win1_3.stage (cfg1.slots t 3)
abbrev sw3 (t : Fin cfg1.N) : (sm3 t).IsWhole := hstage1_3 ((cfg1.slots t 3).cast nbuf1_3)
abbrev sm4 (t : Fin cfg1.N) : Memref sig .tc .vmem S128 .f32 := win1_4.stage (cfg1.slots t 4)
abbrev sw4 (t : Fin cfg1.N) : (sm4 t).IsWhole := hstage1_4 ((cfg1.slots t 4).cast nbuf1_4)
abbrev sm5 (t : Fin cfg1.N) : Memref sig .tc .vmem S128x128 .bf16 := win1_5.stage (cfg1.slots t 5)
abbrev sw5 (t : Fin cfg1.N) : (sm5 t).IsWhole := hstage1_5 ((cfg1.slots t 5).cast nbuf1_5)
abbrev sm6 (t : Fin cfg1.N) : Memref sig .tc .vmem S128 .f32 := win1_6.stage (cfg1.slots t 6)
abbrev sw6 (t : Fin cfg1.N) : (sm6 t).IsWhole := hstage1_6 ((cfg1.slots t 6).cast nbuf1_6)
abbrev sm7 (t : Fin cfg1.N) : Memref sig .tc .vmem S1x2048x128 .f32 := win1_7.stage (cfg1.slots t 7)
abbrev sw7 (t : Fin cfg1.N) : (sm7 t).IsWhole := hstage1_7 ((cfg1.slots t 7).cast nbuf1_7)

abbrev accView : View sig .tc .vmem S1x2048x128 .f32 := (Memref.whole cc1_stg7_0 : Memref sig .tc .vmem S1x2048x128 .f32).view

section Cases

variable (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole)

theorem coverFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (y : S1x2048x128.Idx) :
    ∃ pc ∈ (runFirst c i a0 w0 a1 w1 a2 w2 a3 w3 a4 w4 a5 w5 a6 w6 a7 w7 hc x0 x1 x2 x3 x4 x5 x6).1, y ∈ pc.1.set :=
  View.cover_of_tiledL (runFirst c i a0 w0 a1 w1 a2 w2 a3 w3 a4 w4 a5 w5 a6 w6 a7 w7 hc x0 x1 x2 x3 x4 x5 x6).1 S1x2048x128.size (by sl_kernel_rfl) y

def accFirst (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) : Vec F S1x2048x128 .f32 :=
  accView.read (Elt F) (accView.writes (Elt F) accView.junk (runFirst c i a0 w0 a1 w1 a2 w2 a3 w3 a4 w4 a5 w5 a6 w6 a7 w7 hc x0 x1 x2 x3 x4 x5 x6).1)

theorem coverLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) (y : S1x2048x128.Idx) :
    ∃ pc ∈ (runLater c i a0 w0 a1 w1 a2 w2 a3 w3 a4 w4 a5 w5 a6 w6 a7 w7 hc x0 x1 x2 x3 x4 x5 x6 xo).1, y ∈ pc.1.set :=
  View.cover_of_tiledL (runLater c i a0 w0 a1 w1 a2 w2 a3 w3 a4 w4 a5 w5 a6 w6 a7 w7 hc x0 x1 x2 x3 x4 x5 x6 xo).1 S1x2048x128.size (by sl_kernel_rfl) y

def accLater (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) : Vec F S1x2048x128 .f32 :=
  accView.read (Elt F) (accView.writes (Elt F) accView.junk (runLater c i a0 w0 a1 w1 a2 w2 a3 w3 a4 w4 a5 w5 a6 w6 a7 w7 hc x0 x1 x2 x3 x4 x5 x6 xo).1)

end Cases

def accAt (c : Dev nD) : (n : ℕ) → n < cfg1.N → Vec F S1x2048x128 .f32
  | 0, hn => accFirst c (grid1.coords ⟨0, hn⟩) (sm0 ⟨0, hn⟩) (sw0 ⟨0, hn⟩) (sm1 ⟨0, hn⟩) (sw1 ⟨0, hn⟩) (sm2 ⟨0, hn⟩) (sw2 ⟨0, hn⟩) (sm3 ⟨0, hn⟩) (sw3 ⟨0, hn⟩) (sm4 ⟨0, hn⟩) (sw4 ⟨0, hn⟩) (sm5 ⟨0, hn⟩) (sw5 ⟨0, hn⟩) (sm6 ⟨0, hn⟩) (sw6 ⟨0, hn⟩) (sm7 ⟨0, hn⟩) (sw7 ⟨0, hn⟩) ((isFirst_iff ⟨0, hn⟩).mpr (Nat.zero_mod _)) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩)
  | n + 1, hn =>
    if h0 : (n + 1) % 16 = 0 then
      accFirst c (grid1.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (sm5 ⟨n + 1, hn⟩) (sw5 ⟨n + 1, hn⟩) (sm6 ⟨n + 1, hn⟩) (sw6 ⟨n + 1, hn⟩) (sm7 ⟨n + 1, hn⟩) (sw7 ⟨n + 1, hn⟩) ((isFirst_iff ⟨n + 1, hn⟩).mpr h0) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩)
    else
      accLater c (grid1.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (sm5 ⟨n + 1, hn⟩) (sw5 ⟨n + 1, hn⟩) (sm6 ⟨n + 1, hn⟩) (sw6 ⟨n + 1, hn⟩) (sm7 ⟨n + 1, hn⟩) (sw7 ⟨n + 1, hn⟩) (fun h => h0 ((isFirst_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn))

theorem accAt_first (c : Dev nD) (t : Fin cfg1.N) (h0 : t.val % 16 = 0) :
    accAt V c t.val t.isLt = accFirst c (grid1.coords t) (sm0 t) (sw0 t) (sm1 t) (sw1 t) (sm2 t) (sw2 t) (sm3 t) (sw3 t) (sm4 t) (sw4 t) (sm5 t) (sw5 t) (sm6 t) (sw6 t) (sm7 t) (sw7 t) ((isFirst_iff t).mpr h0) (blk V c 0 t) (blk V c 1 t) (blk V c 2 t) (blk V c 3 t) (blk V c 4 t) (blk V c 5 t) (blk V c 6 t) := by
  obtain ⟨n, hn⟩ := t
  cases n with
  | zero => exact rfl
  | succ n => exact (dif_pos h0).trans rfl

theorem accAt_later (c : Dev nD) (t : Fin cfg1.N) (h0 : ¬t.val % 16 = 0) :
    accAt V c t.val t.isLt = accLater c (grid1.coords t) (sm0 t) (sw0 t) (sm1 t) (sw1 t) (sm2 t) (sw2 t) (sm3 t) (sw3 t) (sm4 t) (sw4 t) (sm5 t) (sw5 t) (sm6 t) (sw6 t) (sm7 t) (sw7 t) (fun h => h0 ((isFirst_iff t).mp h)) (blk V c 0 t) (blk V c 1 t) (blk V c 2 t) (blk V c 3 t) (blk V c 4 t) (blk V c 5 t) (blk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after_in0 (c : Dev nD) (t : Fin cfg1.N) : (dat1 V c).after 0 t = blk V c 0 t := by dsimp only [dat1]
theorem after_in1 (c : Dev nD) (t : Fin cfg1.N) : (dat1 V c).after 1 t = blk V c 1 t := by dsimp only [dat1]
theorem after_in2 (c : Dev nD) (t : Fin cfg1.N) : (dat1 V c).after 2 t = blk V c 2 t := by dsimp only [dat1]
theorem after_in3 (c : Dev nD) (t : Fin cfg1.N) : (dat1 V c).after 3 t = blk V c 3 t := by dsimp only [dat1]
theorem after_in4 (c : Dev nD) (t : Fin cfg1.N) : (dat1 V c).after 4 t = blk V c 4 t := by dsimp only [dat1]
theorem after_in5 (c : Dev nD) (t : Fin cfg1.N) : (dat1 V c).after 5 t = blk V c 5 t := by dsimp only [dat1]
theorem after_in6 (c : Dev nD) (t : Fin cfg1.N) : (dat1 V c).after 6 t = blk V c 6 t := by dsimp only [dat1]
theorem after_out (c : Dev nD) (t : Fin cfg1.N) : (dat1 V c).after 7 t = accAt V c t.val t.isLt := by dsimp only [dat1]

theorem before_in0 (c : Dev nD) (t : Fin cfg1.N) (d) : (dat1 V c).before 0 t d = blk V c 0 t :=
  before_in0_of V (dat1 V c) (A_eq1 V c 0) (after_in0 V c) t d
theorem before_in1 (c : Dev nD) (t : Fin cfg1.N) (d) : (dat1 V c).before 1 t d = blk V c 1 t :=
  before_in1_of V (dat1 V c) (A_eq1 V c 1) (after_in1 V c) t d
theorem before_in2 (c : Dev nD) (t : Fin cfg1.N) (d) : (dat1 V c).before 2 t d = blk V c 2 t :=
  before_in2_of V (dat1 V c) (A_eq1 V c 2) (after_in2 V c) t d
theorem before_in3 (c : Dev nD) (t : Fin cfg1.N) (d) : (dat1 V c).before 3 t d = blk V c 3 t :=
  before_in3_of V (dat1 V c) (A_eq1 V c 3) (after_in3 V c) t d
theorem before_in4 (c : Dev nD) (t : Fin cfg1.N) (d) : (dat1 V c).before 4 t d = blk V c 4 t :=
  before_in4_of V (dat1 V c) (A_eq1 V c 4) (after_in4 V c) t d
theorem before_in5 (c : Dev nD) (t : Fin cfg1.N) (d) : (dat1 V c).before 5 t d = blk V c 5 t :=
  before_in5_of V (dat1 V c) (A_eq1 V c 5) (after_in5 V c) t d
theorem before_in6 (c : Dev nD) (t : Fin cfg1.N) (d) : (dat1 V c).before 6 t d = blk V c 6 t :=
  before_in6_of V (dat1 V c) (A_eq1 V c 6) (after_in6 V c) t d

theorem before_out_later (c : Dev nD) (t : Fin cfg1.N) (h0 : ¬t.val % 16 = 0) (d) :
    (dat1 V c).before 7 t d = accAt V c (t.val - 1) (Nat.lt_of_le_of_lt (Nat.sub_le _ _) t.isLt) := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre (c : Dev nD) (t : Fin cfg1.N) : sProp 𝕄 :=
  iprop((dat1 V c).Φ t.castSucc ∗ (dat1 V c).owesAt () t.castSucc
    ∗ (∃ d, owns (c : Thread nD τ) (sm0 t) fullShare ((dat1 V c).before 0 t d))
    ∗ (∃ d, owns (c : Thread nD τ) (sm1 t) fullShare ((dat1 V c).before 1 t d))
    ∗ (∃ d, owns (c : Thread nD τ) (sm2 t) fullShare ((dat1 V c).before 2 t d))
    ∗ (∃ d, owns (c : Thread nD τ) (sm3 t) fullShare ((dat1 V c).before 3 t d))
    ∗ (∃ d, owns (c : Thread nD τ) (sm4 t) fullShare ((dat1 V c).before 4 t d))
    ∗ (∃ d, owns (c : Thread nD τ) (sm5 t) fullShare ((dat1 V c).before 5 t d))
    ∗ (∃ d, owns (c : Thread nD τ) (sm6 t) fullShare ((dat1 V c).before 6 t d))
    ∗ (∃ d, owns (c : Thread nD τ) (sm7 t) fullShare ((dat1 V c).before 7 t d)))

def bodyPost (c : Dev nD) (t : Fin cfg1.N) : sProp 𝕄 :=
  iprop((dat1 V c).Φ t.succ ∗ (dat1 V c).owesAt () t.succ
    ∗ owns (c : Thread nD τ) (sm0 t) fullShare ((dat1 V c).after 0 t)
    ∗ owns (c : Thread nD τ) (sm1 t) fullShare ((dat1 V c).after 1 t)
    ∗ owns (c : Thread nD τ) (sm2 t) fullShare ((dat1 V c).after 2 t)
    ∗ owns (c : Thread nD τ) (sm3 t) fullShare ((dat1 V c).after 3 t)
    ∗ owns (c : Thread nD τ) (sm4 t) fullShare ((dat1 V c).after 4 t)
    ∗ owns (c : Thread nD τ) (sm5 t) fullShare ((dat1 V c).after 5 t)
    ∗ owns (c : Thread nD τ) (sm6 t) fullShare ((dat1 V c).after 6 t)
    ∗ owns (c : Thread nD τ) (sm7 t) fullShare ((dat1 V c).after 7 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5, before_in6]
  rw [show (dat1 V c).Φ t.succ = (dat1 V c).Φ t.castSucc from rfl,
    show (dat1 V c).owesAt () t.succ = (dat1 V c).owesAt () t.castSucc from rfl,
    after_in0, after_in1, after_in2, after_in3, after_in4, after_in5, after_in6, after_out]
  have hN : t.val < 32 := lt_of_lt_of_eq t.isLt (show cfg1.N = 32 from N_1)
  by_cases h0 : t.val % 16 = 0
  · rw [accAt_first V c t h0]
    unfold accFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid1.coords t) _ _ _ _ _ _ _ _ _ _ _ _ _ _ _ _ ((isFirst_iff t).mpr h0) (blk V c 0 t) (blk V c 1 t) (blk V c 2 t) (blk V c 3 t) (blk V c 4 t) (blk V c 5 t) (blk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _)
  · rw [accAt_later V c t h0]
    simp only [before_out_later V c t h0]
    unfold accLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid1.coords t) _ _ _ _ _ _ _ _ _ _ _ _ _ _ _ _ (fun h => h0 ((isFirst_iff t).mp h)) (blk V c 0 t) (blk V c 1 t) (blk V c 2 t) (blk V c 3 t) (blk V c 4 t) (blk V c 5 t) (blk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLater c _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body V c t

end Region

end Cert.KernelIdeal.R1

end
-- ==== Proof.Region2Body.lean ====
import proofs.«418543_j27023934227041_3_alg».proof.Proof.Gen.KernelIdeal.Launch
import proofs.«418543_j27023934227041_3_alg».proof.Proof.Gen.KernelIdeal.Skeleton
import proofs.«418543_j27023934227041_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rN : Rect S1024x128 := Rect.unit (s := S1024x128) ![0, 0] S1024x128.size inb_S1024x128_S1024x128_0_0

abbrev rA0 : Rect S2x1024x128 := Rect.unit (s := S2x1024x128) ![0, 0, 0] S1x1024x128.size inb_S2x1024x128_S1x1024x128_0_0_0
abbrev rA1 : Rect S2x1024x128 := Rect.unit (s := S2x1024x128) ![1, 0, 0] S1x1024x128.size inb_S2x1024x128_S1x1024x128_1_0_0

abbrev rS : Rect S1024x3 := Rect.unit (s := S1024x3) ![0, 0] S1024x3.size inb_S1024x3_S1024x3_0_0

abbrev rW : Rect S128x128 := Rect.unit (s := S128x128) ![0, 0] S128x128.size inb_S128x128_S128x128_0_0
abbrev rW9 : Rect S129x128 := Rect.unit (s := S129x128) ![0, 0] S129x128.size inb_S129x128_S129x128_0_0
abbrev rB : Rect S128 := Rect.unit (s := S128) ![0] S128.size inb_S128_S128_0

def out2_11 (x0 : Vec F S1024x128 .f32) (x1 : Vec F S2x1024x128 .f32) (x2 : Vec F S1024x3 .f32) (x3 : Vec F S128x128 .bf16)
    (x4 : Vec F S128 .f32) (x5 : Vec F S128x128 .bf16) (x6 : Vec F S128 .f32) : Vec F S1024x128 .f32 :=
  View.canon [⟨rN, k2_pay5 (View.ld x0 rN) (View.ld x1 rA0) (View.ld x1 rA1) (View.ld x2 rS) (View.ld x3 rW) (View.ld x4 rB) (View.ld x5 rW) (View.ld x6 rB)⟩]

def out2_12 (x1 : Vec F S2x1024x128 .f32) (x2 : Vec F S1024x3 .f32) (x7 : Vec F S129x128 .bf16) (x8 : Vec F S128 .f32)
    (x9 : Vec F S128x128 .bf16) (x10 : Vec F S128 .f32) : Vec F S1024x128 .f32 :=
  View.canon [⟨rN, k2_pay1 (k2_pay3 (View.ld x1 rA0) (View.ld x1 rA1) (View.ld x2 rS)) (k2_pay4 (View.ld x2 rS)) (View.ld x7 rW9) (View.ld x8 rB) (View.ld x9 rW) (View.ld x10 rB)⟩]

theorem cover2 (p0 : Vec F S1024x128 .f32) (y : S1024x128.Idx) :
    ∃ pc ∈ ([⟨rN, p0⟩] : List (View.Piece (Elt F) S1024x128 .f32)), y ∈ pc.1.set :=
  View.cover_of_tiled [⟨rN, p0⟩] S1024x128.size (by rfl) y

set_option maxHeartbeats 4000000 in
theorem sound_kernel2 (c : Dev nD) (E : Set ℕ) (i : grid2.Coords) (arg1 : Memref sig .tc .vmem S1024x128 .f32) (harg1 : arg1.IsWhole) (arg2 : Memref sig .tc .vmem S2x1024x128 .f32) (harg2 : arg2.IsWhole) (arg3 : Memref sig .tc .vmem S1024x3 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S129x128 .bf16) (harg8 : arg8.IsWhole) (arg9 : Memref sig .tc .vmem S128 .f32) (harg9 : arg9.IsWhole) (arg10 : Memref sig .tc .vmem S128x128 .bf16) (harg10 : arg10.IsWhole) (arg11 : Memref sig .tc .vmem S128 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S2x1024x128 .f32) (x2 : Vec F S1024x3 .f32) (x3 : Vec F S128x128 .bf16) (x4 : Vec F S128 .f32) (x5 : Vec F S128x128 .bf16) (x6 : Vec F S128 .f32) (x7 : Vec F S129x128 .bf16) (x8 : Vec F S128 .f32) (x9 : Vec F S128x128 .bf16) (x10 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6) ∗ owns (c : Thread nD τ) arg13 fullShare (out2_12 x1 x2 x7 x8 x9 x10)) -∗ K ⟨⟩))
      ⊢ wp frame (wpE (defs₀ (F := F)) Variants.none c none) E (cc2__kernel_b i arg1 harg1 arg2 harg2 arg3 harg3 arg4 harg4 arg5 harg5 arg6 harg6 arg7 harg7 arg8 harg8 arg9 harg9 arg10 harg10 arg11 harg11 arg12 harg12 arg13 harg13) K := by
  simp only [cc2__kernel_b_eq_skeleton]; unfold cc2__kernel_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover2 _)
  iexists _; isplitr
  swap; · iexact H12
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t)
    | ⟨12, _⟩ => out2_12 (iblk2 V c 1 t) (iblk2 V c 2 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t
    = out2_11 (iblk2 V c 0 t) (iblk2 V c 1 t) (iblk2 V c 2 t) (iblk2 V c 3 t) (iblk2 V c 4 t) (iblk2 V c 5 t) (iblk2 V c 6 t) := by dsimp only [dat2]
theorem after2_12 (c : Dev nD) (t : Fin cfg2.N) : (dat2 V c).after 12 t
    = out2_12 (iblk2 V c 1 t) (iblk2 V c 2 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl)
    (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (fun _ => rfl) (fun _ _ _ => rfl)
    (fun t => by rw [after2_9]; unfold Dat.blockOf iblk2; rw [A_eq2]; try rfl) t d).trans
    (by unfold Dat.fetched Dat.blockOf iblk2; rw [A_eq2]; try rfl)
theorem before2_10 (c : Dev nD) (t : Fin cfg2.N) (d) : (dat2 V c).before 10 t d = iblk2 V c 10 t :=
  ((dat2 V c).before_in_eq_fetched 10 rfl (fun _ => rfl) (fun _ _ _ => rfl)
    (fun t => by rw [after2_10]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation2 (c : Dev nD) : BodyObligation (dat2 (F := F) V c) (defs₀ (F := F)) Variants.none () Set.univ := fun t => by
  rw [bigSep_W2, bigSep_W2]
  exact sound_body2 V c t

end Cert.KernelIdeal.R2

end
-- ==== Proof.KIShare0.lean ====
import proofs.«418543_j27023934227041_3_alg».proof.Proof.Gen.KernelIdeal.Launch
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

theorem arrays0_eq {c : Dev nD} (dat : Dat τ (Elt F) Unit ℕ (UR sig nD τ) ℕ cfg0 c)
    (hs0 : dat.share 0 = fullShare.left) (hs1 : dat.share 1 = fullShare.right)
    (hs2 : dat.share 2 = fullShare) (hs3 : dat.share 3 = fullShare)
    (V : (b : Ref sig .tc) → Buf (Elt F) ((c : Thread nD τ).loc b))
    (G : (w : Fin cfg0.W) → Buf (Elt F) ((cfg0.win w).arr.view.loc (c.tc : Thread nD τ)))
    (h0 : G 0 = V main_v21) (h1 : G 1 = V main_v21) (h2 : G 2 = V main_v22_0) (h3 : G 3 = V main_v22_1) :
    (Pipeline.arrBufs (Ix := Unit) (Name := ℕ) (U := UR sig nD τ) (Lvl := ℕ) spec0 c V : sProp 𝕄) = dat.arrays G := by
  unfold Pipeline.arrBufs Dat.arrays

  have hset : ∀ w : Fin cfg0.W,
      (((cfg0.win w).arr.view.loc (c.tc : Thread nD τ)) ↦[(cfg0.win w).arr.view.set]{dat.share w} G w : sProp 𝕄)
        = (((cfg0.win w).arr.view.loc (c.tc : Thread nD τ)) ↦{dat.share w} G w) := fun w => by
    rw [(arr_whole0 w).set_eq_univ]
  rw [bigSep_congr (fun w _ => hset w), bigSep_W0]
  have himg : Finset.univ.image (Pipeline.arrRef spec0) = ({main_v21, main_v22_0, main_v22_1} : Finset (Ref sig .tc)) := by decide
  rw [himg, bigSep_insert (by decide), bigSep_insert (by decide), bigSep_singleton]
  rw [hs0, hs1, hs2, hs3, h0, h1, h2, h3]

  have hsh : (((c.tc : Thread nD τ).loc main_v21) ↦{fullShare} V main_v21 : sProp 𝕄)
      = iprop((((c.tc : Thread nD τ).loc main_v21) ↦{fullShare.left} V main_v21)
          ∗ (((c.tc : Thread nD τ).loc main_v21) ↦{fullShare.right} V main_v21)) :=
    Entails.antisymm (pointsTo_share (PosShare.mem_left_op_right fullShare)).1
      (pointsTo_share (PosShare.mem_left_op_right fullShare)).2
  rw [hsh]
  have h1 : ∀ P Q R : sProp 𝕄, iprop((P ∗ Q) ∗ R) ⊢ iprop(P ∗ Q ∗ R) := fun P Q R => by
    iintro ⟨⟨HP, HQ⟩, HR⟩
    isplitl [HP]; · iexact HP
    isplitl [HQ]; · iexact HQ
    iexact HR
  have h2 : ∀ P Q R : sProp 𝕄, iprop(P ∗ Q ∗ R) ⊢ iprop((P ∗ Q) ∗ R) := fun P Q R => by
    iintro ⟨HP, HQ, HR⟩
    isplitr [HR]
    · isplitl [HP]; · iexact HP
      iexact HQ
    iexact HR
  exact Entails.antisymm (h1 _ _ _) (h2 _ _ _)

end Cert.KernelIdeal.Hand

end
-- ==== Proof.KIRegions.lean ====
import proofs.«418543_j27023934227041_3_alg».proof.Proof.KIRun
import proofs.«418543_j27023934227041_3_alg».proof.Proof.Region0Body
import proofs.«418543_j27023934227041_3_alg».proof.Proof.Region1Body
import proofs.«418543_j27023934227041_3_alg».proof.Proof.Region2Body
import proofs.«418543_j27023934227041_3_alg».proof.Proof.KIShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

abbrev 𝒱₀ : Variants := Variants.none
abbrev L : GSem nD τ sig → Finset Unit := fun _ => ∅
abbrev lv : GSem nD τ sig → Unit → ℕ := fun _ _ => 0

abbrev Rr (c : Dev nD) : sProp 𝕄 :=
  iprop((∃ r, prngReg c r) ∗ ∃ W, owes (c : Thread nD τ) (0 : CellTallies nD τ sig Unit) W)

abbrev VR1 : (c : Dev nD) → (b : Ref sig .tc) → Buf (Elt F) ((c : Thread nD τ).loc b) := fun c b => V1 m c b
abbrev VR2 : (c : Dev nD) → (b : Ref sig .tc) → Buf (Elt F) ((c : Thread nD τ).loc b) := fun c b => V2 m outs c b
abbrev VR5 : (c : Dev nD) → (b : Ref sig .tc) → Buf (Elt F) ((c : Thread nD τ).loc b) := fun c b => V5 m outs c b
abbrev VR6 : (c : Dev nD) → (b : Ref sig .tc) → Buf (Elt F) ((c : Thread nD τ).loc b) := fun c b => V6 m outs c b
abbrev VR7 : (c : Dev nD) → (b : Ref sig .tc) → Buf (Elt F) ((c : Thread nD τ).loc b) := fun c b => V7 m outs c b
abbrev VR8 : (c : Dev nD) → (b : Ref sig .tc) → Buf (Elt F) ((c : Thread nD τ).loc b) := fun c b => V8 m outs c b

def pdats : (p : Fin 3) → (c : Dev nD) → Dat τ (Elt F) Unit ℕ (UR sig nD τ) ℕ (cfgs p) c
  | ⟨0, _⟩ => fun c => R0.dat0 (VR1 m) c
  | ⟨1, _⟩ => fun c => R1.dat1 (VR5 m outs) c
  | ⟨2, _⟩ => fun c => R2.dat2 (VR7 m outs) c

theorem V8_out0 (c : Dev nD) : V8 m outs c main_v84_0 = outs 8 main_v84_0 c := by
  simp only [V8, Function.update_of_ne (StableHlo.devRef_ne_of_ne (by decide : main_v84_0 ≠ main_v84_1) : (Proc.devRef .tc main_v84_0 : DevRef τ sig) ≠ Proc.devRef .tc main_v84_1), Function.update_self]
theorem V8_out1 (c : Dev nD) : V8 m outs c main_v84_1 = outs 8 main_v84_1 c := by
  simp only [V8, Function.update_self]

theorem hF2 (h11 : ∀ c, outs 8 main_v84_0 c = (R2.dat2 (VR7 m outs) c).arrAt 11 cfg2.N)
    (h12 : ∀ c, outs 8 main_v84_1 c = (R2.dat2 (VR7 m outs) c).arrAt 12 cfg2.N) (c : Dev nD) (w : Fin cfg2.W) :
    (pdats m outs 2 c).arrAt w cfg2.N = VR8 m outs c (Pipeline.arrRef spec2 w) := by
  by_cases hw : (cfg2.win w).isOut = false
  · have hne : ∀ w' : Fin cfg2.W, (cfg2.win w').isOut = false →
        Pipeline.arrRef spec2 w' ∉ ([main_v84_0, main_v84_1] : List (Ref sig .tc)) := by decide
    rw [(pdats m outs 2 c).arrAt_in w hw]
    exact (V8_of m outs c _ (hne w hw)).symm
  · have h2 : ∀ w' : Fin cfg2.W, ¬ (cfg2.win w').isOut = false → w' = 11 ∨ w' = 12 := by decide
    rcases h2 w hw with rfl | rfl
    · exact ((h11 c).symm.trans (V8_out0 m outs c).symm)
    · exact ((h12 c).symm.trans (V8_out1 m outs c).symm)

theorem hrest2 (c : Dev nD) : ∀ b, b ∉ Finset.univ.image (Pipeline.arrRef spec2) → VR8 m outs c b = VR7 m outs c b := by
  intro b hb
  refine V8_of m outs c b ?_
  intro hmem
  have h0 : main_v84_0 ∈ Finset.univ.image (Pipeline.arrRef spec2) := by decide
  have h1 : main_v84_1 ∈ Finset.univ.image (Pipeline.arrRef spec2) := by decide
  rcases List.mem_cons.mp hmem with rfl | hmem
  · exact hb h0
  · rcases List.mem_cons.mp hmem with rfl | hmem
    · exact hb h1
    · exact absurd hmem (List.not_mem_nil)

set_option backward.isDefEq.respectTransparency.types false in
def reg2 (h11 : ∀ c, outs 8 main_v84_0 c = (R2.dat2 (VR7 m outs) c).arrAt 11 cfg2.N)
    (h12 : ∀ c, outs 8 main_v84_1 c = (R2.dat2 (VR7 m outs) c).arrAt 12 cfg2.N) :
    RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (VR7 m outs) c).loose
  hwaits := Pipeline.hwaits_of_owed_zero _ _ _ _ L lv 2 fun _ _ => rfl
  pre c := iprop(StableHlo.held (c : Thread nD τ) (Pipeline.ucRefs τ sig) (V7 m outs c) ∗ Rr c)
  post c := iprop(StableHlo.held (c : Thread nD τ) (Pipeline.ucRefs τ sig) (V8 m outs c) ∗ Rr c)
  X c := iprop(∃ r, prngReg c r)
  Y c := iprop(∃ r, prngReg c r)
  Z c := Pipeline.unscopedRest (Ix := Unit) (Name := ℕ) (U := UR sig nD τ) (Lvl := ℕ) spec2 c (VR7 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VR7 m outs c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m outs 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m outs 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VR7 m outs c) (VR8 m outs c) ((pdats m outs 2 c).arrAt · cfg2.N) (hF2 m outs h11 h12 c) (hrest2 m outs c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

theorem V6_out (c : Dev nD) : V6 m outs c main_v79 = outs 6 main_v79 c := by
  simp only [V6, Function.update_self]

theorem hF1 (h79 : ∀ c, outs 6 main_v79 c = (R1.dat1 (VR5 m outs) c).arrAt 7 cfg1.N) (c : Dev nD) (w : Fin cfg1.W) :
    (pdats m outs 1 c).arrAt w cfg1.N = VR6 m outs c (Pipeline.arrRef spec1 w) := by
  by_cases hw : (cfg1.win w).isOut = false
  · have hne : ∀ w' : Fin cfg1.W, (cfg1.win w').isOut = false →
        Pipeline.arrRef spec1 w' ∉ ([main_v79] : List (Ref sig .tc)) := by decide
    rw [(pdats m outs 1 c).arrAt_in w hw]
    exact (V6_of m outs c _ (hne w hw)).symm
  · have h1 : ∀ w' : Fin cfg1.W, ¬ (cfg1.win w').isOut = false → w' = 7 := by decide
    obtain rfl := h1 w hw
    exact ((h79 c).symm.trans (V6_out m outs c).symm)

theorem hrest1 (c : Dev nD) : ∀ b, b ∉ Finset.univ.image (Pipeline.arrRef spec1) → VR6 m outs c b = VR5 m outs c b := by
  intro b hb
  refine V6_of m outs c b ?_
  intro hmem
  have h0 : main_v79 ∈ Finset.univ.image (Pipeline.arrRef spec1) := by decide
  rcases List.mem_cons.mp hmem with rfl | hmem
  · exact hb h0
  · exact absurd hmem (List.not_mem_nil)

set_option backward.isDefEq.respectTransparency.types false in
def reg1 (h79 : ∀ c, outs 6 main_v79 c = (R1.dat1 (VR5 m outs) c).arrAt 7 cfg1.N) :
    RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (VR5 m outs) c).loose
  hwaits := Pipeline.hwaits_of_owed_zero _ _ _ _ L lv 1 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec1 c (VR5 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR5 m outs c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m outs 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m outs 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR5 m outs c) (VR6 m outs c) ((pdats m outs 1 c).arrAt · cfg1.N) (hF1 m outs h79 c) (hrest1 m outs c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

theorem V2_out0 (c : Dev nD) : V2 m outs c main_v22_0 = outs 2 main_v22_0 c := by
  simp only [V2, Function.update_of_ne (StableHlo.devRef_ne_of_ne (by decide : main_v22_0 ≠ main_v22_1) : (Proc.devRef .tc main_v22_0 : DevRef τ sig) ≠ Proc.devRef .tc main_v22_1), Function.update_self]
theorem V2_out1 (c : Dev nD) : V2 m outs c main_v22_1 = outs 2 main_v22_1 c := by
  simp only [V2, Function.update_self]

theorem hrest0 (c : Dev nD) : ∀ b, b ∉ Finset.univ.image (Pipeline.arrRef spec0) → VR2 m outs c b = VR1 m c b := by
  intro b hb
  refine V2_of m outs c b ?_
  intro hmem
  have h0 : main_v22_0 ∈ Finset.univ.image (Pipeline.arrRef spec0) := by decide
  have h1 : main_v22_1 ∈ Finset.univ.image (Pipeline.arrRef spec0) := by decide
  rcases List.mem_cons.mp hmem with rfl | hmem
  · exact hb h0
  · rcases List.mem_cons.mp hmem with rfl | hmem
    · exact hb h1
    · exact absurd hmem (List.not_mem_nil)

theorem share0_0 (V : (c : Dev nD) → (b : Ref sig .tc) → Buf (Elt F) ((c : Thread nD τ).loc b)) (c : Dev nD) :
    (R0.dat0 V c).share 0 = fullShare.left := by
  unfold Dat.share; rw [if_neg (by decide)]; dsimp only [R0.dat0]
theorem share0_1 (V : (c : Dev nD) → (b : Ref sig .tc) → Buf (Elt F) ((c : Thread nD τ).loc b)) (c : Dev nD) :
    (R0.dat0 V c).share 1 = fullShare.right := by
  unfold Dat.share; rw [if_neg (by decide)]; dsimp only [R0.dat0]
theorem share0_2 (V : (c : Dev nD) → (b : Ref sig .tc) → Buf (Elt F) ((c : Thread nD τ).loc b)) (c : Dev nD) :
    (R0.dat0 V c).share 2 = fullShare := by
  unfold Dat.share; rw [if_pos (by decide)]
theorem share0_3 (V : (c : Dev nD) → (b : Ref sig .tc) → Buf (Elt F) ((c : Thread nD τ).loc b)) (c : Dev nD) :
    (R0.dat0 V c).share 3 = fullShare := by
  unfold Dat.share; rw [if_pos (by decide)]
theorem arr0_entry (V : (c : Dev nD) → (b : Ref sig .tc) → Buf (Elt F) ((c : Thread nD τ).loc b)) (c : Dev nD)
    (w : Fin cfg0.W) : (R0.dat0 V c).arrAt w 0 = V c (Pipeline.arrRef spec0 w) := by
  show (R0.dat0 V c).A w = _; dsimp only [R0.dat0]

set_option backward.isDefEq.respectTransparency.types false in
def reg0 (h2 : ∀ c, outs 2 main_v22_0 c = (R0.dat0 (VR1 m) c).arrAt 2 cfg0.N)
    (h3 : ∀ c, outs 2 main_v22_1 c = (R0.dat0 (VR1 m) c).arrAt 3 cfg0.N) :
    RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (R0.body_obligation0 (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    show _ ⊢ |={Set.univ}=> iprop((R0.dat0 (VR1 m) c).arrays ((R0.dat0 (VR1 m) c).arrAt · 0) ∗ _
        ∗ (R0.dat0 (VR1 m) c).owesAt () 0 ∗ _ ∗ _)
    have hsplit := Pipeline.unscopedBufs_split₀ (Ix := Unit) (Name := ℕ) (U := UR sig nD τ) (Lvl := ℕ) (Val := Elt F) cfgs 0
      winFacts₀0.arr_unscoped c (VR1 m c)
    have harr := arrays0_eq (R0.dat0 (VR1 m) c) (share0_0 _ c) (share0_1 _ c) (share0_2 _ c) (share0_3 _ c) (VR1 m c)
      ((R0.dat0 (VR1 m) c).arrAt · 0) (arr0_entry _ c 0) (arr0_entry _ c 1) (arr0_entry _ c 2) (arr0_entry _ c 3)
    rw [Pipeline.unscopedBufs_held] at hsplit
    have hsplit' : StableHlo.held (c : Thread nD τ) (Pipeline.ucRefs τ sig) (V1 m c)
        = iprop((R0.dat0 (VR1 m) c).arrays ((R0.dat0 (VR1 m) c).arrAt · 0)
            ∗ Pipeline.unscopedRest (Ix := Unit) (Name := ℕ) (U := UR sig nD τ) (Lvl := ℕ) spec0 c (VR1 m c)) := by
      rw [← harr]; exact hsplit
    have hent := Entails.of_eq hsplit'
    iintro ⟨⟨Hbufs, Hreg, Howes⟩, -, -⟩
    ihave Hs := hent $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    show _ ⊢ (R0.dat0 (VR1 m) c).Φ 0
    iintro ⟨Hreg, -, Hscoped⟩
    iapply (R0.Phi0_in (VR1 m) c)
    isplitl [Hreg] <;> iassumption
  hout c := by
    rw [Pipeline.ownSems0_none]
    show (R0.dat0 (VR1 m) c).Φ (Fin.last cfg0.N) ⊢ _
    iintro HΦ
    ihave H := (R0.Phi0_out (VR1 m) c) $$ HΦ
    icases H with ⟨Hreg, Hscoped⟩
    isplitl [Hreg]; · iexact Hreg
    isplitr; · iempintro
    iexact Hscoped
  hexit c := by
    show iprop((R0.dat0 (VR1 m) c).arrays ((R0.dat0 (VR1 m) c).arrAt · cfg0.N)
        ∗ (R0.dat0 (VR1 m) c).owesAt () (Fin.last cfg0.N) ∗ _ ∗ _) ⊢ _
    have hsplit := Pipeline.unscopedBufs_split₀ (Ix := Unit) (Name := ℕ) (U := UR sig nD τ) (Lvl := ℕ) (Val := Elt F) cfgs 0
      winFacts₀0.arr_unscoped c (VR2 m outs c)
    have e0 : (R0.dat0 (VR1 m) c).arrAt 0 cfg0.N = VR2 m outs c main_v21 :=
      (R0.arrAt_in0 (VR1 m) c 0 (by decide) _).trans (V2_of m outs c main_v21 (by decide)).symm
    have e1 : (R0.dat0 (VR1 m) c).arrAt 1 cfg0.N = VR2 m outs c main_v21 :=
      (R0.arrAt_in0 (VR1 m) c 1 (by decide) _).trans (V2_of m outs c main_v21 (by decide)).symm
    have e2 : (R0.dat0 (VR1 m) c).arrAt 2 cfg0.N = VR2 m outs c main_v22_0 := (h2 c).symm.trans (V2_out0 m outs c).symm
    have e3 : (R0.dat0 (VR1 m) c).arrAt 3 cfg0.N = VR2 m outs c main_v22_1 := (h3 c).symm.trans (V2_out1 m outs c).symm
    have hrestEq : Pipeline.unscopedRest (Ix := Unit) (Name := ℕ) (U := UR sig nD τ) (Lvl := ℕ) spec0 c (VR2 m outs c)
        = Pipeline.unscopedRest (Ix := Unit) (Name := ℕ) (U := UR sig nD τ) (Lvl := ℕ) spec0 c (VR1 m c) := by
      unfold Pipeline.unscopedRest
      exact bigSep_congr fun b hb => by rw [hrest0 m outs c b (Finset.mem_sdiff.mp hb).2]
    have harr := arrays0_eq (R0.dat0 (VR1 m) c) (share0_0 _ c) (share0_1 _ c) (share0_2 _ c) (share0_3 _ c) (VR2 m outs c)
      ((R0.dat0 (VR1 m) c).arrAt · cfg0.N) e0 e1 e2 e3
    rw [Pipeline.unscopedBufs_held] at hsplit
    have hsplit' : StableHlo.held (c : Thread nD τ) (Pipeline.ucRefs τ sig) (V2 m outs c)
        = iprop((R0.dat0 (VR1 m) c).arrays ((R0.dat0 (VR1 m) c).arrAt · cfg0.N)
            ∗ Pipeline.unscopedRest (Ix := Unit) (Name := ℕ) (U := UR sig nD τ) (Lvl := ℕ) spec0 c (VR1 m c)) := by
      rw [← harr, ← hrestEq]; exact hsplit
    have hback := Entails.of_eq hsplit'.symm
    iintro ⟨Harr, Howes, Hreg, Hrest⟩
    imodintro
    isplitl [Harr Hrest]
    · iapply hback; isplitl [Harr] <;> iassumption
    isplitl [Hreg]; · iexact Hreg
    unfold Pipeline.Dat.owesAt Pipeline.owesWithin
    icases Howes with ⟨%W, -, Howes⟩; iexists W; iexact Howes

end Cert.KernelIdeal.Hand

end
-- ==== Proof.KIFrame.lean ====
import proofs.«418543_j27023934227041_3_alg».proof.Proof.KIRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pick {c : Dev nD} (r' r : Ref sig .tc) (x : Buf (Elt F) ((c : Thread nD τ).loc r'))
    (d : Buf (Elt F) ((c : Thread nD τ).loc r)) : Buf (Elt F) ((c : Thread nD τ).loc r) :=
  if h : r' = r then h ▸ x else d

theorem pick_self {c : Dev nD} (r : Ref sig .tc) (x d : Buf (Elt F) ((c : Thread nD τ).loc r)) : pick r r x d = x := by
  unfold pick; rw [dif_pos rfl]

theorem pick_of_ne {c : Dev nD} {r' r : Ref sig .tc} (h : r' ≠ r) (x : Buf (Elt F) ((c : Thread nD τ).loc r'))
    (d : Buf (Elt F) ((c : Thread nD τ).loc r)) : pick r' r x d = d := by
  unfold pick; rw [dif_neg h]

def outs0 (r : Ref sig .tc) (c : Dev nD) : Buf (Elt F) ((c : Thread nD τ).loc r) :=
  pick main_v22_0 r ((R0.dat0 (VR1 m) c).arrAt 2 cfg0.N) (pick main_v22_1 r ((R0.dat0 (VR1 m) c).arrAt 3 cfg0.N) (V1 m c r))
abbrev outsA : Outs (F := F) := fun _ r c => outs0 m r c

def outs1 (r : Ref sig .tc) (c : Dev nD) : Buf (Elt F) ((c : Thread nD τ).loc r) :=
  pick main_v79 r ((R1.dat1 (VR5 m (outsA m)) c).arrAt 7 cfg1.N) (outs0 m r c)
abbrev outsB : Outs (F := F) := fun J r c => if J = 2 then outs0 m r c else outs1 m r c

def outs2 (r : Ref sig .tc) (c : Dev nD) : Buf (Elt F) ((c : Thread nD τ).loc r) :=
  pick main_v84_0 r ((R2.dat2 (VR7 m (outsB m)) c).arrAt 11 cfg2.N)
    (pick main_v84_1 r ((R2.dat2 (VR7 m (outsB m)) c).arrAt 12 cfg2.N) (outs1 m r c))

def outs : Outs (F := F) := fun J r c => if J = 2 then outs0 m r c else if J = 6 then outs1 m r c else outs2 m r c

theorem outs_22_0 (c : Dev nD) : outs m 2 main_v22_0 c = (R0.dat0 (VR1 m) c).arrAt 2 cfg0.N := by
  show outs0 m main_v22_0 c = _
  unfold outs0; rw [pick_self]
theorem outs_22_1 (c : Dev nD) : outs m 2 main_v22_1 c = (R0.dat0 (VR1 m) c).arrAt 3 cfg0.N := by
  show outs0 m main_v22_1 c = _
  unfold outs0; rw [pick_of_ne (by decide), pick_self]
theorem outs_79 (c : Dev nD) : outs m 6 main_v79 c = (R1.dat1 (VR5 m (outs m)) c).arrAt 7 cfg1.N := by
  show outs1 m main_v79 c = _
  unfold outs1; rw [pick_self]; rfl
theorem outs_84_0 (c : Dev nD) : outs m 8 main_v84_0 c = (R2.dat2 (VR7 m (outs m)) c).arrAt 11 cfg2.N := by
  show outs2 m main_v84_0 c = _
  unfold outs2; rw [pick_self]; rfl
theorem outs_84_1 (c : Dev nD) : outs m 8 main_v84_1 c = (R2.dat2 (VR7 m (outs m)) c).arrAt 12 cfg2.N := by
  show outs2 m main_v84_1 c = _
  unfold outs2; rw [pick_of_ne (by decide), pick_self]; rfl

set_option backward.isDefEq.respectTransparency.types false in
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) :=
  run_cond m emb₁ () 𝒱₀ L lv (fun _ _ => rfl) ρ (outs m) (pdats m (outs m)) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, Howes, -, Hreg, -⟩, -⟩
      imodintro
      isplitl [Hreg]; · iexists _; iexact Hreg
      iexists ∅; iexact Howes)
    (hE3 := fun c => by iintro ⟨-, Howes⟩; iexact Howes)
    (reg0 m (outs m) (outs_22_0 m) (outs_22_1 m)) (fun _ => .rfl) (fun _ => .rfl)
    (reg1 m (outs m) (outs_79 m)) (fun _ => .rfl) (fun _ => .rfl)
    (reg2 m (outs m) (outs_84_0 m) (outs_84_1 m)) (fun _ => .rfl) (fun _ => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c (Proc.devRef .tc main_arg0) (Finset.mem_filter.mpr ⟨StableHlo.devRef_mem_tcRefs main_arg0, by decide⟩)).trans (V8_main_arg0 m (outs m) c),
        (h c (Proc.devRef .tc main_arg1) (Finset.mem_filter.mpr ⟨StableHlo.devRef_mem_tcRefs main_arg1, by decide⟩)).trans (V8_main_arg1 m (outs m) c),
        (h c (Proc.devRef .tc main_arg2) (Finset.mem_filter.mpr ⟨StableHlo.devRef_mem_tcRefs main_arg2, by decide⟩)).trans (V8_main_arg2 m (outs m) c),
        (h c (Proc.devRef .tc main_arg3) (Finset.mem_filter.mpr ⟨StableHlo.devRef_mem_tcRefs main_arg3, by decide⟩)).trans (V8_main_arg3 m (outs m) c),
        (h c (Proc.devRef .tc main_arg4) (Finset.mem_filter.mpr ⟨StableHlo.devRef_mem_tcRefs main_arg4, by decide⟩)).trans (V8_main_arg4 m (outs m) c),
        (h c (Proc.devRef .tc main_arg5) (Finset.mem_filter.mpr ⟨StableHlo.devRef_mem_tcRefs main_arg5, by decide⟩)).trans (V8_main_arg5 m (outs m) c),
        (h c (Proc.devRef .tc main_arg6) (Finset.mem_filter.mpr ⟨StableHlo.devRef_mem_tcRefs main_arg6, by decide⟩)).trans (V8_main_arg6 m (outs m) c),
        (h c (Proc.devRef .tc main_arg7) (Finset.mem_filter.mpr ⟨StableHlo.devRef_mem_tcRefs main_arg7, by decide⟩)).trans (V8_main_arg7 m (outs m) c),
        (h c (Proc.devRef .tc main_arg8) (Finset.mem_filter.mpr ⟨StableHlo.devRef_mem_tcRefs main_arg8, by decide⟩)).trans (V8_main_arg8 m (outs m) c),
        (h c (Proc.devRef .tc main_arg9) (Finset.mem_filter.mpr ⟨StableHlo.devRef_mem_tcRefs main_arg9, by decide⟩)).trans (V8_main_arg9 m (outs m) c),
        (h c (Proc.devRef .tc main_arg10) (Finset.mem_filter.mpr ⟨StableHlo.devRef_mem_tcRefs main_arg10, by decide⟩)).trans (V8_main_arg10 m (outs m) c),
        (h c (Proc.devRef .tc main_arg11) (Finset.mem_filter.mpr ⟨StableHlo.devRef_mem_tcRefs main_arg11, by decide⟩)).trans (V8_main_arg11 m (outs m) c),
        (h c (Proc.devRef .tc main_arg12) (Finset.mem_filter.mpr ⟨StableHlo.devRef_mem_tcRefs main_arg12, by decide⟩)).trans (V8_main_arg12 m (outs m) c),
        (h c (Proc.devRef .tc main_arg13) (Finset.mem_filter.mpr ⟨StableHlo.devRef_mem_tcRefs main_arg13, by decide⟩)).trans (V8_main_arg13 m (outs m) c),
        (h c (Proc.devRef .tc main_arg14) (Finset.mem_filter.mpr ⟨StableHlo.devRef_mem_tcRefs main_arg14, by decide⟩)).trans (V8_main_arg14 m (outs m) c),
        (h c (Proc.devRef .tc main_arg15) (Finset.mem_filter.mpr ⟨StableHlo.devRef_mem_tcRefs main_arg15, by decide⟩)).trans (V8_main_arg15 m (outs m) c),
        (h c (Proc.devRef .tc main_arg16) (Finset.mem_filter.mpr ⟨StableHlo.devRef_mem_tcRefs main_arg16, by decide⟩)).trans (V8_main_arg16 m (outs m) c),
        (h c (Proc.devRef .tc main_arg17) (Finset.mem_filter.mpr ⟨StableHlo.devRef_mem_tcRefs main_arg17, by decide⟩)).trans (V8_main_arg17 m (outs m) c),
        (h c (Proc.devRef .tc main_arg18) (Finset.mem_filter.mpr ⟨StableHlo.devRef_mem_tcRefs main_arg18, by decide⟩)).trans (V8_main_arg18 m (outs m) c)⟩) (run m ρ)

end Cert.KernelIdeal.Hand

end
-- ==== Proof.RefCut.lean ====
import proofs.«418543_j27023934227041_3_alg».proof.Proof.RefTerms
import proofs.«418543_j27023934227041_3_alg».proof.Proof.RefRead

noncomputable section

namespace Cert.ReferenceIdeal.Cut

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

set_option maxRecDepth 16384 in
set_option maxHeartbeats 20000000 in
/-- The first 151 operations leave the two pieces of the join at their stages, and they write no argument. -/
theorem pre97 : after ((ops (F := F)).take 151) (launchContents m c) (Proc.devRef .tc main_v97)
    = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [ops, List.take_succ_cons, List.take_zero]
  after_results_simp <;> rfl

set_option maxRecDepth 16384 in
set_option maxHeartbeats 20000000 in
theorem pre117 : after ((ops (F := F)).take 151) (launchContents m c) (Proc.devRef .tc main_v117)
    = val_main_v117 (F := F) (m ((c.tc : Thread nD τ).loc main_arg2)) (m ((c.tc : Thread nD τ).loc main_arg3)) := by
  simp only [ops, List.take_succ_cons, List.take_zero]
  after_results_simp <;> rfl

set_option maxRecDepth 16384 in
set_option maxHeartbeats 20000000 in
theorem preArg15 : after ((ops (F := F)).take 151) (launchContents m c) (Proc.devRef .tc main_arg15) = m ((c.tc : Thread nD τ).loc main_arg15) := by
  simp only [ops, List.take_succ_cons, List.take_zero]
  after_results_simp <;> rfl
set_option maxRecDepth 16384 in
set_option maxHeartbeats 20000000 in
theorem preArg16 : after ((ops (F := F)).take 151) (launchContents m c) (Proc.devRef .tc main_arg16) = m ((c.tc : Thread nD τ).loc main_arg16) := by
  simp only [ops, List.take_succ_cons, List.take_zero]
  after_results_simp <;> rfl
set_option maxRecDepth 16384 in
set_option maxHeartbeats 20000000 in
theorem preArg17 : after ((ops (F := F)).take 151) (launchContents m c) (Proc.devRef .tc main_arg17) = m ((c.tc : Thread nD τ).loc main_arg17) := by
  simp only [ops, List.take_succ_cons, List.take_zero]
  after_results_simp <;> rfl
set_option maxRecDepth 16384 in
set_option maxHeartbeats 20000000 in
theorem preArg18 : after ((ops (F := F)).take 151) (launchContents m c) (Proc.devRef .tc main_arg18) = m ((c.tc : Thread nD τ).loc main_arg18) := by
  simp only [ops, List.take_succ_cons, List.take_zero]
  after_results_simp <;> rfl

omit m c in
set_option maxRecDepth 16384 in
set_option maxHeartbeats 20000000 in
/-- A join's value is a function of the list of its pieces, so the fold is cut before the join: over any valuation holding the two pieces, the last 26 operations give the last stage. -/
theorem suffix128 (W : Valuation τ sig (Elt F))
    (x0 x1 : (⟨S2048x128, .f32⟩ : BufTy).Contents (Elt F)) (x2 : (⟨S2x32768, .i32⟩ : BufTy).Contents (Elt F))
    (x3 x4 x5 x6 : (⟨S32768x1, .f32⟩ : BufTy).Contents (Elt F)) (x7 : (⟨S260x128, .f32⟩ : BufTy).Contents (Elt F))
    (x8 : (⟨S128, .f32⟩ : BufTy).Contents (Elt F)) (x9 : (⟨S128x128, .f32⟩ : BufTy).Contents (Elt F))
    (x10 : (⟨S128, .f32⟩ : BufTy).Contents (Elt F)) (x15 : (⟨S129x128, .f32⟩ : BufTy).Contents (Elt F))
    (x16 : (⟨S128, .f32⟩ : BufTy).Contents (Elt F)) (x17 : (⟨S128x128, .f32⟩ : BufTy).Contents (Elt F))
    (x18 : (⟨S128, .f32⟩ : BufTy).Contents (Elt F))
    (h97 : W (Proc.devRef .tc main_v97) = val_main_v97 (F := F) x0 x1 x2 x3 x4 x5 x6 x7 x8 x9 x10)
    (h117 : W (Proc.devRef .tc main_v117) = val_main_v117 (F := F) x2 x3)
    (h15 : W (Proc.devRef .tc main_arg15) = x15) (h16 : W (Proc.devRef .tc main_arg16) = x16)
    (h17 : W (Proc.devRef .tc main_arg17) = x17) (h18 : W (Proc.devRef .tc main_arg18) = x18) :
    after ((ops (F := F)).drop 151) W (Proc.devRef .tc main_v128)
      = val_main_v128 (F := F) x0 x1 x2 x3 x4 x5 x6 x7 x8 x9 x10 x15 x16 x17 x18 := by
  simp only [ops, List.drop_succ_cons, List.drop_zero]
  after_results
  rw [h97, h117, h15, h16, h17, h18]
  rfl

theorem link128 : after (ops (F := F)) (launchContents m c) (Proc.devRef .tc main_v128)
    = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)) (m ((c.tc : Thread nD τ).loc main_arg18)) := by
  have hs : after (ops (F := F)) (launchContents m c)
      = after ((ops (F := F)).take 151 ++ (ops (F := F)).drop 151) (launchContents m c) := by
    rw [List.take_append_drop]
  rw [hs, after_append']
  exact suffix128 _ _ _ _ _ _ _ _ _ _ _ _ _ _ _ _ (pre97 m c) (pre117 m c) (preArg15 m c) (preArg16 m c) (preArg17 m c) (preArg18 m c)

set_option maxRecDepth 16384 in
set_option maxHeartbeats 20000000 in
/-- No join of computed arrays lies on the way to the other two results: the whole fold is evaluated against the stage. -/
theorem link107 : after (ops (F := F)) (launchContents m c) (Proc.devRef .tc main_v107)
    = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  after_results_simp <;> rfl

set_option maxRecDepth 16384 in
set_option maxHeartbeats 20000000 in
theorem link58 : after (ops (F := F)) (launchContents m c) (Proc.devRef .tc main_v58)
    = val_main_v58 (F := F) (m ((c.tc : Thread nD τ).loc main_arg2)) (m ((c.tc : Thread nD τ).loc main_arg3)) := by
  after_results_simp <;> rfl

end Cert.ReferenceIdeal.Cut

end
-- ==== Proof.RefRun.lean ====
import proofs.«418543_j27023934227041_3_alg».proof.Proof.RefCut

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F] (m : (ℓ : Loc nD τ sig) → Buf (Elt F) ℓ)

/-- The three results as their last stages of core c's arguments. -/
def res_main_v107 (c : Dev nD) : Buf (Elt F) ((c.tc : Thread nD τ).loc main_v107) :=
  val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
def res_main_v128 (c : Dev nD) : Buf (Elt F) ((c.tc : Thread nD τ).loc main_v128) :=
  val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)) (m ((c.tc : Thread nD τ).loc main_arg18))
def res_main_v58 (c : Dev nD) : Buf (Elt F) ((c.tc : Thread nD τ).loc main_v58) :=
  val_main_v58 (F := F) (m ((c.tc : Thread nD τ).loc main_arg2)) (m ((c.tc : Thread nD τ).loc main_arg3))

set_option maxRecDepth 8192 in
set_option maxHeartbeats 70800000 in
/-- Each result is its last stage of the arguments, and no operation writes an argument. -/
theorem run (ρ : Dev nD → PrngReg) :
    θ_run defs (onTc (τ := τ) (main (F := F))) ⟨m, fun _ => 0, ρ⟩ fun r => ∀ c : Dev nD,
      r.2.mem ((c.tc : Thread nD τ).loc main_v107) = res_main_v107 m c
      ∧ r.2.mem ((c.tc : Thread nD τ).loc main_v128) = res_main_v128 m c
      ∧ r.2.mem ((c.tc : Thread nD τ).loc main_v58) = res_main_v58 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v107).trans (Cut.link107 m c),
      (h c main_v128).trans (Cut.link128 m c), (h c main_v58).trans (Cut.link58 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)

end Cert.ReferenceIdeal.Value

end
-- ==== Proof.SpecBase.lean ====
import Idealize.ShloMosaic.PureOps.Ideal

noncomputable section

namespace Cert.Spec

open Idealize.ShloMosaic

def AllReal {S : Shape} (x : S.Idx → EReal) : Prop := ∀ i, ∃ r : ℝ, x i = (r : EReal)

end Cert.Spec

end
-- ==== Proof.Spec.lean ====
import Idealize.ShloMosaic.PureOps.Ideal
import Idealize.ShloMosaic.PureOps.Ideal.Laws
import proofs.«418543_j27023934227041_3_alg».proof.Proof.SpecBase

noncomputable section

namespace Cert.Spec

open Idealize.ShloMosaic
open scoped BigOperators

abbrev nN : Nat := 2048
abbrev nH : Nat := 128

abbrev ediv (x y : EReal) : EReal := FloatOps.divf (F := Ideal) (φ := .f32) x y
abbrev eexp (x : EReal) : EReal := FloatOps.exp (F := Ideal) (φ := .f32) x
abbrev elog1p (x : EReal) : EReal := FloatOps.log1p (F := Ideal) (φ := .f32) x

abbrev tiny : EReal := Ideal.ofBits .f32 0x322BCC77#32

def node (w : BitVec 32) : Fin nN := ⟨min w.toInt.toNat 2047, Nat.lt_succ_of_le (Nat.min_le_right _ _)⟩

section Residual

variable (a : Fin nN → Fin nN → EReal) (s t : Fin nN) (d : EReal)

def pathCount : EReal := ∑ B : Fin nN, if 0 ≤ a s B ∧ 0 ≤ a B t then (1 : EReal) else 0

def twoHop : EReal := ∑ B : Fin nN, if 0 ≤ a s B ∧ 0 ≤ a B t then a s B + a B t else 0

def meanOf (pc ths d : EReal) : EReal := if 0 < pc then ediv ths (max pc 1) else d

def residualOf (pc ths d : EReal) : EReal := max (d - meanOf pc ths d) (-(d - meanOf pc ths d))

def residual : EReal := residualOf (pathCount a s t) (twoHop a s t) d

end Residual

def weight (r : EReal) : EReal := eexp (-r)

def layer {I K : Nat} (x : Fin I → EReal) (w : Fin I → Fin K → EReal) (b : Fin K → EReal) (k : Fin K) : EReal :=
  ∑ j : Fin I, x j * w j k + b k

def mlp {I K O : Nat} (x : Fin I → EReal) (w1 : Fin I → Fin K → EReal) (b1 : Fin K → EReal)
    (w2 : Fin K → Fin O → EReal) (b2 : Fin O → EReal) (h : Fin O) : EReal :=
  layer (fun k => max (layer x w1 b1 k) 0) w2 b2 h

def msgInput (mu sg : Fin nH → EReal) (f4 : Fin 4 → EReal) (j : Fin 260) : EReal :=
  if h : j.val < 128 then mu ⟨j.val, h⟩
  else if h2 : j.val < 256 then sg ⟨j.val - 128, by show j.val - 128 < 128; omega⟩
  else f4 ⟨j.val - 256, by have := j.isLt; omega⟩

def weightedMsg (mu sg : Fin nH → EReal) (f4 : Fin 4 → EReal) (w1 : Fin 260 → Fin nH → EReal) (b1 : Fin nH → EReal)
    (w2 : Fin nH → Fin nH → EReal) (b2 : Fin nH → EReal) (wgt : EReal) (h : Fin nH) : EReal :=
  mlp (msgInput mu sg f4) w1 b1 w2 b2 h * wgt

def aggMsg (agg wsum : EReal) : EReal := ediv agg (max wsum tiny)

def meanRes (rsum cnt : EReal) : EReal := ediv rsum (max cnt 1)

def sigInput (am : Fin nH → EReal) (mr : EReal) (j : Fin 129) : EReal :=
  if h : j.val < 128 then am ⟨j.val, h⟩ else mr

def softplus (x : EReal) : EReal := max x 0 + elog1p (eexp (-(max x (-x))))

def muNew (m : EReal) (am : Fin nH → EReal) (w1 : Fin nH → Fin nH → EReal) (b1 : Fin nH → EReal)
    (w2 : Fin nH → Fin nH → EReal) (b2 : Fin nH → EReal) (h : Fin nH) : EReal :=
  m + mlp am w1 b1 w2 b2 h

def sigNew (am : Fin nH → EReal) (mr : EReal) (w1 : Fin 129 → Fin nH → EReal) (b1 : Fin nH → EReal)
    (w2 : Fin nH → Fin nH → EReal) (b2 : Fin nH → EReal) (h : Fin nH) : EReal :=
  softplus (mlp (sigInput am mr) w1 b1 w2 b2 h)

end Cert.Spec

end
-- ==== Proof.RefIndexing.lean ====
import Idealize.ShloMosaic.Lib.ValueIdx
import Idealize.ShloMosaic.Lib.StableHlo.Predicate
import Idealize.ShloMosaic.PureOps.Ideal.Laws

noncomputable section

namespace Cert.RefValue

open Idealize.ShloMosaic Idealize.ShloMosaic.ValueIdx
open scoped BigOperators

section Gathers
variable {α : Type}

abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem rows_axis0 {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims N R C wf).start (ix2 r c) idx 0 + (rowDims N R C wf).batchCoord (ix2 r c) 0
      + (rowDims N R C wf).offCoord (ix2 r c) 0 = min (idx (ix2 r 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r c) ⟨List.idxOf (0 : Fin 2) (rowDims N R C wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

theorem rows_axis1 {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims N R C wf).start (ix2 r c) idx 1 + (rowDims N R C wf).batchCoord (ix2 r c) 1
      + (rowDims N R C wf).offCoord (ix2 r c) 1 = c.val := by
  rw [GatherDims.batchCoord_eq_zero _ _ _ List.not_mem_nil]
  unfold GatherDims.start GatherDims.offCoord
  rw [dif_neg (show ¬ (1 : Fin 2) ∈ (rowDims N R C wf).startIndexMap from
      (show ¬ (1 : Fin 2) ∈ ([0] : List (Fin 2)) by decide)),
    dif_pos (show (1 : Fin 2) ∈ (rowDims N R C wf).sKept from
      (GatherDims.mem_sKept _ _).mpr ⟨(show ¬ (1 : Fin 2) ∈ ([0] : List (Fin 2)) by decide), List.not_mem_nil⟩)]
  simp only [Nat.add_zero, Nat.zero_add]
  rfl

theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), by omega⟩ c) := by
  unfold Host.gather
  congr 1
  funext a
  refine Fin.ext ?_
  match a with
  | ⟨0, _⟩ => exact rows_axis0 wf idx r c
  | ⟨1, _⟩ => exact rows_axis1 wf idx r c

abbrev colDims (N M R : Nat)
    (wf : GatherDims.WF ⟨2, ![N, M]⟩ ⟨2, ![R, 1]⟩ ⟨2, ![N, R]⟩ [0] [1] [] [1] [] 1 ![N, 1]) :
    GatherDims ⟨2, ![N, M]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

theorem cols_axis0 {N M R w : Nat}
    (wf : GatherDims.WF ⟨2, ![N, M]⟩ ⟨2, ![R, 1]⟩ ⟨2, ![N, R]⟩ [0] [1] [] [1] [] 1 ![N, 1])
    (idx : IVec ⟨2, ![R, 1]⟩ w) (p : Fin N) (r : Fin R) :
    (colDims N M R wf).start (ix2 p r) idx 0 + (colDims N M R wf).batchCoord (ix2 p r) 0
      + (colDims N M R wf).offCoord (ix2 p r) 0 = p.val := by
  rw [GatherDims.batchCoord_eq_zero _ _ _ List.not_mem_nil]
  unfold GatherDims.start GatherDims.offCoord
  rw [dif_neg (show ¬ (0 : Fin 2) ∈ (colDims N M R wf).startIndexMap from
      (show ¬ (0 : Fin 2) ∈ ([1] : List (Fin 2)) by decide)),
    dif_pos (show (0 : Fin 2) ∈ (colDims N M R wf).sKept from
      (GatherDims.mem_sKept _ _).mpr ⟨(show ¬ (0 : Fin 2) ∈ ([1] : List (Fin 2)) by decide), List.not_mem_nil⟩)]
  simp only [Nat.add_zero, Nat.zero_add]
  rfl

theorem cols_axis1 {N M R w : Nat}
    (wf : GatherDims.WF ⟨2, ![N, M]⟩ ⟨2, ![R, 1]⟩ ⟨2, ![N, R]⟩ [0] [1] [] [1] [] 1 ![N, 1])
    (idx : IVec ⟨2, ![R, 1]⟩ w) (p : Fin N) (r : Fin R) :
    (colDims N M R wf).start (ix2 p r) idx 1 + (colDims N M R wf).batchCoord (ix2 p r) 1
      + (colDims N M R wf).offCoord (ix2 p r) 1 = min (idx (ix2 r 0)).toInt.toNat (M - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims N M R wf).startIndexMap from List.mem_singleton.mpr rfl)]
  have hsi : (colDims N M R wf).siIdx (ix2 p r) ⟨List.idxOf (1 : Fin 2) (colDims N M R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

theorem gather_cols_apply {N M R w : Nat} (hM : 0 < M)
    (wf : GatherDims.WF ⟨2, ![N, M]⟩ ⟨2, ![R, 1]⟩ ⟨2, ![N, R]⟩ [0] [1] [] [1] [] 1 ![N, 1])
    (x : (⟨2, ![N, M]⟩ : Shape).Idx → α) (idx : IVec ⟨2, ![R, 1]⟩ w) (p : Fin N) (r : Fin R) :
    Host.gather (colDims N M R wf) x idx (ix2 p r)
      = x (ix2 p ⟨min (idx (ix2 r 0)).toInt.toNat (M - 1), by omega⟩) := by
  unfold Host.gather
  congr 1
  funext a
  refine Fin.ext ?_
  match a with
  | ⟨0, _⟩ => exact cols_axis0 wf idx p r
  | ⟨1, _⟩ => exact cols_axis1 wf idx p r

end Gathers

section Scatters

abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w) (r : Fin R) (c : Fin C)

theorem sc_start0 : (rowScatterDims N R C wf).start (ix2 r c) idx 0 = (idx (ix2 r 0)).toInt := by
  unfold ScatterDims.start
  rw [dif_pos (show (0 : Fin 2) ∈ (rowScatterDims N R C wf).scatterDimsToOperandDims from List.mem_singleton.mpr rfl)]
  have hsi : (rowScatterDims N R C wf).siIdx (ix2 r c)
      ⟨List.idxOf (0 : Fin 2) (rowScatterDims N R C wf).scatterDimsToOperandDims,
        List.idxOf_lt_length_iff.2 (List.mem_singleton.mpr rfl)⟩ = ix2 r 0 := by
    funext b; refine Fin.ext ?_
    match b with
    | ⟨0, _⟩ => rfl
    | ⟨1, _⟩ => rfl
  rw [hsi]

theorem sc_start1 : (rowScatterDims N R C wf).start (ix2 r c) idx 1 = 0 := by
  unfold ScatterDims.start
  rw [dif_neg (show ¬ (1 : Fin 2) ∈ (rowScatterDims N R C wf).scatterDimsToOperandDims from
    (show ¬ (1 : Fin 2) ∈ ([0] : List (Fin 2)) by decide))]

theorem sc_win0 : (rowScatterDims N R C wf).window (ix2 r c) 0 = 0 := by
  unfold ScatterDims.window
  rw [dif_neg]
  intro h
  have : (0 : Fin 2) ∈ (⟨2, ![N, C]⟩ : Shape).kept ([0] : List (Fin 2)) := h
  simp [Shape.kept, List.mem_filter] at this

theorem sc_win1 : (rowScatterDims N R C wf).window (ix2 r c) 1 = c.val := by
  unfold ScatterDims.window
  rw [dif_pos (show (1 : Fin 2) ∈ (rowScatterDims N R C wf).sKept by
    show (1 : Fin 2) ∈ (⟨2, ![N, C]⟩ : Shape).kept ([0] : List (Fin 2))
    simp [Shape.kept, List.mem_filter, List.mem_finRange])]
  rfl

theorem resultIdx_rows (h0 : 0 ≤ (idx (ix2 r 0)).toInt) (h1 : (idx (ix2 r 0)).toInt < N) :
    (rowScatterDims N R C wf).resultIdx? (ix2 r c) idx
      = some (ix2 ⟨(idx (ix2 r 0)).toInt.toNat, by omega⟩ c) := by
  have b0 : 0 ≤ (rowScatterDims N R C wf).start (ix2 r c) idx 0 + ((rowScatterDims N R C wf).window (ix2 r c) 0 : Int)
      ∧ (rowScatterDims N R C wf).start (ix2 r c) idx 0 + ((rowScatterDims N R C wf).window (ix2 r c) 0 : Int)
        < ((⟨2, ![N, C]⟩ : Shape).size 0 : Int) := by
    rw [sc_start0, sc_win0]; show 0 ≤ _ + ((0 : Nat) : Int) ∧ _ + ((0 : Nat) : Int) < (N : Int); omega
  have b1 : 0 ≤ (rowScatterDims N R C wf).start (ix2 r c) idx 1 + ((rowScatterDims N R C wf).window (ix2 r c) 1 : Int)
      ∧ (rowScatterDims N R C wf).start (ix2 r c) idx 1 + ((rowScatterDims N R C wf).window (ix2 r c) 1 : Int)
        < ((⟨2, ![N, C]⟩ : Shape).size 1 : Int) := by
    rw [sc_start1, sc_win1]; have := c.isLt; show 0 ≤ 0 + (c.val : Int) ∧ 0 + (c.val : Int) < (C : Int); omega
  unfold ScatterDims.resultIdx?
  rw [dif_pos (fun a => match a with | ⟨0, _⟩ => b0 | ⟨1, _⟩ => b1)]
  congr 1
  funext a
  refine Fin.ext ?_
  match a with
  | ⟨0, _⟩ =>
    show ((rowScatterDims N R C wf).start (ix2 r c) idx 0 + ((rowScatterDims N R C wf).window (ix2 r c) 0 : Int)).toNat = _
    rw [sc_start0, sc_win0]; show (_ + ((0 : Nat) : Int)).toNat = (idx (ix2 r 0)).toInt.toNat; simp
  | ⟨1, _⟩ =>
    show ((rowScatterDims N R C wf).start (ix2 r c) idx 1 + ((rowScatterDims N R C wf).window (ix2 r c) 1 : Int)).toNat = _
    rw [sc_start1, sc_win1]; show (0 + (c.val : Int)).toNat = c.val; simp

end Scatters

section Sums

theorem ix2_eq_iff {n0 n1 : Nat} (a a' : Fin n0) (b b' : Fin n1) : ix2 a b = ix2 a' b' ↔ a = a' ∧ b = b' :=
  ⟨fun h => ⟨congrFun h 0, congrFun h 1⟩, fun ⟨ha, hb⟩ => by rw [ha, hb]⟩

theorem scatterAdd_rows_apply {N R C w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (hin : ∀ r : Fin R, 0 ≤ (idx (ix2 r 0)).toInt ∧ (idx (ix2 r 0)).toInt < N) (n : Fin N) (h : Fin C) :
    Host.scatterAdd (F := Ideal) (rowScatterDims N R C wf) x idx upd (ix2 n h)
      = x (ix2 n h) + ∑ r : Fin R, if (idx (ix2 r 0)).toInt.toNat = n.val then upd (ix2 r h) else 0 := by
  classical
  show x (ix2 n h) + ∑ j ∈ Finset.univ.filter
      (fun j => (rowScatterDims N R C wf).resultIdx? j idx = some (ix2 n h)), upd j = _
  congr 1
  rw [Finset.sum_filter, sum_idx2]
  refine Finset.sum_congr rfl fun r _ => ?_
  have hr := fun c => resultIdx_rows wf idx r c (hin r).1 (hin r).2
  by_cases hn : (idx (ix2 r 0)).toInt.toNat = n.val
  · rw [if_pos hn]
    have e : ∀ c : Fin C, ((rowScatterDims N R C wf).resultIdx? (ix2 r c) idx = some (ix2 n h)) ↔ c = h := by
      intro c
      rw [hr c, Option.some.injEq, ix2_eq_iff]
      exact ⟨fun hh => hh.2, fun hh => ⟨Fin.ext hn, hh⟩⟩
    simp only [e]
    rw [Finset.sum_ite_eq' Finset.univ h (fun c => upd (ix2 r c)), if_pos (Finset.mem_univ _)]
  · rw [if_neg hn]
    refine Finset.sum_eq_zero fun c _ => ?_
    rw [if_neg]
    rw [hr c, Option.some.injEq, ix2_eq_iff]
    exact fun hh => hn (congrArg Fin.val hh.1)

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem count_cols_ereal {n m : Nat} (hm : m < 2 ^ 31) (mask : IVec ⟨2, ![n, m]⟩ 1) (hw : 1 < 32)
    (h : (⟨2, ![n, m]⟩ : Shape).ReducesTo [1] ⟨1, ![n]⟩) {u : Shape} (hu : 0 < u.numel) (p : Fin n) :
    FloatOps.sitofp (F := Ideal) .f32 (Host.reduce IntOp.addi (extui 32 mask hw) (constantI u 32 0#32) h hu (ix1 p))
      = ∑ q : Fin m, if mask (ix2 p q) = 1#1 then (1 : EReal) else 0 := by
  classical
  have hc := StableHlo.Predicate.toNat_reduce_count_cols (n := n) (m := m) (by omega) mask hw h hu (ix1 p)
  have hle : (Finset.univ.filter (fun q : Fin m => mask (StableHlo.Predicate.ij ((ix1 p : (⟨1, ![n]⟩ : Shape).Idx) 0) q) = 1#1)).card ≤ m := by
    simpa using Finset.card_le_univ (Finset.univ.filter (fun q : Fin m => mask (StableHlo.Predicate.ij ((ix1 p : (⟨1, ![n]⟩ : Shape).Idx) 0) q) = 1#1))
  have hij : ∀ q : Fin m, StableHlo.Predicate.ij ((ix1 p : (⟨1, ![n]⟩ : Shape).Idx) 0) q = ix2 p q := fun q => by
    funext b; match b with | ⟨0, _⟩ => rfl | ⟨1, _⟩ => rfl
  generalize Host.reduce IntOp.addi (extui 32 mask hw) (constantI u 32 0#32) h hu (ix1 p) = cnt at hc
  show ((cnt.toInt : ℝ) : EReal) = _
  rw [StableHlo.Predicate.toInt_eq_toNat_of_lt (by omega), hc, Int.cast_natCast, ← Finset.sum_boole, coe_sum_real]
  refine Finset.sum_congr rfl fun q _ => ?_
  have e : mask (StableHlo.Predicate.ij ((ix1 p : (⟨1, ![n]⟩ : Shape).Idx) 0) q) = mask (ix2 p q) := congrArg mask (hij q)
  by_cases hq : mask (ix2 p q) = 1#1
  · rw [if_pos hq, if_pos (e.trans hq)]; simp
  · rw [if_neg hq, if_neg (fun h' => hq (e.symm.trans h'))]; simp

end Sums

end Cert.RefValue

end
-- ==== Proof.RefValue.lean ====
import proofs.«418543_j27023934227041_3_alg».proof.Proof.RefRead
import proofs.«418543_j27023934227041_3_alg».proof.Proof.Spec
import proofs.«418543_j27023934227041_3_alg».proof.Proof.RefIndexing
import Idealize.ShloMosaic.Lib.Pipeline.Value
import Idealize.ShloMosaic.Lib.ValueIdx
import Idealize.ShloMosaic.Lib.Affine
import Idealize.ShloMosaic.Lib.StableHlo.Predicate
import Idealize.ShloMosaic.PureOps.Ideal.Laws

noncomputable section

namespace Cert.RefValue

open Cert.ReferenceIdeal Cert.ReferenceIdeal.Gen Cert.ReferenceIdeal.Read
open Idealize.ShloMosaic Idealize.ShloMosaic.ValueIdx
open scoped BigOperators

def InRange (x2 : (⟨S2x32768, .i32⟩ : BufTy).Contents (Elt Ideal)) : Prop :=
  ∀ i : S2x32768.Idx, 0 ≤ (x2 i).toInt ∧ (x2 i).toInt < 2048

def src (x2 : (⟨S2x32768, .i32⟩ : BufTy).Contents (Elt Ideal)) (e : Fin 32768) : BitVec 32 := x2 (ix2 (0 : Fin 2) e)
def dst (x2 : (⟨S2x32768, .i32⟩ : BufTy).Contents (Elt Ideal)) (e : Fin 32768) : BitVec 32 := x2 (ix2 (1 : Fin 2) e)

section Words
variable (x2 : (⟨S2x32768, .i32⟩ : BufTy).Contents (Elt Ideal))

theorem v1_at (e : Fin 32768) : val_main_v1 (F := Ideal) x2 (ix1 e) = src x2 e := by
  rw [val_main_v1_apply, val_main_v0_apply]
  refine congrArg x2 (funext fun a => ?_)
  match a with
  | ⟨0, _⟩ => rfl
  | ⟨1, _⟩ => exact Fin.ext (Nat.mod_eq_of_lt e.isLt)
theorem v5_at (e : Fin 32768) : val_main_v5 (F := Ideal) x2 (ix1 e) = src x2 e := by
  rw [val_main_v5_apply, val_main_v4_apply]
  refine congrArg x2 (funext fun a => ?_)
  match a with
  | ⟨0, _⟩ => rfl
  | ⟨1, _⟩ => exact Fin.ext (Nat.mod_eq_of_lt e.isLt)
theorem v3_at (e : Fin 32768) : val_main_v3 (F := Ideal) x2 (ix1 e) = dst x2 e := by
  rw [val_main_v3_apply, val_main_v2_apply]
  refine congrArg x2 (funext fun a => ?_)
  match a with
  | ⟨0, _⟩ => rfl
  | ⟨1, _⟩ => exact Fin.ext (Nat.mod_eq_of_lt e.isLt)
theorem v7_at (e : Fin 32768) : val_main_v7 (F := Ideal) x2 (ix1 e) = dst x2 e := by
  rw [val_main_v7_apply, val_main_v6_apply]
  refine congrArg x2 (funext fun a => ?_)
  match a with
  | ⟨0, _⟩ => rfl
  | ⟨1, _⟩ => exact Fin.ext (Nat.mod_eq_of_lt e.isLt)

theorem wrap_eq (w : BitVec 32) (h : 0 ≤ w.toInt) :
    Scalar.select (IntOp.cmpi .slt w 0#32) (IntOp.addi w 2048#32) w = w := by
  have : IntOp.cmpi .slt w 0#32 = 0#1 := by
    show BitVec.ofBool (w.slt 0#32) = 0#1
    have : w.slt 0#32 = false := by
      rw [BitVec.slt]; simp only [BitVec.toInt_zero, decide_eq_false_iff_not, not_lt]; exact h
    rw [this]; rfl
  rw [this, select_zero]

end Words

theorem bits_zero : FloatOps.ofBits (F := Ideal) .f32 0x00000000#32 = (0 : EReal) := Ideal.ofBits_zero_f32
theorem bits_one : FloatOps.ofBits (F := Ideal) .f32 0x3F800000#32 = (1 : EReal) := by
  show Ideal.ofBits .f32 0x3F800000#32 = (1 : EReal)
  rw [← EReal.coe_one]
  simp [Ideal.ofBits, Ideal.ieee, -EReal.coe_mul, -EReal.coe_one]
  norm_num

theorem cmp_oge_zero (x : EReal) :
    FloatOps.cmpf (F := Ideal) (φ := .f32) .oge x (FloatOps.ofBits .f32 0x00000000#32) = 1#1 ↔ 0 ≤ x := by
  rw [bits_zero]
  show BitVec.ofBool (decide (0 ≤ x)) = 1#1 ↔ _
  rw [StableHlo.Predicate.ofBool_eq_one_iff, decide_eq_true_iff]

theorem cmp_ogt_zero (x : EReal) :
    FloatOps.cmpf (F := Ideal) (φ := .f32) .ogt x (FloatOps.ofBits .f32 0x00000000#32) = 1#1 ↔ 0 < x := by
  rw [bits_zero]
  show BitVec.ofBool (decide (0 < x)) = 1#1 ↔ _
  rw [StableHlo.Predicate.ofBool_eq_one_iff, decide_eq_true_iff]

def adj (x2 : (⟨S2x32768, .i32⟩ : BufTy).Contents (Elt Ideal)) (x3 : (⟨S32768x1, .f32⟩ : BufTy).Contents (Elt Ideal))
    (p q : Fin 2048) : EReal := val_main_v23 (F := Ideal) x2 x3 (ix2 p q)

section Residual
variable (x2 : (⟨S2x32768, .i32⟩ : BufTy).Contents (Elt Ideal)) (x3 : (⟨S32768x1, .f32⟩ : BufTy).Contents (Elt Ideal))
  (hin : InRange x2)
include hin

theorem v29_at (e : Fin 32768) : val_main_v29 (F := Ideal) x2 (ix2 e (0 : Fin 1)) = src x2 e := by
  rw [val_main_v29_apply]
  have hi : idx_main_v29 (ix2 e (0 : Fin 1)) = ix1 e := funext fun a => match a with | ⟨0, _⟩ => rfl
  rw [hi, val_main_v28_apply, val_main_v25_apply, val_main_v27_apply, val_main_v24_apply, val_main_v26_apply,
    val_main_c_3_apply, val_main_c_4_apply, v5_at]
  exact wrap_eq _ (hin _).1

theorem v36_at (e : Fin 32768) : val_main_v36 (F := Ideal) x2 (ix2 e (0 : Fin 1)) = dst x2 e := by
  rw [val_main_v36_apply]
  have hi : idx_main_v36 (ix2 e (0 : Fin 1)) = ix1 e := funext fun a => match a with | ⟨0, _⟩ => rfl
  rw [hi, val_main_v35_apply, val_main_v32_apply, val_main_v34_apply, val_main_v31_apply, val_main_v33_apply,
    val_main_c_5_apply, val_main_c_6_apply, v7_at]
  exact wrap_eq _ (hin _).1

theorem v30_at (e : Fin 32768) (B : Fin 2048) :
    val_main_v30 (F := Ideal) x2 x3 (ix2 e B) = adj x2 x3 (Spec.node (src x2 e)) B := by
  unfold val_main_v30
  refine (gather_rows_apply (N := 2048) (R := 32768) (C := 2048) (w := 32) (by decide) _
    (val_main_v23 (F := Ideal) x2 x3) (val_main_v29 (F := Ideal) x2) e B).trans ?_
  refine congrArg (fun a : Fin 2048 => val_main_v23 (F := Ideal) x2 x3 (ix2 a B)) (Fin.ext ?_)
  show min (val_main_v29 (F := Ideal) x2 (ix2 e (0 : Fin 1))).toInt.toNat (2048 - 1) = min (src x2 e).toInt.toNat 2047
  rw [v29_at x2 hin e]

theorem v38_at (e : Fin 32768) (B : Fin 2048) :
    val_main_v38 (F := Ideal) x2 x3 (ix2 e B) = adj x2 x3 B (Spec.node (dst x2 e)) := by
  rw [val_main_v38_apply]
  have hi : idx_main_v38 (ix2 e B) = ix2 B e := funext fun a => match a with | ⟨0, _⟩ => rfl | ⟨1, _⟩ => rfl
  rw [hi]
  unfold val_main_v37
  refine (gather_cols_apply (N := 2048) (M := 2048) (R := 32768) (w := 32) (by decide) _
    (val_main_v23 (F := Ideal) x2 x3) (val_main_v36 (F := Ideal) x2) B e).trans ?_
  refine congrArg (fun a : Fin 2048 => val_main_v23 (F := Ideal) x2 x3 (ix2 B a)) (Fin.ext ?_)
  show min (val_main_v36 (F := Ideal) x2 (ix2 e (0 : Fin 1))).toInt.toNat (2048 - 1) = min (dst x2 e).toInt.toNat 2047
  rw [v36_at x2 hin e]

end Residual

section Residual2
variable (x2 : (⟨S2x32768, .i32⟩ : BufTy).Contents (Elt Ideal)) (x3 : (⟨S32768x1, .f32⟩ : BufTy).Contents (Elt Ideal))
  (hin : InRange x2)
include hin

theorem v43_at (e : Fin 32768) (B : Fin 2048) :
    val_main_v43 (F := Ideal) x2 x3 (ix2 e B) = 1#1 ↔
      (0 ≤ adj x2 x3 (Spec.node (src x2 e)) B ∧ 0 ≤ adj x2 x3 B (Spec.node (dst x2 e))) := by
  rw [val_main_v43_apply, IntOp.andi_eq_one, val_main_v40_apply, val_main_v42_apply, val_main_v39_apply,
    val_main_v41_apply, val_main_cst_7_apply, val_main_cst_8_apply, v30_at x2 x3 hin, v38_at x2 x3 hin]
  exact and_congr (cmp_oge_zero _) (cmp_oge_zero _)

theorem v45_at (e : Fin 32768) (B : Fin 2048) :
    val_main_v45 (F := Ideal) x2 x3 (ix2 e B) =
      if 0 ≤ adj x2 x3 (Spec.node (src x2 e)) B ∧ 0 ≤ adj x2 x3 B (Spec.node (dst x2 e))
      then adj x2 x3 (Spec.node (src x2 e)) B + adj x2 x3 B (Spec.node (dst x2 e)) else 0 := by
  rw [val_main_v45_apply]
  by_cases h : 0 ≤ adj x2 x3 (Spec.node (src x2 e)) B ∧ 0 ≤ adj x2 x3 B (Spec.node (dst x2 e))
  · rw [if_pos h, (v43_at x2 x3 hin e B).mpr h, select_one, val_main_v44_apply, v30_at x2 x3 hin, v38_at x2 x3 hin]
    rfl
  · rw [if_neg h, eq_zero_of_ne_one (fun h' => h ((v43_at x2 x3 hin e B).mp h')), select_zero,
      val_main_call0_v1_apply, val_main_call0_v0_apply, val_main_cst_9_apply]
    exact bits_zero

theorem v48_at (e : Fin 32768) :
    val_main_v48 (F := Ideal) x2 x3 (ix1 e)
      = Spec.pathCount (adj x2 x3) (Spec.node (src x2 e)) (Spec.node (dst x2 e)) := by
  rw [val_main_v48_apply]
  unfold val_main_v47 val_main_v46 val_main_c_10
  refine (count_cols_ereal (n := 32768) (m := 2048) (by decide) (val_main_v43 (F := Ideal) x2 x3) natLt_1_32
    reducesTo_S32768x2048_S32768_d1 h_S_ e).trans ?_
  unfold Spec.pathCount
  refine Finset.sum_congr rfl fun B _ => ?_
  exact if_congr (v43_at x2 x3 hin e B) rfl rfl

theorem v51_at (e : Fin 32768) :
    val_main_v51 (F := Ideal) x2 x3 (ix1 e)
      = Spec.twoHop (adj x2 x3) (Spec.node (src x2 e)) (Spec.node (dst x2 e)) := by
  rw [val_main_v51_apply, val_main_cst_12_apply, bits_zero, zero_add]
  unfold Spec.twoHop
  refine Finset.sum_congr rfl fun B _ => ?_
  have hi : idx_main_v51 (ix1 e) B = ix2 e B := funext fun a => match a with | ⟨0, _⟩ => rfl | ⟨1, _⟩ => rfl
  rw [hi, v45_at x2 x3 hin e B]

omit hin in
theorem v8_at (e : Fin 32768) : val_main_v8 (F := Ideal) x3 (ix1 e) = x3 (ix2 e (0 : Fin 1)) := by
  rw [val_main_v8_apply]
  refine congrArg x3 (funext fun a => ?_)
  match a with
  | ⟨0, _⟩ => exact Fin.ext (Nat.div_one _)
  | ⟨1, _⟩ => rfl

theorem residuals_apply (e : Fin 32768) :
    val_main_v58 (F := Ideal) x2 x3 (ix2 e (0 : Fin 1))
      = Spec.residual (adj x2 x3) (Spec.node (src x2 e)) (Spec.node (dst x2 e)) (x3 (ix2 e (0 : Fin 1))) := by
  rw [val_main_v58_apply]
  have hi : idx_main_v58 (ix2 e (0 : Fin 1)) = ix1 e := funext fun a => match a with | ⟨0, _⟩ => rfl
  rw [hi, val_main_v57_apply, val_main_v56_apply, val_main_v55_apply, val_main_v50_apply, val_main_v54_apply,
    val_main_v53_apply, val_main_v52_apply, val_main_cst_13_apply, val_main_v49_apply, val_main_cst_11_apply,
    v48_at x2 x3 hin e, v51_at x2 x3 hin e, v8_at x3 e, bits_one]
  unfold Spec.residual Spec.residualOf Spec.meanOf
  by_cases hp : 0 < Spec.pathCount (adj x2 x3) (Spec.node (src x2 e)) (Spec.node (dst x2 e))
  · rw [if_pos hp, (cmp_ogt_zero _).mpr hp, select_one]
    rfl
  · rw [if_neg hp, eq_zero_of_ne_one (fun h' => hp ((cmp_ogt_zero _).mp h')), select_zero]
    rfl

end Residual2

def feat (x3 x4 x5 x6 : (⟨S32768x1, .f32⟩ : BufTy).Contents (Elt Ideal)) (e : Fin 32768) : Fin 4 → EReal :=
  ![x3 (ix2 e (0 : Fin 1)), x4 (ix2 e (0 : Fin 1)), x5 (ix2 e (0 : Fin 1)), x6 (ix2 e (0 : Fin 1))]

def row (x : (⟨S2048x128, .f32⟩ : BufTy).Contents (Elt Ideal)) (n : Fin 2048) : Fin 128 → EReal := fun j => x (ix2 n j)

def mat {I K : Nat} (x : (⟨2, ![I, K]⟩ : Shape).Idx → EReal) : Fin I → Fin K → EReal := fun j k => x (ix2 j k)
def vec {K : Nat} (x : (⟨1, ![K]⟩ : Shape).Idx → EReal) : Fin K → EReal := fun k => x (ix1 k)

section Message
variable (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
  (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (hin : InRange x2)

theorem v61_at (e : Fin 32768) (k : Fin 4) :
    val_main_v61 (F := Ideal) x3 x4 x5 x6 (ix2 e k) = feat x3 x4 x5 x6 e k := by
  unfold val_main_v61
  have hi : ∀ (kk : Fin 4) (b : Fin S32768x1.rank), b.cast (rfl : S32768x1.rank = S32768x4.rank) ≠ (1 : Fin 2) →
      ((ix2 e (0 : Fin 1) : S32768x1.Idx) b).val = ((ix2 e kk : S32768x4.Idx) (b.cast rfl)).val := fun kk b hb =>
    match b, hb with
    | ⟨0, _⟩, _ => rfl
    | ⟨1, _⟩, hb => absurd rfl hb
  match k with
  | ⟨0, h⟩ =>
    exact (concatenate_apply_piece (α := EReal) (t := S32768x4) (1 : Fin 2) [⟨S32768x1, x3⟩, ⟨S32768x1, x4⟩, ⟨S32768x1, x5⟩, ⟨S32768x1, x6⟩]
      concatenates_S32768x1_S32768x1_S32768x1_S32768x1_S32768x4_d1
      (ix2 e ⟨0, h⟩) 0 (by simp) S32768x1 x3 rfl rfl 0 rfl (ix2 e (0 : Fin 1)) (hi _) rfl)
  | ⟨1, h⟩ =>
    exact (concatenate_apply_piece (α := EReal) (t := S32768x4) (1 : Fin 2) [⟨S32768x1, x3⟩, ⟨S32768x1, x4⟩, ⟨S32768x1, x5⟩, ⟨S32768x1, x6⟩]
      concatenates_S32768x1_S32768x1_S32768x1_S32768x1_S32768x4_d1
      (ix2 e ⟨1, h⟩) 1 (by simp) S32768x1 x4 rfl rfl 1 rfl (ix2 e (0 : Fin 1)) (hi _) rfl)
  | ⟨2, h⟩ =>
    exact (concatenate_apply_piece (α := EReal) (t := S32768x4) (1 : Fin 2) [⟨S32768x1, x3⟩, ⟨S32768x1, x4⟩, ⟨S32768x1, x5⟩, ⟨S32768x1, x6⟩]
      concatenates_S32768x1_S32768x1_S32768x1_S32768x1_S32768x4_d1
      (ix2 e ⟨2, h⟩) 2 (by simp) S32768x1 x5 rfl rfl 2 rfl (ix2 e (0 : Fin 1)) (hi _) rfl)
  | ⟨3, h⟩ =>
    exact (concatenate_apply_piece (α := EReal) (t := S32768x4) (1 : Fin 2) [⟨S32768x1, x3⟩, ⟨S32768x1, x4⟩, ⟨S32768x1, x5⟩, ⟨S32768x1, x6⟩]
      concatenates_S32768x1_S32768x1_S32768x1_S32768x1_S32768x4_d1
      (ix2 e ⟨3, h⟩) 3 (by simp) S32768x1 x6 rfl rfl 3 rfl (ix2 e (0 : Fin 1)) (hi _) rfl)
  | ⟨n + 4, h⟩ => exact absurd h (by omega)

include hin

theorem v67_at (e : Fin 32768) : val_main_v67 (F := Ideal) x2 (ix2 e (0 : Fin 1)) = src x2 e := by
  rw [val_main_v67_apply]
  have hi : idx_main_v67 (ix2 e (0 : Fin 1)) = ix1 e := funext fun a => match a with | ⟨0, _⟩ => rfl
  rw [hi, val_main_v66_apply, val_main_v63_apply, val_main_v65_apply, val_main_v62_apply, val_main_v64_apply,
    val_main_c_14_apply, val_main_c_15_apply, v1_at]
  exact wrap_eq _ (hin _).1
theorem v74_at (e : Fin 32768) : val_main_v74 (F := Ideal) x2 (ix2 e (0 : Fin 1)) = src x2 e := by
  rw [val_main_v74_apply]
  have hi : idx_main_v74 (ix2 e (0 : Fin 1)) = ix1 e := funext fun a => match a with | ⟨0, _⟩ => rfl
  rw [hi, val_main_v73_apply, val_main_v70_apply, val_main_v72_apply, val_main_v69_apply, val_main_v71_apply,
    val_main_c_16_apply, val_main_c_17_apply, v1_at]
  exact wrap_eq _ (hin _).1

theorem v68_at (e : Fin 32768) (j : Fin 128) :
    val_main_v68 (F := Ideal) x0 x2 (ix2 e j) = row x0 (Spec.node (src x2 e)) j := by
  unfold val_main_v68
  refine (gather_rows_apply (N := 2048) (R := 32768) (C := 128) (w := 32) (by decide) _
    x0 (val_main_v67 (F := Ideal) x2) e j).trans ?_
  refine congrArg (fun a : Fin 2048 => x0 (ix2 a j)) (Fin.ext ?_)
  show min (val_main_v67 (F := Ideal) x2 (ix2 e (0 : Fin 1))).toInt.toNat (2048 - 1) = min (src x2 e).toInt.toNat 2047
  rw [v67_at x2 hin e]

theorem v75_at (e : Fin 32768) (j : Fin 128) :
    val_main_v75 (F := Ideal) x1 x2 (ix2 e j) = row x1 (Spec.node (src x2 e)) j := by
  unfold val_main_v75
  refine (gather_rows_apply (N := 2048) (R := 32768) (C := 128) (w := 32) (by decide) _
    x1 (val_main_v74 (F := Ideal) x2) e j).trans ?_
  refine congrArg (fun a : Fin 2048 => x1 (ix2 a j)) (Fin.ext ?_)
  show min (val_main_v74 (F := Ideal) x2 (ix2 e (0 : Fin 1))).toInt.toNat (2048 - 1) = min (src x2 e).toInt.toNat 2047
  rw [v74_at x2 hin e]

theorem v76_at (e : Fin 32768) (j : Fin 260) :
    val_main_v76 (F := Ideal) x0 x1 x2 x3 x4 x5 x6 (ix2 e j)
      = Spec.msgInput (row x0 (Spec.node (src x2 e))) (row x1 (Spec.node (src x2 e))) (feat x3 x4 x5 x6 e) j := by
  unfold val_main_v76 Spec.msgInput
  by_cases h1 : j.val < 128
  · rw [dif_pos h1]
    refine (concatenate_apply_piece (α := EReal) (t := S32768x260) (1 : Fin 2) [⟨S32768x128, val_main_v68 (F := Ideal) x0 x2⟩, ⟨S32768x128, val_main_v75 (F := Ideal) x1 x2⟩, ⟨S32768x4, val_main_v61 (F := Ideal) x3 x4 x5 x6⟩]
      concatenates_S32768x128_S32768x128_S32768x4_S32768x260_d1
      (ix2 e j) 0 (by simp) S32768x128 (val_main_v68 (F := Ideal) x0 x2) rfl rfl 0 rfl (ix2 e (⟨j.val, h1⟩ : Fin 128))
      (fun b hb => match b, hb with
        | ⟨0, _⟩, _ => rfl
        | ⟨1, _⟩, hb => absurd rfl hb)
      (by show 0 + j.val = j.val; omega)).trans ?_
    exact v68_at x0 x2 hin e _
  · rw [dif_neg h1]
    by_cases h2 : j.val < 256
    · rw [dif_pos h2]
      refine (concatenate_apply_piece (α := EReal) (t := S32768x260) (1 : Fin 2) [⟨S32768x128, val_main_v68 (F := Ideal) x0 x2⟩, ⟨S32768x128, val_main_v75 (F := Ideal) x1 x2⟩, ⟨S32768x4, val_main_v61 (F := Ideal) x3 x4 x5 x6⟩]
      concatenates_S32768x128_S32768x128_S32768x4_S32768x260_d1
        (ix2 e j) 1 (by simp) S32768x128 (val_main_v75 (F := Ideal) x1 x2) rfl rfl 128 rfl
        (ix2 e (⟨j.val - 128, by omega⟩ : Fin 128))
        (fun b hb => match b, hb with
          | ⟨0, _⟩, _ => rfl
          | ⟨1, _⟩, hb => absurd rfl hb)
        (by show 128 + (j.val - 128) = j.val; omega)).trans ?_
      exact v75_at x1 x2 hin e _
    · rw [dif_neg h2]
      have hj := j.isLt
      refine (concatenate_apply_piece (α := EReal) (t := S32768x260) (1 : Fin 2) [⟨S32768x128, val_main_v68 (F := Ideal) x0 x2⟩, ⟨S32768x128, val_main_v75 (F := Ideal) x1 x2⟩, ⟨S32768x4, val_main_v61 (F := Ideal) x3 x4 x5 x6⟩]
      concatenates_S32768x128_S32768x128_S32768x4_S32768x260_d1
        (ix2 e j) 2 (by simp) S32768x4 (val_main_v61 (F := Ideal) x3 x4 x5 x6) rfl rfl 256 rfl
        (ix2 e (⟨j.val - 256, by omega⟩ : Fin 4))
        (fun b hb => match b, hb with
          | ⟨0, _⟩, _ => rfl
          | ⟨1, _⟩, hb => absurd rfl hb)
        (by show 256 + (j.val - 256) = j.val; omega)).trans ?_
      exact v61_at x3 x4 x5 x6 e _

end Message

def wmsg (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (e : Fin 32768) (h : Fin 128) : EReal :=
  Spec.weightedMsg (row x0 (Spec.node (src x2 e))) (row x1 (Spec.node (src x2 e))) (feat x3 x4 x5 x6 e)
    (mat x7) (vec x8) (mat x9) (vec x10)
    (Spec.weight (Spec.residual (adj x2 x3) (Spec.node (src x2 e)) (Spec.node (dst x2 e)) (x3 (ix2 e (0 : Fin 1))))) h

section Message2
variable (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
  (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (hin : InRange x2)
include hin

theorem v81_at (e : Fin 32768) (k : Fin 128) :
    val_main_v81 (F := Ideal) x0 x1 x2 x3 x4 x5 x6 x7 x8 (ix2 e k)
      = max (Spec.layer (Spec.msgInput (row x0 (Spec.node (src x2 e))) (row x1 (Spec.node (src x2 e)))
          (feat x3 x4 x5 x6 e)) (mat x7) (vec x8) k) 0 := by
  rw [val_main_v81_apply, val_main_v80_apply, val_main_v77_apply, val_main_v79_apply, val_main_v78_apply,
    val_main_call2_v0_apply, val_main_call2_cst_apply, bits_zero]
  unfold Spec.layer
  show max ((∑ j : Fin 260, _) + _) 0 = _
  refine congrArg (fun z => max z 0) (congrArg₂ (· + ·) (Finset.sum_congr rfl fun j _ => ?_) ?_)
  · have hl : lidx_main_v77 (ix2 e k) j = ix2 e j := funext fun a => match a with | ⟨0, _⟩ => rfl | ⟨1, _⟩ => rfl
    have hr : ridx_main_v77 (ix2 e k) j = ix2 j k := funext fun a => match a with | ⟨0, _⟩ => rfl | ⟨1, _⟩ => rfl
    rw [hl, hr, v76_at x0 x1 x2 x3 x4 x5 x6 hin e j]
    rfl
  · exact congrArg x8 (funext fun a => match a with | ⟨0, _⟩ => rfl)

theorem v85_at (e : Fin 32768) (h : Fin 128) :
    val_main_v85 (F := Ideal) x0 x1 x2 x3 x4 x5 x6 x7 x8 x9 x10 (ix2 e h)
      = Spec.mlp (Spec.msgInput (row x0 (Spec.node (src x2 e))) (row x1 (Spec.node (src x2 e))) (feat x3 x4 x5 x6 e))
          (mat x7) (vec x8) (mat x9) (vec x10) h := by
  rw [val_main_v85_apply, val_main_v82_apply, val_main_v84_apply, val_main_v83_apply]
  unfold Spec.mlp
  conv_rhs => unfold Spec.layer
  show (∑ k : Fin 128, _) + _ = _
  refine congrArg₂ (· + ·) (Finset.sum_congr rfl fun k _ => ?_) ?_
  · have hl : lidx_main_v82 (ix2 e h) k = ix2 e k := funext fun a => match a with | ⟨0, _⟩ => rfl | ⟨1, _⟩ => rfl
    have hr : ridx_main_v82 (ix2 e h) k = ix2 k h := funext fun a => match a with | ⟨0, _⟩ => rfl | ⟨1, _⟩ => rfl
    rw [hl, hr, v81_at x0 x1 x2 x3 x4 x5 x6 x7 x8 hin e k]
    rfl
  · exact congrArg x10 (funext fun a => match a with | ⟨0, _⟩ => rfl)

omit x0 x1 x4 x5 x6 x7 x8 x9 x10 in
theorem v60_at (e : Fin 32768) :
    val_main_v60 (F := Ideal) x2 x3 (ix2 e (0 : Fin 1))
      = Spec.weight (Spec.residual (adj x2 x3) (Spec.node (src x2 e)) (Spec.node (dst x2 e)) (x3 (ix2 e (0 : Fin 1)))) := by
  rw [val_main_v60_apply, val_main_v59_apply, residuals_apply x2 x3 hin e]
  rfl

theorem v87_at (e : Fin 32768) (h : Fin 128) :
    val_main_v87 (F := Ideal) x0 x1 x2 x3 x4 x5 x6 x7 x8 x9 x10 (ix2 e h) = wmsg x0 x1 x2 x3 x4 x5 x6 x7 x8 x9 x10 e h := by
  rw [val_main_v87_apply, val_main_v86_apply, v85_at x0 x1 x2 x3 x4 x5 x6 x7 x8 x9 x10 hin e h]
  have hi : idx_main_v86 (ix2 e h) = ix2 e (0 : Fin 1) := funext fun a => match a with | ⟨0, _⟩ => rfl | ⟨1, _⟩ => rfl
  rw [hi, v60_at x2 x3 hin e]
  rfl

end Message2

theorem node_eq_iff (w : BitVec 32) (h0 : 0 ≤ w.toInt) (h1 : w.toInt < 2048) (n : Fin 2048) :
    w.toInt.toNat = n.val ↔ Spec.node w = n := by
  constructor
  · intro h; refine Fin.ext ?_; show min w.toInt.toNat 2047 = n.val; omega
  · intro h; have := congrArg Fin.val h; change min w.toInt.toNat 2047 = n.val at this; omega

def agg (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (n : Fin 2048) (j : Fin 128) : EReal :=
  ∑ e : Fin 32768, if Spec.node (dst x2 e) = n then wmsg x0 x1 x2 x3 x4 x5 x6 x7 x8 x9 x10 e j else 0

def wsum (x2 : (⟨S2x32768, .i32⟩ : BufTy).Contents (Elt Ideal)) (x3 : (⟨S32768x1, .f32⟩ : BufTy).Contents (Elt Ideal)) (n : Fin 2048) : EReal :=
  val_main_v93 (F := Ideal) x2 x3 (ix2 n (0 : Fin 1))
def rsum (x2 : (⟨S2x32768, .i32⟩ : BufTy).Contents (Elt Ideal)) (x3 : (⟨S32768x1, .f32⟩ : BufTy).Contents (Elt Ideal)) (n : Fin 2048) : EReal :=
  val_main_v110 (F := Ideal) x2 x3 (ix2 n (0 : Fin 1))
def cnt (x2 : (⟨S2x32768, .i32⟩ : BufTy).Contents (Elt Ideal)) (n : Fin 2048) : EReal :=
  val_main_v114 (F := Ideal) x2 (ix2 n (0 : Fin 1))

def aggm (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (n : Fin 2048) (j : Fin 128) : EReal :=
  Spec.aggMsg (agg x0 x1 x2 x3 x4 x5 x6 x7 x8 x9 x10 n j) (wsum x2 x3 n)

section Node
variable (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (hin : InRange x2)

theorem v89_at (e : Fin 32768) : val_main_v89 (F := Ideal) x2 (ix2 e (0 : Fin 1)) = dst x2 e := by
  rw [val_main_v89_apply]
  have hi : idx_main_v89 (ix2 e (0 : Fin 1)) = ix1 e := funext fun a => match a with | ⟨0, _⟩ => rfl
  rw [hi, v3_at]

include hin

theorem v90_at (n : Fin 2048) (j : Fin 128) :
    val_main_v90 (F := Ideal) x0 x1 x2 x3 x4 x5 x6 x7 x8 x9 x10 (ix2 n j) = agg x0 x1 x2 x3 x4 x5 x6 x7 x8 x9 x10 n j := by
  unfold val_main_v90
  refine (scatterAdd_rows_apply (N := 2048) (R := 32768) (C := 128) (w := 32) (φ := .f32) _
    (val_main_v88 (F := Ideal)) (val_main_v89 (F := Ideal) x2) (val_main_v87 (F := Ideal) x0 x1 x2 x3 x4 x5 x6 x7 x8 x9 x10)
    (fun r => by rw [v89_at x2 r]; exact hin _) n j).trans ?_
  rw [val_main_v88_apply, val_main_cst_18_apply, bits_zero, zero_add]
  unfold agg
  refine Finset.sum_congr rfl fun e _ => ?_
  rw [v89_at x2 e, v87_at x0 x1 x2 x3 x4 x5 x6 x7 x8 x9 x10 hin e j]
  exact if_congr (node_eq_iff _ (hin _).1 (hin _).2 n) rfl rfl

theorem v97_at (n : Fin 2048) (j : Fin 128) :
    val_main_v97 (F := Ideal) x0 x1 x2 x3 x4 x5 x6 x7 x8 x9 x10 (ix2 n j) = aggm x0 x1 x2 x3 x4 x5 x6 x7 x8 x9 x10 n j := by
  rw [val_main_v97_apply, val_main_v96_apply, v90_at x0 x1 x2 x3 x4 x5 x6 x7 x8 x9 x10 hin n j]
  have hi : idx_main_v96 (ix2 n j) = ix2 n (0 : Fin 1) := funext fun a => match a with | ⟨0, _⟩ => rfl | ⟨1, _⟩ => rfl
  rw [hi, val_main_v95_apply, val_main_v94_apply, val_main_cst_20_apply]
  rfl

end Node

section Mu
variable (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
  (hin : InRange x2)
include hin

theorem v102_at (n : Fin 2048) (k : Fin 128) :
    val_main_v102 (F := Ideal) x0 x1 x2 x3 x4 x5 x6 x7 x8 x9 x10 x11 x12 (ix2 n k)
      = max (Spec.layer (aggm x0 x1 x2 x3 x4 x5 x6 x7 x8 x9 x10 n) (mat x11) (vec x12) k) 0 := by
  rw [val_main_v102_apply, val_main_v101_apply, val_main_v98_apply, val_main_v100_apply, val_main_v99_apply,
    val_main_call3_v0_apply, val_main_call3_cst_apply, bits_zero]
  unfold Spec.layer
  show max ((∑ j : Fin 128, _) + _) 0 = _
  refine congrArg (fun z => max z 0) (congrArg₂ (· + ·) (Finset.sum_congr rfl fun j _ => ?_) ?_)
  · have hl : lidx_main_v98 (ix2 n k) j = ix2 n j := funext fun a => match a with | ⟨0, _⟩ => rfl | ⟨1, _⟩ => rfl
    have hr : ridx_main_v98 (ix2 n k) j = ix2 j k := funext fun a => match a with | ⟨0, _⟩ => rfl | ⟨1, _⟩ => rfl
    rw [hl, hr, v97_at x0 x1 x2 x3 x4 x5 x6 x7 x8 x9 x10 hin n j]
    rfl
  · exact congrArg x12 (funext fun a => match a with | ⟨0, _⟩ => rfl)

theorem muNew_apply (n : Fin 2048) (h : Fin 128) :
    val_main_v107 (F := Ideal) x0 x1 x2 x3 x4 x5 x6 x7 x8 x9 x10 x11 x12 x13 x14 (ix2 n h)
      = Spec.muNew (x0 (ix2 n h)) (aggm x0 x1 x2 x3 x4 x5 x6 x7 x8 x9 x10 n) (mat x11) (vec x12) (mat x13) (vec x14) h := by
  rw [val_main_v107_apply, val_main_v106_apply, val_main_v103_apply, val_main_v105_apply, val_main_v104_apply]
  unfold Spec.muNew Spec.mlp
  conv_rhs => unfold Spec.layer
  show _ + ((∑ k : Fin 128, _) + _) = _
  refine congrArg (fun z => x0 (ix2 n h) + z) (congrArg₂ (· + ·) (Finset.sum_congr rfl fun k _ => ?_) ?_)
  · have hl : lidx_main_v103 (ix2 n h) k = ix2 n k := funext fun a => match a with | ⟨0, _⟩ => rfl | ⟨1, _⟩ => rfl
    have hr : ridx_main_v103 (ix2 n h) k = ix2 k h := funext fun a => match a with | ⟨0, _⟩ => rfl | ⟨1, _⟩ => rfl
    rw [hl, hr, v102_at x0 x1 x2 x3 x4 x5 x6 x7 x8 x9 x10 x11 x12 hin n k]
    rfl
  · exact congrArg x14 (funext fun a => match a with | ⟨0, _⟩ => rfl)

end Mu

theorem v117_at (x2 : (⟨S2x32768, .i32⟩ : BufTy).Contents (Elt Ideal)) (x3 : (⟨S32768x1, .f32⟩ : BufTy).Contents (Elt Ideal)) (n : Fin 2048) :
    val_main_v117 (F := Ideal) x2 x3 (ix2 n (0 : Fin 1)) = Spec.meanRes (rsum x2 x3 n) (cnt x2 n) := by
  rw [val_main_v117_apply, val_main_v116_apply, val_main_v115_apply, val_main_cst_24_apply, bits_one]
  rfl

theorem cmp_une_self (y : EReal) : FloatOps.cmpf (F := Ideal) (φ := .f32) .une y y = 0#1 := by
  show BitVec.ofBool (decide (y ≠ y)) = 0#1
  simp

section Sigma
variable (x0 x1 : (⟨S2048x128, .f32⟩ : BufTy).Contents (Elt Ideal)) (x2 : (⟨S2x32768, .i32⟩ : BufTy).Contents (Elt Ideal)) (x3 x4 x5 x6 : (⟨S32768x1, .f32⟩ : BufTy).Contents (Elt Ideal))
    (x7 : (⟨S260x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x15 : (⟨S129x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal))
  (hin : InRange x2)
include hin

theorem v118_at (n : Fin 2048) (j : Fin 129) :
    val_main_v118 (F := Ideal) x0 x1 x2 x3 x4 x5 x6 x7 x8 x9 x10 (ix2 n j)
      = Spec.sigInput (aggm x0 x1 x2 x3 x4 x5 x6 x7 x8 x9 x10 n) (Spec.meanRes (rsum x2 x3 n) (cnt x2 n)) j := by
  unfold val_main_v118 Spec.sigInput
  by_cases h1 : j.val < 128
  · rw [dif_pos h1]
    refine (concatenate_apply_piece (α := EReal) (t := S2048x129) (1 : Fin 2) [⟨S2048x128, val_main_v97 (F := Ideal) x0 x1 x2 x3 x4 x5 x6 x7 x8 x9 x10⟩, ⟨S2048x1, val_main_v117 (F := Ideal) x2 x3⟩]
      concatenates_S2048x128_S2048x1_S2048x129_d1
      (ix2 n j) 0 (by simp) S2048x128 (val_main_v97 (F := Ideal) x0 x1 x2 x3 x4 x5 x6 x7 x8 x9 x10) rfl rfl 0 rfl (ix2 n (⟨j.val, h1⟩ : Fin 128))
      (fun b hb => match b, hb with
        | ⟨0, _⟩, _ => rfl
        | ⟨1, _⟩, hb => absurd rfl hb)
      (by show 0 + j.val = j.val; omega)).trans ?_
    exact v97_at x0 x1 x2 x3 x4 x5 x6 x7 x8 x9 x10 hin n _
  · rw [dif_neg h1]
    have hj := j.isLt
    refine (concatenate_apply_piece (α := EReal) (t := S2048x129) (1 : Fin 2) [⟨S2048x128, val_main_v97 (F := Ideal) x0 x1 x2 x3 x4 x5 x6 x7 x8 x9 x10⟩, ⟨S2048x1, val_main_v117 (F := Ideal) x2 x3⟩]
      concatenates_S2048x128_S2048x1_S2048x129_d1
      (ix2 n j) 1 (by simp) S2048x1 (val_main_v117 (F := Ideal) x2 x3) rfl rfl 128 rfl (ix2 n (0 : Fin 1))
      (fun b hb => match b, hb with
        | ⟨0, _⟩, _ => rfl
        | ⟨1, _⟩, hb => absurd rfl hb)
      (by show 128 + 0 = j.val; omega)).trans ?_
    exact v117_at x2 x3 n

theorem v123_at (n : Fin 2048) (k : Fin 128) :
    val_main_v123 (F := Ideal) x0 x1 x2 x3 x4 x5 x6 x7 x8 x9 x10 x15 x16 (ix2 n k)
      = max (Spec.layer (Spec.sigInput (aggm x0 x1 x2 x3 x4 x5 x6 x7 x8 x9 x10 n) (Spec.meanRes (rsum x2 x3 n) (cnt x2 n)))
          (mat x15) (vec x16) k) 0 := by
  rw [val_main_v123_apply, val_main_v122_apply, val_main_v119_apply, val_main_v121_apply, val_main_v120_apply,
    val_main_call4_v0_apply, val_main_call4_cst_apply, bits_zero]
  unfold Spec.layer
  show max ((∑ j : Fin 129, _) + _) 0 = _
  refine congrArg (fun z => max z 0) (congrArg₂ (· + ·) (Finset.sum_congr rfl fun j _ => ?_) ?_)
  · have hl : lidx_main_v119 (ix2 n k) j = ix2 n j := funext fun a => match a with | ⟨0, _⟩ => rfl | ⟨1, _⟩ => rfl
    have hr : ridx_main_v119 (ix2 n k) j = ix2 j k := funext fun a => match a with | ⟨0, _⟩ => rfl | ⟨1, _⟩ => rfl
    rw [hl, hr, v118_at x0 x1 x2 x3 x4 x5 x6 x7 x8 x9 x10 hin n j]
    rfl
  · exact congrArg x16 (funext fun a => match a with | ⟨0, _⟩ => rfl)

theorem v127_at (n : Fin 2048) (h : Fin 128) :
    val_main_v127 (F := Ideal) x0 x1 x2 x3 x4 x5 x6 x7 x8 x9 x10 x15 x16 x17 x18 (ix2 n h)
      = Spec.mlp (Spec.sigInput (aggm x0 x1 x2 x3 x4 x5 x6 x7 x8 x9 x10 n) (Spec.meanRes (rsum x2 x3 n) (cnt x2 n)))
          (mat x15) (vec x16) (mat x17) (vec x18) h := by
  rw [val_main_v127_apply, val_main_v124_apply, val_main_v126_apply, val_main_v125_apply]
  unfold Spec.mlp
  conv_rhs => unfold Spec.layer
  show (∑ k : Fin 128, _) + _ = _
  refine congrArg₂ (· + ·) (Finset.sum_congr rfl fun k _ => ?_) ?_
  · have hl : lidx_main_v124 (ix2 n h) k = ix2 n k := funext fun a => match a with | ⟨0, _⟩ => rfl | ⟨1, _⟩ => rfl
    have hr : ridx_main_v124 (ix2 n h) k = ix2 k h := funext fun a => match a with | ⟨0, _⟩ => rfl | ⟨1, _⟩ => rfl
    rw [hl, hr, v123_at x0 x1 x2 x3 x4 x5 x6 x7 x8 x9 x10 x15 x16 hin n k]
    rfl
  · exact congrArg x18 (funext fun a => match a with | ⟨0, _⟩ => rfl)

theorem sigNew_apply (n : Fin 2048) (h : Fin 128) :
    val_main_v128 (F := Ideal) x0 x1 x2 x3 x4 x5 x6 x7 x8 x9 x10 x15 x16 x17 x18 (ix2 n h)
      = Spec.sigNew (aggm x0 x1 x2 x3 x4 x5 x6 x7 x8 x9 x10 n) (Spec.meanRes (rsum x2 x3 n) (cnt x2 n))
          (mat x15) (vec x16) (mat x17) (vec x18) h := by
  rw [val_main_v128_apply, val_main_call5_v4_apply, cmp_une_self, select_zero, val_main_call5_v11_apply,
    val_main_call5_v1_apply, val_main_call5_v10_apply, val_main_call5_v9_apply, val_main_call5_v8_apply,
    val_main_call5_v7_apply, val_main_call5_v3_apply, val_main_call5_v0_apply, val_main_call5_v2_apply,
    val_main_call5_cst_apply, bits_zero, v127_at x0 x1 x2 x3 x4 x5 x6 x7 x8 x9 x10 x15 x16 x17 x18 hin n h]
  unfold Spec.sigNew Spec.softplus
  generalize Spec.mlp (Spec.sigInput (aggm x0 x1 x2 x3 x4 x5 x6 x7 x8 x9 x10 n) (Spec.meanRes (rsum x2 x3 n) (cnt x2 n)))
    (mat x15) (vec x16) (mat x17) (vec x18) h = z
  show max z 0 + Ideal.log1p (Ideal.exp (-(max (z - 0) (-(z - 0))))) = max z 0 + Ideal.log1p (Ideal.exp (-(max z (-z))))
  rw [sub_zero]

end Sigma

end Cert.RefValue

end
-- ==== Proof.LibAllReal.lean ====
import proofs.«418543_j27023934227041_3_alg».proof.Proof.SpecBase
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

theorem coe_max_real (a b : ℝ) : max (a : EReal) (b : EReal) = ((max a b : ℝ) : EReal) :=
  (EReal.coe_strictMono.monotone.map_max).symm

theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

theorem ofBits_f32_one : Ideal.ofBits .f32 0x3F800000#32 = ((1 : ℝ) : EReal) := by
  simp [Ideal.ofBits, Ideal.ieee, -EReal.coe_mul]
  norm_num

def AllPos {S : Shape} (x : S.Idx → EReal) : Prop := ∀ i, ∃ r : ℝ, 0 < r ∧ x i = (r : EReal)

variable {s t : Shape} {φ : FTy}

theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

theorem AllReal.constant {b : BitVec φ.bits} {r : ℝ} (hb : Ideal.ofBits φ b = (r : EReal)) :
    AllReal (constant (F := Ideal) s φ b) :=
  fun _ => ⟨r, hb⟩

theorem AllPos.constant {b : BitVec φ.bits} {r : ℝ} (hr : 0 < r) (hb : Ideal.ofBits φ b = (r : EReal)) :
    AllPos (constant (F := Ideal) s φ b) :=
  fun _ => ⟨r, hr, hb⟩

theorem AllReal.broadcastInDim {dims : Fin s.rank → Fin t.rank} {h : s.BroadcastsInDim t dims} {x : s.Idx → EReal}
    (hx : AllReal x) : AllReal (broadcastInDim t dims h x) :=
  fun _ => hx _

theorem AllPos.broadcastInDim {dims : Fin s.rank → Fin t.rank} {h : s.BroadcastsInDim t dims} {x : s.Idx → EReal}
    (hx : AllPos x) : AllPos (broadcastInDim t dims h x) :=
  fun _ => hx _

theorem AllReal.gather {si : Shape} {w : Nat} {d : GatherDims s si t} {x : s.Idx → EReal} {idx : IVec si w}
    (hx : AllReal x) : AllReal (Host.gather d x idx) :=
  fun _ => hx _

theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.ScatterReal.lean ====
import proofs.«418543_j27023934227041_3_alg».proof.Proof.SpecBase
import Idealize.ShloMosaic.PureOps.ShapeOps

noncomputable section

namespace Cert.Spec

open Idealize.ShloMosaic

theorem AllReal.foldl {s : Shape} {ι : Type} (step : (s.Idx → EReal) → ι → (s.Idx → EReal))
    (hstep : ∀ r n, AllReal r → AllReal (step r n)) :
    ∀ (l : List ι) (r0 : s.Idx → EReal), AllReal r0 → AllReal (l.foldl step r0)
  | [], _, h0 => h0
  | n :: l, r0, h0 => AllReal.foldl step hstep l (step r0 n) (hstep r0 n h0)

theorem AllReal.scatterSet {s si u : Shape} {w : Nat} {d : ScatterDims s si u} {x : s.Idx → EReal} {idx : IVec si w}
    {upd : u.Idx → EReal} (hx : AllReal x) (hu : AllReal upd) :
    AllReal (Host.scatter d (fun _ b => b) x idx upd) := by
  unfold Host.scatter
  refine AllReal.foldl _ ?_ _ x hx
  intro r n hr
  dsimp only
  split
  · intro i'
    dsimp only
    split
    · exact hu _
    · exact hr _
  · exact hr

end Cert.Spec

end
-- ==== Proof.KHost.lean ====
import proofs.«418543_j27023934227041_3_alg».proof.Proof.Gen.KernelIdeal.Regions
import proofs.«418543_j27023934227041_3_alg».proof.Proof.Spec
import proofs.«418543_j27023934227041_3_alg».proof.Proof.LibAllReal
import proofs.«418543_j27023934227041_3_alg».proof.Proof.ScatterReal
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL Idealize.SL.Sem
open Idealize.ShloMosaic.StableHlo
open Cert.Spec

def ap2 {α β γ : Sort _} (f : α → β → γ) (a : α) (b : β) : γ := f a b
def ap3 {α β γ δ : Sort _} (f : α → β → γ → δ) (a : α) (b : β) (c : γ) : δ := f a b c
def ap5 {α β γ δ ε ζ : Sort _} (f : α → β → γ → δ → ε → ζ) (a : α) (b : β) (c : γ) (d : δ) (e : ε) : ζ := f a b c d e

section Results
variable {Val : EltTy → Type} {x a b c e y : Ref sig .tc}

theorem binary_result_ap (f : a.ty.Contents Val → b.ty.Contents Val → y.ty.Contents Val) (ha hb hy) (F : Valuation τ sig Val) :
    (binary (τ := τ) a b y f ha hb hy).result F (no_index (Proc.devRef .tc y)) = ap2 f (F (Proc.devRef .tc a)) (F (Proc.devRef .tc b)) :=
  binary_result a b y f ha hb hy F

theorem nary3_result_ap
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = ap3 (fun (u0 : x.ty.Contents Val) (u1 : a.ty.Contents Val) (u2 : b.ty.Contents Val) =>
          f (Fin.cons u0 (Fin.cons u1 (Fin.cons u2 (fun i => i.elim0)))))
          (F (Proc.devRef .tc x)) (F (Proc.devRef .tc a)) (F (Proc.devRef .tc b)) := by
  show _ = f _
  rw [nary_result]; congr 1; funext k; fin_cases k <;> rfl

theorem nary5_result_ap
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = ap5 (fun (u0 : x.ty.Contents Val) (u1 : a.ty.Contents Val) (u2 : b.ty.Contents Val) (u3 : c.ty.Contents Val)
            (u4 : e.ty.Contents Val) =>
          f (Fin.cons u0 (Fin.cons u1 (Fin.cons u2 (Fin.cons u3 (Fin.cons u4 (fun i => i.elim0)))))))
          (F (Proc.devRef .tc x)) (F (Proc.devRef .tc a)) (F (Proc.devRef .tc b)) (F (Proc.devRef .tc c))
          (F (Proc.devRef .tc e)) := by
  show _ = f _
  rw [nary_result]; congr 1; funext k; fin_cases k <;> rfl

end Results

macro "results_simp" : tactic =>
  `(tactic| (simp (disch := decide) only [after_cons, after_nil,
      nullary_result', unary_result', binary_result_ap, ternary_result', quaternary_result', reshape_result',
      nary3_result_ap, nary5_result_ap, nary4_result',
      nullary_result_ne', unary_result_ne', binary_result_ne', ternary_result_ne', quaternary_result_ne', reshape_result_ne',
      nary_result_ne']))

def srcRow (ei : IVec S2x32768 32) : IVec S32768 32 :=
  shapeCast S32768 (extractStridedSlice S1x32768 ![0, 0] ei slices_S2x32768_S1x32768_0_0) shapeCasts_S1x32768_S32768

def dstRow (ei : IVec S2x32768 32) : IVec S32768 32 :=
  shapeCast S32768 (extractStridedSlice S1x32768 ![1, 0] ei slices_S2x32768_S1x32768_1_0) shapeCasts_S1x32768_S32768

def flat (ed : FVec Ideal S32768x1 .f32) : FVec Ideal S32768 .f32 := shapeCast S32768 ed shapeCasts_S32768x1_S32768

def col {α : Type} (v : S32768.Idx → α) : S32768x1.Idx → α := broadcastInDim S32768x1 ![0] bcast_S32768_S32768x1_0 v

def normIdx (v : IVec S32768 32) : IVec S32768 32 :=
  select (cmpi .slt v (broadcastInDim S32768 ![] bcast_S_S32768 (constantI S_ 32 0#32)))
    (addi v (broadcastInDim S32768 ![] bcast_S_S32768 (constantI S_ 32 2048#32))) v

def pairIdx (a b : IVec S32768 32) : IVec S32768x2 32 :=
  concatenate S32768x2 1 [⟨S32768x1, col a⟩, ⟨S32768x1, col b⟩] concatenates_S32768x1_S32768x1_S32768x2_d1

def edgePairs (s d : IVec S32768 32) : IVec S32768x2 32 := pairIdx (normIdx s) (normIdx d)

def adjOf (ei : IVec S2x32768 32) (ed : FVec Ideal S32768x1 .f32) : FVec Ideal S2048x2048 .f32 :=
  Host.scatter scatter_S2048x2048_S32768x2_S32768_n_01_01_1 (fun _ b => b)
    (broadcastInDim S2048x2048 ![] bcast_S_S2048x2048 (constant (F := Ideal) S_ .f32 0xBF800000#32))
    (edgePairs (srcRow ei) (dstRow ei)) (flat ed)

def atEdges (P : FVec Ideal S2048x2048 .f32) (s d : IVec S32768 32) : FVec Ideal S32768 .f32 :=
  Host.gather gather_S2048x2048_S32768x2_S32768_n_01_n_n_01_1_11 P (edgePairs s d)

def hasPath (P : FVec Ideal S2048x2048 .f32) (s d : IVec S32768 32) : IVec S32768 1 :=
  cmpf (F := Ideal) .ogt (atEdges P s d) (broadcastInDim S32768 ![] bcast_S_S32768 (constant (F := Ideal) S_ .f32 0x00000000#32))

def pathMean (P T : FVec Ideal S2048x2048 .f32) (s d : IVec S32768 32) : FVec Ideal S32768 .f32 :=
  Host.divf (F := Ideal) (atEdges T s d)
    (maximumf (F := Ideal) (atEdges P s d) (broadcastInDim S32768 ![] bcast_S_S32768 (constant (F := Ideal) S_ .f32 0x3F800000#32)))

def resCol (dv mean : FVec Ideal S32768 .f32) : FVec Ideal S32768x1 .f32 :=
  col (Host.absf (F := Ideal) (subf (F := Ideal) dv mean))

def wgtCol (r : FVec Ideal S32768x1 .f32) : FVec Ideal S32768x1 .f32 := Host.exp (F := Ideal) (Host.negf (F := Ideal) r)

def nodeSum (dv : IVec S32768 32) (u : FVec Ideal S32768x1 .f32) : FVec Ideal S2048x1 .f32 :=
  Host.scatterAdd (F := Ideal) scatter_S2048x1_S32768x1_S32768x1_1_0_0_1
    (broadcastInDim S2048x1 ![] bcast_S_S2048x1 (constant (F := Ideal) S_ .f32 0x00000000#32)) (col dv) u

def wsumOf (dv : IVec S32768 32) (r : FVec Ideal S32768x1 .f32) : FVec Ideal S2048x1 .f32 := nodeSum dv (wgtCol r)
def rsumOf (dv : IVec S32768 32) (r : FVec Ideal S32768x1 .f32) : FVec Ideal S2048x1 .f32 := nodeSum dv r
def cntOf (dv : IVec S32768 32) : FVec Ideal S2048x1 .f32 :=
  nodeSum dv (broadcastInDim S32768x1 ![] bcast_S_S32768x1 (constant (F := Ideal) S_ .f32 0x3F800000#32))

def cat3 (a b c : FVec Ideal S2048x1 .f32) : FVec Ideal S2048x3 .f32 :=
  concatenate S2048x3 1 [⟨S2048x1, a⟩, ⟨S2048x1, b⟩, ⟨S2048x1, c⟩] concatenates_S2048x1_S2048x1_S2048x1_S2048x3_d1

def cat5 (a b c d e : FVec Ideal S32768x1 .f32) : FVec Ideal S32768x5 .f32 :=
  concatenate S32768x5 1 [⟨S32768x1, a⟩, ⟨S32768x1, b⟩, ⟨S32768x1, c⟩, ⟨S32768x1, d⟩, ⟨S32768x1, e⟩]
    concatenates_S32768x1_S32768x1_S32768x1_S32768x1_S32768x1_S32768x5_d1

def cat2 (a b : FVec Ideal S2048x128 .bf16) : FVec Ideal S2048x256 .bf16 :=
  concatenate S2048x256 1 [⟨S2048x128, a⟩, ⟨S2048x128, b⟩] concatenates_S2048x128_S2048x128_S2048x256_d1

def narrow {s : Shape} (x : FVec Ideal s .f32) : FVec Ideal s .bf16 := truncf (F := Ideal) .bf16 x bitsLt_bf16_f32

section Reads

theorem srcRow_apply (ei : IVec S2x32768 32) (e : Fin 32768) : srcRow ei (ix1 e) = ei (ix2 (0 : Fin 2) e) := by
  unfold srcRow
  refine (shapeCast_1a_a_apply _ shapeCasts_S1x32768_S32768 e).trans ?_
  exact extractStridedSlice_apply ![0, 0] ei slices_S2x32768_S1x32768_0_0 (ix2 (0 : Fin 1) e) (ix2 (0 : Fin 2) e)
    (fun a => match a with
      | ⟨0, _⟩ => rfl
      | ⟨1, _⟩ => by show e.val = 0 + e.val; omega)

theorem dstRow_apply (ei : IVec S2x32768 32) (e : Fin 32768) : dstRow ei (ix1 e) = ei (ix2 (1 : Fin 2) e) := by
  unfold dstRow
  refine (shapeCast_1a_a_apply _ shapeCasts_S1x32768_S32768 e).trans ?_
  exact extractStridedSlice_apply ![1, 0] ei slices_S2x32768_S1x32768_1_0 (ix2 (0 : Fin 1) e) (ix2 (1 : Fin 2) e)
    (fun a => match a with
      | ⟨0, _⟩ => rfl
      | ⟨1, _⟩ => by show e.val = 0 + e.val; omega)

theorem flat_apply (ed : FVec Ideal S32768x1 .f32) (e : Fin 32768) : flat ed (ix1 e) = ed (ix2 e (0 : Fin 1)) := by
  unfold flat
  exact shapeCast_apply ed shapeCasts_S32768x1_S32768 (ix1 e) (ix2 e (0 : Fin 1)) (by
    rw [Shape.rowMajor_val_two, Shape.rowMajor_val_one]
    show e.val * 1 + 0 = e.val
    omega)

theorem col_apply {α : Type} (v : S32768.Idx → α) (e : Fin 32768) (z : Fin 1) : col v (ix2 e z) = v (ix1 e) := by
  unfold col
  exact broadcastInDim_apply ![0] bcast_S32768_S32768x1_0 v (ix2 e z) (ix1 e)
    (fun a => match a with
      | ⟨0, h0⟩ => by
        show e.val = if S32768.size ⟨0, h0⟩ = 1 then 0 else e.val
        exact (if_neg (show ¬ ((32768 : Nat) = 1) by decide)).symm)

theorem normIdx_apply_of_nonneg (v : IVec S32768 32) (i : S32768.Idx) (h : 0 ≤ (v i).toInt) : normIdx v i = v i := by
  show Scalar.select (IntOp.cmpi .slt (v i) 0#32) (IntOp.addi (v i) 2048#32) (v i) = v i
  have hc : IntOp.cmpi .slt (v i) 0#32 = 0#1 := by
    refine eq_zero_of_ne_one (fun h1 => ?_)
    have h2 := IntOp.cmpi_slt.1 h1
    have z : (0#32 : BitVec 32).toInt = 0 := by decide
    omega
  rw [hc, select_zero]

theorem pairIdx_apply_0 (a b : IVec S32768 32) (e : Fin 32768) : pairIdx a b (ix2 e (0 : Fin 2)) = a (ix1 e) := by
  unfold pairIdx
  refine (concatenate_pair_apply_left 1 (col a) (col b) concatenates_S32768x1_S32768x1_S32768x2_d1 (ix2 e (0 : Fin 2)) rfl
    (ix2 e (0 : Fin 1)) (fun k => match k with | ⟨0, _⟩ => rfl | ⟨1, _⟩ => rfl)).trans ?_
  exact col_apply a e 0

theorem pairIdx_apply_1 (a b : IVec S32768 32) (e : Fin 32768) : pairIdx a b (ix2 e (1 : Fin 2)) = b (ix1 e) := by
  unfold pairIdx
  refine (concatenate_pair_apply_right 1 (col a) (col b) concatenates_S32768x1_S32768x1_S32768x2_d1 (ix2 e (1 : Fin 2)) rfl rfl
    (ix2 e (0 : Fin 1)) (fun k hk => match k, hk with
      | ⟨0, _⟩, _ => rfl
      | ⟨1, _⟩, hk => absurd rfl hk) rfl).trans ?_
  exact col_apply b e 0

theorem gather2_apply {α : Type} (P : S2048x2048.Idx → α) (idx : IVec S32768x2 32) (e : Fin 32768) :
    Host.gather gather_S2048x2048_S32768x2_S32768_n_01_n_n_01_1_11 P idx (ix1 e)
      = P (ix2 (node (idx (ix2 e (0 : Fin 2)))) (node (idx (ix2 e (1 : Fin 2))))) := by
  unfold Host.gather
  congr 1
  funext a
  refine Fin.ext ?_
  have hb : ∀ a : Fin 2, a ∉ gather_S2048x2048_S32768x2_S32768_n_01_n_n_01_1_11.operandBatchingDims :=
    fun a => List.not_mem_nil
  have hk : ∀ a : Fin 2, a ∉ gather_S2048x2048_S32768x2_S32768_n_01_n_n_01_1_11.sKept := fun a h =>
    ((GatherDims.mem_sKept gather_S2048x2048_S32768x2_S32768_n_01_n_n_01_1_11 a).mp h).1
      (show a ∈ ([0, 1] : List (Fin 2)) by fin_cases a <;> decide)
  show gather_S2048x2048_S32768x2_S32768_n_01_n_n_01_1_11.start (ix1 e) idx a
      + gather_S2048x2048_S32768x2_S32768_n_01_n_n_01_1_11.batchCoord (ix1 e) a
      + gather_S2048x2048_S32768x2_S32768_n_01_n_n_01_1_11.offCoord (ix1 e) a = _
  rw [GatherDims.batchCoord_eq_zero _ _ _ (hb a), GatherDims.offCoord_eq_zero _ _ _ (hk a)]
  simp only [Nat.add_zero]
  unfold GatherDims.start
  have hm : a ∈ gather_S2048x2048_S32768x2_S32768_n_01_n_n_01_1_11.startIndexMap :=
    show a ∈ ([0, 1] : List (Fin 2)) by fin_cases a <;> decide
  rw [dif_pos hm]
  match a, hm with
  | ⟨0, h0⟩, hm =>
    have hsi : gather_S2048x2048_S32768x2_S32768_n_01_n_n_01_1_11.siIdx (ix1 e)
        ⟨List.idxOf (⟨0, h0⟩ : Fin S2048x2048.rank) gather_S2048x2048_S32768x2_S32768_n_01_n_n_01_1_11.startIndexMap,
          List.idxOf_lt_length_iff.2 hm⟩ = ix2 e (0 : Fin 2) := by
      funext b; refine Fin.ext ?_
      match b with
      | ⟨0, _⟩ => rfl
      | ⟨1, _⟩ => rfl
    exact congrArg (fun q => min (idx q).toInt.toNat 2047) hsi
  | ⟨1, h1⟩, hm =>
    have hsi : gather_S2048x2048_S32768x2_S32768_n_01_n_n_01_1_11.siIdx (ix1 e)
        ⟨List.idxOf (⟨1, h1⟩ : Fin S2048x2048.rank) gather_S2048x2048_S32768x2_S32768_n_01_n_n_01_1_11.startIndexMap,
          List.idxOf_lt_length_iff.2 hm⟩ = ix2 e (1 : Fin 2) := by
      funext b; refine Fin.ext ?_
      match b with
      | ⟨0, _⟩ => rfl
      | ⟨1, _⟩ => rfl
    exact congrArg (fun q => min (idx q).toInt.toNat 2047) hsi

theorem atEdges_apply (P : FVec Ideal S2048x2048 .f32) (s d : IVec S32768 32) (e : Fin 32768)
    (hs : 0 ≤ (s (ix1 e)).toInt) (hd : 0 ≤ (d (ix1 e)).toInt) :
    atEdges P s d (ix1 e) = P (ix2 (node (s (ix1 e))) (node (d (ix1 e)))) := by
  unfold atEdges edgePairs
  rw [gather2_apply, pairIdx_apply_0, pairIdx_apply_1, normIdx_apply_of_nonneg s _ hs, normIdx_apply_of_nonneg d _ hd]

end Reads

section Reads2

theorem cat3_apply_0 (a b c : FVec Ideal S2048x1 .f32) (n : Fin 2048) : cat3 a b c (ix2 n (0 : Fin 3)) = a (ix2 n (0 : Fin 1)) := by
  unfold cat3
  exact concatenate_apply_piece 1 [⟨S2048x1, a⟩, ⟨S2048x1, b⟩, ⟨S2048x1, c⟩] concatenates_S2048x1_S2048x1_S2048x1_S2048x3_d1 (ix2 n (0 : Fin 3)) 0 (show (0 : Nat) < 3 by decide) S2048x1 a rfl rfl 0 rfl
    (ix2 n (0 : Fin 1)) (fun k hk => match k, hk with | ⟨0, _⟩, _ => rfl | ⟨1, _⟩, hk => absurd rfl hk) rfl
theorem cat3_apply_1 (a b c : FVec Ideal S2048x1 .f32) (n : Fin 2048) : cat3 a b c (ix2 n (1 : Fin 3)) = b (ix2 n (0 : Fin 1)) := by
  unfold cat3
  exact concatenate_apply_piece 1 [⟨S2048x1, a⟩, ⟨S2048x1, b⟩, ⟨S2048x1, c⟩] concatenates_S2048x1_S2048x1_S2048x1_S2048x3_d1 (ix2 n (1 : Fin 3)) 1 (show (1 : Nat) < 3 by decide) S2048x1 b rfl rfl 1 rfl
    (ix2 n (0 : Fin 1)) (fun k hk => match k, hk with | ⟨0, _⟩, _ => rfl | ⟨1, _⟩, hk => absurd rfl hk) rfl
theorem cat3_apply_2 (a b c : FVec Ideal S2048x1 .f32) (n : Fin 2048) : cat3 a b c (ix2 n (2 : Fin 3)) = c (ix2 n (0 : Fin 1)) := by
  unfold cat3
  exact concatenate_apply_piece 1 [⟨S2048x1, a⟩, ⟨S2048x1, b⟩, ⟨S2048x1, c⟩] concatenates_S2048x1_S2048x1_S2048x1_S2048x3_d1 (ix2 n (2 : Fin 3)) 2 (show (2 : Nat) < 3 by decide) S2048x1 c rfl rfl 2 rfl
    (ix2 n (0 : Fin 1)) (fun k hk => match k, hk with | ⟨0, _⟩, _ => rfl | ⟨1, _⟩, hk => absurd rfl hk) rfl

theorem cat5_apply_0 (a b c d f : FVec Ideal S32768x1 .f32) (e : Fin 32768) : cat5 a b c d f (ix2 e (0 : Fin 5)) = a (ix2 e (0 : Fin 1)) := by
  unfold cat5
  exact concatenate_apply_piece 1 [⟨S32768x1, a⟩, ⟨S32768x1, b⟩, ⟨S32768x1, c⟩, ⟨S32768x1, d⟩, ⟨S32768x1, f⟩] concatenates_S32768x1_S32768x1_S32768x1_S32768x1_S32768x1_S32768x5_d1 (ix2 e (0 : Fin 5)) 0 (show (0 : Nat) < 5 by decide) S32768x1 a rfl rfl 0 rfl
    (ix2 e (0 : Fin 1)) (fun k hk => match k, hk with | ⟨0, _⟩, _ => rfl | ⟨1, _⟩, hk => absurd rfl hk) rfl
theorem cat5_apply_1 (a b c d f : FVec Ideal S32768x1 .f32) (e : Fin 32768) : cat5 a b c d f (ix2 e (1 : Fin 5)) = b (ix2 e (0 : Fin 1)) := by
  unfold cat5
  exact concatenate_apply_piece 1 [⟨S32768x1, a⟩, ⟨S32768x1, b⟩, ⟨S32768x1, c⟩, ⟨S32768x1, d⟩, ⟨S32768x1, f⟩] concatenates_S32768x1_S32768x1_S32768x1_S32768x1_S32768x1_S32768x5_d1 (ix2 e (1 : Fin 5)) 1 (show (1 : Nat) < 5 by decide) S32768x1 b rfl rfl 1 rfl
    (ix2 e (0 : Fin 1)) (fun k hk => match k, hk with | ⟨0, _⟩, _ => rfl | ⟨1, _⟩, hk => absurd rfl hk) rfl
theorem cat5_apply_2 (a b c d f : FVec Ideal S32768x1 .f32) (e : Fin 32768) : cat5 a b c d f (ix2 e (2 : Fin 5)) = c (ix2 e (0 : Fin 1)) := by
  unfold cat5
  exact concatenate_apply_piece 1 [⟨S32768x1, a⟩, ⟨S32768x1, b⟩, ⟨S32768x1, c⟩, ⟨S32768x1, d⟩, ⟨S32768x1, f⟩] concatenates_S32768x1_S32768x1_S32768x1_S32768x1_S32768x1_S32768x5_d1 (ix2 e (2 : Fin 5)) 2 (show (2 : Nat) < 5 by decide) S32768x1 c rfl rfl 2 rfl
    (ix2 e (0 : Fin 1)) (fun k hk => match k, hk with | ⟨0, _⟩, _ => rfl | ⟨1, _⟩, hk => absurd rfl hk) rfl
theorem cat5_apply_3 (a b c d f : FVec Ideal S32768x1 .f32) (e : Fin 32768) : cat5 a b c d f (ix2 e (3 : Fin 5)) = d (ix2 e (0 : Fin 1)) := by
  unfold cat5
  exact concatenate_apply_piece 1 [⟨S32768x1, a⟩, ⟨S32768x1, b⟩, ⟨S32768x1, c⟩, ⟨S32768x1, d⟩, ⟨S32768x1, f⟩] concatenates_S32768x1_S32768x1_S32768x1_S32768x1_S32768x1_S32768x5_d1 (ix2 e (3 : Fin 5)) 3 (show (3 : Nat) < 5 by decide) S32768x1 d rfl rfl 3 rfl
    (ix2 e (0 : Fin 1)) (fun k hk => match k, hk with | ⟨0, _⟩, _ => rfl | ⟨1, _⟩, hk => absurd rfl hk) rfl
theorem cat5_apply_4 (a b c d f : FVec Ideal S32768x1 .f32) (e : Fin 32768) : cat5 a b c d f (ix2 e (4 : Fin 5)) = f (ix2 e (0 : Fin 1)) := by
  unfold cat5
  exact concatenate_apply_piece 1 [⟨S32768x1, a⟩, ⟨S32768x1, b⟩, ⟨S32768x1, c⟩, ⟨S32768x1, d⟩, ⟨S32768x1, f⟩] concatenates_S32768x1_S32768x1_S32768x1_S32768x1_S32768x1_S32768x5_d1 (ix2 e (4 : Fin 5)) 4 (show (4 : Nat) < 5 by decide) S32768x1 f rfl rfl 4 rfl
    (ix2 e (0 : Fin 1)) (fun k hk => match k, hk with | ⟨0, _⟩, _ => rfl | ⟨1, _⟩, hk => absurd rfl hk) rfl

theorem cat2_apply_left (a b : FVec Ideal S2048x128 .bf16) (n : Fin 2048) (j : Fin 256) (h : j.val < 128) :
    cat2 a b (ix2 n j) = a (ix2 n (⟨j.val, h⟩ : Fin 128)) := by
  unfold cat2
  exact concatenate_pair_apply_left 1 a b concatenates_S2048x128_S2048x128_S2048x256_d1 (ix2 n j) rfl
    (ix2 n (⟨j.val, h⟩ : Fin 128)) (fun k => match k with | ⟨0, _⟩ => rfl | ⟨1, _⟩ => rfl)

theorem cat2_apply_right (a b : FVec Ideal S2048x128 .bf16) (n : Fin 2048) (j : Fin 256) (h : 128 ≤ j.val) :
    cat2 a b (ix2 n j) = b (ix2 n (⟨j.val - 128, by have := j.isLt; omega⟩ : Fin 128)) := by
  unfold cat2
  exact concatenate_pair_apply_right 1 a b concatenates_S2048x128_S2048x128_S2048x256_d1 (ix2 n j) rfl rfl
    (ix2 n (⟨j.val - 128, by have := j.isLt; omega⟩ : Fin 128))
    (fun k hk => match k, hk with | ⟨0, _⟩, _ => rfl | ⟨1, _⟩, hk => absurd rfl hk)
    (by show j.val - 128 + 128 = j.val; omega)

theorem ofBits_one : Ideal.ofBits .f32 0x3F800000#32 = (1 : EReal) := by
  rw [Cert.Spec.ofBits_f32_one, EReal.coe_one]

theorem mean_apply (P T : FVec Ideal S2048x2048 .f32) (s d : IVec S32768 32) (dv : FVec Ideal S32768 .f32) (e : Fin 32768)
    (hs : 0 ≤ (s (ix1 e)).toInt) (hd : 0 ≤ (d (ix1 e)).toInt) :
    select (hasPath P s d) (pathMean P T s d) dv (ix1 e)
      = meanOf (P (ix2 (node (s (ix1 e))) (node (d (ix1 e))))) (T (ix2 (node (s (ix1 e))) (node (d (ix1 e))))) (dv (ix1 e)) := by
  show Scalar.select (Ideal.cmp .ogt (atEdges P s d (ix1 e)) (Ideal.ofBits .f32 0x00000000#32))
      (Ideal.div (atEdges T s d (ix1 e)) (max (atEdges P s d (ix1 e)) (Ideal.ofBits .f32 0x3F800000#32))) (dv (ix1 e)) = _
  rw [atEdges_apply P s d e hs hd, atEdges_apply T s d e hs hd, Ideal.ofBits_zero_f32, ofBits_one]
  unfold meanOf
  by_cases hp : (0 : EReal) < P (ix2 (node (s (ix1 e))) (node (d (ix1 e))))
  · rw [if_pos hp]
    have : Ideal.cmp .ogt (P (ix2 (node (s (ix1 e))) (node (d (ix1 e))))) 0 = 1#1 := by
      unfold Ideal.cmp; simp [hp]
    rw [this, select_one]
    rfl
  · rw [if_neg hp]
    have : Ideal.cmp .ogt (P (ix2 (node (s (ix1 e))) (node (d (ix1 e))))) 0 = 0#1 := by
      unfold Ideal.cmp; simp [hp]
    rw [this, select_zero]

theorem resCol_apply (dv mean : FVec Ideal S32768 .f32) (e : Fin 32768) (z : Fin 1) :
    resCol dv mean (ix2 e z) = max (dv (ix1 e) - mean (ix1 e)) (-(dv (ix1 e) - mean (ix1 e))) := by
  unfold resCol
  rw [col_apply]
  rfl

end Reads2

theorem ofBits_neg_one : Ideal.ofBits .f32 0xBF800000#32 = ((-1 : ℝ) : EReal) := by
  simp [Ideal.ofBits, Ideal.ieee, -EReal.coe_mul]
  norm_num

theorem adjOf_allReal (ei : IVec S2x32768 32) (ed : FVec Ideal S32768x1 .f32) (h : AllReal ed) : AllReal (adjOf ei ed) := by
  unfold adjOf
  refine AllReal.scatterSet (AllReal.broadcastInDim (AllReal.constant ofBits_neg_one)) ?_
  intro i
  exact h _

section Lines

variable (W : Valuation τ sig (Elt Ideal))

theorem line0_v1 : (after hostOps0 W main_v1 : IVec S32768 32) = dstRow (W main_arg2) := by
  dsimp only [hostOps0]; results_simp; rfl
theorem line0_v3 : (after hostOps0 W main_v3 : IVec S32768 32) = srcRow (W main_arg2) := by
  dsimp only [hostOps0]; results_simp; rfl
theorem line0_v5 : (after hostOps0 W main_v5 : IVec S32768 32) = dstRow (W main_arg2) := by
  dsimp only [hostOps0]; results_simp; rfl
theorem line0_v6 : (after hostOps0 W main_v6 : FVec Ideal S32768 .f32) = flat (W main_arg3) := by
  dsimp only [hostOps0]; results_simp; rfl
set_option maxHeartbeats 2000000 in
theorem line0_v21 : (after hostOps0 W main_v21 : FVec Ideal S2048x2048 .f32) = adjOf (W main_arg2) (W main_arg3) := by
  dsimp only [hostOps0]; results_simp; rfl

set_option maxHeartbeats 2000000 in
theorem line1_v52 : (after hostOps1 W main_v52 : IVec S32768 1) = hasPath (W main_v22_0) (W main_v3) (W main_v5) := by
  dsimp only [hostOps1]; results_simp; rfl
set_option maxHeartbeats 2000000 in
theorem line1_v55 : (after hostOps1 W main_v55 : FVec Ideal S32768 .f32)
    = pathMean (W main_v22_0) (W main_v22_1) (W main_v3) (W main_v5) := by
  dsimp only [hostOps1]; results_simp; rfl

theorem line1b_v56 : (after hostOps1_1 W main_v56 : FVec Ideal S32768 .f32)
    = select (W main_v52 : IVec S32768 1) (W main_v55 : FVec Ideal S32768 .f32) (W main_v6 : FVec Ideal S32768 .f32) := by
  dsimp only [hostOps1_1, TRef.ternary, TRef.of]; results_simp; rfl

theorem line2_v59 : (after hostOps1_2 W main_v59 : FVec Ideal S32768x1 .f32) = resCol (W main_v6) (W main_v56) := by
  dsimp only [hostOps1_2]; results_simp; rfl
set_option maxHeartbeats 2000000 in
theorem line2_v72 : (after hostOps1_2 W main_v72 : FVec Ideal S2048x3 .f32)
    = cat3 (wsumOf (W main_v1) (resCol (W main_v6) (W main_v56))) (rsumOf (W main_v1) (resCol (W main_v6) (W main_v56)))
        (cntOf (W main_v1)) := by
  dsimp only [hostOps1_2]; results_simp; rfl
set_option maxHeartbeats 2000000 in
theorem line2_v73 : (after hostOps1_2 W main_v73 : FVec Ideal S32768x5 .f32)
    = cat5 (W main_arg3) (W main_arg4) (W main_arg5) (W main_arg6) (wgtCol (resCol (W main_v6) (W main_v56))) := by
  dsimp only [hostOps1_2]; results_simp; rfl
theorem line2_v76 : (after hostOps1_2 W main_v76 : FVec Ideal S2048x256 .bf16)
    = cat2 (narrow (W main_arg0)) (narrow (W main_arg1)) := by
  dsimp only [hostOps1_2]; results_simp; rfl
theorem line2_v77 : (after hostOps1_2 W main_v77 : FVec Ideal S260x128 .bf16) = narrow (W main_arg7) := by
  dsimp only [hostOps1_2]; results_simp; rfl
theorem line2_v78 : (after hostOps1_2 W main_v78 : FVec Ideal S128x128 .bf16) = narrow (W main_arg9) := by
  dsimp only [hostOps1_2]; results_simp; rfl

theorem line3_v80 : (after hostOps2 W main_v80 : FVec Ideal S128x128 .bf16) = narrow (W main_arg11) := by
  dsimp only [hostOps2]; results_simp; rfl
theorem line3_v81 : (after hostOps2 W main_v81 : FVec Ideal S128x128 .bf16) = narrow (W main_arg13) := by
  dsimp only [hostOps2]; results_simp; rfl
theorem line3_v82 : (after hostOps2 W main_v82 : FVec Ideal S129x128 .bf16) = narrow (W main_arg15) := by
  dsimp only [hostOps2]; results_simp; rfl
theorem line3_v83 : (after hostOps2 W main_v83 : FVec Ideal S128x128 .bf16) = narrow (W main_arg17) := by
  dsimp only [hostOps2]; results_simp; rfl

end Lines

section Program

variable (m : (ℓ : Loc nD τ sig) → Buf (Elt Ideal) ℓ) (outs : Outs (F := Ideal)) (c : Dev nD)

abbrev x0 : FVec Ideal S2048x128 .f32 := m ((c : Thread nD τ).loc main_arg0)

abbrev x1 : FVec Ideal S2048x128 .f32 := m ((c : Thread nD τ).loc main_arg1)

abbrev x2 : IVec S2x32768 32 := m ((c : Thread nD τ).loc main_arg2)

abbrev x3 : FVec Ideal S32768x1 .f32 := m ((c : Thread nD τ).loc main_arg3)

abbrev x4 : FVec Ideal S32768x1 .f32 := m ((c : Thread nD τ).loc main_arg4)

abbrev x5 : FVec Ideal S32768x1 .f32 := m ((c : Thread nD τ).loc main_arg5)

abbrev x6 : FVec Ideal S32768x1 .f32 := m ((c : Thread nD τ).loc main_arg6)

abbrev x7 : FVec Ideal S260x128 .f32 := m ((c : Thread nD τ).loc main_arg7)

abbrev x9 : FVec Ideal S128x128 .f32 := m ((c : Thread nD τ).loc main_arg9)

abbrev x11 : FVec Ideal S128x128 .f32 := m ((c : Thread nD τ).loc main_arg11)

abbrev x13 : FVec Ideal S128x128 .f32 := m ((c : Thread nD τ).loc main_arg13)

abbrev x15 : FVec Ideal S129x128 .f32 := m ((c : Thread nD τ).loc main_arg15)

abbrev x17 : FVec Ideal S128x128 .f32 := m ((c : Thread nD τ).loc main_arg17)

abbrev pcArr : FVec Ideal S2048x2048 .f32 := outs 2 main_v22_0 c
abbrev thArr : FVec Ideal S2048x2048 .f32 := outs 2 main_v22_1 c

abbrev srcV : IVec S32768 32 := srcRow (x2 m c)
abbrev dstV : IVec S32768 32 := dstRow (x2 m c)

def meanV : FVec Ideal S32768 .f32 :=
  select (hasPath (pcArr outs c) (srcV m c) (dstV m c)) (pathMean (pcArr outs c) (thArr outs c) (srcV m c) (dstV m c))
    (flat (x3 m c))

def resV : FVec Ideal S32768x1 .f32 := resCol (flat (x3 m c)) (meanV m outs c)

theorem V1_v1 : (V1 m c main_v1 : IVec S32768 32) = dstV m c := line0_v1 (V0 m c)
theorem V1_v3 : (V1 m c main_v3 : IVec S32768 32) = srcV m c := line0_v3 (V0 m c)
theorem V1_v5 : (V1 m c main_v5 : IVec S32768 32) = dstV m c := line0_v5 (V0 m c)
theorem V1_v6 : (V1 m c main_v6 : FVec Ideal S32768 .f32) = flat (x3 m c) := line0_v6 (V0 m c)

theorem V1_v21 : (V1 m c main_v21 : FVec Ideal S2048x2048 .f32) = adjOf (x2 m c) (x3 m c) := line0_v21 (V0 m c)

theorem V2_pc : (V2 m outs c main_v22_0 : FVec Ideal S2048x2048 .f32) = pcArr outs c := by
  simp only [V2, Function.update_of_ne (StableHlo.devRef_ne_of_ne (show main_v22_0 ≠ main_v22_1 by decide) :
    (Proc.devRef .tc main_v22_0 : DevRef τ sig) ≠ Proc.devRef .tc main_v22_1), Function.update_self]
theorem V2_th : (V2 m outs c main_v22_1 : FVec Ideal S2048x2048 .f32) = thArr outs c := by
  simp only [V2, Function.update_self]

theorem V3_v52 : (V3 m outs c main_v52 : IVec S32768 1) = hasPath (pcArr outs c) (srcV m c) (dstV m c) := by
  have e := line1_v52 (V2 m outs c)
  rw [V2_pc m outs c, V2_of m outs c main_v3 (by decide), V2_of m outs c main_v5 (by decide), V1_v3 m c, V1_v5 m c] at e
  exact e
theorem V3_v55 : (V3 m outs c main_v55 : FVec Ideal S32768 .f32)
    = pathMean (pcArr outs c) (thArr outs c) (srcV m c) (dstV m c) := by
  have e := line1_v55 (V2 m outs c)
  rw [V2_pc m outs c, V2_th m outs c, V2_of m outs c main_v3 (by decide), V2_of m outs c main_v5 (by decide), V1_v3 m c,
    V1_v5 m c] at e
  exact e
theorem V3_v6 : (V3 m outs c main_v6 : FVec Ideal S32768 .f32) = flat (x3 m c) := by
  rw [V3_of m outs c main_v6 (by decide), V2_of m outs c main_v6 (by decide)]; exact V1_v6 m c
theorem V3_v1 : (V3 m outs c main_v1 : IVec S32768 32) = dstV m c := by
  rw [V3_of m outs c main_v1 (by decide), V2_of m outs c main_v1 (by decide)]; exact V1_v1 m c

theorem V4_v56 : (V4 m outs c main_v56 : FVec Ideal S32768 .f32) = meanV m outs c := by
  have e := line1b_v56 (V3 m outs c)
  rw [V3_v52 m outs c, V3_v55 m outs c, V3_v6 m outs c] at e
  exact e
theorem V4_v6 : (V4 m outs c main_v6 : FVec Ideal S32768 .f32) = flat (x3 m c) := by
  rw [V4_of m outs c main_v6 (by decide)]; exact V3_v6 m outs c
theorem V4_v1 : (V4 m outs c main_v1 : IVec S32768 32) = dstV m c := by
  rw [V4_of m outs c main_v1 (by decide)]; exact V3_v1 m outs c
theorem V4_arg0 : (V4 m outs c main_arg0 : FVec Ideal S2048x128 .f32) = x0 m c := by
  rw [V4_of m outs c main_arg0 (by decide), V3_of m outs c main_arg0 (by decide), V2_of m outs c main_arg0 (by decide),
    V1_of m c main_arg0 (by decide)]
theorem V4_arg1 : (V4 m outs c main_arg1 : FVec Ideal S2048x128 .f32) = x1 m c := by
  rw [V4_of m outs c main_arg1 (by decide), V3_of m outs c main_arg1 (by decide), V2_of m outs c main_arg1 (by decide),
    V1_of m c main_arg1 (by decide)]
theorem V4_arg3 : (V4 m outs c main_arg3 : FVec Ideal S32768x1 .f32) = x3 m c := by
  rw [V4_of m outs c main_arg3 (by decide), V3_of m outs c main_arg3 (by decide), V2_of m outs c main_arg3 (by decide),
    V1_of m c main_arg3 (by decide)]
theorem V4_arg4 : (V4 m outs c main_arg4 : FVec Ideal S32768x1 .f32) = x4 m c := by
  rw [V4_of m outs c main_arg4 (by decide), V3_of m outs c main_arg4 (by decide), V2_of m outs c main_arg4 (by decide),
    V1_of m c main_arg4 (by decide)]
theorem V4_arg5 : (V4 m outs c main_arg5 : FVec Ideal S32768x1 .f32) = x5 m c := by
  rw [V4_of m outs c main_arg5 (by decide), V3_of m outs c main_arg5 (by decide), V2_of m outs c main_arg5 (by decide),
    V1_of m c main_arg5 (by decide)]
theorem V4_arg6 : (V4 m outs c main_arg6 : FVec Ideal S32768x1 .f32) = x6 m c := by
  rw [V4_of m outs c main_arg6 (by decide), V3_of m outs c main_arg6 (by decide), V2_of m outs c main_arg6 (by decide),
    V1_of m c main_arg6 (by decide)]
theorem V4_arg7 : (V4 m outs c main_arg7 : FVec Ideal S260x128 .f32) = x7 m c := by
  rw [V4_of m outs c main_arg7 (by decide), V3_of m outs c main_arg7 (by decide), V2_of m outs c main_arg7 (by decide),
    V1_of m c main_arg7 (by decide)]
theorem V4_arg9 : (V4 m outs c main_arg9 : FVec Ideal S128x128 .f32) = x9 m c := by
  rw [V4_of m outs c main_arg9 (by decide), V3_of m outs c main_arg9 (by decide), V2_of m outs c main_arg9 (by decide),
    V1_of m c main_arg9 (by decide)]

theorem V5_v59 : (V5 m outs c main_v59 : FVec Ideal S32768x1 .f32) = resV m outs c := by
  have e := line2_v59 (V4 m outs c)
  rw [V4_v6 m outs c, V4_v56 m outs c] at e
  exact e

theorem V5_v72 : (V5 m outs c main_v72 : FVec Ideal S2048x3 .f32)
    = cat3 (wsumOf (dstV m c) (resV m outs c)) (rsumOf (dstV m c) (resV m outs c)) (cntOf (dstV m c)) := by
  have e := line2_v72 (V4 m outs c)
  rw [V4_v6 m outs c, V4_v56 m outs c, V4_v1 m outs c] at e
  exact e

theorem V5_v73 : (V5 m outs c main_v73 : FVec Ideal S32768x5 .f32)
    = cat5 (x3 m c) (x4 m c) (x5 m c) (x6 m c) (wgtCol (resV m outs c)) := by
  have e := line2_v73 (V4 m outs c)
  rw [V4_v6 m outs c, V4_v56 m outs c, V4_arg3 m outs c, V4_arg4 m outs c, V4_arg5 m outs c, V4_arg6 m outs c] at e
  exact e

theorem V5_v76 : (V5 m outs c main_v76 : FVec Ideal S2048x256 .bf16) = cat2 (narrow (x0 m c)) (narrow (x1 m c)) := by
  have e := line2_v76 (V4 m outs c)
  rw [V4_arg0 m outs c, V4_arg1 m outs c] at e
  exact e
theorem V5_v77 : (V5 m outs c main_v77 : FVec Ideal S260x128 .bf16) = narrow (x7 m c) := by
  have e := line2_v77 (V4 m outs c)
  rw [V4_arg7 m outs c] at e
  exact e
theorem V5_v78 : (V5 m outs c main_v78 : FVec Ideal S128x128 .bf16) = narrow (x9 m c) := by
  have e := line2_v78 (V4 m outs c)
  rw [V4_arg9 m outs c] at e
  exact e

theorem V6_arg11 : (V6 m outs c main_arg11 : FVec Ideal S128x128 .f32) = x11 m c := by
  rw [V6_of m outs c main_arg11 (by decide), V5_of m outs c main_arg11 (by decide), V4_of m outs c main_arg11 (by decide),
    V3_of m outs c main_arg11 (by decide), V2_of m outs c main_arg11 (by decide), V1_of m c main_arg11 (by decide)]
theorem V6_arg13 : (V6 m outs c main_arg13 : FVec Ideal S128x128 .f32) = x13 m c := by
  rw [V6_of m outs c main_arg13 (by decide), V5_of m outs c main_arg13 (by decide), V4_of m outs c main_arg13 (by decide),
    V3_of m outs c main_arg13 (by decide), V2_of m outs c main_arg13 (by decide), V1_of m c main_arg13 (by decide)]
theorem V6_arg15 : (V6 m outs c main_arg15 : FVec Ideal S129x128 .f32) = x15 m c := by
  rw [V6_of m outs c main_arg15 (by decide), V5_of m outs c main_arg15 (by decide), V4_of m outs c main_arg15 (by decide),
    V3_of m outs c main_arg15 (by decide), V2_of m outs c main_arg15 (by decide), V1_of m c main_arg15 (by decide)]
theorem V6_arg17 : (V6 m outs c main_arg17 : FVec Ideal S128x128 .f32) = x17 m c := by
  rw [V6_of m outs c main_arg17 (by decide), V5_of m outs c main_arg17 (by decide), V4_of m outs c main_arg17 (by decide),
    V3_of m outs c main_arg17 (by decide), V2_of m outs c main_arg17 (by decide), V1_of m c main_arg17 (by decide)]
theorem V7_v80 : (V7 m outs c main_v80 : FVec Ideal S128x128 .bf16) = narrow (x11 m c) := by
  have e := line3_v80 (V6 m outs c)
  rw [V6_arg11 m outs c] at e
  exact e
theorem V7_v81 : (V7 m outs c main_v81 : FVec Ideal S128x128 .bf16) = narrow (x13 m c) := by
  have e := line3_v81 (V6 m outs c)
  rw [V6_arg13 m outs c] at e
  exact e
theorem V7_v82 : (V7 m outs c main_v82 : FVec Ideal S129x128 .bf16) = narrow (x15 m c) := by
  have e := line3_v82 (V6 m outs c)
  rw [V6_arg15 m outs c] at e
  exact e
theorem V7_v83 : (V7 m outs c main_v83 : FVec Ideal S128x128 .bf16) = narrow (x17 m c) := by
  have e := line3_v83 (V6 m outs c)
  rw [V6_arg17 m outs c] at e
  exact e

theorem V8_v59 : V8 m outs c main_v59 = V5 m outs c main_v59 := by
  rw [V8_of m outs c main_v59 (by decide), V7_of m outs c main_v59 (by decide), V6_of m outs c main_v59 (by decide)]
theorem V7_v72 : V7 m outs c main_v72 = V5 m outs c main_v72 := by
  rw [V7_of m outs c main_v72 (by decide), V6_of m outs c main_v72 (by decide)]
theorem V7_arg0 : (V7 m outs c main_arg0 : FVec Ideal S2048x128 .f32) = x0 m c := by
  rw [V7_of m outs c main_arg0 (by decide), V6_of m outs c main_arg0 (by decide), V5_of m outs c main_arg0 (by decide)]
  exact V4_arg0 m outs c

theorem V5_launch (r : Ref sig .tc) (h1 : r ∉ hostOps0_W) (h2 : r ∉ ([main_v22_0, main_v22_1] : List (Ref sig .tc)))
    (h3 : r ∉ hostOps1_W) (h4 : r ∉ hostOps1_1_W) (h5 : r ∉ hostOps1_2_W) : V5 m outs c r = V0 m c r := by
  rw [V5_of m outs c r h5, V4_of m outs c r h4, V3_of m outs c r h3, V2_of m outs c r h2, V1_of m c r h1]

theorem V7_launch (r : Ref sig .tc) (h1 : r ∉ hostOps0_W) (h2 : r ∉ ([main_v22_0, main_v22_1] : List (Ref sig .tc)))
    (h3 : r ∉ hostOps1_W) (h4 : r ∉ hostOps1_1_W) (h5 : r ∉ hostOps1_2_W) (h6 : r ∉ ([main_v79] : List (Ref sig .tc)))
    (h7 : r ∉ hostOps2_W) : V7 m outs c r = V0 m c r := by
  rw [V7_of m outs c r h7, V6_of m outs c r h6, V5_launch m outs c r h1 h2 h3 h4 h5]

theorem V5_v59_apply (e : Fin 32768) (hs : 0 ≤ (x2 m c (ix2 (0 : Fin 2) e)).toInt) (hd : 0 ≤ (x2 m c (ix2 (1 : Fin 2) e)).toInt) :
    (V5 m outs c main_v59 : FVec Ideal S32768x1 .f32) (ix2 e (0 : Fin 1))
      = residualOf (pcArr outs c (ix2 (node (x2 m c (ix2 (0 : Fin 2) e))) (node (x2 m c (ix2 (1 : Fin 2) e)))))
          (thArr outs c (ix2 (node (x2 m c (ix2 (0 : Fin 2) e))) (node (x2 m c (ix2 (1 : Fin 2) e)))))
          (x3 m c (ix2 e (0 : Fin 1))) := by
  have es : srcV m c (ix1 e) = x2 m c (ix2 (0 : Fin 2) e) := srcRow_apply (x2 m c) e
  have ed : dstV m c (ix1 e) = x2 m c (ix2 (1 : Fin 2) e) := dstRow_apply (x2 m c) e
  have hs' : 0 ≤ (srcV m c (ix1 e)).toInt := by rw [es]; exact hs
  have hd' : 0 ≤ (dstV m c (ix1 e)).toInt := by rw [ed]; exact hd
  rw [V5_v59]
  unfold resV meanV
  rw [resCol_apply, mean_apply _ _ _ _ _ e hs' hd', flat_apply, es, ed]
  rfl

theorem V5_v72_apply_0 (n : Fin 2048) : (V5 m outs c main_v72 : FVec Ideal S2048x3 .f32) (ix2 n (0 : Fin 3))
    = wsumOf (dstV m c) (resV m outs c) (ix2 n (0 : Fin 1)) := by rw [V5_v72, cat3_apply_0]
theorem V5_v72_apply_1 (n : Fin 2048) : (V5 m outs c main_v72 : FVec Ideal S2048x3 .f32) (ix2 n (1 : Fin 3))
    = rsumOf (dstV m c) (resV m outs c) (ix2 n (0 : Fin 1)) := by rw [V5_v72, cat3_apply_1]
theorem V5_v72_apply_2 (n : Fin 2048) : (V5 m outs c main_v72 : FVec Ideal S2048x3 .f32) (ix2 n (2 : Fin 3))
    = cntOf (dstV m c) (ix2 n (0 : Fin 1)) := by rw [V5_v72, cat3_apply_2]

theorem V5_v73_apply_0 (e : Fin 32768) : (V5 m outs c main_v73 : FVec Ideal S32768x5 .f32) (ix2 e (0 : Fin 5))
    = x3 m c (ix2 e (0 : Fin 1)) := by rw [V5_v73, cat5_apply_0]
theorem V5_v73_apply_1 (e : Fin 32768) : (V5 m outs c main_v73 : FVec Ideal S32768x5 .f32) (ix2 e (1 : Fin 5))
    = x4 m c (ix2 e (0 : Fin 1)) := by rw [V5_v73, cat5_apply_1]
theorem V5_v73_apply_2 (e : Fin 32768) : (V5 m outs c main_v73 : FVec Ideal S32768x5 .f32) (ix2 e (2 : Fin 5))
    = x5 m c (ix2 e (0 : Fin 1)) := by rw [V5_v73, cat5_apply_2]
theorem V5_v73_apply_3 (e : Fin 32768) : (V5 m outs c main_v73 : FVec Ideal S32768x5 .f32) (ix2 e (3 : Fin 5))
    = x6 m c (ix2 e (0 : Fin 1)) := by rw [V5_v73, cat5_apply_3]
theorem V5_v73_apply_4 (e : Fin 32768) : (V5 m outs c main_v73 : FVec Ideal S32768x5 .f32) (ix2 e (4 : Fin 5))
    = weight ((V5 m outs c main_v59 : FVec Ideal S32768x1 .f32) (ix2 e (0 : Fin 1))) := by
  rw [V5_v73, cat5_apply_4, V5_v59]; rfl

theorem V5_v76_apply_left (n : Fin 2048) (j : Fin 256) (h : j.val < 128) :
    (V5 m outs c main_v76 : FVec Ideal S2048x256 .bf16) (ix2 n j) = x0 m c (ix2 n (⟨j.val, h⟩ : Fin 128)) := by
  rw [V5_v76, cat2_apply_left _ _ n j h]; rfl
theorem V5_v76_apply_right (n : Fin 2048) (j : Fin 256) (h : 128 ≤ j.val) :
    (V5 m outs c main_v76 : FVec Ideal S2048x256 .bf16) (ix2 n j)
      = x1 m c (ix2 n (⟨j.val - 128, by have := j.isLt; omega⟩ : Fin 128)) := by
  rw [V5_v76, cat2_apply_right _ _ n j h]; rfl

end Program

end Cert.KernelIdeal.Host

end
-- ==== Proof.Match.lean ====
import proofs.«418543_j27023934227041_3_alg».proof.Proof.RefRead
import proofs.«418543_j27023934227041_3_alg».proof.Proof.KHost

noncomputable section

namespace Cert.Match

open Idealize.ShloMosaic Idealize.ShloMosaic.ValueIdx
open Cert.ReferenceIdeal.Read
open Cert.KernelIdeal.Host

section Rows

variable (x2 : IVec Cert.KernelIdeal.S2x32768 32) (x3 : FVec Ideal Cert.KernelIdeal.S32768x1 .f32)

theorem wsum_match (r : FVec Ideal Cert.KernelIdeal.S32768x1 .f32) (hr : r = val_main_v58 (F := Ideal) x2 x3) :
    wsumOf (dstRow x2) r = val_main_v93 (F := Ideal) x2 x3 := by
  subst hr; rfl

theorem rsum_match (r : FVec Ideal Cert.KernelIdeal.S32768x1 .f32) (hr : r = val_main_v58 (F := Ideal) x2 x3) :
    rsumOf (dstRow x2) r = val_main_v110 (F := Ideal) x2 x3 := by
  subst hr; rfl

theorem wsum_match_apply (r : FVec Ideal Cert.KernelIdeal.S32768x1 .f32) (hr : r = val_main_v58 (F := Ideal) x2 x3)
    (n : Fin 2048) : wsumOf (dstRow x2) r (ix2 n (0 : Fin 1)) = val_main_v93 (F := Ideal) x2 x3 (ix2 n (0 : Fin 1)) :=
  congrFun (wsum_match x2 x3 r hr) _
theorem rsum_match_apply (r : FVec Ideal Cert.KernelIdeal.S32768x1 .f32) (hr : r = val_main_v58 (F := Ideal) x2 x3)
    (n : Fin 2048) : rsumOf (dstRow x2) r (ix2 n (0 : Fin 1)) = val_main_v110 (F := Ideal) x2 x3 (ix2 n (0 : Fin 1)) :=
  congrFun (rsum_match x2 x3 r hr) _
theorem cnt_match_apply (n : Fin 2048) :
    cntOf (dstRow x2) (ix2 n (0 : Fin 1)) = val_main_v114 (F := Ideal) x2 (ix2 n (0 : Fin 1)) := rfl

end Rows

end Cert.Match

end
-- ==== Proof.PreFacts.lean ====
import proofs.«418543_j27023934227041_3_alg».proof.Pre_finite_inputs
import proofs.«418543_j27023934227041_3_alg».proof.Proof.SpecBase
import Idealize.ShloMosaic.Lib.ReduceAll
import Idealize.ShloMosaic.Lib.ValueIdx

noncomputable section

namespace Cert.PreFacts

open Idealize.ShloMosaic
open Cert.Spec

instance subsingleton_scalar_idx : Subsingleton (⟨0, ![]⟩ : Shape).Idx := ⟨fun a b => funext fun d => d.elim0⟩

theorem ofBits_f32_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem real_of_cmp (x : EReal)
    (h : Ideal.cmp .olt (max x (-x)) (Ideal.ofBits .f32 0x7F800000#32) = 1#1) : ∃ r : ℝ, x = (r : EReal) := by
  rw [ofBits_f32_inf] at h
  have h2 : BitVec.ofBool (decide (max x (-x) < (⊤ : EReal))) = 1#1 := h
  refine real_of_abs_lt_top x ?_
  by_contra hn
  rw [decide_eq_false hn] at h2
  exact absurd h2 (by decide)

theorem allReal_of_all {s u : Shape} {axes : List (Fin s.rank)} {dims : Fin (⟨0, ![]⟩ : Shape).rank → Fin s.rank}
    (hb : (⟨0, ![]⟩ : Shape).BroadcastsInDim s dims) (hr : s.ReducesTo axes ⟨0, ![]⟩) (hu : 0 < u.numel)
    (init : IVec u 1) (x : FVec Ideal s .f32)
    (h : Host.reduce IntOp.andi
          (cmpf (F := Ideal) .olt (Host.absf (F := Ideal) x)
            (broadcastInDim s dims hb (constant (F := Ideal) ⟨0, ![]⟩ .f32 0x7F800000#32)))
          init hr hu ValueIdx.ix0 = 1#1) :
    AllReal x := by
  intro i
  have e := Host.reduce_andi_all _ init hr hu ValueIdx.ix0 h i
  exact real_of_cmp (x i) e

theorem range_of_all {s u : Shape} {axes : List (Fin s.rank)} {dims : Fin (⟨0, ![]⟩ : Shape).rank → Fin s.rank}
    (hb : (⟨0, ![]⟩ : Shape).BroadcastsInDim s dims) (hr : s.ReducesTo axes ⟨0, ![]⟩) (hu : 0 < u.numel)
    (init : IVec u 1) (x : IVec s 32)
    (h : Host.reduce IntOp.andi
          (andi (cmpi .sge x (broadcastInDim s dims hb (constantI ⟨0, ![]⟩ 32 0#32)))
                (cmpi .slt x (broadcastInDim s dims hb (constantI ⟨0, ![]⟩ 32 2048#32))))
          init hr hu ValueIdx.ix0 = 1#1) :
    ∀ i, 0 ≤ (x i).toInt ∧ (x i).toInt < 2048 := by
  intro i
  have e : IntOp.andi (IntOp.cmpi .sge (x i) 0#32) (IntOp.cmpi .slt (x i) 2048#32) = 1#1 :=
    Host.reduce_andi_all _ init hr hu ValueIdx.ix0 h i
  obtain ⟨h0, h1⟩ := IntOp.andi_eq_one.1 e
  have z : (0#32 : BitVec 32).toInt = 0 := by decide
  have t : (2048#32 : BitVec 32).toInt = 2048 := by decide
  exact ⟨z ▸ IntOp.cmpi_sge.1 h0, t ▸ IntOp.cmpi_slt.1 h1⟩

section Decode

open Cert.Pre_finite_inputs

variable [Cert.Pre_finite_inputs.Facts]

theorem andi_apply_eq_one {s : Shape} (x y : IVec s 1) (i : s.Idx) :
    andi x y i = 1#1 ↔ x i = 1#1 ∧ y i = 1#1 := IntOp.andi_eq_one

structure Decoded (a0 : FVec Ideal S2048x128 .f32) (a1 : FVec Ideal S2048x128 .f32) (a2 : IVec S2x32768 32) (a3 : FVec Ideal S32768x1 .f32) (a4 : FVec Ideal S32768x1 .f32) (a5 : FVec Ideal S32768x1 .f32) (a6 : FVec Ideal S32768x1 .f32) (a7 : FVec Ideal S260x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S129x128 .f32) (a16 : FVec Ideal S128 .f32) (a17 : FVec Ideal S128x128 .f32) (a18 : FVec Ideal S128 .f32) : Prop where

  real0 : AllReal a0

  real1 : AllReal a1

  real3 : AllReal a3

  real4 : AllReal a4

  real5 : AllReal a5

  real6 : AllReal a6

  real7 : AllReal a7

  real8 : AllReal a8

  real9 : AllReal a9

  real10 : AllReal a10

  real11 : AllReal a11

  real12 : AllReal a12

  real13 : AllReal a13

  real14 : AllReal a14

  real15 : AllReal a15

  real16 : AllReal a16

  real17 : AllReal a17

  real18 : AllReal a18

  range2 : ∀ i, 0 ≤ (a2 i).toInt ∧ (a2 i).toInt < 2048

theorem decode {a0 : FVec Ideal S2048x128 .f32} {a1 : FVec Ideal S2048x128 .f32} {a2 : IVec S2x32768 32} {a3 : FVec Ideal S32768x1 .f32} {a4 : FVec Ideal S32768x1 .f32} {a5 : FVec Ideal S32768x1 .f32} {a6 : FVec Ideal S32768x1 .f32} {a7 : FVec Ideal S260x128 .f32} {a8 : FVec Ideal S128 .f32} {a9 : FVec Ideal S128x128 .f32} {a10 : FVec Ideal S128 .f32} {a11 : FVec Ideal S128x128 .f32} {a12 : FVec Ideal S128 .f32} {a13 : FVec Ideal S128x128 .f32} {a14 : FVec Ideal S128 .f32} {a15 : FVec Ideal S129x128 .f32} {a16 : FVec Ideal S128 .f32} {a17 : FVec Ideal S128x128 .f32} {a18 : FVec Ideal S128 .f32}
    (h : Cert.Pre_finite_inputs.fn (F := Ideal) a0 a1 a2 a3 a4 a5 a6 a7 a8 a9 a10 a11 a12 a13 a14 a15 a16 a17 a18 = (fun _ => 1#1)) :
    Decoded a0 a1 a2 a3 a4 a5 a6 a7 a8 a9 a10 a11 a12 a13 a14 a15 a16 a17 a18 := by
  have e := congrFun h ValueIdx.ix0
  dsimp only [fn, fn_part1, fn_part2, fn_part3, fn_part4, fn_part5] at e
  simp only [andi_apply_eq_one] at e
  obtain ⟨⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩, h17⟩, h18⟩, h2⟩ := e
  exact
    { real0 := allReal_of_all _ _ _ _ _ h0
      real1 := allReal_of_all _ _ _ _ _ h1
      real3 := allReal_of_all _ _ _ _ _ h3
      real4 := allReal_of_all _ _ _ _ _ h4
      real5 := allReal_of_all _ _ _ _ _ h5
      real6 := allReal_of_all _ _ _ _ _ h6
      real7 := allReal_of_all _ _ _ _ _ h7
      real8 := allReal_of_all _ _ _ _ _ h8
      real9 := allReal_of_all _ _ _ _ _ h9
      real10 := allReal_of_all _ _ _ _ _ h10
      real11 := allReal_of_all _ _ _ _ _ h11
      real12 := allReal_of_all _ _ _ _ _ h12
      real13 := allReal_of_all _ _ _ _ _ h13
      real14 := allReal_of_all _ _ _ _ _ h14
      real15 := allReal_of_all _ _ _ _ _ h15
      real16 := allReal_of_all _ _ _ _ _ h16
      real17 := allReal_of_all _ _ _ _ _ h17
      real18 := allReal_of_all _ _ _ _ _ h18
      range2 := range_of_all _ _ _ _ _ h2 }

end Decode

end Cert.PreFacts

end
-- ==== Proof.GraphLaws.lean ====
import Idealize.ShloMosaic.PureOps.Ideal
import Mathlib.Data.EReal.Operations
import Mathlib.Algebra.BigOperators.Group.Finset.Basic
import Mathlib.Algebra.BigOperators.Group.Finset.Piecewise
import Mathlib.Algebra.BigOperators.Ring.Finset
import Mathlib.Algebra.BigOperators.Fin
import Mathlib.Data.Fintype.BigOperators
import Mathlib.Logic.Equiv.Fin.Basic

noncomputable section

namespace Cert.Spec

open scoped BigOperators

section Entry

variable {P Q : Prop} {dP : Decidable P} {dQ : Decidable Q} {dPQ : Decidable (P ∧ Q)}

theorem ind_mul_ind :
    (if P then (1 : EReal) else 0) * (if Q then (1 : EReal) else 0) = if P ∧ Q then (1 : EReal) else 0 := by
  by_cases hP : P <;> by_cases hQ : Q <;> simp [hP, hQ]

theorem keep_mul_ind_add_ind_mul_keep (x y : EReal) :
    (if P then x else 0) * (if Q then (1 : EReal) else 0) + (if P then (1 : EReal) else 0) * (if Q then y else 0)
      = if P ∧ Q then x + y else 0 := by
  by_cases hP : P <;> by_cases hQ : Q <;> simp [hP, hQ]

theorem ind_mul (x : EReal) : (if P then (1 : EReal) else 0) * x = if P then x else 0 := by
  by_cases hP : P <;> simp [hP]

end Entry

theorem sub_self_of_real {x : EReal} (h : ∃ r : ℝ, x = (r : EReal)) : x - x = 0 := by
  obtain ⟨r, rfl⟩ := h
  rw [← EReal.coe_sub, sub_self, EReal.coe_zero]

theorem keep_real {P : Prop} {dP : Decidable P} {x : EReal} (h : ∃ r : ℝ, x = (r : EReal)) :
    ∃ r : ℝ, (if P then x else 0) = (r : EReal) := by
  by_cases hP : P
  · rw [if_pos hP]; exact h
  · rw [if_neg hP]; exact ⟨0, EReal.coe_zero.symm⟩

section Sums

variable {J : Type} [Fintype J]
variable {P Q : J → Prop} {dP : DecidablePred P} {dQ : DecidablePred Q} {dPQ : DecidablePred fun j => P j ∧ Q j}

theorem sum_ind_mul_ind :
    ∑ j, (if P j then (1 : EReal) else 0) * (if Q j then (1 : EReal) else 0)
      = ∑ j, if P j ∧ Q j then (1 : EReal) else 0 :=
  Finset.sum_congr rfl fun _ _ => ind_mul_ind

theorem sum_keep_mul_ind_add (u v : J → EReal) :
    ∑ j, (if P j then u j else 0) * (if Q j then (1 : EReal) else 0)
        + ∑ j, (if P j then (1 : EReal) else 0) * (if Q j then v j else 0)
      = ∑ j, if P j ∧ Q j then u j + v j else 0 := by
  rw [← Finset.sum_add_distrib]
  exact Finset.sum_congr rfl fun j _ => keep_mul_ind_add_ind_mul_keep (u j) (v j)

theorem sum_rem_mul_eq_zero (d m : J → EReal) (hd : ∀ j, ∃ r : ℝ, d j = (r : EReal)) :
    ∑ j, (d j - d j) * m j = 0 :=
  Finset.sum_eq_zero fun j _ => by rw [sub_self_of_real (hd j), zero_mul]

theorem sum_mul_rem_eq_zero (d m : J → EReal) (hd : ∀ j, ∃ r : ℝ, d j = (r : EReal)) :
    ∑ j, m j * (d j - d j) = 0 :=
  Finset.sum_eq_zero fun j _ => by rw [sub_self_of_real (hd j), mul_zero]

end Sums

section Blocks

variable {A : Type} [AddCommMonoid A]

theorem sum_blocks {N K J : Type} [Fintype N] [Fintype K] [Fintype J] (e : N ≃ K × J) (f : N → A) :
    ∑ k, ∑ j, f (e.symm (k, j)) = ∑ B, f B := by
  rw [← Fintype.sum_prod_type fun x => f (e.symm x)]
  exact Equiv.sum_comp e.symm f

theorem blk_lt {K J n : ℕ} (hn : K * J = n) (k : Fin K) (j : Fin J) : k.val * J + j.val < n := by
  have h1 : k.val * J + j.val < (k.val + 1) * J := by
    rw [Nat.succ_mul]; exact Nat.add_lt_add_left j.isLt _
  have h2 : (k.val + 1) * J ≤ K * J := Nat.mul_le_mul_right J k.isLt
  exact hn ▸ Nat.lt_of_lt_of_le h1 h2

theorem sum_fin_blocks {K J n : ℕ} (hn : K * J = n) (f : Fin n → A) :
    ∑ k : Fin K, ∑ j : Fin J, f ⟨k.val * J + j.val, blk_lt hn k j⟩ = ∑ B, f B := by
  subst hn
  rw [← sum_blocks (finProdFinEquiv (m := K) (n := J)).symm f]
  refine Finset.sum_congr rfl fun k _ => Finset.sum_congr rfl fun j _ => congrArg f (Fin.ext ?_)
  show k.val * J + j.val = ((finProdFinEquiv (m := K) (n := J)) (k, j)).val
  rw [finProdFinEquiv_apply_val, Nat.mul_comm, Nat.add_comm]

theorem sum_two_cores (f : Fin 2 → A) : f 0 + f 1 = ∑ c, f c := (Fin.sum_univ_two f).symm

end Blocks

section OneHot

theorem sum_onehot_mul {N : Type} [Fintype N] {R : N → Prop} {dR : DecidablePred R} (n₀ : N)
    (h : ∀ n, R n ↔ n = n₀) (x : N → EReal) : ∑ n, (if R n then (1 : EReal) else 0) * x n = x n₀ := by
  classical
  rw [Finset.sum_eq_single n₀]
  · rw [if_pos ((h n₀).mpr rfl), one_mul]
  · intro n _ hn
    rw [if_neg (fun hr => hn ((h n).mp hr)), zero_mul]
  · intro hn
    exact absurd (Finset.mem_univ n₀) hn

end OneHot

section Adjacency

variable {N : Type}

def M (a : N → N → EReal) (p q : N) : EReal := if 0 ≤ a p q then 1 else 0

def D (a : N → N → EReal) (p q : N) : EReal := if 0 ≤ a p q then a p q else 0

variable [Fintype N] (a : N → N → EReal)

theorem sum_M_mul_M (s t : N) :
    ∑ B, M a s B * M a B t = ∑ B, if 0 ≤ a s B ∧ 0 ≤ a B t then (1 : EReal) else 0 :=
  sum_ind_mul_ind

theorem sum_fin_blocks_M_mul_M {K J n : ℕ} (hn : K * J = n) (a : Fin n → Fin n → EReal) (s t : Fin n) :
    ∑ k : Fin K, ∑ j : Fin J,
        M a s ⟨k.val * J + j.val, blk_lt hn k j⟩ * M a ⟨k.val * J + j.val, blk_lt hn k j⟩ t
      = ∑ B, if 0 ≤ a s B ∧ 0 ≤ a B t then (1 : EReal) else 0 :=
  (sum_fin_blocks hn fun B => M a s B * M a B t).trans (sum_M_mul_M a s t)

end Adjacency

end Cert.Spec

end
-- ==== Proof.Pay0.lean ====
import proofs.«418543_j27023934227041_3_alg».proof.Proof.Gen.KernelIdeal.Skeleton
import proofs.«418543_j27023934227041_3_alg».proof.Proof.GraphLaws
import proofs.«418543_j27023934227041_3_alg».proof.Proof.Spec
import Idealize.ShloMosaic.Lib.ValueIdx
import Idealize.ShloMosaic.Lib.Pipeline.Value
import Idealize.ShloMosaic.PureOps.Ideal.Laws

noncomputable section

namespace Cert.KernelIdeal.Pay0

open Idealize.ShloMosaic Idealize.ShloMosaic.ValueIdx Cert.KernelIdeal Cert.KernelIdeal.Gen
open scoped BigOperators

def mk (x : EReal) : EReal := if 0 ≤ x then 1 else 0

def dk (x : EReal) : EReal := if 0 ≤ x then x else 0

theorem dk_real {x : EReal} (h : ∃ r : ℝ, x = (r : EReal)) : ∃ r : ℝ, dk x = (r : EReal) :=
  Cert.Spec.keep_real h

theorem cmp_oge_zero_of_le {x : EReal} (h : 0 ≤ x) : Ideal.cmp .oge x 0 = 1#1 := by
  unfold Ideal.cmp
  simp [h]

theorem cmp_oge_zero_of_not_le {x : EReal} (h : ¬ 0 ≤ x) : Ideal.cmp .oge x 0 = 0#1 := by
  unfold Ideal.cmp
  simp [h]

theorem sitofp_cmp_oge_zero (x : EReal) :
    (FloatOps.sitofp (F := Ideal) .f32 ((Ideal.cmp .oge x 0).setWidth 32) : EReal) = mk x := by
  unfold mk
  by_cases h : 0 ≤ x
  · rw [cmp_oge_zero_of_le h, if_pos h]
    show (((((1#1 : BitVec 1).setWidth 32).toInt : ℤ) : ℝ) : EReal) = 1
    have e : ((1#1 : BitVec 1).setWidth 32).toInt = 1 := by decide
    rw [e, Int.cast_one, EReal.coe_one]
  · rw [cmp_oge_zero_of_not_le h, if_neg h]
    show (((((0#1 : BitVec 1).setWidth 32).toInt : ℤ) : ℝ) : EReal) = 0
    have e : ((0#1 : BitVec 1).setWidth 32).toInt = 0 := by decide
    rw [e, Int.cast_zero, EReal.coe_zero]

theorem select_cmp_oge_zero (x : EReal) : Scalar.select (Ideal.cmp .oge x 0) x (0 : EReal) = dk x := by
  unfold dk
  by_cases h : 0 ≤ x
  · rw [cmp_oge_zero_of_le h, if_pos h]; exact select_one _ _
  · rw [cmp_oge_zero_of_not_le h, if_neg h]; exact select_zero _ _

section Elementwise

variable (v3 v5 : Vec Ideal S512x512 .f32)

theorem pay8_apply (i : S512x512.Idx) : k0_pay8 (F := Ideal) v3 i = mk (v3 i) := by
  unfold k0_pay8 k0_pay6 k0_pay4
  rw [shapeCast_self]
  show (FloatOps.sitofp (F := Ideal) .f32 ((Ideal.cmp .oge (v3 i) (Ideal.ofBits .f32 0x00000000#32)).setWidth 32) : EReal)
    = mk (v3 i)
  rw [Ideal.ofBits_zero_f32]
  exact sitofp_cmp_oge_zero (v3 i)

theorem pay9_apply (i : S512x512.Idx) : k0_pay9 (F := Ideal) v5 i = mk (v5 i) := by
  unfold k0_pay9 k0_pay7 k0_pay5
  rw [shapeCast_self]
  show (FloatOps.sitofp (F := Ideal) .f32 ((Ideal.cmp .oge (v5 i) (Ideal.ofBits .f32 0x00000000#32)).setWidth 32) : EReal)
    = mk (v5 i)
  rw [Ideal.ofBits_zero_f32]
  exact sitofp_cmp_oge_zero (v5 i)

theorem pay10_apply (i : S512x512.Idx) : k0_pay10 (F := Ideal) v5 i = dk (v5 i) := by
  unfold k0_pay10 k0_pay7 k0_pay5
  rw [shapeCast_self]
  show Scalar.select (Ideal.cmp .oge (v5 i) (Ideal.ofBits .f32 0x00000000#32)) (v5 i) (Ideal.ofBits .f32 0x00000000#32)
    = dk (v5 i)
  rw [Ideal.ofBits_zero_f32]
  exact select_cmp_oge_zero (v5 i)

theorem pay11_apply (i : S512x512.Idx) : k0_pay11 (F := Ideal) v5 i = dk (v5 i) := by
  unfold k0_pay11
  exact pay10_apply v5 i

theorem pay12_apply (i : S512x512.Idx) : k0_pay12 (F := Ideal) v5 i = dk (v5 i) - dk (v5 i) := by
  unfold k0_pay12
  show k0_pay10 (F := Ideal) v5 i - k0_pay10 (F := Ideal) v5 i = _
  rw [pay10_apply]

theorem pay2_apply (i : S512x512.Idx) : k0_pay2 (F := Ideal) i = 0 := by
  unfold k0_pay2
  rw [shapeCast_self]
  exact Ideal.ofBits_zero_f32

theorem pay3_apply (i : S512x512.Idx) : k0_pay3 (F := Ideal) i = 0 := by
  unfold k0_pay3
  rw [shapeCast_self]
  exact Ideal.ofBits_zero_f32

end Elementwise

section Product

theorem lhs_axis0 (i : S512x512.Idx) (c : dot_S512x512_S512x512_S512x512_1_0_0_1_n_n.contr.Idx) : (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

theorem lhs_axis1 (i : S512x512.Idx) (c : dot_S512x512_S512x512_S512x512_1_0_0_1_n_n.contr.Idx) : (dot_S512x512_S512x512_S512x512_1_0_0_1_n_n.lhsIdx i c 1).val = (c ⟨0, by decide⟩).val :=
  dot_S512x512_S512x512_S512x512_1_0_0_1_n_n.lhsIdx_val_of_single rfl i c

theorem rhs_axis0 (i : S512x512.Idx) (c : dot_S512x512_S512x512_S512x512_1_0_0_1_n_n.contr.Idx) : (dot_S512x512_S512x512_S512x512_1_0_0_1_n_n.rhsIdx i c 0).val = (c ⟨0, by decide⟩).val :=
  dot_S512x512_S512x512_S512x512_1_0_0_1_n_n.rhsIdx_val_of_single rfl i c

theorem rhs_axis1 (i : S512x512.Idx) (c : dot_S512x512_S512x512_S512x512_1_0_0_1_n_n.contr.Idx) : (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem product_apply (l r : FVec Ideal S512x512 .bf16) (p q : Fin 512) :
    matmul dot_S512x512_S512x512_S512x512_1_0_0_1_n_n none l r (constant S512x512 .f32 0x00000000#32) (ix2 p q)
      = ∑ k : Fin 512, l (ix2 p k) * r (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = (ix2 p k : S512x512.Idx) := funext fun a => Fin.ext (by
    match a with
    | ⟨0, _⟩ => exact lhs_axis0 _ _
    | ⟨1, _⟩ => exact (lhs_axis1 _ _).trans hk)
  have er : dot_S512x512_S512x512_S512x512_1_0_0_1_n_n.rhsIdx (ix2 p q) ((contrEquiv1 dot_S512x512_S512x512_S512x512_1_0_0_1_n_n 512 rfl rfl).symm k) = (ix2 k q : S512x512.Idx) := funext fun a => Fin.ext (by
    match a with
    | ⟨0, _⟩ => exact (rhs_axis0 _ _).trans hk
    | ⟨1, _⟩ => exact rhs_axis1 _ _)
  rw [el, er]

end Product

section Accumulate

variable (v3 v5 : Vec Ideal S512x512 .f32)

theorem pay13_apply (v29 : Vec Ideal S512x512 .f32) (p q : Fin 512) :
    k0_pay13 (F := Ideal) v3 v5 v29 (ix2 p q)
      = v29 (ix2 p q) + ∑ k : Fin 512, mk (v3 (ix2 p k)) * mk (v5 (ix2 k q)) := by
  unfold k0_pay13
  rw [shapeCast_self]
  show v29 (ix2 p q) + matmul dot_S512x512_S512x512_S512x512_1_0_0_1_n_n none (k0_pay8 (F := Ideal) v3) (k0_pay9 (F := Ideal) v5)
      (constant S512x512 .f32 0x00000000#32) (ix2 p q) = _
  rw [product_apply]
  exact congrArg (v29 (ix2 p q) + ·) (Finset.sum_congr rfl fun k _ => by rw [pay8_apply, pay9_apply])

def rowLengths (v3 : Vec Ideal S512x512 .f32) : FVec Ideal S512x512 .f32 :=
  select (k0_pay6 (F := Ideal) v3) (k0_pay4 (F := Ideal) v3)
    (broadcast S512x512 (Scalar.ofBits (F := Ideal) .f32 0x00000000#32))

theorem rowLengths_apply (i : S512x512.Idx) : rowLengths v3 i = dk (v3 i) := by
  unfold rowLengths k0_pay6 k0_pay4
  rw [shapeCast_self]
  show Scalar.select (Ideal.cmp .oge (v3 i) (Ideal.ofBits .f32 0x00000000#32)) (v3 i) (Ideal.ofBits .f32 0x00000000#32)
    = dk (v3 i)
  rw [Ideal.ofBits_zero_f32]
  exact select_cmp_oge_zero (v3 i)

theorem pay14_apply (p q : Fin 512) :
    k0_pay14 (F := Ideal) v3 v5 (ix2 p q)
      = ∑ k : Fin 512, dk (v3 (ix2 p k)) * mk (v5 (ix2 k q))
        + ∑ k : Fin 512, (dk (v3 (ix2 p k)) - dk (v3 (ix2 p k))) * mk (v5 (ix2 k q)) := by
  unfold k0_pay14
  show matmul dot_S512x512_S512x512_S512x512_1_0_0_1_n_n none (truncf .bf16 (rowLengths v3) bitsLt_bf16_f32) (k0_pay9 (F := Ideal) v5)
        (constant S512x512 .f32 0x00000000#32) (ix2 p q)
      + matmul dot_S512x512_S512x512_S512x512_1_0_0_1_n_n none (truncf .bf16 (subf (rowLengths v3) (rowLengths v3)) bitsLt_bf16_f32) (k0_pay9 (F := Ideal) v5)
        (constant S512x512 .f32 0x00000000#32) (ix2 p q) = _
  rw [product_apply, product_apply]
  refine congrArg₂ (· + ·) (Finset.sum_congr rfl fun k _ => ?_) (Finset.sum_congr rfl fun k _ => ?_)
  · show rowLengths v3 (ix2 p k) * k0_pay9 (F := Ideal) v5 (ix2 k q) = _
    rw [rowLengths_apply, pay9_apply]
  · show (rowLengths v3 (ix2 p k) - rowLengths v3 (ix2 p k)) * k0_pay9 (F := Ideal) v5 (ix2 k q) = _
    rw [rowLengths_apply, pay9_apply]

theorem pay1_apply (v13 v25 v28 : FVec Ideal S512x512 .bf16) (v37 : FVec Ideal S512x512 .f32)
    (v42 : Vec Ideal S512x512 .f32) (p q : Fin 512) :
    k0_pay1 (F := Ideal) v13 v25 v28 v37 v42 (ix2 p q)
      = v42 (ix2 p q) + ((v37 (ix2 p q) + ∑ k : Fin 512, v13 (ix2 p k) * v25 (ix2 k q))
          + ∑ k : Fin 512, v13 (ix2 p k) * v28 (ix2 k q)) := by
  unfold k0_pay1
  rw [shapeCast_self]
  show v42 (ix2 p q) + ((v37 (ix2 p q) + matmul dot_S512x512_S512x512_S512x512_1_0_0_1_n_n none v13 v25 (constant S512x512 .f32 0x00000000#32) (ix2 p q))
      + matmul dot_S512x512_S512x512_S512x512_1_0_0_1_n_n none v13 v28 (constant S512x512 .f32 0x00000000#32) (ix2 p q)) = _
  rw [product_apply, product_apply]

theorem length_step (h3 : Cert.Spec.AllReal v3) (h5 : Cert.Spec.AllReal v5) (acc : Vec Ideal S512x512 .f32)
    (p q : Fin 512) :
    k0_pay1 (F := Ideal) (k0_pay8 (F := Ideal) v3) (k0_pay11 (F := Ideal) v5) (k0_pay12 (F := Ideal) v5)
        (k0_pay14 (F := Ideal) v3 v5) acc (ix2 p q)
      = acc (ix2 p q) + (∑ k : Fin 512, dk (v3 (ix2 p k)) * mk (v5 (ix2 k q))
          + ∑ k : Fin 512, mk (v3 (ix2 p k)) * dk (v5 (ix2 k q))) := by
  rw [pay1_apply, pay14_apply]
  have e1 : ∑ k : Fin 512, k0_pay8 (F := Ideal) v3 (ix2 p k) * k0_pay11 (F := Ideal) v5 (ix2 k q)
      = ∑ k : Fin 512, mk (v3 (ix2 p k)) * dk (v5 (ix2 k q)) :=
    Finset.sum_congr rfl fun k _ => by rw [pay8_apply, pay11_apply]
  have e2 : ∑ k : Fin 512, k0_pay8 (F := Ideal) v3 (ix2 p k) * k0_pay12 (F := Ideal) v5 (ix2 k q) = 0 := by
    refine (Finset.sum_congr rfl fun k _ => ?_).trans
      (Cert.Spec.sum_mul_rem_eq_zero (fun k : Fin 512 => dk (v5 (ix2 k q))) (fun k : Fin 512 => mk (v3 (ix2 p k)))
        fun k => dk_real (h5 (ix2 k q)))
    rw [pay8_apply, pay12_apply]
  have e3 : ∑ k : Fin 512, (dk (v3 (ix2 p k)) - dk (v3 (ix2 p k))) * mk (v5 (ix2 k q)) = 0 :=
    Cert.Spec.sum_rem_mul_eq_zero (fun k : Fin 512 => dk (v3 (ix2 p k))) (fun k : Fin 512 => mk (v5 (ix2 k q)))
      fun k => dk_real (h3 (ix2 p k))
  rw [e1, e2, e3, add_zero, add_zero]

end Accumulate

end Cert.KernelIdeal.Pay0

end
-- ==== Proof.Region0Value.lean ====
import proofs.«418543_j27023934227041_3_alg».proof.Proof.Region0Body
import proofs.«418543_j27023934227041_3_alg».proof.Proof.Pay0
import proofs.«418543_j27023934227041_3_alg».proof.Proof.GraphLaws
import proofs.«418543_j27023934227041_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section Pieces

variable {F : FTy → Type} [FloatOps F]

theorem hz : (![0, 0] : Fin 2 → Nat) = fun _ => 0 := funext fun a => by fin_cases a <;> rfl

abbrev step0 (x0 x1 acc : Vec F S512x512 .f32) : Vec F S512x512 .f32 := k0_pay13 x0 x1 acc

abbrev step1 (x0 x1 acc : Vec F S512x512 .f32) : Vec F S512x512 .f32 := k0_pay1 (k0_pay8 x0) (k0_pay11 x1) (k0_pay12 x1) (k0_pay14 x0 x1) acc

section Cases

variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)

theorem sout_A_0 (hc0 : cond0_0 i) (hc1 : ¬cond0_1 i) (x0 x1 : Vec F S512x512 .f32) :
    sout0_A_0 c i arg3 harg3 arg4 harg4 arg5 harg5 arg6 harg6 arg7 harg7 arg8 harg8 hc0 hc1 x0 x1 = step0 x0 x1 k0_pay2 := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  rw [View.canon_cons_unit_zero (S := S512x512) hz]
  simp only [View.readAt_eq_ld, harg3.read_unread, harg4.read_unread, harg7.read_unread, harg8.read_unread, View.ld_unit_zero (S := S512x512) hz, View.readCov_unit_zero (S := S512x512) _ hz]

theorem sout_A_1 (hc0 : cond0_0 i) (hc1 : ¬cond0_1 i) (x0 x1 : Vec F S512x512 .f32) :
    sout0_A_1 c i arg3 harg3 arg4 harg4 arg5 harg5 arg6 harg6 arg7 harg7 arg8 harg8 hc0 hc1 x0 x1 = step1 x0 x1 k0_pay3 := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  rw [View.canon_cons_unit_zero (S := S512x512) hz]
  simp only [View.readAt_eq_ld, harg3.read_unread, harg4.read_unread, harg7.read_unread, harg8.read_unread, View.ld_unit_zero (S := S512x512) hz, View.readCov_unit_zero (S := S512x512) _ hz]

theorem sout_B_0 (hc0 : ¬cond0_0 i) (hc1 : ¬cond0_1 i) (x0 x1 xs0 xs1 : Vec F S512x512 .f32) :
    sout0_B_0 c i arg3 harg3 arg4 harg4 arg5 harg5 arg6 harg6 arg7 harg7 arg8 harg8 hc0 hc1 x0 x1 xs0 xs1 = step0 x0 x1 xs0 := by
  unfold sout0_B_0
  rw [View.read_writes_eq_canon _ _ _ (scover0_B_0 c i arg3 harg3 arg4 harg4 arg5 harg5 arg6 harg6 arg7 harg7 arg8 harg8 hc0 hc1 x0 x1 xs0 xs1)]
  unfold kernelRun0_B
  dsimp only
  sl_unfold_words
  rw [View.canon_unit_zero (S := S512x512) hz]
  simp only [View.readAt_eq_ld, harg3.read_unread, harg4.read_unread, harg7.read_unread, harg8.read_unread, View.ld_unit_zero (S := S512x512) hz, View.readCov_unit_zero (S := S512x512) _ hz]

theorem sout_B_1 (hc0 : ¬cond0_0 i) (hc1 : ¬cond0_1 i) (x0 x1 xs0 xs1 : Vec F S512x512 .f32) :
    sout0_B_1 c i arg3 harg3 arg4 harg4 arg5 harg5 arg6 harg6 arg7 harg7 arg8 harg8 hc0 hc1 x0 x1 xs0 xs1 = step1 x0 x1 xs1 := by
  unfold sout0_B_1
  rw [View.read_writes_eq_canon _ _ _ (scover0_B_1 c i arg3 harg3 arg4 harg4 arg5 harg5 arg6 harg6 arg7 harg7 arg8 harg8 hc0 hc1 x0 x1 xs0 xs1)]
  unfold kernelRun0_B
  dsimp only
  sl_unfold_words
  rw [View.canon_unit_zero (S := S512x512) hz]
  simp only [View.readAt_eq_ld, harg3.read_unread, harg4.read_unread, harg7.read_unread, harg8.read_unread, View.ld_unit_zero (S := S512x512) hz, View.readCov_unit_zero (S := S512x512) _ hz]

theorem out_C_2 (hc0 : ¬cond0_0 i) (hc1 : cond0_1 i) (x0 x1 xs0 xs1 : Vec F S512x512 .f32) :
    out0_C_2 c i arg3 harg3 arg4 harg4 arg5 harg5 arg6 harg6 arg7 harg7 arg8 harg8 hc0 hc1 x0 x1 xs0 xs1 = step0 x0 x1 xs0 := by
  unfold out0_C_2
  rw [View.read_writes_eq_canon _ _ _ (cover0_C_2 c i arg3 harg3 arg4 harg4 arg5 harg5 arg6 harg6 arg7 harg7 arg8 harg8 hc0 hc1 x0 x1 xs0 xs1)]
  unfold kernelRun0_C
  dsimp only
  sl_unfold_words
  rw [View.canon_unit_zero (S := S512x512) hz]
  simp only [View.readAt_eq_ld, harg3.read_unread, harg4.read_unread, harg7.read_unread, harg8.read_unread, View.ld_unit_zero (S := S512x512) hz, View.readCov_unit_zero (S := S512x512) _ hz]

theorem out_C_3 (hc0 : ¬cond0_0 i) (hc1 : cond0_1 i) (x0 x1 xs0 xs1 : Vec F S512x512 .f32) :
    out0_C_3 c i arg3 harg3 arg4 harg4 arg5 harg5 arg6 harg6 arg7 harg7 arg8 harg8 hc0 hc1 x0 x1 xs0 xs1 = step1 x0 x1 xs1 := by
  unfold out0_C_3
  rw [View.read_writes_eq_canon _ _ _ (cover0_C_3 c i arg3 harg3 arg4 harg4 arg5 harg5 arg6 harg6 arg7 harg7 arg8 harg8 hc0 hc1 x0 x1 xs0 xs1)]
  unfold kernelRun0_C
  dsimp only
  sl_unfold_words
  rw [View.canon_unit_zero (S := S512x512) hz]
  simp only [View.readAt_eq_ld, harg3.read_unread, harg4.read_unread, harg7.read_unread, harg8.read_unread, View.ld_unit_zero (S := S512x512) hz, View.readCov_unit_zero (S := S512x512) _ hz]

end Cases

end Pieces

section Chain

variable {F : FTy → Type} [FloatOps F]
variable (V : (c : Dev nD) → (b : Ref sig .tc) → Buf (Elt F) ((c : Thread nD τ).loc b))

abbrev xb0 (c : Dev nD) (t : Fin cfg0.N) : Vec F S512x512 .f32 := iblk0 V c 0 t
abbrev xb1 (c : Dev nD) (t : Fin cfg0.N) : Vec F S512x512 .f32 := iblk0 V c 1 t

theorem lt1 (t : Fin cfg0.N) : t.val - 1 < cfg0.N := Nat.lt_of_le_of_lt (Nat.sub_le _ _) t.isLt
theorem lt2 (t : Fin cfg0.N) : t.val - 1 - 1 < cfg0.N := Nat.lt_of_le_of_lt (Nat.sub_le _ _) (lt1 t)
theorem lt3 (t : Fin cfg0.N) : t.val - 1 - 1 - 1 < cfg0.N := Nat.lt_of_le_of_lt (Nat.sub_le _ _) (lt2 t)

theorem out2_at_flush (c : Dev nD) (t : Fin cfg0.N) (h3 : t.val % 4 = 3) :
    (outsAt0 V c t.val t.isLt).1
      = step0 (xb0 V c t) (xb1 V c t)
          (step0 (xb0 V c ⟨t.val - 1, lt1 t⟩) (xb1 V c ⟨t.val - 1, lt1 t⟩)
            (step0 (xb0 V c ⟨t.val - 1 - 1, lt2 t⟩) (xb1 V c ⟨t.val - 1 - 1, lt2 t⟩)
              (step0 (xb0 V c ⟨t.val - 1 - 1 - 1, lt3 t⟩) (xb1 V c ⟨t.val - 1 - 1 - 1, lt3 t⟩) k0_pay2))) := by
  have hN : t.val < 64 := lt_of_lt_of_eq t.isLt (show cfg0.N = 64 from N_0)
  have eB2 := outsAt0_B V c ⟨t.val - 1, lt1 t⟩ (by show ¬(t.val - 1) % 4 = 0; omega) (by show ¬(t.val - 1) % 4 = 3; omega)
  have eB1 := outsAt0_B V c ⟨t.val - 1 - 1, lt2 t⟩ (by show ¬(t.val - 1 - 1) % 4 = 0; omega) (by show ¬(t.val - 1 - 1) % 4 = 3; omega)
  have eA := outsAt0_A V c ⟨t.val - 1 - 1 - 1, lt3 t⟩ (by show (t.val - 1 - 1 - 1) % 4 = 0; omega) (by show ¬(t.val - 1 - 1 - 1) % 4 = 3; omega)
  dsimp only at eB2 eB1 eA
  rw [outsAt0_C V c t (by omega) h3]; dsimp only
  rw [out_C_2, eB2]; dsimp only
  rw [sout_B_0, eB1]; dsimp only
  rw [sout_B_0, eA]; dsimp only
  rw [sout_A_0]

theorem out3_at_flush (c : Dev nD) (t : Fin cfg0.N) (h3 : t.val % 4 = 3) :
    (outsAt0 V c t.val t.isLt).2.1
      = step1 (xb0 V c t) (xb1 V c t)
          (step1 (xb0 V c ⟨t.val - 1, lt1 t⟩) (xb1 V c ⟨t.val - 1, lt1 t⟩)
            (step1 (xb0 V c ⟨t.val - 1 - 1, lt2 t⟩) (xb1 V c ⟨t.val - 1 - 1, lt2 t⟩)
              (step1 (xb0 V c ⟨t.val - 1 - 1 - 1, lt3 t⟩) (xb1 V c ⟨t.val - 1 - 1 - 1, lt3 t⟩) k0_pay3))) := by
  have hN : t.val < 64 := lt_of_lt_of_eq t.isLt (show cfg0.N = 64 from N_0)
  have eB2 := outsAt0_B V c ⟨t.val - 1, lt1 t⟩ (by show ¬(t.val - 1) % 4 = 0; omega) (by show ¬(t.val - 1) % 4 = 3; omega)
  have eB1 := outsAt0_B V c ⟨t.val - 1 - 1, lt2 t⟩ (by show ¬(t.val - 1 - 1) % 4 = 0; omega) (by show ¬(t.val - 1 - 1) % 4 = 3; omega)
  have eA := outsAt0_A V c ⟨t.val - 1 - 1 - 1, lt3 t⟩ (by show (t.val - 1 - 1 - 1) % 4 = 0; omega) (by show ¬(t.val - 1 - 1 - 1) % 4 = 3; omega)
  dsimp only at eB2 eB1 eA
  rw [outsAt0_C V c t (by omega) h3]; dsimp only
  rw [out_C_3, eB2]; dsimp only
  rw [sout_B_1, eB1]; dsimp only
  rw [sout_B_1, eA]; dsimp only
  rw [sout_A_1]

end Chain

section Entries

variable (V : (c : Dev nD) → (b : Ref sig .tc) → Buf (Elt Ideal) ((c : Thread nD τ).loc b))

abbrev adj (c : Dev nD) : Fin 2048 → Fin 2048 → EReal := fun P Q => V c main_v21 (ix2 P Q)

theorem idx_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem xb0_apply (c : Dev nD) (u : Fin cfg0.N) (I K : ℕ) (hI : u.val / 16 = I) (hK : u.val % 4 = K) (p r : Fin 512)
    (hP : I * 512 + p.val < 2048) (hR : K * 512 + r.val < 2048) :
    xb0 V c u (ix2 p r) = adj V c ⟨I * 512 + p.val, hP⟩ ⟨K * 512 + r.val, hR⟩ := by
  obtain ⟨e0, e1, -⟩ := idx_facts u
  unfold xb0 iblk0
  rw [View.read_apply]
  show V c main_v21 _ = V c main_v21 _
  congr 1
  funext a
  apply Fin.ext
  match a with
  | ⟨0, _⟩ => show win0_0.index u (0 : Fin 2) * 512 + 1 * p.val = I * 512 + p.val; rw [e0, hI]; omega
  | ⟨1, _⟩ => show win0_0.index u (1 : Fin 2) * 512 + 1 * r.val = K * 512 + r.val; rw [e1, hK]; omega

theorem xb1_apply (c : Dev nD) (u : Fin cfg0.N) (K J : ℕ) (hK : u.val % 4 = K) (hJ : u.val / 4 % 4 = J) (r q : Fin 512)
    (hR : K * 512 + r.val < 2048) (hQ : J * 512 + q.val < 2048) :
    xb1 V c u (ix2 r q) = adj V c ⟨K * 512 + r.val, hR⟩ ⟨J * 512 + q.val, hQ⟩ := by
  obtain ⟨-, -, e2, e3, -⟩ := idx_facts u
  unfold xb1 iblk0
  rw [View.read_apply]
  show V c main_v21 _ = V c main_v21 _
  congr 1
  funext a
  apply Fin.ext
  match a with
  | ⟨0, _⟩ => show win0_1.index u (0 : Fin 2) * 512 + 1 * r.val = K * 512 + r.val; rw [e2, hK]; omega
  | ⟨1, _⟩ => show win0_1.index u (1 : Fin 2) * 512 + 1 * q.val = J * 512 + q.val; rw [e3, hJ]; omega

theorem xb0_real (c : Dev nD) (hreal : Cert.Spec.AllReal (S := S2048x2048) (V c main_v21)) (u : Fin cfg0.N) :
    Cert.Spec.AllReal (S := S512x512) (xb0 V c u) := fun i => by
  unfold xb0 iblk0
  rw [View.read_apply]
  exact hreal _
theorem xb1_real (c : Dev nD) (hreal : Cert.Spec.AllReal (S := S2048x2048) (V c main_v21)) (u : Fin cfg0.N) :
    Cert.Spec.AllReal (S := S512x512) (xb1 V c u) := fun i => by
  unfold xb1 iblk0
  rw [View.read_apply]
  exact hreal _

theorem count_term (c : Dev nD) (u : Fin cfg0.N) (I J : ℕ) (K : Fin 4) (hI : u.val / 16 = I) (hK : u.val % 4 = K.val) (hJ : u.val / 4 % 4 = J)
    (p q : Fin 512) (hP : I * 512 + p.val < 2048) (hQ : J * 512 + q.val < 2048) :
    ∑ r : Fin 512, Pay0.mk (xb0 V c u (ix2 p r)) * Pay0.mk (xb1 V c u (ix2 r q))
      = ∑ r : Fin 512, Cert.Spec.M (adj V c) ⟨I * 512 + p.val, hP⟩ ⟨K.val * 512 + r.val, Cert.Spec.blk_lt (by norm_num) K r⟩
          * Cert.Spec.M (adj V c) ⟨K.val * 512 + r.val, Cert.Spec.blk_lt (by norm_num) K r⟩ ⟨J * 512 + q.val, hQ⟩ :=
  Finset.sum_congr rfl fun r _ => by
    rw [xb0_apply V c u I K.val hI hK p r hP (Cert.Spec.blk_lt (by norm_num) K r),
      xb1_apply V c u K.val J hK hJ r q (Cert.Spec.blk_lt (by norm_num) K r) hQ]
    rfl

theorem length_term (c : Dev nD) (u : Fin cfg0.N) (I J : ℕ) (K : Fin 4) (hI : u.val / 16 = I) (hK : u.val % 4 = K.val) (hJ : u.val / 4 % 4 = J)
    (p q : Fin 512) (hP : I * 512 + p.val < 2048) (hQ : J * 512 + q.val < 2048) :
    ∑ r : Fin 512, Pay0.dk (xb0 V c u (ix2 p r)) * Pay0.mk (xb1 V c u (ix2 r q))
        + ∑ r : Fin 512, Pay0.mk (xb0 V c u (ix2 p r)) * Pay0.dk (xb1 V c u (ix2 r q))
      = ∑ r : Fin 512, Cert.Spec.D (adj V c) ⟨I * 512 + p.val, hP⟩ ⟨K.val * 512 + r.val, Cert.Spec.blk_lt (by norm_num) K r⟩
          * Cert.Spec.M (adj V c) ⟨K.val * 512 + r.val, Cert.Spec.blk_lt (by norm_num) K r⟩ ⟨J * 512 + q.val, hQ⟩
        + ∑ r : Fin 512, Cert.Spec.M (adj V c) ⟨I * 512 + p.val, hP⟩ ⟨K.val * 512 + r.val, Cert.Spec.blk_lt (by norm_num) K r⟩
          * Cert.Spec.D (adj V c) ⟨K.val * 512 + r.val, Cert.Spec.blk_lt (by norm_num) K r⟩ ⟨J * 512 + q.val, hQ⟩ :=
  congrArg₂ (· + ·)
    (Finset.sum_congr rfl fun r _ => by
      rw [xb0_apply V c u I K.val hI hK p r hP (Cert.Spec.blk_lt (by norm_num) K r),
        xb1_apply V c u K.val J hK hJ r q (Cert.Spec.blk_lt (by norm_num) K r) hQ]
      rfl)
    (Finset.sum_congr rfl fun r _ => by
      rw [xb0_apply V c u I K.val hI hK p r hP (Cert.Spec.blk_lt (by norm_num) K r),
        xb1_apply V c u K.val J hK hJ r q (Cert.Spec.blk_lt (by norm_num) K r) hQ]
      rfl)

theorem sum_blocks_lengths (a : Fin 2048 → Fin 2048 → EReal) (s t : Fin 2048) :
    ∑ k : Fin 4, (∑ r : Fin 512, Cert.Spec.D a s ⟨k.val * 512 + r.val, Cert.Spec.blk_lt (by norm_num) k r⟩
            * Cert.Spec.M a ⟨k.val * 512 + r.val, Cert.Spec.blk_lt (by norm_num) k r⟩ t
          + ∑ r : Fin 512, Cert.Spec.M a s ⟨k.val * 512 + r.val, Cert.Spec.blk_lt (by norm_num) k r⟩
            * Cert.Spec.D a ⟨k.val * 512 + r.val, Cert.Spec.blk_lt (by norm_num) k r⟩ t)
      = Cert.Spec.twoHop a s t := by
  unfold Cert.Spec.twoHop
  rw [← Cert.Spec.sum_fin_blocks (K := 4) (J := 512) (by norm_num : 4 * 512 = 2048)
    fun B => if 0 ≤ a s B ∧ 0 ≤ a B t then a s B + a B t else 0]
  exact Finset.sum_congr rfl fun k _ =>
    Cert.Spec.sum_keep_mul_ind_add (fun r : Fin 512 => a s ⟨k.val * 512 + r.val, Cert.Spec.blk_lt (by norm_num) k r⟩)
      (fun r : Fin 512 => a ⟨k.val * 512 + r.val, Cert.Spec.blk_lt (by norm_num) k r⟩ t)

theorem out2_entry (c : Dev nD) (t : Fin cfg0.N) (h3 : t.val % 4 = 3) (p q : Fin 512)
    (hP : t.val / 16 * 512 + p.val < 2048) (hQ : t.val / 4 % 4 * 512 + q.val < 2048) :
    (outsAt0 V c t.val t.isLt).1 (ix2 p q)
      = Cert.Spec.pathCount (adj V c) ⟨t.val / 16 * 512 + p.val, hP⟩ ⟨t.val / 4 % 4 * 512 + q.val, hQ⟩ := by
  have hN : t.val < 64 := lt_of_lt_of_eq t.isLt (show cfg0.N = 64 from N_0)
  rw [out2_at_flush V c t h3]
  unfold step0
  rw [Pay0.pay13_apply, Pay0.pay13_apply, Pay0.pay13_apply, Pay0.pay13_apply, Pay0.pay2_apply, zero_add]
  unfold Cert.Spec.pathCount
  rw [← Cert.Spec.sum_fin_blocks_M_mul_M (K := 4) (J := 512) (by norm_num : 4 * 512 = 2048) (adj V c), Fin.sum_univ_four]
  refine congrArg₂ (· + ·) (congrArg₂ (· + ·) (congrArg₂ (· + ·) ?_ ?_) ?_) ?_
  · exact count_term V c ⟨t.val - 1 - 1 - 1, lt3 t⟩ (t.val / 16) (t.val / 4 % 4) 0 (by show (t.val - 1 - 1 - 1) / 16 = _; omega) (by show (t.val - 1 - 1 - 1) % 4 = _; simp; omega) (by show (t.val - 1 - 1 - 1) / 4 % 4 = _; omega) p q hP hQ
  · exact count_term V c ⟨t.val - 1 - 1, lt2 t⟩ (t.val / 16) (t.val / 4 % 4) 1 (by show (t.val - 1 - 1) / 16 = _; omega) (by show (t.val - 1 - 1) % 4 = _; simp; omega) (by show (t.val - 1 - 1) / 4 % 4 = _; omega) p q hP hQ
  · exact count_term V c ⟨t.val - 1, lt1 t⟩ (t.val / 16) (t.val / 4 % 4) 2 (by show (t.val - 1) / 16 = _; omega) (by show (t.val - 1) % 4 = _; simp; omega) (by show (t.val - 1) / 4 % 4 = _; omega) p q hP hQ
  · exact count_term V c t (t.val / 16) (t.val / 4 % 4) 3 rfl (by simp; omega) rfl p q hP hQ

theorem out3_entry (c : Dev nD) (hreal : Cert.Spec.AllReal (S := S2048x2048) (V c main_v21)) (t : Fin cfg0.N) (h3 : t.val % 4 = 3) (p q : Fin 512)
    (hP : t.val / 16 * 512 + p.val < 2048) (hQ : t.val / 4 % 4 * 512 + q.val < 2048) :
    (outsAt0 V c t.val t.isLt).2.1 (ix2 p q)
      = Cert.Spec.twoHop (adj V c) ⟨t.val / 16 * 512 + p.val, hP⟩ ⟨t.val / 4 % 4 * 512 + q.val, hQ⟩ := by
  have hN : t.val < 64 := lt_of_lt_of_eq t.isLt (show cfg0.N = 64 from N_0)
  rw [out3_at_flush V c t h3]
  unfold step1
  rw [Pay0.length_step _ _ (xb0_real V c hreal _) (xb1_real V c hreal _),
    Pay0.length_step _ _ (xb0_real V c hreal _) (xb1_real V c hreal _),
    Pay0.length_step _ _ (xb0_real V c hreal _) (xb1_real V c hreal _),
    Pay0.length_step _ _ (xb0_real V c hreal _) (xb1_real V c hreal _), Pay0.pay3_apply, zero_add]
  rw [← sum_blocks_lengths (adj V c), Fin.sum_univ_four]
  refine congrArg₂ (· + ·) (congrArg₂ (· + ·) (congrArg₂ (· + ·) ?_ ?_) ?_) ?_
  · exact length_term V c ⟨t.val - 1 - 1 - 1, lt3 t⟩ (t.val / 16) (t.val / 4 % 4) 0 (by show (t.val - 1 - 1 - 1) / 16 = _; omega) (by show (t.val - 1 - 1 - 1) % 4 = _; simp; omega) (by show (t.val - 1 - 1 - 1) / 4 % 4 = _; omega) p q hP hQ
  · exact length_term V c ⟨t.val - 1 - 1, lt2 t⟩ (t.val / 16) (t.val / 4 % 4) 1 (by show (t.val - 1 - 1) / 16 = _; omega) (by show (t.val - 1 - 1) % 4 = _; simp; omega) (by show (t.val - 1 - 1) / 4 % 4 = _; omega) p q hP hQ
  · exact length_term V c ⟨t.val - 1, lt1 t⟩ (t.val / 16) (t.val / 4 % 4) 2 (by show (t.val - 1) / 16 = _; omega) (by show (t.val - 1) % 4 = _; simp; omega) (by show (t.val - 1) / 4 % 4 = _; omega) p q hP hQ
  · exact length_term V c t (t.val / 16) (t.val / 4 % 4) 3 rfl (by simp; omega) rfl p q hP hQ

end Entries

section Arrays

variable (V : (c : Dev nD) → (b : Ref sig .tc) → Buf (Elt Ideal) ((c : Thread nD τ).loc b))

def G2 (c : Dev nD) : S2048x2048.Idx → EReal := fun I => Cert.Spec.pathCount (adj V c) (I 0) (I 1)

def G3 (c : Dev nD) : S2048x2048.Idx → EReal := fun I => Cert.Spec.twoHop (adj V c) (I 0) (I 1)

theorem emb2 (t : Fin cfg0.N) (p q : Fin 512) (hP : t.val / 16 * 512 + p.val < 2048) (hQ : t.val / 4 % 4 * 512 + q.val < 2048) :
    ((cfg0.win 2).blk t).view.emb (ix2 p q) = (ix2 (⟨t.val / 16 * 512 + p.val, hP⟩ : Fin 2048) (⟨t.val / 4 % 4 * 512 + q.val, hQ⟩ : Fin 2048) : S2048x2048.Idx) := by
  obtain ⟨-, -, -, -, e4, e5, -⟩ := idx_facts t
  funext a
  apply Fin.ext
  match a with
  | ⟨0, _⟩ => show win0_2.index t (0 : Fin 2) * 512 + 1 * p.val = t.val / 16 * 512 + p.val; rw [e4]; omega
  | ⟨1, _⟩ => show win0_2.index t (1 : Fin 2) * 512 + 1 * q.val = t.val / 4 % 4 * 512 + q.val; rw [e5]; omega
theorem emb3 (t : Fin cfg0.N) (p q : Fin 512) (hP : t.val / 16 * 512 + p.val < 2048) (hQ : t.val / 4 % 4 * 512 + q.val < 2048) :
    ((cfg0.win 3).blk t).view.emb (ix2 p q) = (ix2 (⟨t.val / 16 * 512 + p.val, hP⟩ : Fin 2048) (⟨t.val / 4 % 4 * 512 + q.val, hQ⟩ : Fin 2048) : S2048x2048.Idx) := by
  obtain ⟨-, -, -, -, -, -, e6, e7⟩ := idx_facts t
  funext a
  apply Fin.ext
  match a with
  | ⟨0, _⟩ => show win0_3.index t (0 : Fin 2) * 512 + 1 * p.val = t.val / 16 * 512 + p.val; rw [e6]; omega
  | ⟨1, _⟩ => show win0_3.index t (1 : Fin 2) * 512 + 1 * q.val = t.val / 4 % 4 * 512 + q.val; rw [e7]; omega

theorem flushed2_eq (c : Dev nD) (t : Fin cfg0.N) (hf : (cfg0.win 2).flush t = true) :
    (dat0 V c).flushed 2 t = ((cfg0.win 2).blk t).view.read (Elt Ideal) (G2 V c) := by
  have hN : t.val < 64 := lt_of_lt_of_eq t.isLt (show cfg0.N = 64 from N_0)
  have h3 : t.val % 4 = 3 := (flush0_2 t).mp hf
  show (cfg0.win 2).cut (grid0.coords t) ((dat0 V c).after 2 t) = _
  rw [after0_2]
  funext y
  obtain ⟨p, q, rfl⟩ : ∃ (p q : Fin 512), y = ix2 p q := ⟨y 0, y 1, eq_ix2 y⟩
  have hP : t.val / 16 * 512 + p.val < 2048 := by have := p.isLt; omega
  have hQ : t.val / 4 % 4 * 512 + q.val < 2048 := by have := q.isLt; omega
  rw [View.read_apply]
  show (outsAt0 V c t.val t.isLt).1 (ix2 p q) = G2 V c (((cfg0.win 2).blk t).view.emb (ix2 p q))
  rw [emb2 t p q hP hQ, out2_entry V c t h3 p q hP hQ]
  rfl

theorem flushed3_eq (c : Dev nD) (hreal : Cert.Spec.AllReal (S := S2048x2048) (V c main_v21)) (t : Fin cfg0.N) (hf : (cfg0.win 3).flush t = true) :
    (dat0 V c).flushed 3 t = ((cfg0.win 3).blk t).view.read (Elt Ideal) (G3 V c) := by
  have hN : t.val < 64 := lt_of_lt_of_eq t.isLt (show cfg0.N = 64 from N_0)
  have h3 : t.val % 4 = 3 := (flush0_3 t).mp hf
  show (cfg0.win 3).cut (grid0.coords t) ((dat0 V c).after 3 t) = _
  rw [after0_3]
  funext y
  obtain ⟨p, q, rfl⟩ : ∃ (p q : Fin 512), y = ix2 p q := ⟨y 0, y 1, eq_ix2 y⟩
  have hP : t.val / 16 * 512 + p.val < 2048 := by have := p.isLt; omega
  have hQ : t.val / 4 % 4 * 512 + q.val < 2048 := by have := q.isLt; omega
  rw [View.read_apply]
  show (outsAt0 V c t.val t.isLt).2.1 (ix2 p q) = G3 V c (((cfg0.win 3).blk t).view.emb (ix2 p q))
  rw [emb3 t p q hP hQ, out3_entry V c hreal t h3 p q hP hQ]
  rfl

theorem mem_blk2 (t : Fin cfg0.N) (I : S2048x2048.Idx) :
    I ∈ ((cfg0.win 2).blk t).view.set ↔ ∀ a : Fin 2, win0_2.index t a * S512x512.size a ≤ (I a).val ∧ (I a).val < win0_2.index t a * S512x512.size a + S512x512.size a := by
  show I ∈ ((View.whole main_v22_0).slice (win0_2.rect t)).set ↔ _
  rw [View.set_slice_whole, Rect.mem_set_unit]
  exact Iff.rfl
theorem mem_blk3 (t : Fin cfg0.N) (I : S2048x2048.Idx) :
    I ∈ ((cfg0.win 3).blk t).view.set ↔ ∀ a : Fin 2, win0_3.index t a * S512x512.size a ≤ (I a).val ∧ (I a).val < win0_3.index t a * S512x512.size a + S512x512.size a := by
  show I ∈ ((View.whole main_v22_1).slice (win0_3.rect t)).set ↔ _
  rw [View.set_slice_whole, Rect.mem_set_unit]
  exact Iff.rfl

def flushPoint (I : S2048x2048.Idx) : Fin cfg0.N :=
  ⟨16 * ((I 0).val / 512) + 4 * ((I 1).val / 512) + 3, by
    have h0 : (I 0).val < 2048 := (I 0).isLt
    have h1 : (I 1).val < 2048 := (I 1).isLt
    rw [show cfg0.N = 64 from N_0]; omega⟩

theorem cover2 (I : S2048x2048.Idx) : ∃ t : Fin cfg0.N, (cfg0.win 2).flush t = true ∧ I ∈ ((cfg0.win 2).blk t).view.set := by
  have h0 : (I 0).val < 2048 := (I 0).isLt
  have h1 : (I 1).val < 2048 := (I 1).isLt
  have hv : (flushPoint I).val = 16 * ((I 0).val / 512) + 4 * ((I 1).val / 512) + 3 := rfl
  obtain ⟨-, -, -, -, e4, e5, -⟩ := idx_facts (flushPoint I)
  refine ⟨flushPoint I, (flush0_2 _).mpr (by rw [hv]; omega), ?_⟩
  rw [mem_blk2]
  intro a
  match a with
  | ⟨0, _⟩ => show win0_2.index (flushPoint I) (0 : Fin 2) * 512 ≤ (I 0).val ∧ (I 0).val < win0_2.index (flushPoint I) (0 : Fin 2) * 512 + 512
              rw [e4, hv]; omega
  | ⟨1, _⟩ => show win0_2.index (flushPoint I) (1 : Fin 2) * 512 ≤ (I 1).val ∧ (I 1).val < win0_2.index (flushPoint I) (1 : Fin 2) * 512 + 512
              rw [e5, hv]; omega
theorem cover3 (I : S2048x2048.Idx) : ∃ t : Fin cfg0.N, (cfg0.win 3).flush t = true ∧ I ∈ ((cfg0.win 3).blk t).view.set := by
  have h0 : (I 0).val < 2048 := (I 0).isLt
  have h1 : (I 1).val < 2048 := (I 1).isLt
  have hv : (flushPoint I).val = 16 * ((I 0).val / 512) + 4 * ((I 1).val / 512) + 3 := rfl
  obtain ⟨-, -, -, -, -, -, e6, e7⟩ := idx_facts (flushPoint I)
  refine ⟨flushPoint I, (flush0_3 _).mpr (by rw [hv]; omega), ?_⟩
  rw [mem_blk3]
  intro a
  match a with
  | ⟨0, _⟩ => show win0_3.index (flushPoint I) (0 : Fin 2) * 512 ≤ (I 0).val ∧ (I 0).val < win0_3.index (flushPoint I) (0 : Fin 2) * 512 + 512
              rw [e6, hv]; omega
  | ⟨1, _⟩ => show win0_3.index (flushPoint I) (1 : Fin 2) * 512 ≤ (I 1).val ∧ (I 1).val < win0_3.index (flushPoint I) (1 : Fin 2) * 512 + 512
              rw [e7, hv]; omega

theorem final2 (c : Dev nD) : (dat0 V c).arrAt 2 cfg0.N = G2 V c :=
  (dat0 V c).arrAt_eq_of_cover 2 (G2 V c) (flushed2_eq V c) (cover2)

theorem final3 (c : Dev nD) (hreal : Cert.Spec.AllReal (S := S2048x2048) (V c main_v21)) : (dat0 V c).arrAt 3 cfg0.N = G3 V c :=
  (dat0 V c).arrAt_eq_of_cover 3 (G3 V c) (flushed3_eq V c hreal) (cover3)

theorem final2_apply (c : Dev nD) (P Q : Fin 2048) :
    (dat0 V c).arrAt 2 cfg0.N (ix2 P Q) = Cert.Spec.pathCount (adj V c) P Q := by
  rw [final2]; rfl
theorem final3_apply (c : Dev nD) (hreal : Cert.Spec.AllReal (S := S2048x2048) (V c main_v21)) (P Q : Fin 2048) :
    (dat0 V c).arrAt 3 cfg0.N (ix2 P Q) = Cert.Spec.twoHop (adj V c) P Q := by
  rw [final3 V c hreal]; rfl

end Arrays

end Cert.KernelIdeal.R0

end
-- ==== Proof.KResidual.lean ====
import proofs.«418543_j27023934227041_3_alg».proof.Proof.KIFrame
import proofs.«418543_j27023934227041_3_alg».proof.Proof.KHost
import proofs.«418543_j27023934227041_3_alg».proof.Proof.Region0Value
import proofs.«418543_j27023934227041_3_alg».proof.Proof.Spec

set_option maxRecDepth 16384

noncomputable section

namespace Cert.Assembly

open Cert.KernelIdeal Cert.KernelIdeal.Gen Cert.KernelIdeal.Hand Cert.KernelIdeal.Host
open Idealize.ShloMosaic Idealize.ShloMosaic.TcCoe Idealize.ShloMosaic.ValueIdx
open Idealize.SL Idealize.SL.Sem
open Cert.Spec

variable (m : (ℓ : Loc nD τ sig) → Buf (Elt Ideal) ℓ) (c : Dev nD)

abbrev adjK : Fin 2048 → Fin 2048 → EReal := fun p q => (V1 m c main_v21 : FVec Ideal S2048x2048 .f32) (ix2 p q)

theorem adj_eq : (V1 m c main_v21 : FVec Ideal S2048x2048 .f32) = adjOf (x2 m c) (x3 m c) := V1_v21 m c

theorem adj_real (h3 : AllReal (x3 m c)) : AllReal (S := S2048x2048) (V1 m c main_v21) := by
  rw [adj_eq]; exact adjOf_allReal _ _ h3

theorem count_eq (P Q : Fin 2048) :
    (outs m 2 main_v22_0 c : FVec Ideal S2048x2048 .f32) (ix2 P Q) = pathCount (adjK m c) P Q := by
  rw [outs_22_0 m c]; exact R0.final2_apply (VR1 m) c P Q

theorem length_eq (h3 : AllReal (x3 m c)) (P Q : Fin 2048) :
    (outs m 2 main_v22_1 c : FVec Ideal S2048x2048 .f32) (ix2 P Q) = twoHop (adjK m c) P Q := by
  rw [outs_22_1 m c]; exact R0.final3_apply (VR1 m) c (adj_real m c h3) P Q

theorem res5_eq (h3 : AllReal (x3 m c)) (h2 : ∀ i, 0 ≤ (x2 m c i).toInt ∧ (x2 m c i).toInt < 2048) (e : Fin 32768) :
    (V5 m (outs m) c main_v59 : FVec Ideal S32768x1 .f32) (ix2 e (0 : Fin 1))
      = residual (adjK m c) (node (x2 m c (ix2 (0 : Fin 2) e))) (node (x2 m c (ix2 (1 : Fin 2) e))) (x3 m c (ix2 e (0 : Fin 1))) := by
  rw [V5_v59_apply m (outs m) c e (h2 _).1 (h2 _).1]
  show residualOf ((outs m 2 main_v22_0 c : FVec Ideal S2048x2048 .f32) (ix2 _ _))
      ((outs m 2 main_v22_1 c : FVec Ideal S2048x2048 .f32) (ix2 _ _)) _ = _
  rw [count_eq m c, length_eq m c h3]
  rfl

theorem res_eq (h3 : AllReal (x3 m c)) (h2 : ∀ i, 0 ≤ (x2 m c i).toInt ∧ (x2 m c i).toInt < 2048) (e : Fin 32768) :
    (V8 m (outs m) c main_v59 : FVec Ideal S32768x1 .f32) (ix2 e (0 : Fin 1))
      = residual (adjK m c) (node (x2 m c (ix2 (0 : Fin 2) e))) (node (x2 m c (ix2 (1 : Fin 2) e))) (x3 m c (ix2 e (0 : Fin 1))) := by
  rw [V8_v59 m (outs m) c]; exact res5_eq m c h3 h2 e

theorem edge4_eq (h3 : AllReal (x3 m c)) (h2 : ∀ i, 0 ≤ (x2 m c i).toInt ∧ (x2 m c i).toInt < 2048) (e : Fin 32768) :
    (V5 m (outs m) c main_v73 : FVec Ideal S32768x5 .f32) (ix2 e (4 : Fin 5))
      = weight (residual (adjK m c) (node (x2 m c (ix2 (0 : Fin 2) e))) (node (x2 m c (ix2 (1 : Fin 2) e))) (x3 m c (ix2 e (0 : Fin 1)))) := by
  rw [V5_v73_apply_4 m (outs m) c e, res5_eq m c h3 h2 e]

end Cert.Assembly

end
-- ==== Proof.Pay2.lean ====
import proofs.«418543_j27023934227041_3_alg».proof.Proof.Gen.KernelIdeal.Skeleton
import proofs.«418543_j27023934227041_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Pay2

open Cert.KernelIdeal Cert.KernelIdeal.Gen
open Idealize.ShloMosaic Idealize.ShloMosaic.ValueIdx
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem bias_apply {α : Type} (b : S128.Idx → α) (r : Fin 1024) (h : Fin 128) :
    broadcastTo S1024x128 (shapeCast S1x128 b shapeCasts_S128_S1x128) broadcasts_S1x128_S1024x128 (ix2 r h) = b (ix1 h) := by
  rw [broadcastTo_1b_ab_apply, shapeCast_a_1a_apply]

theorem lhs128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs128_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs128_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem mm128_apply (l : FVec Ideal S1024x128 .bf16) (w : FVec Ideal S128x128 .bf16) (r : Fin 1024) (h : Fin 128) :
    matmul dot_S1024x128_S128x128_S1024x128_1_0_0_1_n_n none l w (constant S1024x128 .f32 0x00000000#32) (ix2 r h)
      = ∑ k : Fin 128, l (ix2 r k) * w (ix2 k h) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r h) ((ValueIdx.contrEquiv1 dot_S1024x128_S128x128_S1024x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S1024x128_S128x128_S1024x128_1_0_0_1_n_n.rhsIdx (ix2 r h) ((ValueIdx.contrEquiv1 dot_S1024x128_S128x128_S1024x128_1_0_0_1_n_n 128 rfl rfl).symm k) = ix2 k h := funext fun a => Fin.ext (by
    match a with
    | ⟨0, _⟩ => exact (rhs128_0 _ _).trans hk
    | ⟨1, _⟩ => exact rhs128_1 _ _)
  rw [el, er]

theorem lhs129_0 (i : S1024x128.Idx) (q : dot_S1024x129_S129x128_S1024x128_1_0_0_1_n_n.contr.Idx) :
    (dot_S1024x129_S129x128_S1024x128_1_0_0_1_n_n.lhsIdx i q 0).val = (i 0).val := by
  unfold DotDims.lhsIdx
  rw [dif_neg (show ¬(0 : Fin S1024x129.rank) ∈ dot_S1024x129_S129x128_S1024x128_1_0_0_1_n_n.lhsBatch by decide), dif_pos (show (0 : Fin S1024x129.rank) ∈ dot_S1024x129_S129x128_S1024x128_1_0_0_1_n_n.lhsNonContracting by decide)]
  rfl
theorem lhs129_1 (i : S1024x128.Idx) (q : dot_S1024x129_S129x128_S1024x128_1_0_0_1_n_n.contr.Idx) :
    (dot_S1024x129_S129x128_S1024x128_1_0_0_1_n_n.lhsIdx i q 1).val = (q ⟨0, by decide⟩).val :=
  dot_S1024x129_S129x128_S1024x128_1_0_0_1_n_n.lhsIdx_val_of_single rfl i q
theorem rhs129_0 (i : S1024x128.Idx) (q : dot_S1024x129_S129x128_S1024x128_1_0_0_1_n_n.contr.Idx) :
    (dot_S1024x129_S129x128_S1024x128_1_0_0_1_n_n.rhsIdx i q 0).val = (q ⟨0, by decide⟩).val :=
  dot_S1024x129_S129x128_S1024x128_1_0_0_1_n_n.rhsIdx_val_of_single rfl i q
theorem rhs129_1 (i : S1024x128.Idx) (q : dot_S1024x129_S129x128_S1024x128_1_0_0_1_n_n.contr.Idx) :
    (dot_S1024x129_S129x128_S1024x128_1_0_0_1_n_n.rhsIdx i q 1).val = (i 1).val := by
  unfold DotDims.rhsIdx
  rw [dif_neg (show ¬(1 : Fin S129x128.rank) ∈ dot_S1024x129_S129x128_S1024x128_1_0_0_1_n_n.rhsBatch by decide), dif_pos (show (1 : Fin S129x128.rank) ∈ dot_S1024x129_S129x128_S1024x128_1_0_0_1_n_n.rhsNonContracting by decide)]
  rfl

theorem mm129_apply (l : FVec Ideal S1024x129 .bf16) (w : FVec Ideal S129x128 .bf16) (r : Fin 1024) (h : Fin 128) :
    matmul dot_S1024x129_S129x128_S1024x128_1_0_0_1_n_n none l w (constant S1024x128 .f32 0x00000000#32) (ix2 r h)
      = ∑ k : Fin 129, l (ix2 r k) * w (ix2 k h) := by
  simp only [matmul]
  rw [Ideal.matmul_constant_zero_apply, ← Equiv.sum_comp (ValueIdx.contrEquiv1 dot_S1024x129_S129x128_S1024x128_1_0_0_1_n_n 129 rfl rfl).symm]
  refine Finset.sum_congr rfl fun k _ => ?_
  have hk := ValueIdx.contrEquiv1_symm_val dot_S1024x129_S129x128_S1024x128_1_0_0_1_n_n 129 rfl rfl k
  have el : dot_S1024x129_S129x128_S1024x128_1_0_0_1_n_n.lhsIdx (ix2 r h) ((ValueIdx.contrEquiv1 dot_S1024x129_S129x128_S1024x128_1_0_0_1_n_n 129 rfl rfl).symm k) = ix2 r k := funext fun a => Fin.ext (by
    match a with
    | ⟨0, _⟩ => exact lhs129_0 _ _
    | ⟨1, _⟩ => exact (lhs129_1 _ _).trans hk)
  have er : dot_S1024x129_S129x128_S1024x128_1_0_0_1_n_n.rhsIdx (ix2 r h) ((ValueIdx.contrEquiv1 dot_S1024x129_S129x128_S1024x128_1_0_0_1_n_n 129 rfl rfl).symm k) = ix2 k h := funext fun a => Fin.ext (by
    match a with
    | ⟨0, _⟩ => exact (rhs129_0 _ _).trans hk
    | ⟨1, _⟩ => exact rhs129_1 _ _)
  rw [el, er]

theorem pay3_apply (v1 v3 : Vec Ideal S1x1024x128 .f32) (v6 : Vec Ideal S1024x3 .f32) (r : Fin 1024) (h : Fin 128) :
    k2_pay3 (F := Ideal) v1 v3 v6 (ix2 r h)
      = Spec.aggMsg (v1 (ix3 (0 : Fin 1) r h) + v3 (ix3 (0 : Fin 1) r h)) (v6 (ix2 r (0 : Fin 3))) := by
  unfold k2_pay3 k2_pay2
  dsimp only
  rw [divf_apply, addf_apply, shapeCast_1ab_ab_apply, shapeCast_1ab_ab_apply, broadcastTo_a1_ab_apply, maximumf_apply,
    slice2_axis1_eq, shapeCast_self, broadcast_apply]
  rfl

theorem pay4_apply (v6 : Vec Ideal S1024x3 .f32) (r : Fin 1024) :
    k2_pay4 (F := Ideal) v6 (ix2 r (0 : Fin 1)) = Spec.meanRes (v6 (ix2 r (1 : Fin 3))) (v6 (ix2 r (2 : Fin 3))) := by
  unfold k2_pay4 k2_pay2
  dsimp only
  rw [divf_apply, maximumf_apply, slice2_axis1_eq, slice2_axis1_eq, shapeCast_self, broadcast_apply]
  show Ideal.div _ (max _ (Ideal.ofBits .f32 0x3F800000#32)) = _
  rw [Ideal.ofBits_one_f32]
  rfl

theorem scalar_zero_f32 : (Scalar.ofBits .f32 0x00000000#32 : Ideal .f32) = 0 := Ideal.ofBits_zero_f32

theorem exp_apply {s : Shape} {φ : FTy} (a : FVec Ideal s φ) (i : s.Idx) : exp a i = FloatOps.exp (a i) := rfl
theorem log1p_apply {s : Shape} {φ : FTy} (a : FVec Ideal s φ) (i : s.Idx) : log1p a i = FloatOps.log1p (a i) := rfl
theorem absf_apply {s : Shape} {φ : FTy} (a : FVec Ideal s φ) (i : s.Idx) : absf a i = FloatOps.absf (a i) := rfl

theorem pay5_apply (v0 : Vec Ideal S1024x128 .f32) (v1 v3 : Vec Ideal S1x1024x128 .f32) (v6 : Vec Ideal S1024x3 .f32)
    (v19 : Vec Ideal S128x128 .bf16) (v22 : Vec Ideal S128 .f32) (v29 : Vec Ideal S128x128 .bf16) (v32 : Vec Ideal S128 .f32)
    (r : Fin 1024) (h : Fin 128) :
    k2_pay5 (F := Ideal) v0 v1 v3 v6 v19 v22 v29 v32 (ix2 r h)
      = Spec.muNew (v0 (ix2 r h))
          (fun j => Spec.aggMsg (v1 (ix3 (0 : Fin 1) r j) + v3 (ix3 (0 : Fin 1) r j)) (v6 (ix2 r (0 : Fin 3))))
          (fun j k => v19 (ix2 j k)) (fun k => v22 (ix1 k)) (fun k o => v29 (ix2 k o)) (fun o => v32 (ix1 o)) h := by
  unfold k2_pay5
  simp only [addf_apply, bias_apply, mm128_apply, truncf_apply, maximumf_apply, broadcast_apply, shapeCast_self,
    pay3_apply, scalar_zero_f32]
  rfl

theorem concat_apply (v14 : FVec Ideal S1024x128 .f32) (v17 : FVec Ideal S1024x1 .f32) (r : Fin 1024) (k : Fin 129) :
    concatenate S1024x129 1 [⟨S1024x128, v14⟩, ⟨S1024x1, v17⟩] concatenates_S1024x128_S1024x1_S1024x129_d1 (ix2 r k)
      = Spec.sigInput (fun j => v14 (ix2 r j)) (v17 (ix2 r (0 : Fin 1))) k := by
  unfold Spec.sigInput
  by_cases hk : k.val < 128
  · rw [dif_pos hk]
    refine concatenate_pair_apply_left (1 : Fin S1024x129.rank) v14 v17 _ (ix2 r k) rfl (ix2 r ⟨k.val, hk⟩) fun b => ?_
    match b with
    | ⟨0, _⟩ => rfl
    | ⟨1, _⟩ => rfl
  · rw [dif_neg hk]
    refine concatenate_pair_apply_right (1 : Fin S1024x129.rank) v14 v17 _ (ix2 r k) rfl rfl (ix2 r (0 : Fin 1)) (fun b hb => ?_) ?_
    · match b with
      | ⟨0, _⟩ => rfl
      | ⟨1, _⟩ => exact absurd rfl hb
    · show 0 + 128 = k.val
      have := k.isLt; omega

theorem softplus_elt (z : EReal) :
    Scalar.select (FloatOps.cmpf (F := Ideal) (φ := .f32) .one (z - 0) (z - 0)) (z + 0)
        (max z 0 + FloatOps.log1p (F := Ideal) (φ := .f32) (FloatOps.exp (F := Ideal) (φ := .f32)
          (0 - FloatOps.absf (F := Ideal) (φ := .f32) (z - 0))))
      = Spec.softplus z := by
  have hc : FloatOps.cmpf (F := Ideal) (φ := .f32) .one (z - 0) (z - 0) = 0#1 := by
    rw [Ideal.cmpf_def]; simp [Ideal.cmp]
  rw [hc, select_zero, sub_zero, zero_sub, Ideal.absf_def]
  rfl

theorem pay1_apply (v14 : FVec Ideal S1024x128 .f32) (v17 : FVec Ideal S1024x1 .f32) (v40 : Vec Ideal S129x128 .bf16)
    (v43 : Vec Ideal S128 .f32) (v50 : Vec Ideal S128x128 .bf16) (v53 : Vec Ideal S128 .f32) (r : Fin 1024) (h : Fin 128) :
    k2_pay1 (F := Ideal) v14 v17 v40 v43 v50 v53 (ix2 r h)
      = Spec.sigNew (fun j => v14 (ix2 r j)) (v17 (ix2 r (0 : Fin 1)))
          (fun j k => v40 (ix2 j k)) (fun k => v43 (ix1 k)) (fun k o => v50 (ix2 k o)) (fun o => v53 (ix1 o)) h := by
  unfold k2_pay1
  simp only [select_apply, cmpf_apply, addf_apply, subf_apply, absf_apply, exp_apply, log1p_apply, bias_apply, mm128_apply,
    mm129_apply, truncf_apply, maximumf_apply, broadcast_apply, shapeCast_self, concat_apply, scalar_zero_f32]
  exact softplus_elt _

end Cert.KernelIdeal.Pay2

end
-- ==== Proof.Region2Value.lean ====
import proofs.«418543_j27023934227041_3_alg».proof.Proof.Region2Body
import proofs.«418543_j27023934227041_3_alg».proof.Proof.Pay2
import proofs.«418543_j27023934227041_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.R2

open Cert.KernelIdeal Cert.KernelIdeal.Gen Cert.KernelIdeal.Pay2
open Idealize.ShloMosaic Idealize.ShloMosaic.TcCoe Idealize.ShloMosaic.ValueIdx
open Idealize.SL Idealize.SL.Sem
open Idealize.ShloMosaic.Pipeline (Dat Cfg Window)
open scoped BigOperators

theorem hz2 : (![0, 0] : Fin 2 → Nat) = fun _ => 0 := funext fun a => by fin_cases a <;> rfl
theorem hz1 : (![0] : Fin 1 → Nat) = fun _ => 0 := funext fun a => by fin_cases a <;> rfl

theorem rA0_idx (r : Fin 1024) (j : Fin 128) : rA0.idx (ix3 (0 : Fin 1) r j) = ix3 (0 : Fin 2) r j := by
  funext a; apply Fin.ext
  match a with
  | ⟨0, _⟩ => rfl
  | ⟨1, _⟩ => show 0 + 1 * r.val = r.val; omega
  | ⟨2, _⟩ => show 0 + 1 * j.val = j.val; omega

theorem rA1_idx (r : Fin 1024) (j : Fin 128) : rA1.idx (ix3 (0 : Fin 1) r j) = ix3 (1 : Fin 2) r j := by
  funext a; apply Fin.ext
  match a with
  | ⟨0, _⟩ => rfl
  | ⟨1, _⟩ => show 0 + 1 * r.val = r.val; omega
  | ⟨2, _⟩ => show 0 + 1 * j.val = j.val; omega

abbrev aggRow (x1 : Vec Ideal S2x1024x128 .f32) (x2 : Vec Ideal S1024x3 .f32) (r : Fin 1024) (j : Fin 128) : EReal :=
  Spec.aggMsg (x1 (ix3 (0 : Fin 2) r j) + x1 (ix3 (1 : Fin 2) r j)) (x2 (ix2 r (0 : Fin 3)))

theorem out11_apply (x0 : Vec Ideal S1024x128 .f32) (x1 : Vec Ideal S2x1024x128 .f32) (x2 : Vec Ideal S1024x3 .f32)
    (x3 : Vec Ideal S128x128 .bf16) (x4 : Vec Ideal S128 .f32) (x5 : Vec Ideal S128x128 .bf16) (x6 : Vec Ideal S128 .f32)
    (r : Fin 1024) (h : Fin 128) :
    out2_11 x0 x1 x2 x3 x4 x5 x6 (ix2 r h)
      = Spec.muNew (x0 (ix2 r h)) (aggRow x1 x2 r)
          (fun j k => x3 (ix2 j k)) (fun k => x4 (ix1 k)) (fun k o => x5 (ix2 k o)) (fun o => x6 (ix1 o)) h := by
  unfold out2_11
  rw [View.canon_unit_zero hz2]
  simp only [View.ld_unit_zero (S := S1024x128) hz2, View.ld_unit_zero (S := S1024x3) hz2,
    View.ld_unit_zero (S := S128x128) hz2, View.ld_unit_zero (S := S128) hz1]
  refine (pay5_apply _ _ _ _ _ _ _ _ r h).trans ?_
  show Spec.muNew _ (fun j => Spec.aggMsg (x1 (rA0.idx (ix3 (0 : Fin 1) r j)) + x1 (rA1.idx (ix3 (0 : Fin 1) r j))) _) _ _ _ _ h = _
  simp only [rA0_idx, rA1_idx]

theorem out12_apply (x1 : Vec Ideal S2x1024x128 .f32) (x2 : Vec Ideal S1024x3 .f32) (x7 : Vec Ideal S129x128 .bf16)
    (x8 : Vec Ideal S128 .f32) (x9 : Vec Ideal S128x128 .bf16) (x10 : Vec Ideal S128 .f32) (r : Fin 1024) (h : Fin 128) :
    out2_12 x1 x2 x7 x8 x9 x10 (ix2 r h)
      = Spec.sigNew (aggRow x1 x2 r) (Spec.meanRes (x2 (ix2 r (1 : Fin 3))) (x2 (ix2 r (2 : Fin 3))))
          (fun j k => x7 (ix2 j k)) (fun k => x8 (ix1 k)) (fun k o => x9 (ix2 k o)) (fun o => x10 (ix1 o)) h := by
  unfold out2_12
  rw [View.canon_unit_zero hz2]
  simp only [View.ld_unit_zero (S := S1024x3) hz2, View.ld_unit_zero (S := S129x128) hz2,
    View.ld_unit_zero (S := S128x128) hz2, View.ld_unit_zero (S := S128) hz1]
  refine (pay1_apply _ _ _ _ _ _ r h).trans ?_
  simp only [pay3_apply, pay4_apply]
  show Spec.sigNew (fun j => Spec.aggMsg (x1 (rA0.idx (ix3 (0 : Fin 1) r j)) + x1 (rA1.idx (ix3 (0 : Fin 1) r j))) _) _ _ _ _ _ h = _
  simp only [rA0_idx, rA1_idx]

section Arrays

variable (V : (c : Dev nD) → (b : Ref sig .tc) → Buf (Elt Ideal) ((c : Thread nD τ).loc b))

abbrev muArr (c : Dev nD) : Vec Ideal S2048x128 .f32 := V c (Pipeline.arrRef spec2 0)
abbrev aggArr (c : Dev nD) : Vec Ideal S2x2048x128 .f32 := V c (Pipeline.arrRef spec2 1)
abbrev statArr (c : Dev nD) : Vec Ideal S2048x3 .f32 := V c (Pipeline.arrRef spec2 2)
abbrev muW1 (c : Dev nD) : Vec Ideal S128x128 .bf16 := V c (Pipeline.arrRef spec2 3)
abbrev muB1 (c : Dev nD) : Vec Ideal S128 .f32 := V c (Pipeline.arrRef spec2 4)
abbrev muW2 (c : Dev nD) : Vec Ideal S128x128 .bf16 := V c (Pipeline.arrRef spec2 5)
abbrev muB2 (c : Dev nD) : Vec Ideal S128 .f32 := V c (Pipeline.arrRef spec2 6)
abbrev sgW1 (c : Dev nD) : Vec Ideal S129x128 .bf16 := V c (Pipeline.arrRef spec2 7)
abbrev sgB1 (c : Dev nD) : Vec Ideal S128 .f32 := V c (Pipeline.arrRef spec2 8)
abbrev sgW2 (c : Dev nD) : Vec Ideal S128x128 .bf16 := V c (Pipeline.arrRef spec2 9)
abbrev sgB2 (c : Dev nD) : Vec Ideal S128 .f32 := V c (Pipeline.arrRef spec2 10)

def aggNode (c : Dev nD) (n : Fin 2048) (j : Fin 128) : EReal :=
  Spec.aggMsg (aggArr V c (ix3 (0 : Fin 2) n j) + aggArr V c (ix3 (1 : Fin 2) n j)) (statArr V c (ix2 n (0 : Fin 3)))

def newMu (c : Dev nD) (n : Fin 2048) (h : Fin 128) : EReal :=
  Spec.muNew (muArr V c (ix2 n h)) (aggNode V c n)
    (fun j k => muW1 V c (ix2 j k)) (fun k => muB1 V c (ix1 k)) (fun k o => muW2 V c (ix2 k o)) (fun o => muB2 V c (ix1 o)) h

def newSig (c : Dev nD) (n : Fin 2048) (h : Fin 128) : EReal :=
  Spec.sigNew (aggNode V c n) (Spec.meanRes (statArr V c (ix2 n (1 : Fin 3))) (statArr V c (ix2 n (2 : Fin 3))))
    (fun j k => sgW1 V c (ix2 j k)) (fun k => sgB1 V c (ix1 k)) (fun k o => sgW2 V c (ix2 k o)) (fun o => sgB2 V c (ix1 o)) h

abbrev G11 (c : Dev nD) : Vec Ideal S2048x128 .f32 := fun i => newMu V c (i 0) (i 1)
abbrev G12 (c : Dev nD) : Vec Ideal S2048x128 .f32 := fun i => newSig V c (i 0) (i 1)

theorem idx_facts : ∀ t : Fin cfg2.N,
    win2_0.index t (0 : Fin 2) = t.val ∧ win2_0.index t (1 : Fin 2) = 0
    ∧ win2_1.index t (0 : Fin 3) = 0 ∧ win2_1.index t (1 : Fin 3) = t.val ∧ win2_1.index t (2 : Fin 3) = 0
    ∧ win2_2.index t (0 : Fin 2) = t.val ∧ win2_2.index t (1 : Fin 2) = 0
    ∧ win2_11.index t (0 : Fin 2) = t.val ∧ win2_11.index t (1 : Fin 2) = 0
    ∧ win2_12.index t (0 : Fin 2) = t.val ∧ win2_12.index t (1 : Fin 2) = 0 :=
  (by decide +kernel : ∀ t : Fin grid2.N, _)

theorem idx_consts : ∀ t : Fin cfg2.N,
    win2_3.index t (0 : Fin 2) = 0 ∧ win2_3.index t (1 : Fin 2) = 0 ∧ win2_4.index t (0 : Fin 1) = 0
    ∧ win2_5.index t (0 : Fin 2) = 0 ∧ win2_5.index t (1 : Fin 2) = 0 ∧ win2_6.index t (0 : Fin 1) = 0
    ∧ win2_7.index t (0 : Fin 2) = 0 ∧ win2_7.index t (1 : Fin 2) = 0 ∧ win2_8.index t (0 : Fin 1) = 0
    ∧ win2_9.index t (0 : Fin 2) = 0 ∧ win2_9.index t (1 : Fin 2) = 0 ∧ win2_10.index t (0 : Fin 1) = 0 :=
  (by decide +kernel : ∀ t : Fin grid2.N, _)

theorem iblk0_apply (c : Dev nD) (t : Fin cfg2.N) (x : S1024x128.Idx) (k : S2048x128.Idx)
    (hk0 : (k 0).val = t.val * 1024 + (x 0).val) (hk1 : (k 1).val = (x 1).val) :
    (iblk2 V c 0 t : Vec Ideal S1024x128 .f32) x = muArr V c k := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 1024 + 1 * (x 0).val = (k 0).val; rw [e0, hk0]; omega
  | ⟨1, _⟩ => show win2_0.index t 1 * 128 + 1 * (x 1).val = (k 1).val; rw [e1, hk1]; omega

theorem iblk1_apply (c : Dev nD) (t : Fin cfg2.N) (x : S2x1024x128.Idx) (k : S2x2048x128.Idx)
    (hk0 : (k 0).val = (x 0).val) (hk1 : (k 1).val = t.val * 1024 + (x 1).val) (hk2 : (k 2).val = (x 2).val) :
    (iblk2 V c 1 t : Vec Ideal S2x1024x128 .f32) x = aggArr V c k := by
  obtain ⟨-, -, e0, e1, e2, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 2 + 1 * (x 0).val = (k 0).val; rw [e0, hk0]; omega
  | ⟨1, _⟩ => show win2_1.index t 1 * 1024 + 1 * (x 1).val = (k 1).val; rw [e1, hk1]; omega
  | ⟨2, _⟩ => show win2_1.index t 2 * 128 + 1 * (x 2).val = (k 2).val; rw [e2, hk2]; omega

theorem iblk2_apply (c : Dev nD) (t : Fin cfg2.N) (x : S1024x3.Idx) (k : S2048x3.Idx)
    (hk0 : (k 0).val = t.val * 1024 + (x 0).val) (hk1 : (k 1).val = (x 1).val) :
    (iblk2 V c 2 t : Vec Ideal S1024x3 .f32) x = statArr V c k := by
  obtain ⟨-, -, -, -, -, e0, e1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 1024 + 1 * (x 0).val = (k 0).val; rw [e0, hk0]; omega
  | ⟨1, _⟩ => show win2_2.index t 1 * 3 + 1 * (x 1).val = (k 1).val; rw [e1, hk1]; omega

theorem iblk3_eq (c : Dev nD) (t : Fin cfg2.N) : (iblk2 V c 3 t : Vec Ideal S128x128 .bf16) = muW1 V c := by
  obtain ⟨e0, e1, -⟩ := idx_consts t
  funext x
  unfold iblk2
  rw [View.read_apply]
  show V c (Pipeline.arrRef spec2 3) _ = V c (Pipeline.arrRef spec2 3) _
  congr 1
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

theorem iblk4_eq (c : Dev nD) (t : Fin cfg2.N) : (iblk2 V c 4 t : Vec Ideal S128 .f32) = muB1 V c := by
  obtain ⟨-, -, e0, -⟩ := idx_consts t
  funext x
  unfold iblk2
  rw [View.read_apply]
  show V c (Pipeline.arrRef spec2 4) _ = V c (Pipeline.arrRef spec2 4) _
  congr 1
  funext a
  apply Fin.ext
  match a with
  | ⟨0, _⟩ => show win2_4.index t 0 * 128 + 1 * (x 0).val = (x 0).val; rw [e0]; omega

theorem iblk5_eq (c : Dev nD) (t : Fin cfg2.N) : (iblk2 V c 5 t : Vec Ideal S128x128 .bf16) = muW2 V c := by
  obtain ⟨-, -, -, e0, e1, -⟩ := idx_consts t
  funext x
  unfold iblk2
  rw [View.read_apply]
  show V c (Pipeline.arrRef spec2 5) _ = V c (Pipeline.arrRef spec2 5) _
  congr 1
  funext a
  apply Fin.ext
  match a with
  | ⟨0, _⟩ => show win2_5.index t 0 * 128 + 1 * (x 0).val = (x 0).val; rw [e0]; omega
  | ⟨1, _⟩ => show win2_5.index t 1 * 128 + 1 * (x 1).val = (x 1).val; rw [e1]; omega

theorem iblk6_eq (c : Dev nD) (t : Fin cfg2.N) : (iblk2 V c 6 t : Vec Ideal S128 .f32) = muB2 V c := by
  obtain ⟨-, -, -, -, -, e0, -⟩ := idx_consts t
  funext x
  unfold iblk2
  rw [View.read_apply]
  show V c (Pipeline.arrRef spec2 6) _ = V c (Pipeline.arrRef spec2 6) _
  congr 1
  funext a
  apply Fin.ext
  match a with
  | ⟨0, _⟩ => show win2_6.index t 0 * 128 + 1 * (x 0).val = (x 0).val; rw [e0]; omega

theorem iblk7_eq (c : Dev nD) (t : Fin cfg2.N) : (iblk2 V c 7 t : Vec Ideal S129x128 .bf16) = sgW1 V c := by
  obtain ⟨-, -, -, -, -, -, e0, e1, -⟩ := idx_consts t
  funext x
  unfold iblk2
  rw [View.read_apply]
  show V c (Pipeline.arrRef spec2 7) _ = V c (Pipeline.arrRef spec2 7) _
  congr 1
  funext a
  apply Fin.ext
  match a with
  | ⟨0, _⟩ => show win2_7.index t 0 * 129 + 1 * (x 0).val = (x 0).val; rw [e0]; omega
  | ⟨1, _⟩ => show win2_7.index t 1 * 128 + 1 * (x 1).val = (x 1).val; rw [e1]; omega

theorem iblk8_eq (c : Dev nD) (t : Fin cfg2.N) : (iblk2 V c 8 t : Vec Ideal S128 .f32) = sgB1 V c := by
  obtain ⟨-, -, -, -, -, -, -, -, e0, -⟩ := idx_consts t
  funext x
  unfold iblk2
  rw [View.read_apply]
  show V c (Pipeline.arrRef spec2 8) _ = V c (Pipeline.arrRef spec2 8) _
  congr 1
  funext a
  apply Fin.ext
  match a with
  | ⟨0, _⟩ => show win2_8.index t 0 * 128 + 1 * (x 0).val = (x 0).val; rw [e0]; omega

theorem iblk9_eq (c : Dev nD) (t : Fin cfg2.N) : (iblk2 V c 9 t : Vec Ideal S128x128 .bf16) = sgW2 V c := by
  obtain ⟨-, -, -, -, -, -, -, -, -, e0, e1, -⟩ := idx_consts t
  funext x
  unfold iblk2
  rw [View.read_apply]
  show V c (Pipeline.arrRef spec2 9) _ = V c (Pipeline.arrRef spec2 9) _
  congr 1
  funext a
  apply Fin.ext
  match a with
  | ⟨0, _⟩ => show win2_9.index t 0 * 128 + 1 * (x 0).val = (x 0).val; rw [e0]; omega
  | ⟨1, _⟩ => show win2_9.index t 1 * 128 + 1 * (x 1).val = (x 1).val; rw [e1]; omega

theorem iblk10_eq (c : Dev nD) (t : Fin cfg2.N) : (iblk2 V c 10 t : Vec Ideal S128 .f32) = sgB2 V c := by
  obtain ⟨-, -, -, -, -, -, -, -, -, -, -, e0⟩ := idx_consts t
  funext x
  unfold iblk2
  rw [View.read_apply]
  show V c (Pipeline.arrRef spec2 10) _ = V c (Pipeline.arrRef spec2 10) _
  congr 1
  funext a
  apply Fin.ext
  match a with
  | ⟨0, _⟩ => show win2_10.index t 0 * 128 + 1 * (x 0).val = (x 0).val; rw [e0]; omega

theorem muNew_congr {a a' : EReal} {f f' : Fin 128 → EReal} {w1 w1' : Fin 128 → Fin 128 → EReal} {b1 b1' : Fin 128 → EReal}
    {w2 w2' : Fin 128 → Fin 128 → EReal} {b2 b2' : Fin 128 → EReal} {h h' : Fin 128}
    (ha : a = a') (hf : f = f') (hw1 : w1 = w1') (hb1 : b1 = b1') (hw2 : w2 = w2') (hb2 : b2 = b2') (hh : h = h') :
    Spec.muNew a f w1 b1 w2 b2 h = Spec.muNew a' f' w1' b1' w2' b2' h' := by
  subst ha hf hw1 hb1 hw2 hb2 hh; rfl
theorem sigNew_congr {f f' : Fin 128 → EReal} {m m' : EReal} {w1 w1' : Fin 129 → Fin 128 → EReal} {b1 b1' : Fin 128 → EReal}
    {w2 w2' : Fin 128 → Fin 128 → EReal} {b2 b2' : Fin 128 → EReal} {h h' : Fin 128}
    (hf : f = f') (hm : m = m') (hw1 : w1 = w1') (hb1 : b1 = b1') (hw2 : w2 = w2') (hb2 : b2 = b2') (hh : h = h') :
    Spec.sigNew f m w1 b1 w2 b2 h = Spec.sigNew f' m' w1' b1' w2' b2' h' := by
  subst hf hm hw1 hb1 hw2 hb2 hh; rfl

abbrev aggBlk (c : Dev nD) (t : Fin cfg2.N) : Vec Ideal S2x1024x128 .f32 := iblk2 V c 1 t
abbrev statBlk (c : Dev nD) (t : Fin cfg2.N) : Vec Ideal S1024x3 .f32 := iblk2 V c 2 t

theorem aggRow_blk (c : Dev nD) (t : Fin cfg2.N) (r : Fin 1024) (n : Fin 2048) (hn : n.val = t.val * 1024 + r.val) :
    aggRow (aggBlk V c t) (statBlk V c t) r = aggNode V c n := by
  funext j
  unfold aggNode
  show Spec.aggMsg (aggBlk V c t (ix3 (0 : Fin 2) r j) + aggBlk V c t (ix3 (1 : Fin 2) r j)) (statBlk V c t (ix2 r (0 : Fin 3))) = _
  rw [show aggBlk V c t (ix3 (0 : Fin 2) r j) = aggArr V c (ix3 (0 : Fin 2) n j) from iblk1_apply V c t _ _ rfl hn rfl,
    show aggBlk V c t (ix3 (1 : Fin 2) r j) = aggArr V c (ix3 (1 : Fin 2) n j) from iblk1_apply V c t _ _ rfl hn rfl,
    show statBlk V c t (ix2 r (0 : Fin 3)) = statArr V c (ix2 n (0 : Fin 3)) from iblk2_apply V c t _ _ hn rfl]

theorem flushed11_eq (c : Dev nD) (t : Fin cfg2.N) :
    (dat2 V c).flushed 11 t = ((cfg2.win 11).blk t).view.read (Elt Ideal) (G11 V c) := by
  show (cfg2.win 11).cut (grid2.coords t) ((dat2 V c).after 11 t) = _
  rw [after2_11]
  obtain ⟨-, -, -, -, -, -, -, e0, e1, -⟩ := idx_facts t
  funext j
  obtain ⟨r, h, rfl⟩ : ∃ (r : Fin 1024) (h : Fin 128), j = ix2 r h := ⟨j 0, j 1, eq_ix2 j⟩
  have hN : grid2.N = 2 := N_2
  have ht : t.val < 2 := hN ▸ t.isLt
  let n : Fin 2048 := ⟨t.val * 1024 + r.val, by have := r.isLt; omega⟩
  have hemb : ((cfg2.win 11).blk t).view.emb (ix2 r h) = ix2 n h := funext fun a => Fin.ext (by
    match a with
    | ⟨0, _⟩ => show win2_11.index t 0 * 1024 + 1 * r.val = t.val * 1024 + r.val; rw [e0]; omega
    | ⟨1, _⟩ => show win2_11.index t 1 * 128 + 1 * h.val = h.val; rw [e1]; omega)
  show out2_11 (iblk2 V c 0 t) (iblk2 V c 1 t) (iblk2 V c 2 t) (iblk2 V c 3 t) (iblk2 V c 4 t) (iblk2 V c 5 t) (iblk2 V c 6 t) (ix2 r h)
    = G11 V c (((cfg2.win 11).blk t).view.emb (ix2 r h))
  rw [hemb]
  refine (out11_apply (iblk2 V c 0 t) (iblk2 V c 1 t) (iblk2 V c 2 t) (iblk2 V c 3 t) (iblk2 V c 4 t) (iblk2 V c 5 t) (iblk2 V c 6 t) r h).trans ?_
  show _ = newMu V c n h
  unfold newMu
  refine muNew_congr ?_ ?_ ?_ ?_ ?_ ?_ rfl
  · exact iblk0_apply V c t (ix2 r h) (ix2 n h) rfl rfl
  · exact aggRow_blk V c t r n rfl
  · exact funext fun j => funext fun k => congrFun (iblk3_eq V c t) (ix2 j k)
  · exact funext fun k => congrFun (iblk4_eq V c t) (ix1 k)
  · exact funext fun k => funext fun o => congrFun (iblk5_eq V c t) (ix2 k o)
  · exact funext fun o => congrFun (iblk6_eq V c t) (ix1 o)

theorem flushed12_eq (c : Dev nD) (t : Fin cfg2.N) :
    (dat2 V c).flushed 12 t = ((cfg2.win 12).blk t).view.read (Elt Ideal) (G12 V c) := by
  show (cfg2.win 12).cut (grid2.coords t) ((dat2 V c).after 12 t) = _
  rw [after2_12]
  obtain ⟨-, -, -, -, -, -, -, -, -, e0, e1⟩ := idx_facts t
  funext j
  obtain ⟨r, h, rfl⟩ : ∃ (r : Fin 1024) (h : Fin 128), j = ix2 r h := ⟨j 0, j 1, eq_ix2 j⟩
  have hN : grid2.N = 2 := N_2
  have ht : t.val < 2 := hN ▸ t.isLt
  let n : Fin 2048 := ⟨t.val * 1024 + r.val, by have := r.isLt; omega⟩
  have hemb : ((cfg2.win 12).blk t).view.emb (ix2 r h) = ix2 n h := funext fun a => Fin.ext (by
    match a with
    | ⟨0, _⟩ => show win2_12.index t 0 * 1024 + 1 * r.val = t.val * 1024 + r.val; rw [e0]; omega
    | ⟨1, _⟩ => show win2_12.index t 1 * 128 + 1 * h.val = h.val; rw [e1]; omega)
  show out2_12 (iblk2 V c 1 t) (iblk2 V c 2 t) (iblk2 V c 7 t) (iblk2 V c 8 t) (iblk2 V c 9 t) (iblk2 V c 10 t) (ix2 r h)
    = G12 V c (((cfg2.win 12).blk t).view.emb (ix2 r h))
  rw [hemb]
  refine (out12_apply (iblk2 V c 1 t) (iblk2 V c 2 t) (iblk2 V c 7 t) (iblk2 V c 8 t) (iblk2 V c 9 t) (iblk2 V c 10 t) r h).trans ?_
  show _ = newSig V c n h
  unfold newSig
  refine sigNew_congr ?_ ?_ ?_ ?_ ?_ ?_ rfl
  · exact aggRow_blk V c t r n rfl
  · exact congrArg₂ Spec.meanRes (iblk2_apply V c t (ix2 r (1 : Fin 3)) (ix2 n (1 : Fin 3)) rfl rfl)
      (iblk2_apply V c t (ix2 r (2 : Fin 3)) (ix2 n (2 : Fin 3)) rfl rfl)
  · exact funext fun j => funext fun k => congrFun (iblk7_eq V c t) (ix2 j k)
  · exact funext fun k => congrFun (iblk8_eq V c t) (ix1 k)
  · exact funext fun k => funext fun o => congrFun (iblk9_eq V c t) (ix2 k o)
  · exact funext fun o => congrFun (iblk10_eq V c t) (ix1 o)

theorem mem_blk11 (t : Fin cfg2.N) (i : S2048x128.Idx) :
    i ∈ ((cfg2.win 11).blk t).view.set ↔ ∀ a : Fin 2, win2_11.index t a * S1024x128.size a ≤ (i a).val ∧ (i a).val < win2_11.index t a * S1024x128.size a + S1024x128.size a := by
  show i ∈ ((View.whole main_v84_0).slice (win2_11.rect t)).set ↔ _
  rw [View.set_slice_whole, Rect.mem_set_unit]
  exact Iff.rfl
theorem mem_blk12 (t : Fin cfg2.N) (i : S2048x128.Idx) :
    i ∈ ((cfg2.win 12).blk t).view.set ↔ ∀ a : Fin 2, win2_12.index t a * S1024x128.size a ≤ (i a).val ∧ (i a).val < win2_12.index t a * S1024x128.size a + S1024x128.size a := by
  show i ∈ ((View.whole main_v84_1).slice (win2_12.rect t)).set ↔ _
  rw [View.set_slice_whole, Rect.mem_set_unit]
  exact Iff.rfl

theorem cover11 (i : S2048x128.Idx) : ∃ t : Fin cfg2.N, (cfg2.win 11).flush t = true ∧ i ∈ ((cfg2.win 11).blk t).view.set := by
  have hi0 : (i 0).val < 2048 := (i 0).isLt
  have hi1 : (i 1).val < 128 := (i 1).isLt
  have hN : grid2.N = 2 := N_2
  refine ⟨⟨(i 0).val / 1024, by show _ < grid2.N; rw [hN]; omega⟩, flush2_11 _, ?_⟩
  rw [mem_blk11]
  obtain ⟨-, -, -, -, -, -, -, e0, e1, -⟩ := idx_facts ⟨(i 0).val / 1024, by show _ < grid2.N; rw [hN]; omega⟩
  intro a
  match a with
  | ⟨0, _⟩ =>
    show win2_11.index _ 0 * 1024 ≤ (i 0).val ∧ (i 0).val < win2_11.index _ 0 * 1024 + 1024
    rw [e0]; show (i 0).val / 1024 * 1024 ≤ (i 0).val ∧ (i 0).val < (i 0).val / 1024 * 1024 + 1024; omega
  | ⟨1, _⟩ =>
    show win2_11.index _ 1 * 128 ≤ (i 1).val ∧ (i 1).val < win2_11.index _ 1 * 128 + 128
    rw [e1]; omega
theorem cover12 (i : S2048x128.Idx) : ∃ t : Fin cfg2.N, (cfg2.win 12).flush t = true ∧ i ∈ ((cfg2.win 12).blk t).view.set := by
  have hi0 : (i 0).val < 2048 := (i 0).isLt
  have hi1 : (i 1).val < 128 := (i 1).isLt
  have hN : grid2.N = 2 := N_2
  refine ⟨⟨(i 0).val / 1024, by show _ < grid2.N; rw [hN]; omega⟩, flush2_12 _, ?_⟩
  rw [mem_blk12]
  obtain ⟨-, -, -, -, -, -, -, -, -, e0, e1⟩ := idx_facts ⟨(i 0).val / 1024, by show _ < grid2.N; rw [hN]; omega⟩
  intro a
  match a with
  | ⟨0, _⟩ =>
    show win2_12.index _ 0 * 1024 ≤ (i 0).val ∧ (i 0).val < win2_12.index _ 0 * 1024 + 1024
    rw [e0]; show (i 0).val / 1024 * 1024 ≤ (i 0).val ∧ (i 0).val < (i 0).val / 1024 * 1024 + 1024; omega
  | ⟨1, _⟩ =>
    show win2_12.index _ 1 * 128 ≤ (i 1).val ∧ (i 1).val < win2_12.index _ 1 * 128 + 128
    rw [e1]; omega

theorem final11 (c : Dev nD) : (dat2 V c).arrAt 11 cfg2.N = G11 V c :=
  (dat2 V c).arrAt_eq_of_cover 11 (G11 V c) (fun t _ => flushed11_eq V c t) cover11
theorem final12 (c : Dev nD) : (dat2 V c).arrAt 12 cfg2.N = G12 V c :=
  (dat2 V c).arrAt_eq_of_cover 12 (G12 V c) (fun t _ => flushed12_eq V c t) cover12

theorem newMu_at (c : Dev nD) (n : Fin 2048) (h : Fin 128) :
    ((dat2 V c).arrAt 11 cfg2.N : Vec Ideal S2048x128 .f32) (ix2 n h) = newMu V c n h :=
  congrFun (final11 V c) (ix2 n h)
theorem newSig_at (c : Dev nD) (n : Fin 2048) (h : Fin 128) :
    ((dat2 V c).arrAt 12 cfg2.N : Vec Ideal S2048x128 .f32) (ix2 n h) = newSig V c n h :=
  congrFun (final12 V c) (ix2 n h)

end Arrays

end Cert.KernelIdeal.R2

end
-- ==== Proof.KNode.lean ====
import proofs.«418543_j27023934227041_3_alg».proof.Proof.KIFrame
import proofs.«418543_j27023934227041_3_alg».proof.Proof.KHost
import proofs.«418543_j27023934227041_3_alg».proof.Proof.Region2Value

set_option maxRecDepth 16384

noncomputable section

namespace Cert.Assembly

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev bias12 : FVec Ideal S128 .f32 := m ((c : Thread nD τ).loc main_arg12)
abbrev bias14 : FVec Ideal S128 .f32 := m ((c : Thread nD τ).loc main_arg14)
abbrev bias16 : FVec Ideal S128 .f32 := m ((c : Thread nD τ).loc main_arg16)
abbrev bias18 : FVec Ideal S128 .f32 := m ((c : Thread nD τ).loc main_arg18)

section AnyOuts

variable (outs : Outs (F := Ideal))

abbrev VE : (c : Dev nD) → (b : Ref sig .tc) → Buf (Elt Ideal) ((c : Thread nD τ).loc b) := fun c b => V7 m outs c b

abbrev aggIn : FVec Ideal S2x2048x128 .f32 := V7 m outs c main_v79

theorem bias12_eq : (V7 m outs c main_arg12 : FVec Ideal S128 .f32) = bias12 m c :=
  Host.V7_launch m outs c main_arg12 (by decide) (by decide) (by decide) (by decide) (by decide) (by decide) (by decide)
theorem bias14_eq : (V7 m outs c main_arg14 : FVec Ideal S128 .f32) = bias14 m c :=
  Host.V7_launch m outs c main_arg14 (by decide) (by decide) (by decide) (by decide) (by decide) (by decide) (by decide)
theorem bias16_eq : (V7 m outs c main_arg16 : FVec Ideal S128 .f32) = bias16 m c :=
  Host.V7_launch m outs c main_arg16 (by decide) (by decide) (by decide) (by decide) (by decide) (by decide) (by decide)
theorem bias18_eq : (V7 m outs c main_arg18 : FVec Ideal S128 .f32) = bias18 m c :=
  Host.V7_launch m outs c main_arg18 (by decide) (by decide) (by decide) (by decide) (by decide) (by decide) (by decide)

theorem stat0 (n : Fin 2048) : (V7 m outs c main_v72 : FVec Ideal S2048x3 .f32) (ix2 n (0 : Fin 3))
    = Host.wsumOf (Host.dstV m c) (Host.resV m outs c) (ix2 n (0 : Fin 1)) := by
  rw [Host.V7_v72 m outs c]; exact Host.V5_v72_apply_0 m outs c n
theorem stat1 (n : Fin 2048) : (V7 m outs c main_v72 : FVec Ideal S2048x3 .f32) (ix2 n (1 : Fin 3))
    = Host.rsumOf (Host.dstV m c) (Host.resV m outs c) (ix2 n (0 : Fin 1)) := by
  rw [Host.V7_v72 m outs c]; exact Host.V5_v72_apply_1 m outs c n
theorem stat2 (n : Fin 2048) : (V7 m outs c main_v72 : FVec Ideal S2048x3 .f32) (ix2 n (2 : Fin 3))
    = Host.cntOf (Host.dstV m c) (ix2 n (0 : Fin 1)) := by
  rw [Host.V7_v72 m outs c]; exact Host.V5_v72_apply_2 m outs c n

variable (AGG : Fin 2048 → Fin 128 → EReal)
  (hagg : ∀ (n : Fin 2048) (j : Fin 128),
    aggIn m c outs (ix3 (0 : Fin 2) n j) + aggIn m c outs (ix3 (1 : Fin 2) n j) = AGG n j)

include hagg in
theorem aggNode_read (n : Fin 2048) :
    R2.aggNode (VE m outs) c n
      = fun j => Spec.aggMsg (AGG n j) (Host.wsumOf (Host.dstV m c) (Host.resV m outs c) (ix2 n (0 : Fin 1))) := by
  funext j
  unfold R2.aggNode
  exact congrArg₂ Spec.aggMsg (hagg n j) (stat0 m c outs n)

include hagg in
theorem newMu_read (n : Fin 2048) (h : Fin 128) :
    R2.newMu (VE m outs) c n h
      = Spec.muNew (Host.x0 m c (ix2 n h))
          (fun j => Spec.aggMsg (AGG n j) (Host.wsumOf (Host.dstV m c) (Host.resV m outs c) (ix2 n (0 : Fin 1))))
          (fun j k => Host.x11 m c (ix2 j k)) (fun k => bias12 m c (ix1 k))
          (fun k o => Host.x13 m c (ix2 k o)) (fun o => bias14 m c (ix1 o)) h := by
  unfold R2.newMu
  refine R2.muNew_congr ?_ ?_ ?_ ?_ ?_ ?_ rfl
  · exact congrFun (Host.V7_arg0 m outs c) (ix2 n h)
  · exact aggNode_read m c outs AGG hagg n
  · exact funext fun j => funext fun k => congrFun (Host.V7_v80 m outs c) (ix2 j k)
  · exact funext fun k => congrFun (bias12_eq m c outs) (ix1 k)
  · exact funext fun k => funext fun o => congrFun (Host.V7_v81 m outs c) (ix2 k o)
  · exact funext fun o => congrFun (bias14_eq m c outs) (ix1 o)

include hagg in
theorem newSig_read (n : Fin 2048) (h : Fin 128) :
    R2.newSig (VE m outs) c n h
      = Spec.sigNew (fun j => Spec.aggMsg (AGG n j) (Host.wsumOf (Host.dstV m c) (Host.resV m outs c) (ix2 n (0 : Fin 1))))
          (Spec.meanRes (Host.rsumOf (Host.dstV m c) (Host.resV m outs c) (ix2 n (0 : Fin 1))) (Host.cntOf (Host.dstV m c) (ix2 n (0 : Fin 1))))
          (fun j k => Host.x15 m c (ix2 j k)) (fun k => bias16 m c (ix1 k))
          (fun k o => Host.x17 m c (ix2 k o)) (fun o => bias18 m c (ix1 o)) h := by
  unfold R2.newSig
  refine R2.sigNew_congr ?_ ?_ ?_ ?_ ?_ ?_ rfl
  · exact aggNode_read m c outs AGG hagg n
  · exact congrArg₂ Spec.meanRes (stat1 m c outs n) (stat2 m c outs n)
  · exact funext fun j => funext fun k => congrFun (Host.V7_v82 m outs c) (ix2 j k)
  · exact funext fun k => congrFun (bias16_eq m c outs) (ix1 k)
  · exact funext fun k => funext fun o => congrFun (Host.V7_v83 m outs c) (ix2 k o)
  · exact funext fun o => congrFun (bias18_eq m c outs) (ix1 o)

end AnyOuts

abbrev wsumN (n : Fin 2048) : EReal := Host.wsumOf (Host.dstV m c) (Host.resV m (Hand.outs m) c) (ix2 n (0 : Fin 1))
abbrev rsumN (n : Fin 2048) : EReal := Host.rsumOf (Host.dstV m c) (Host.resV m (Hand.outs m) c) (ix2 n (0 : Fin 1))
abbrev cntN (n : Fin 2048) : EReal := Host.cntOf (Host.dstV m c) (ix2 n (0 : Fin 1))

variable (AGG : Fin 2048 → Fin 128 → EReal)
  (hagg : ∀ (n : Fin 2048) (j : Fin 128),
    aggIn m c (Hand.outs m) (ix3 (0 : Fin 2) n j) + aggIn m c (Hand.outs m) (ix3 (1 : Fin 2) n j) = AGG n j)

include hagg in
theorem node_mu (n : Fin 2048) (h : Fin 128) :
    (V8 m (Hand.outs m) c main_v84_0 : FVec Ideal S2048x128 .f32) (ix2 n h)
      = Spec.muNew (Host.x0 m c (ix2 n h)) (fun j => Spec.aggMsg (AGG n j) (wsumN m c n))
          (fun j k => Host.x11 m c (ix2 j k)) (fun k => bias12 m c (ix1 k))
          (fun k o => Host.x13 m c (ix2 k o)) (fun o => bias14 m c (ix1 o)) h := by
  refine (congrFun ((Hand.V8_out0 m (Hand.outs m) c).trans (Hand.outs_84_0 m c)) (ix2 n h)).trans ?_
  exact (R2.newMu_at (Hand.VR7 m (Hand.outs m)) c n h).trans (newMu_read m c (Hand.outs m) AGG hagg n h)

include hagg in
theorem node_sig (n : Fin 2048) (h : Fin 128) :
    (V8 m (Hand.outs m) c main_v84_1 : FVec Ideal S2048x128 .f32) (ix2 n h)
      = Spec.sigNew (fun j => Spec.aggMsg (AGG n j) (wsumN m c n)) (Spec.meanRes (rsumN m c n) (cntN m c n))
          (fun j k => Host.x15 m c (ix2 j k)) (fun k => bias16 m c (ix1 k))
          (fun k o => Host.x17 m c (ix2 k o)) (fun o => bias18 m c (ix1 o)) h := by
  refine (congrFun ((Hand.V8_out1 m (Hand.outs m) c).trans (Hand.outs_84_1 m c)) (ix2 n h)).trans ?_
  exact (R2.newSig_at (Hand.VR7 m (Hand.outs m)) c n h).trans (newSig_read m c (Hand.outs m) AGG hagg n h)

end Cert.Assembly

end
-- ==== Proof.Pay1.lean ====
import proofs.«418543_j27023934227041_3_alg».proof.Proof.Gen.KernelIdeal.Skeleton
import proofs.«418543_j27023934227041_3_alg».proof.Proof.GraphLaws
import proofs.«418543_j27023934227041_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Pay1

open Idealize.ShloMosaic Idealize.ShloMosaic.ValueIdx Cert.KernelIdeal Cert.KernelIdeal.Gen
open scoped BigOperators

theorem matmul_plain {M K N : Nat} {φ₁ φ₂ : FTy} (d : DotDims (⟨2, ![M, K]⟩ : Shape) ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) := by
  refine (Ideal.matmul_constant_zero_apply d none l r (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

theorem mm_gather (l : FVec Ideal S1024x2048 .bf16) (r : FVec Ideal S2048x256 .bf16) (p : Fin 1024) (q : Fin 256) :
    matmul dot_S1024x2048_S2048x256_S1024x256_1_0_0_1_n_n none l r (constant S1024x256 .f32 0x00000000#32) (ix2 p q) = ∑ k : Fin 2048, l (ix2 p k) * r (ix2 k q) :=
  matmul_plain dot_S1024x2048_S2048x256_S1024x256_1_0_0_1_n_n rfl rfl
    (fun i q => by
      unfold DotDims.lhsIdx
      rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
      rfl)
    (fun i q => dot_S1024x2048_S2048x256_S1024x256_1_0_0_1_n_n.lhsIdx_val_of_single rfl i q)
    (fun i q => dot_S1024x2048_S2048x256_S1024x256_1_0_0_1_n_n.rhsIdx_val_of_single rfl i q)
    (fun i q => by
      unfold DotDims.rhsIdx
      rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
      rfl)
    l r p q

theorem mm_hidden (l : FVec Ideal S1024x260 .bf16) (r : FVec Ideal S260x128 .bf16) (p : Fin 1024) (q : Fin 128) :
    matmul dot_S1024x260_S260x128_S1024x128_1_0_0_1_n_n none l r (constant S1024x128 .f32 0x00000000#32) (ix2 p q) = ∑ k : Fin 260, l (ix2 p k) * r (ix2 k q) :=
  matmul_plain dot_S1024x260_S260x128_S1024x128_1_0_0_1_n_n rfl rfl
    (fun i q => by
      unfold DotDims.lhsIdx
      rw [dif_neg (show ¬(0 : Fin S1024x260.rank) ∈ dot_S1024x260_S260x128_S1024x128_1_0_0_1_n_n.lhsBatch by decide), dif_pos (show (0 : Fin S1024x260.rank) ∈ dot_S1024x260_S260x128_S1024x128_1_0_0_1_n_n.lhsNonContracting by decide)]
      rfl)
    (fun i q => dot_S1024x260_S260x128_S1024x128_1_0_0_1_n_n.lhsIdx_val_of_single rfl i q)
    (fun i q => dot_S1024x260_S260x128_S1024x128_1_0_0_1_n_n.rhsIdx_val_of_single rfl i q)
    (fun i q => by
      unfold DotDims.rhsIdx
      rw [dif_neg (show ¬(1 : Fin S260x128.rank) ∈ dot_S1024x260_S260x128_S1024x128_1_0_0_1_n_n.rhsBatch by decide), dif_pos (show (1 : Fin S260x128.rank) ∈ dot_S1024x260_S260x128_S1024x128_1_0_0_1_n_n.rhsNonContracting by decide)]
      rfl)
    l r p q

theorem mm_msg (l : FVec Ideal S1024x128 .bf16) (r : FVec Ideal S128x128 .bf16) (p : Fin 1024) (q : Fin 128) :
    matmul dot_S1024x128_S128x128_S1024x128_1_0_0_1_n_n none l r (constant S1024x128 .f32 0x00000000#32) (ix2 p q) = ∑ k : Fin 128, l (ix2 p k) * r (ix2 k q) :=
  matmul_plain dot_S1024x128_S128x128_S1024x128_1_0_0_1_n_n rfl rfl
    (fun i q => by
      unfold DotDims.lhsIdx
      rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
      rfl)
    (fun i q => dot_S1024x128_S128x128_S1024x128_1_0_0_1_n_n.lhsIdx_val_of_single rfl i q)
    (fun i q => dot_S1024x128_S128x128_S1024x128_1_0_0_1_n_n.rhsIdx_val_of_single rfl i q)
    (fun i q => by
      unfold DotDims.rhsIdx
      rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
      rfl)
    l r p q

theorem mm_scatter (l : FVec Ideal S2048x1024 .bf16) (r : FVec Ideal S1024x128 .bf16) (p : Fin 2048) (q : Fin 128) :
    matmul dot_S2048x1024_S1024x128_S2048x128_1_0_0_1_n_n none l r (constant S2048x128 .f32 0x00000000#32) (ix2 p q) = ∑ k : Fin 1024, l (ix2 p k) * r (ix2 k q) :=
  matmul_plain dot_S2048x1024_S1024x128_S2048x128_1_0_0_1_n_n rfl rfl
    (fun i q => by
      unfold DotDims.lhsIdx
      rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
      rfl)
    (fun i q => dot_S2048x1024_S1024x128_S2048x128_1_0_0_1_n_n.lhsIdx_val_of_single rfl i q)
    (fun i q => dot_S2048x1024_S1024x128_S2048x128_1_0_0_1_n_n.rhsIdx_val_of_single rfl i q)
    (fun i q => by
      unfold DotDims.rhsIdx
      rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
      rfl)
    l r p q

theorem oneHot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · subst h; simp [IntOp.cmpi]
  · rw [if_neg h]; simp [IntOp.cmpi, h]

theorem toNat_of_range {s : BitVec 32} (h0 : 0 ≤ s.toInt) (h1 : s.toInt < 2048) :
    s.toNat < 2048 ∧ s.toInt = (s.toNat : ℤ) := by
  have hc := BitVec.toInt_eq_toNat_cond s
  have hlt := s.isLt
  split at hc <;> omega

theorem node_val {s : BitVec 32} (h0 : 0 ≤ s.toInt) (h1 : s.toInt < 2048) : (Cert.Spec.node s).val = s.toNat := by
  obtain ⟨hN, hI⟩ := toNat_of_range h0 h1
  show min s.toInt.toNat 2047 = s.toNat
  rw [hI, Int.toNat_natCast]
  exact Nat.min_eq_left (by omega)

theorem eq_ofNat_iff_node {s : BitVec 32} (h0 : 0 ≤ s.toInt) (h1 : s.toInt < 2048) (n : Fin 2048) :
    s = BitVec.ofNat 32 n.val ↔ n = Cert.Spec.node s := by
  have hv := node_val h0 h1
  have hN := (toNat_of_range h0 h1).1
  constructor
  · intro e
    apply Fin.ext
    rw [hv, e, BitVec.toNat_ofNat]
    exact (Nat.mod_eq_of_lt (by have := n.isLt; omega)).symm
  · intro e
    apply BitVec.eq_of_toNat_eq
    rw [BitVec.toNat_ofNat, e, hv]
    exact (Nat.mod_eq_of_lt (by omega)).symm

theorem ofNat_eq_iff_node {s : BitVec 32} (h0 : 0 ≤ s.toInt) (h1 : s.toInt < 2048) (n : Fin 2048) :
    BitVec.ofNat 32 n.val = s ↔ Cert.Spec.node s = n :=
  ⟨fun e => ((eq_ofNat_iff_node h0 h1 n).mp e.symm).symm, fun e => ((eq_ofNat_iff_node h0 h1 n).mpr e.symm).symm⟩

theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem targetHot_apply (vd : Vec Ideal S1x1024 .i32) (n : Fin 2048) (i : Fin 1024) :
    k1_pay5 (F := Ideal) vd (ix2 n i) = if BitVec.ofNat 32 n.val = vd (ix2 (0 : Fin 1) i) then 1 else 0 := by
  unfold k1_pay5
  refine (oneHot_entry _ _).trans ?_
  have e1 : iota .tc S2048x1024 32 [0] iota_S2048x1024_d0_w32 (ix2 n i) = BitVec.ofNat 32 n.val :=
    iota_single_apply .tc S2048x1024 32 0 iota_S2048x1024_d0_w32 (ix2 n i)
  have e2 : broadcastTo S2048x1024 (shapeCast S1x1024 (shapeCast S1024 vd shapeCasts_S1x1024_S1024) shapeCasts_S1024_S1x1024)
      broadcasts_S1x1024_S2048x1024 (ix2 n i) = vd (ix2 (0 : Fin 1) i) := by
    rw [broadcastTo_1b_ab_apply, shapeCast_shapeCast]
  rw [e1, e2]

def srcHot (vs : Vec Ideal S1x1024 .i32) : FVec Ideal S1024x2048 .bf16 :=
  truncf .bf16 (sitofp .f32 (extui 32 (cmpi .eq
    (broadcastTo S1024x2048 (shapeCast S1024x1 (shapeCast S1024 vs shapeCasts_S1x1024_S1024) shapeCasts_S1024_S1024x1)
      broadcasts_S1024x1_S1024x2048)
    (iota .tc S1024x2048 32 [1] iota_S1024x2048_d1_w32)) natLt_1_32)) bitsLt_bf16_f32

theorem srcHot_apply (vs : Vec Ideal S1x1024 .i32) (i : Fin 1024) (n : Fin 2048) :
    srcHot vs (ix2 i n) = if vs (ix2 (0 : Fin 1) i) = BitVec.ofNat 32 n.val then 1 else 0 := by
  unfold srcHot
  refine (oneHot_entry _ _).trans ?_
  have e1 : iota .tc S1024x2048 32 [1] iota_S1024x2048_d1_w32 (ix2 i n) = BitVec.ofNat 32 n.val :=
    iota_single_apply .tc S1024x2048 32 1 iota_S1024x2048_d1_w32 (ix2 i n)
  have e2 : broadcastTo S1024x2048 (shapeCast S1024x1 (shapeCast S1024 vs shapeCasts_S1x1024_S1024) shapeCasts_S1024_S1024x1)
      broadcasts_S1024x1_S1024x2048 (ix2 i n) = vs (ix2 (0 : Fin 1) i) := by
    rw [broadcastTo_a1_ab_apply, shapeCast_a_a1_apply, shapeCast_1a_a_apply]
  rw [e1, e2]

theorem weightCol_apply (x1 : Vec Ideal S1024x5 .f32) (i : Fin 1024) :
    k1_pay4 (F := Ideal) x1 (ix2 i (0 : Fin 1)) = x1 (ix2 i (4 : Fin 5)) := by
  unfold k1_pay4 k1_pay3
  refine (extractStridedSlice_apply _ _ _ (ix2 i (0 : Fin 1)) (ix2 i (4 : Fin 5)) (fun a => ?_)).trans ?_
  · match a with
    | ⟨0, _⟩ => show i.val = 0 + i.val; omega
    | ⟨1, _⟩ => rfl
  · exact congrFun (shapeCast_self x1 _) _

theorem pay2_apply (i : S1x2048x128.Idx) : k1_pay2 (F := Ideal) i = 0 := by
  unfold k1_pay2
  exact Ideal.ofBits_zero_f32

section Edge

variable (vs : Vec Ideal S1x1024 .i32) (x1 : Vec Ideal S1024x5 .f32) (x2 : Vec Ideal S2048x256 .bf16)
  (x3 : Vec Ideal S260x128 .bf16) (x4 : Vec Ideal S128 .f32)

def gathered : FVec Ideal S1024x256 .f32 :=
  matmul dot_S1024x2048_S2048x256_S1024x256_1_0_0_1_n_n none (srcHot vs)
    (shapeCast S2048x256 x2 shapeCasts_S2048x256_S2048x256 : FVec Ideal S2048x256 .bf16) (constant S1024x256 .f32 0x00000000#32)

theorem gathered_apply (i : Fin 1024) (c : Fin 256)
    (h0 : 0 ≤ (vs (ix2 (0 : Fin 1) i)).toInt) (h1 : (vs (ix2 (0 : Fin 1) i)).toInt < 2048) :
    gathered vs x2 (ix2 i c) = x2 (ix2 (Cert.Spec.node (vs (ix2 (0 : Fin 1) i))) c) := by
  unfold gathered
  rw [mm_gather, shapeCast_self]
  refine (Finset.sum_congr rfl fun n _ => by rw [srcHot_apply]).trans ?_
  exact Cert.Spec.sum_onehot_mul (Cert.Spec.node (vs (ix2 (0 : Fin 1) i))) (fun n => eq_ofNat_iff_node h0 h1 n)
    (fun n : Fin 2048 => x2 (ix2 n c))

def msgIn : FVec Ideal S1024x260 .f32 :=
  concatenate S1024x260 1
    [⟨S1024x128, extractStridedSlice S1024x128 ![0, 0] (gathered vs x2) slices_S1024x256_o0_0_S1024x128⟩,
     ⟨S1024x128, extractStridedSlice S1024x128 ![0, 128] (gathered vs x2) slices_S1024x256_o0_128_S1024x128⟩,
     ⟨S1024x4, extractStridedSlice S1024x4 ![0, 0] (k1_pay3 (F := Ideal) x1) slices_S1024x5_o0_0_S1024x4⟩]
    concatenates_S1024x128_S1024x128_S1024x4_S1024x260_d1

def muRow (i : Fin 1024) (j : Fin 128) : EReal :=
  x2 (ix2 (Cert.Spec.node (vs (ix2 (0 : Fin 1) i))) (⟨j.val, Nat.lt_of_lt_of_le j.isLt (by decide)⟩ : Fin 256))
def sgRow (i : Fin 1024) (j : Fin 128) : EReal :=
  x2 (ix2 (Cert.Spec.node (vs (ix2 (0 : Fin 1) i))) (⟨128 + j.val, Nat.add_lt_add_left j.isLt 128⟩ : Fin 256))
def feat4 (i : Fin 1024) (f : Fin 4) : EReal :=
  x1 (ix2 i (⟨f.val, Nat.lt_of_lt_of_le f.isLt (by decide)⟩ : Fin 5))

theorem msgIn_apply (i : Fin 1024) (j : Fin 260)
    (h0 : 0 ≤ (vs (ix2 (0 : Fin 1) i)).toInt) (h1 : (vs (ix2 (0 : Fin 1) i)).toInt < 2048) :
    msgIn vs x1 x2 (ix2 i j) = Cert.Spec.msgInput (muRow vs x2 i) (sgRow vs x2 i) (feat4 x1 i) j := by
  unfold Cert.Spec.msgInput
  by_cases hj : j.val < 128
  · rw [dif_pos hj]
    refine (concatenate_apply_piece (1 : Fin S1024x260.rank) [⟨S1024x128, _⟩, ⟨S1024x128, _⟩, ⟨S1024x4, _⟩] concatenates_S1024x128_S1024x128_S1024x4_S1024x260_d1
      (ix2 i j) 0 (by simp) S1024x128 _ rfl rfl 0 rfl (ix2 i (⟨j.val, hj⟩ : Fin 128)) (fun b hb => ?_) ?_).trans ?_
    · match b with
      | ⟨0, _⟩ => rfl
      | ⟨1, _⟩ => exact absurd (Fin.ext rfl) hb
    · exact Nat.zero_add _
    · rw [slice2_axis1_eq, gathered_apply vs x2 i _ h0 h1]
      unfold muRow
      exact congrArg (fun c => x2 (ix2 _ c)) (Fin.ext (Nat.zero_add _))
  · rw [dif_neg hj]
    by_cases hj2 : j.val < 256
    · rw [dif_pos hj2]
      refine (concatenate_apply_piece (1 : Fin S1024x260.rank) [⟨S1024x128, _⟩, ⟨S1024x128, _⟩, ⟨S1024x4, _⟩] concatenates_S1024x128_S1024x128_S1024x4_S1024x260_d1
        (ix2 i j) 1 (by simp) S1024x128 _ rfl rfl 128 rfl (ix2 i (⟨j.val - 128, by omega⟩ : Fin 128)) (fun b hb => ?_) ?_).trans ?_
      · match b with
        | ⟨0, _⟩ => rfl
        | ⟨1, _⟩ => exact absurd (Fin.ext rfl) hb
      · show 128 + (j.val - 128) = j.val
        omega
      · rw [slice2_axis1_eq, gathered_apply vs x2 i _ h0 h1]
        rfl
    · rw [dif_neg hj2]
      refine (concatenate_apply_piece (1 : Fin S1024x260.rank) [⟨S1024x128, _⟩, ⟨S1024x128, _⟩, ⟨S1024x4, _⟩] concatenates_S1024x128_S1024x128_S1024x4_S1024x260_d1
        (ix2 i j) 2 (by simp) S1024x4 _ rfl rfl 256 rfl (ix2 i (⟨j.val - 256, by have := j.isLt; omega⟩ : Fin 4)) (fun b hb => ?_) ?_).trans ?_
      · match b with
        | ⟨0, _⟩ => rfl
        | ⟨1, _⟩ => exact absurd (Fin.ext rfl) hb
      · show 256 + (j.val - 256) = j.val
        omega
      · rw [slice2_axis1_eq]
        unfold k1_pay3 feat4
        rw [shapeCast_self]
        exact congrArg (fun c => x1 (ix2 i c)) (Fin.ext (Nat.zero_add _))

theorem pay6_eq : k1_pay6 (F := Ideal) vs x1 x2 x3 x4
    = maximumf (addf (matmul dot_S1024x260_S260x128_S1024x128_1_0_0_1_n_n none
          (truncf .bf16 (msgIn vs x1 x2) bitsLt_bf16_f32) (shapeCast S260x128 x3 shapeCasts_S260x128_S260x128 : FVec Ideal S260x128 .bf16)
          (constant S1024x128 .f32 0x00000000#32))
        (broadcastTo S1024x128 (shapeCast S1x128 x4 shapeCasts_S128_S1x128) broadcasts_S1x128_S1024x128))
      (broadcast S1024x128 (Scalar.ofBits (F := Ideal) .f32 0x00000000#32)) := rfl

theorem pay6_apply (i : Fin 1024) (k : Fin 128)
    (h0 : 0 ≤ (vs (ix2 (0 : Fin 1) i)).toInt) (h1 : (vs (ix2 (0 : Fin 1) i)).toInt < 2048) :
    k1_pay6 (F := Ideal) vs x1 x2 x3 x4 (ix2 i k)
      = max (Cert.Spec.layer (Cert.Spec.msgInput (muRow vs x2 i) (sgRow vs x2 i) (feat4 x1 i))
          (fun j k' => x3 (ix2 j k')) (fun k' => x4 (ix1 k')) k) 0 := by
  rw [pay6_eq]
  show max (matmul dot_S1024x260_S260x128_S1024x128_1_0_0_1_n_n none
          (truncf .bf16 (msgIn vs x1 x2) bitsLt_bf16_f32) (shapeCast S260x128 x3 shapeCasts_S260x128_S260x128 : FVec Ideal S260x128 .bf16)
          (constant S1024x128 .f32 0x00000000#32) (ix2 i k)
        + broadcastTo S1024x128 (shapeCast S1x128 x4 shapeCasts_S128_S1x128) broadcasts_S1x128_S1024x128 (ix2 i k))
      (Ideal.ofBits .f32 0x00000000#32) = _
  rw [mm_hidden, broadcastTo_1b_ab_apply, shapeCast_a_1a_apply, Ideal.ofBits_zero_f32, shapeCast_self]
  unfold Cert.Spec.layer
  refine congrArg (fun z => max (z + x4 (ix1 k)) 0) (Finset.sum_congr rfl fun j _ => ?_)
  show msgIn vs x1 x2 (ix2 i j) * x3 (ix2 j k) = _
  rw [msgIn_apply vs x1 x2 i j h0 h1]

end Edge

theorem pay1_apply (v10 : FVec Ideal S1024x1 .f32) (v24 : FVec Ideal S2048x1024 .bf16) (v40 : FVec Ideal S1024x128 .f32)
    (v42 : Vec Ideal S128x128 .bf16) (v45 : Vec Ideal S128 .f32) (v53 : Vec Ideal S1x2048x128 .f32)
    (n : Fin 2048) (h : Fin 128) :
    k1_pay1 (F := Ideal) v10 v24 v40 v42 v45 v53 (ix3 (0 : Fin 1) n h)
      = v53 (ix3 (0 : Fin 1) n h)
        + ∑ i : Fin 1024, v24 (ix2 n i)
            * ((∑ k : Fin 128, v40 (ix2 i k) * v42 (ix2 k h) + v45 (ix1 h)) * v10 (ix2 i (0 : Fin 1))) := by
  unfold k1_pay1
  rw [shapeCast_self, shapeCast_self]
  show v53 (ix3 (0 : Fin 1) n h) + shapeCast S1x2048x128
      (matmul dot_S2048x1024_S1024x128_S2048x128_1_0_0_1_n_n none v24
        (truncf .bf16 (mulf (addf (matmul dot_S1024x128_S128x128_S1024x128_1_0_0_1_n_n none
            (truncf .bf16 v40 bitsLt_bf16_f32) v42 (constant S1024x128 .f32 0x00000000#32))
          (broadcastTo S1024x128 (shapeCast S1x128 v45 shapeCasts_S128_S1x128) broadcasts_S1x128_S1024x128))
          (broadcastTo S1024x128 v10 broadcasts_S1024x1_S1024x128)) bitsLt_bf16_f32)
        (constant S2048x128 .f32 0x00000000#32)) shapeCasts_S2048x128_S1x2048x128 (ix3 (0 : Fin 1) n h) = _
  rw [shapeCast_ab_1ab_apply, mm_scatter]
  refine congrArg (v53 (ix3 (0 : Fin 1) n h) + ·) (Finset.sum_congr rfl fun i _ => ?_)
  show v24 (ix2 n i) * ((matmul dot_S1024x128_S128x128_S1024x128_1_0_0_1_n_n none
        (truncf .bf16 v40 bitsLt_bf16_f32) v42 (constant S1024x128 .f32 0x00000000#32) (ix2 i h)
      + broadcastTo S1024x128 (shapeCast S1x128 v45 shapeCasts_S128_S1x128) broadcasts_S1x128_S1024x128 (ix2 i h))
      * broadcastTo S1024x128 v10 broadcasts_S1024x1_S1024x128 (ix2 i h)) = _
  rw [mm_msg, broadcastTo_1b_ab_apply, shapeCast_a_1a_apply, broadcastTo_a1_ab_apply]
  rfl

def edgeMsg (vs : Vec Ideal S1x1024 .i32) (x1 : Vec Ideal S1024x5 .f32) (x2 : Vec Ideal S2048x256 .bf16)
    (x3 : Vec Ideal S260x128 .bf16) (x4 : Vec Ideal S128 .f32) (x5 : Vec Ideal S128x128 .bf16) (x6 : Vec Ideal S128 .f32)
    (i : Fin 1024) (h : Fin 128) : EReal :=
  Cert.Spec.weightedMsg
    (fun j : Fin 128 => x2 (ix2 (Cert.Spec.node (vs (ix2 (0 : Fin 1) i))) (⟨j.val, Nat.lt_of_lt_of_le j.isLt (by decide)⟩ : Fin 256)))
    (fun j : Fin 128 => x2 (ix2 (Cert.Spec.node (vs (ix2 (0 : Fin 1) i))) (⟨128 + j.val, Nat.add_lt_add_left j.isLt 128⟩ : Fin 256)))
    (fun f : Fin 4 => x1 (ix2 i (⟨f.val, Nat.lt_of_lt_of_le f.isLt (by decide)⟩ : Fin 5)))
    (fun j k => x3 (ix2 j k)) (fun k => x4 (ix1 k)) (fun k h' => x5 (ix2 k h')) (fun h' => x6 (ix1 h'))
    (x1 (ix2 i (4 : Fin 5))) h

theorem edgeMsg_eq (vs : Vec Ideal S1x1024 .i32) (x1 : Vec Ideal S1024x5 .f32) (x2 : Vec Ideal S2048x256 .bf16)
    (x3 : Vec Ideal S260x128 .bf16) (x4 : Vec Ideal S128 .f32) (x5 : Vec Ideal S128x128 .bf16) (x6 : Vec Ideal S128 .f32)
    (i : Fin 1024) (h : Fin 128) :
    edgeMsg vs x1 x2 x3 x4 x5 x6 i h
      = Cert.Spec.weightedMsg (muRow vs x2 i) (sgRow vs x2 i) (feat4 x1 i) (fun j k => x3 (ix2 j k)) (fun k => x4 (ix1 k))
          (fun k h' => x5 (ix2 k h')) (fun h' => x6 (ix1 h')) (x1 (ix2 i (4 : Fin 5))) h := rfl

theorem scatter_step (vs vd : Vec Ideal S1x1024 .i32) (x1 : Vec Ideal S1024x5 .f32) (x2 : Vec Ideal S2048x256 .bf16)
    (x3 : Vec Ideal S260x128 .bf16) (x4 : Vec Ideal S128 .f32) (x5 : Vec Ideal S128x128 .bf16) (x6 : Vec Ideal S128 .f32)
    (xo : Vec Ideal S1x2048x128 .f32)
    (hs : ∀ i : Fin 1024, 0 ≤ (vs (ix2 (0 : Fin 1) i)).toInt ∧ (vs (ix2 (0 : Fin 1) i)).toInt < 2048)
    (hd : ∀ i : Fin 1024, 0 ≤ (vd (ix2 (0 : Fin 1) i)).toInt ∧ (vd (ix2 (0 : Fin 1) i)).toInt < 2048)
    (n : Fin 2048) (h : Fin 128) :
    k1_pay1 (F := Ideal) (k1_pay4 (F := Ideal) x1) (k1_pay5 (F := Ideal) vd) (k1_pay6 (F := Ideal) vs x1 x2 x3 x4) x5 x6 xo
        (ix3 (0 : Fin 1) n h)
      = xo (ix3 (0 : Fin 1) n h)
        + ∑ i : Fin 1024, (if Cert.Spec.node (vd (ix2 (0 : Fin 1) i)) = n then (1 : EReal) else 0)
            * edgeMsg vs x1 x2 x3 x4 x5 x6 i h := by
  rw [pay1_apply]
  refine congrArg (xo (ix3 (0 : Fin 1) n h) + ·) (Finset.sum_congr rfl fun i _ => ?_)
  rw [targetHot_apply, weightCol_apply, edgeMsg_eq]
  have hc : (if BitVec.ofNat 32 n.val = vd (ix2 (0 : Fin 1) i) then (1 : EReal) else 0)
      = if Cert.Spec.node (vd (ix2 (0 : Fin 1) i)) = n then (1 : EReal) else 0 := by
    by_cases e : Cert.Spec.node (vd (ix2 (0 : Fin 1) i)) = n
    · rw [if_pos e, if_pos ((ofNat_eq_iff_node (hd i).1 (hd i).2 n).mpr e)]
    · rw [if_neg e, if_neg fun e' => e ((ofNat_eq_iff_node (hd i).1 (hd i).2 n).mp e')]
  rw [hc]
  unfold Cert.Spec.weightedMsg Cert.Spec.mlp
  refine congrArg (fun z => (if Cert.Spec.node (vd (ix2 (0 : Fin 1) i)) = n then (1 : EReal) else 0) * (z * x1 (ix2 i (4 : Fin 5)))) ?_
  show ∑ k : Fin 128, k1_pay6 (F := Ideal) vs x1 x2 x3 x4 (ix2 i k) * x5 (ix2 k h) + x6 (ix1 h) = _
  unfold Cert.Spec.layer
  refine congrArg (· + x6 (ix1 h)) (Finset.sum_congr rfl fun k _ => ?_)
  rw [pay6_apply vs x1 x2 x3 x4 i k (hs i).1 (hs i).2]
  rfl

end Cert.KernelIdeal.Pay1

end
-- ==== Proof.Region1Value.lean ====
import proofs.«418543_j27023934227041_3_alg».proof.Proof.Region1Body
import proofs.«418543_j27023934227041_3_alg».proof.Proof.Pay1
import proofs.«418543_j27023934227041_3_alg».proof.Proof.Spec
import proofs.«418543_j27023934227041_3_alg».proof.Proof.GraphLaws
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.R1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen
open scoped BigOperators

section Cases

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

abbrev srcRow : Rect S2x1024 := Rect.unit (s := S2x1024) ![0, 0] S1x1024.size inb_S2x1024_S1x1024_0_0
abbrev dstRow : Rect S2x1024 := Rect.unit (s := S2x1024) ![1, 0] S1x1024.size inb_S2x1024_S1x1024_1_0

def tileStep (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) : Vec F S1x2048x128 .f32 :=
  k1_pay1 (k1_pay4 x1) (k1_pay5 (View.ld x0 dstRow)) (k1_pay6 (View.ld x0 srcRow) x1 x2 x3 x4) x5 x6 xo

theorem accLater_eq (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole) (hc : ¬isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) (xo : Vec F S1x2048x128 .f32) :
    accLater c i a0 w0 a1 w1 a2 w2 a3 w3 a4 w4 a5 w5 a6 w6 a7 w7 hc x0 x1 x2 x3 x4 x5 x6 xo = tileStep x0 x1 x2 x3 x4 x5 x6 xo := by
  unfold accLater
  rw [View.read_writes_eq_canon _ _ _ (coverLater c i a0 w0 a1 w1 a2 w2 a3 w3 a4 w4 a5 w5 a6 w6 a7 w7 hc x0 x1 x2 x3 x4 x5 x6 xo)]
  unfold runLater
  dsimp only
  sl_unfold_words
  rw [View.canon_unit_zero hz3]
  unfold tileStep
  simp only [View.readAt_eq_ld, w0.read_unread, w1.read_unread, w2.read_unread, w3.read_unread, w4.read_unread, w5.read_unread, w6.read_unread, w7.read_unread, View.ld_unit_zero (S := S1024x5) hz2, View.ld_unit_zero (S := S2048x256) hz2, View.ld_unit_zero (S := S260x128) hz2, View.ld_unit_zero (S := S128) hz1, View.ld_unit_zero (S := S128x128) hz2, View.ld_unit_zero (S := S1x2048x128) hz3]

theorem accFirst_eq (c : Dev nD) (i : grid1.Coords) (a0 : Memref sig .tc .vmem S2x1024 .i32) (w0 : a0.IsWhole) (a1 : Memref sig .tc .vmem S1024x5 .f32) (w1 : a1.IsWhole) (a2 : Memref sig .tc .vmem S2048x256 .bf16) (w2 : a2.IsWhole) (a3 : Memref sig .tc .vmem S260x128 .bf16) (w3 : a3.IsWhole) (a4 : Memref sig .tc .vmem S128 .f32) (w4 : a4.IsWhole) (a5 : Memref sig .tc .vmem S128x128 .bf16) (w5 : a5.IsWhole) (a6 : Memref sig .tc .vmem S128 .f32) (w6 : a6.IsWhole) (a7 : Memref sig .tc .vmem S1x2048x128 .f32) (w7 : a7.IsWhole) (hc : isFirst i)
    (x0 : Vec F S2x1024 .i32) (x1 : Vec F S1024x5 .f32) (x2 : Vec F S2048x256 .bf16) (x3 : Vec F S260x128 .bf16) (x4 : Vec F S128 .f32) (x5 : Vec F S128x128 .bf16) (x6 : Vec F S128 .f32) :
    accFirst c i a0 w0 a1 w1 a2 w2 a3 w3 a4 w4 a5 w5 a6 w6 a7 w7 hc x0 x1 x2 x3 x4 x5 x6 = tileStep x0 x1 x2 x3 x4 x5 x6 (k1_pay2 (F := F)) := by
  unfold accFirst
  rw [View.read_writes_eq_canon _ _ _ (coverFirst c i a0 w0 a1 w1 a2 w2 a3 w3 a4 w4 a5 w5 a6 w6 a7 w7 hc x0 x1 x2 x3 x4 x5 x6)]
  unfold runFirst
  dsimp only
  sl_unfold_words
  rw [View.canon_cons_unit_zero (S := S1x2048x128) hz3, View.readCov_unit_zero (S := S1x2048x128) _ hz3]
  unfold tileStep
  simp only [View.readAt_eq_ld, w0.read_unread, w1.read_unread, w2.read_unread, w3.read_unread, w4.read_unread, w5.read_unread, w6.read_unread, w7.read_unread, View.ld_unit_zero (S := S1024x5) hz2, View.ld_unit_zero (S := S2048x256) hz2, View.ld_unit_zero (S := S260x128) hz2, View.ld_unit_zero (S := S128) hz1, View.ld_unit_zero (S := S128x128) hz2, View.ld_unit_zero (S := S1x2048x128) hz3]

end Cases

section Blocks

variable {F : FTy → Type} [FloatOps F]
variable (V : (c : Dev nD) → (b : Ref sig .tc) → Buf (Elt F) ((c : Thread nD τ).loc b))

abbrev edgesArr (c : Dev nD) : Vec F S2x32768 .i32 := V c main_arg2
abbrev featsArr (c : Dev nD) : Vec F S32768x5 .f32 := V c main_v73
abbrev tableArr (c : Dev nD) : Vec F S2048x256 .bf16 := V c main_v76
abbrev w1Arr (c : Dev nD) : Vec F S260x128 .bf16 := V c main_v77
abbrev b1Arr (c : Dev nD) : Vec F S128 .f32 := V c main_arg8
abbrev w2Arr (c : Dev nD) : Vec F S128x128 .bf16 := V c main_v78
abbrev b2Arr (c : Dev nD) : Vec F S128 .f32 := V c main_arg10

abbrev wordsBlk (c : Dev nD) (t : Fin cfg1.N) : Vec F S2x1024 .i32 := blk V c 0 t
abbrev featBlk (c : Dev nD) (t : Fin cfg1.N) : Vec F S1024x5 .f32 := blk V c 1 t
abbrev tableBlk (c : Dev nD) (t : Fin cfg1.N) : Vec F S2048x256 .bf16 := blk V c 2 t
abbrev w1Blk (c : Dev nD) (t : Fin cfg1.N) : Vec F S260x128 .bf16 := blk V c 3 t
abbrev b1Blk (c : Dev nD) (t : Fin cfg1.N) : Vec F S128 .f32 := blk V c 4 t
abbrev w2Blk (c : Dev nD) (t : Fin cfg1.N) : Vec F S128x128 .bf16 := blk V c 5 t
abbrev b2Blk (c : Dev nD) (t : Fin cfg1.N) : Vec F S128 .f32 := blk V c 6 t

theorem idx_facts : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 3) = t.val / 16 ∧ win1_7.index t (1 : Fin 3) = 0 ∧ win1_7.index t (2 : Fin 3) = 0 :=
  (by decide +kernel : ∀ t : Fin grid1.N, _)

theorem edge_lt (t : Fin cfg1.N) (i : Fin 1024) : 1024 * t.val + i.val < 32768 := by
  have hN : t.val < 32 := lt_of_lt_of_eq t.isLt (show cfg1.N = 32 from N_1)
  omega

theorem ld_srcRow (X : Vec F S2x1024 .i32) (i : Fin 1024) :
    View.ld X srcRow (ix2 (0 : Fin 1) i) = X (ix2 (0 : Fin 2) i) := by
  show X _ = X _
  congr 1; funext a; apply Fin.ext
  match a with
  | ⟨0, _⟩ => rfl
  | ⟨1, _⟩ => show 0 + 1 * i.val = i.val; omega
theorem ld_dstRow (X : Vec F S2x1024 .i32) (i : Fin 1024) :
    View.ld X dstRow (ix2 (0 : Fin 1) i) = X (ix2 (1 : Fin 2) i) := by
  show X _ = X _
  congr 1; funext a; apply Fin.ext
  match a with
  | ⟨0, _⟩ => rfl
  | ⟨1, _⟩ => show 0 + 1 * i.val = i.val; omega

theorem wordsBlk_apply (c : Dev nD) (t : Fin cfg1.N) (r : Fin 2) (i : Fin 1024) :
    wordsBlk V c t (ix2 r i) = edgesArr V c (ix2 r (⟨1024 * t.val + i.val, edge_lt t i⟩ : Fin 32768)) := by
  obtain ⟨e0, e1, -⟩ := idx_facts t
  show V c main_arg2 (((cfg1.win 0).blk t).view.emb (ix2 r i)) = V c main_arg2 _
  congr 1; funext a; apply Fin.ext
  match a with
  | ⟨0, _⟩ => show win1_0.index t (0 : Fin 2) * 2 + 1 * r.val = r.val; rw [e0]; omega
  | ⟨1, _⟩ => show win1_0.index t (1 : Fin 2) * 1024 + 1 * i.val = 1024 * t.val + i.val; rw [e1]; omega

theorem featBlk_apply (c : Dev nD) (t : Fin cfg1.N) (i : Fin 1024) (a : Fin 5) :
    featBlk V c t (ix2 i a) = featsArr V c (ix2 (⟨1024 * t.val + i.val, edge_lt t i⟩ : Fin 32768) a) := by
  obtain ⟨-, -, e0, e1, -⟩ := idx_facts t
  show V c main_v73 (((cfg1.win 1).blk t).view.emb (ix2 i a)) = V c main_v73 _
  congr 1; funext b; apply Fin.ext
  match b with
  | ⟨0, _⟩ => show win1_1.index t (0 : Fin 2) * 1024 + 1 * i.val = 1024 * t.val + i.val; rw [e0]; omega
  | ⟨1, _⟩ => show win1_1.index t (1 : Fin 2) * 5 + 1 * a.val = a.val; rw [e1]; omega

theorem tableBlk_eq (c : Dev nD) (t : Fin cfg1.N) : tableBlk V c t = tableArr V c := by
  obtain ⟨-, -, -, -, e0, e1, -⟩ := idx_facts t
  funext j
  show V c main_v76 (((cfg1.win 2).blk t).view.emb j) = V c main_v76 j
  congr 1; funext b; apply Fin.ext
  match b with
  | ⟨0, _⟩ => show win1_2.index t (0 : Fin 2) * 2048 + 1 * (j 0).val = (j 0).val; rw [e0]; omega
  | ⟨1, _⟩ => show win1_2.index t (1 : Fin 2) * 256 + 1 * (j 1).val = (j 1).val; rw [e1]; omega
theorem w1Blk_eq (c : Dev nD) (t : Fin cfg1.N) : w1Blk V c t = w1Arr V c := by
  obtain ⟨-, -, -, -, -, -, e0, e1, -⟩ := idx_facts t
  funext j
  show V c main_v77 (((cfg1.win 3).blk t).view.emb j) = V c main_v77 j
  congr 1; funext b; apply Fin.ext
  match b with
  | ⟨0, _⟩ => show win1_3.index t (0 : Fin 2) * 260 + 1 * (j 0).val = (j 0).val; rw [e0]; omega
  | ⟨1, _⟩ => show win1_3.index t (1 : Fin 2) * 128 + 1 * (j 1).val = (j 1).val; rw [e1]; omega
theorem b1Blk_eq (c : Dev nD) (t : Fin cfg1.N) : b1Blk V c t = b1Arr V c := by
  obtain ⟨-, -, -, -, -, -, -, -, e0, -⟩ := idx_facts t
  funext j
  show V c main_arg8 (((cfg1.win 4).blk t).view.emb j) = V c main_arg8 j
  congr 1; funext b; apply Fin.ext
  match b with
  | ⟨0, _⟩ => show win1_4.index t (0 : Fin 1) * 128 + 1 * (j 0).val = (j 0).val; rw [e0]; omega
theorem w2Blk_eq (c : Dev nD) (t : Fin cfg1.N) : w2Blk V c t = w2Arr V c := by
  obtain ⟨-, -, -, -, -, -, -, -, -, e0, e1, -⟩ := idx_facts t
  funext j
  show V c main_v78 (((cfg1.win 5).blk t).view.emb j) = V c main_v78 j
  congr 1; funext b; apply Fin.ext
  match b with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega
theorem b2Blk_eq (c : Dev nD) (t : Fin cfg1.N) : b2Blk V c t = b2Arr V c := by
  obtain ⟨-, -, -, -, -, -, -, -, -, -, -, e0, -⟩ := idx_facts t
  funext j
  show V c main_arg10 (((cfg1.win 6).blk t).view.emb j) = V c main_arg10 j
  congr 1; funext b; apply Fin.ext
  match b with
  | ⟨0, _⟩ => show win1_6.index t (0 : Fin 1) * 128 + 1 * (j 0).val = (j 0).val; rw [e0]; omega

theorem accAt_reset (c : Dev nD) (t : Fin cfg1.N) (h0 : t.val % 16 = 0) :
    accAt V c t.val t.isLt = tileStep (wordsBlk V c t) (featBlk V c t) (tableBlk V c t) (w1Blk V c t) (b1Blk V c t) (w2Blk V c t) (b2Blk V c t) (k1_pay2 (F := F)) := by
  rw [accAt_first V c t h0]
  exact accFirst_eq c (grid1.coords t) (sm0 t) (sw0 t) (sm1 t) (sw1 t) (sm2 t) (sw2 t) (sm3 t) (sw3 t) (sm4 t) (sw4 t) (sm5 t) (sw5 t) (sm6 t) (sw6 t) (sm7 t) (sw7 t) ((isFirst_iff t).mpr h0) (blk V c 0 t) (blk V c 1 t) (blk V c 2 t) (blk V c 3 t) (blk V c 4 t) (blk V c 5 t) (blk V c 6 t)

theorem accAt_step (c : Dev nD) (t : Fin cfg1.N) (h0 : ¬t.val % 16 = 0) :
    accAt V c t.val t.isLt = tileStep (wordsBlk V c t) (featBlk V c t) (tableBlk V c t) (w1Blk V c t) (b1Blk V c t) (w2Blk V c t) (b2Blk V c t) (accAt V c (t.val - 1) (Nat.lt_of_le_of_lt (Nat.sub_le _ _) t.isLt)) := by
  rw [accAt_later V c t h0]
  exact accLater_eq c (grid1.coords t) (sm0 t) (sw0 t) (sm1 t) (sw1 t) (sm2 t) (sw2 t) (sm3 t) (sw3 t) (sm4 t) (sw4 t) (sm5 t) (sw5 t) (sm6 t) (sw6 t) (sm7 t) (sw7 t) (fun h => h0 ((isFirst_iff t).mp h)) (blk V c 0 t) (blk V c 1 t) (blk V c 2 t) (blk V c 3 t) (blk V c 4 t) (blk V c 5 t) (blk V c 6 t)
    (accAt V c (t.val - 1) (Nat.lt_of_le_of_lt (Nat.sub_le _ _) t.isLt))

end Blocks

section AtIdeal

variable (V : (c : Dev nD) → (b : Ref sig .tc) → Buf (Elt Ideal) ((c : Thread nD τ).loc b))

def InRange (c : Dev nD) : Prop :=
  ∀ (r : Fin 2) (e : Fin 32768), 0 ≤ (edgesArr V c (ix2 r e)).toInt ∧ (edgesArr V c (ix2 r e)).toInt < 2048

def edgeTerm (c : Dev nD) (e : Fin 32768) (h : Fin 128) : EReal :=
  Cert.Spec.weightedMsg
    (fun j : Fin 128 => tableArr V c (ix2 (Cert.Spec.node (edgesArr V c (ix2 (0 : Fin 2) e))) (⟨j.val, Nat.lt_of_lt_of_le j.isLt (by decide)⟩ : Fin 256)))
    (fun j : Fin 128 => tableArr V c (ix2 (Cert.Spec.node (edgesArr V c (ix2 (0 : Fin 2) e))) (⟨128 + j.val, Nat.add_lt_add_left j.isLt 128⟩ : Fin 256)))
    (fun f : Fin 4 => featsArr V c (ix2 e (⟨f.val, Nat.lt_of_lt_of_le f.isLt (by decide)⟩ : Fin 5)))
    (fun j k => w1Arr V c (ix2 j k)) (fun k => b1Arr V c (ix1 k)) (fun k h' => w2Arr V c (ix2 k h')) (fun h' => b2Arr V c (ix1 h'))
    (featsArr V c (ix2 e (4 : Fin 5))) h

def edgeShare (c : Dev nD) (n : Fin 2048) (h : Fin 128) (e : Fin 32768) : EReal :=
  (if Cert.Spec.node (edgesArr V c (ix2 (1 : Fin 2) e)) = n then (1 : EReal) else 0) * edgeTerm V c e h

theorem edgeMsg_blocks (c : Dev nD) (t : Fin cfg1.N) (i : Fin 1024) (h : Fin 128) :
    Pay1.edgeMsg (View.ld (wordsBlk V c t) srcRow) (featBlk V c t) (tableBlk V c t) (w1Blk V c t) (b1Blk V c t) (w2Blk V c t)
        (b2Blk V c t) i h
      = edgeTerm V c (⟨1024 * t.val + i.val, edge_lt t i⟩ : Fin 32768) h := by
  have hs : View.ld (wordsBlk V c t) srcRow (ix2 (0 : Fin 1) i)
      = edgesArr V c (ix2 (0 : Fin 2) (⟨1024 * t.val + i.val, edge_lt t i⟩ : Fin 32768)) :=
    (ld_srcRow (wordsBlk V c t) i).trans (wordsBlk_apply V c t 0 i)
  unfold Pay1.edgeMsg edgeTerm
  rw [hs]
  simp only [featBlk_apply V c t, tableBlk_eq V c t, w1Blk_eq V c t, b1Blk_eq V c t, w2Blk_eq V c t, b2Blk_eq V c t]

def tileTerm (c : Dev nD) (p : ℕ) (n : Fin 2048) (h : Fin 128) : EReal :=
  if hp : p < cfg1.N then ∑ i : Fin 1024, edgeShare V c n h (⟨1024 * p + i.val, edge_lt ⟨p, hp⟩ i⟩ : Fin 32768) else 0

theorem tileStep_apply (c : Dev nD) (hR : InRange V c) (t : Fin cfg1.N) (xo : Vec Ideal S1x2048x128 .f32)
    (n : Fin 2048) (h : Fin 128) :
    tileStep (F := Ideal) (wordsBlk V c t) (featBlk V c t) (tableBlk V c t) (w1Blk V c t) (b1Blk V c t) (w2Blk V c t) (b2Blk V c t) xo
        (ix3 (0 : Fin 1) n h)
      = xo (ix3 (0 : Fin 1) n h) + tileTerm V c t.val n h := by
  unfold tileStep
  refine (Pay1.scatter_step (View.ld (wordsBlk V c t) srcRow) (View.ld (wordsBlk V c t) dstRow) (featBlk V c t) (tableBlk V c t)
    (w1Blk V c t) (b1Blk V c t) (w2Blk V c t) (b2Blk V c t) xo
    (fun i => by rw [(ld_srcRow (wordsBlk V c t) i).trans (wordsBlk_apply V c t 0 i)]; exact hR _ _)
    (fun i => by rw [(ld_dstRow (wordsBlk V c t) i).trans (wordsBlk_apply V c t 1 i)]; exact hR _ _) n h).trans ?_
  unfold tileTerm
  rw [dif_pos t.isLt]
  refine congrArg (xo (ix3 (0 : Fin 1) n h) + ·) (Finset.sum_congr rfl fun i _ => ?_)
  unfold edgeShare
  rw [edgeMsg_blocks V c t i h, (ld_dstRow (wordsBlk V c t) i).trans (wordsBlk_apply V c t 1 i)]

theorem zeroBlk_apply (j : S1x2048x128.Idx) : k1_pay2 (F := Ideal) j = 0 := by
  show Ideal.ofBits .f32 0x00000000#32 = 0
  exact Ideal.ofBits_zero_f32

theorem eq_ix3_zero (j : S1x2048x128.Idx) : j = ix3 (0 : Fin 1) (j 1) (j 2) := by
  funext a
  match a with
  | ⟨0, _⟩ => exact Fin.ext (by have h : (j 0).val < 1 := (j 0).isLt; show (j 0).val = 0; omega)
  | ⟨1, _⟩ => rfl
  | ⟨2, _⟩ => rfl

theorem tileStep_at (c : Dev nD) (hR : InRange V c) (t : Fin cfg1.N) (xo : Vec Ideal S1x2048x128 .f32)
    (j : S1x2048x128.Idx) :
    tileStep (F := Ideal) (wordsBlk V c t) (featBlk V c t) (tableBlk V c t) (w1Blk V c t) (b1Blk V c t) (w2Blk V c t) (b2Blk V c t) xo j
      = xo j + tileTerm V c t.val (j 1) (j 2) := by
  obtain ⟨n, h, rfl⟩ : ∃ (n : Fin 2048) (h : Fin 128), j = ix3 (0 : Fin 1) n h := ⟨j 1, j 2, eq_ix3_zero j⟩
  exact tileStep_apply V c hR t xo n h

def resetAt (c : Dev nD) (n : ℕ) (hn : n < cfg1.N) : Vec Ideal S1x2048x128 .f32 :=
  tileStep (F := Ideal) (wordsBlk V c ⟨n, hn⟩) (featBlk V c ⟨n, hn⟩) (tableBlk V c ⟨n, hn⟩) (w1Blk V c ⟨n, hn⟩) (b1Blk V c ⟨n, hn⟩) (w2Blk V c ⟨n, hn⟩) (b2Blk V c ⟨n, hn⟩) (k1_pay2 (F := Ideal))
def stepAt (c : Dev nD) (n : ℕ) (hn : n < cfg1.N) (acc : Vec Ideal S1x2048x128 .f32) : Vec Ideal S1x2048x128 .f32 :=
  tileStep (F := Ideal) (wordsBlk V c ⟨n, hn⟩) (featBlk V c ⟨n, hn⟩) (tableBlk V c ⟨n, hn⟩) (w1Blk V c ⟨n, hn⟩) (b1Blk V c ⟨n, hn⟩) (w2Blk V c ⟨n, hn⟩) (b2Blk V c ⟨n, hn⟩) acc

set_option maxHeartbeats 1000000 in
theorem accAt_fold (c : Dev nD) (p : ℕ) (hp : p < cfg1.N) (h' : 16 * (p / 16) + p % 16 < cfg1.N) :
    accAt (F := Ideal) V c p hp = Pipeline.accAt (N := cfg1.N) (resetAt V c) (stepAt V c) (16 * (p / 16)) (p % 16) h' :=
  Pipeline.eq_accAt_of_mod (N := cfg1.N) (α := Vec Ideal S1x2048x128 .f32) (fun n hn => accAt (F := Ideal) V c n hn) 16
    (resetAt V c) (stepAt V c)
    (fun n hn h0 => accAt_reset V c ⟨n, hn⟩ h0)
    (fun n hn h0 => accAt_step V c ⟨n + 1, hn⟩ h0)
    (by decide) p hp h'

set_option maxHeartbeats 1000000 in
theorem accAt_closed (c : Dev nD) (hR : InRange V c) (p : ℕ) (hp : p < cfg1.N) (j : S1x2048x128.Idx) :
    accAt (F := Ideal) V c p hp j = 0 + ∑ s ∈ Finset.range (p % 16 + 1), tileTerm V c (16 * (p / 16) + s) (j 1) (j 2) := by
  have h' : 16 * (p / 16) + p % 16 < cfg1.N := by rw [Nat.div_add_mod]; exact hp
  refine (congrFun (accAt_fold V c p hp h') j).trans ?_
  exact Pipeline.accAt_add_apply (N := cfg1.N) (ι := S1x2048x128.Idx) (β := EReal) (resetAt V c) (stepAt V c)
    (fun _ => (0 : EReal)) (fun q j' => tileTerm V c q (j' 1) (j' 2))
    (16 * (p / 16)) 15
    (fun hb i => by unfold resetAt; rw [tileStep_at V c hR ⟨16 * (p / 16), hb⟩, zeroBlk_apply])
    (fun n hn acc i _ _ => by unfold stepAt; exact tileStep_at V c hR ⟨n, hn⟩ acc i)
    (p % 16) (by have := Nat.mod_lt p (show 0 < 16 by decide); omega) h' j

def resultArr (c : Dev nD) : Vec Ideal S2x2048x128 .f32 :=
  fun i => ∑ s ∈ Finset.range 16, tileTerm V c (16 * (i 0).val + s) (i 1) (i 2)

theorem flushed_eq (c : Dev nD) (hR : InRange V c) (t : Fin cfg1.N) (hf : (cfg1.win 7).flush t = true) :
    (dat1 (F := Ideal) V c).flushed 7 t = ((cfg1.win 7).blk t).view.read (Elt Ideal) (resultArr V c) := by
  have h15 : t.val % 16 = 15 := (flush1_7 t).mp hf
  obtain ⟨-, -, -, -, -, -, -, -, -, -, -, -, e0, e1, e2⟩ := idx_facts t
  show (cfg1.win 7).cut (grid1.coords t) ((dat1 (F := Ideal) V c).after 7 t) = _
  rw [after_out]
  funext j
  show accAt (F := Ideal) V c t.val t.isLt j
    = ∑ s ∈ Finset.range 16, tileTerm V c (16 * ((((cfg1.win 7).blk t).view.emb j) 0).val + s)
        ((((cfg1.win 7).blk t).view.emb j) 1) ((((cfg1.win 7).blk t).view.emb j) 2)
  have q0 : ((((cfg1.win 7).blk t).view.emb j) 0).val = t.val / 16 := by
    show win1_7.index t (0 : Fin 3) * 1 + 1 * (j 0).val = t.val / 16
    have hj : (j 0).val < 1 := (j 0).isLt
    rw [e0]; omega
  have q1 : (((cfg1.win 7).blk t).view.emb j) 1 = j 1 := Fin.ext (by
    show win1_7.index t (1 : Fin 3) * 2048 + 1 * (j 1).val = (j 1).val
    rw [e1]; omega)
  have q2 : (((cfg1.win 7).blk t).view.emb j) 2 = j 2 := Fin.ext (by
    show win1_7.index t (2 : Fin 3) * 128 + 1 * (j 2).val = (j 2).val
    rw [e2]; omega)
  rw [accAt_closed V c hR t.val t.isLt j, zero_add, h15, q0, q1, q2]

theorem covered (i : S2x2048x128.Idx) :
    ∃ t : Fin cfg1.N, (cfg1.win 7).flush t = true ∧ i ∈ ((cfg1.win 7).blk t).view.set := by
  have hi0 : (i 0).val < 2 := (i 0).isLt
  have hi1 : (i 1).val < 2048 := (i 1).isLt
  have hi2 : (i 2).val < 128 := (i 2).isLt
  have hN : cfg1.N = 32 := N_1
  have ht : 16 * (i 0).val + 15 < cfg1.N := by rw [hN]; omega
  obtain ⟨-, -, -, -, -, -, -, -, -, -, -, -, e0, e1, e2⟩ := idx_facts ⟨16 * (i 0).val + 15, ht⟩
  refine ⟨⟨16 * (i 0).val + 15, ht⟩, (flush1_7 _).mpr (by show (16 * (i 0).val + 15) % 16 = 15; omega), ?_⟩
  show i ∈ ((View.whole main_v79).slice (win1_7.rect ⟨16 * (i 0).val + 15, ht⟩)).set
  rw [View.set_slice_whole, Rect.mem_set_unit]
  intro a
  match a with
  | ⟨0, _⟩ =>
    show win1_7.index ⟨16 * (i 0).val + 15, ht⟩ (0 : Fin 3) * 1 ≤ (i 0).val
      ∧ (i 0).val < win1_7.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win1_7.index ⟨16 * (i 0).val + 15, ht⟩ (1 : Fin 3) * 2048 ≤ (i 1).val
      ∧ (i 1).val < win1_7.index ⟨16 * (i 0).val + 15, ht⟩ (1 : Fin 3) * 2048 + 2048
    rw [e1]; omega
  | ⟨2, _⟩ =>
    show win1_7.index ⟨16 * (i 0).val + 15, ht⟩ (2 : Fin 3) * 128 ≤ (i 2).val
      ∧ (i 2).val < win1_7.index ⟨16 * (i 0).val + 15, ht⟩ (2 : Fin 3) * 128 + 128
    rw [e2]; omega

theorem final7 (c : Dev nD) (hR : InRange V c) : (dat1 (F := Ideal) V c).arrAt 7 cfg1.N = resultArr V c :=
  (dat1 (F := Ideal) V c).arrAt_eq_of_cover 7 (resultArr V c) (fun t hf => flushed_eq V c hR t hf) (fun i => covered i)

theorem half_lt (q : Fin 2) (B : Fin 16384) : 16384 * q.val + B.val < 32768 := by
  have := q.isLt; have := B.isLt; omega

theorem resultArr_apply (c : Dev nD) (q : Fin 2) (n : Fin 2048) (h : Fin 128) :
    resultArr V c (ix3 q n h) = ∑ B : Fin 16384, edgeShare V c n h (⟨16384 * q.val + B.val, half_lt q B⟩ : Fin 32768) := by
  have hq : q.val < 2 := q.isLt
  rw [← Cert.Spec.sum_fin_blocks (K := 16) (J := 1024) (n := 16384) rfl
    (fun B : Fin 16384 => edgeShare V c n h (⟨16384 * q.val + B.val, half_lt q B⟩ : Fin 32768))]
  show ∑ s ∈ Finset.range 16, tileTerm V c (16 * q.val + s) n h = _
  rw [Finset.sum_range]
  refine Finset.sum_congr rfl fun s _ => ?_
  have hs : 16 * q.val + s.val < cfg1.N := by rw [show cfg1.N = 32 from N_1]; have := s.isLt; omega
  unfold tileTerm
  rw [dif_pos hs]
  refine Finset.sum_congr rfl fun i _ => congrArg (edgeShare V c n h) (Fin.ext ?_)
  show 1024 * (16 * q.val + s.val) + i.val = 16384 * q.val + (s.val * 1024 + i.val)
  omega

theorem value7 (c : Dev nD) (hR : InRange V c) (q : Fin 2) (n : Fin 2048) (h : Fin 128) :
    (dat1 (F := Ideal) V c).arrAt 7 cfg1.N (ix3 q n h)
      = ∑ B : Fin 16384, edgeShare V c n h (⟨16384 * q.val + B.val, half_lt q B⟩ : Fin 32768) :=
  (congrFun (final7 V c hR) (ix3 q n h)).trans (resultArr_apply V c q n h)

end AtIdeal

end Cert.KernelIdeal.R1

end
-- ==== Proof.KAggregate.lean ====
import proofs.«418543_j27023934227041_3_alg».proof.Proof.KIFrame
import proofs.«418543_j27023934227041_3_alg».proof.Proof.KHost
import proofs.«418543_j27023934227041_3_alg».proof.Proof.Region1Value
import proofs.«418543_j27023934227041_3_alg».proof.Proof.GraphLaws

noncomputable section

namespace Cert.Assembly

open Cert.KernelIdeal Cert.KernelIdeal.Gen Cert.KernelIdeal.Host
open Idealize.ShloMosaic Idealize.ShloMosaic.TcCoe Idealize.ShloMosaic.ValueIdx
open Idealize.SL.Sem
open scoped BigOperators

theorem sum_two_halves {A : Type} [AddCommMonoid A] (g : Fin 32768 → A)
    (hlt : ∀ (q : Fin 2) (B : Fin 16384), 16384 * q.val + B.val < 32768) :
    (∑ B : Fin 16384, g ⟨16384 * (0 : Fin 2).val + B.val, hlt 0 B⟩)
        + (∑ B : Fin 16384, g ⟨16384 * (1 : Fin 2).val + B.val, hlt 1 B⟩) = ∑ e, g e := by
  refine (Cert.Spec.sum_two_cores fun q : Fin 2 => ∑ B : Fin 16384, g ⟨16384 * q.val + B.val, hlt q B⟩).trans ?_
  refine (Finset.sum_congr rfl fun q _ => Finset.sum_congr rfl fun B _ => congrArg g (Fin.ext ?_)).trans
    (Cert.Spec.sum_fin_blocks (K := 2) (J := 16384) (n := 32768) rfl g)
  show 16384 * q.val + B.val = q.val * 16384 + B.val
  rw [Nat.mul_comm]

theorem weightedMsg_congr {mu mu' sg sg' : Fin 128 → EReal} {f f' : Fin 4 → EReal} {w1 w1' : Fin 260 → Fin 128 → EReal}
    {b1 b1' : Fin 128 → EReal} {w2 w2' : Fin 128 → Fin 128 → EReal} {b2 b2' : Fin 128 → EReal} {g g' : EReal}
    (h1 : mu = mu') (h2 : sg = sg') (h3 : f = f') (h4 : w1 = w1') (h5 : b1 = b1') (h6 : w2 = w2') (h7 : b2 = b2')
    (h8 : g = g') (h : Fin 128) :
    Cert.Spec.weightedMsg mu sg f w1 b1 w2 b2 g h = Cert.Spec.weightedMsg mu' sg' f' w1' b1' w2' b2' g' h := by
  subst h1 h2 h3 h4 h5 h6 h7 h8; rfl

def kmsg (m : (ℓ : Loc nD τ sig) → Buf (Elt Ideal) ℓ) (outs : Outs (F := Ideal)) (c : Dev nD) (e : Fin 32768)
    (h : Fin 128) : EReal :=
  Cert.Spec.weightedMsg
    (fun j : Fin 128 => x0 m c (ix2 (Cert.Spec.node (x2 m c (ix2 (0 : Fin 2) e))) j))
    (fun j : Fin 128 => x1 m c (ix2 (Cert.Spec.node (x2 m c (ix2 (0 : Fin 2) e))) j))
    ![x3 m c (ix2 e (0 : Fin 1)), x4 m c (ix2 e (0 : Fin 1)), x5 m c (ix2 e (0 : Fin 1)), x6 m c (ix2 e (0 : Fin 1))]
    (fun j k => x7 m c (ix2 j k)) (fun k => (m ((c : Thread nD τ).loc main_arg8) : FVec Ideal S128 .f32) (ix1 k))
    (fun k h' => x9 m c (ix2 k h')) (fun h' => (m ((c : Thread nD τ).loc main_arg10) : FVec Ideal S128 .f32) (ix1 h'))
    ((V5 m outs c main_v73 : FVec Ideal S32768x5 .f32) (ix2 e (4 : Fin 5))) h

section Program

variable (m : (ℓ : Loc nD τ sig) → Buf (Elt Ideal) ℓ) (outs : Outs (F := Ideal)) (c : Dev nD)

theorem V5_arg2 : (V5 m outs c main_arg2 : IVec S2x32768 32) = x2 m c :=
  V5_launch m outs c main_arg2 (by decide) (by decide) (by decide) (by decide) (by decide)
theorem V5_arg8 : (V5 m outs c main_arg8 : FVec Ideal S128 .f32) = m ((c : Thread nD τ).loc main_arg8) :=
  V5_launch m outs c main_arg8 (by decide) (by decide) (by decide) (by decide) (by decide)
theorem V5_arg10 : (V5 m outs c main_arg10 : FVec Ideal S128 .f32) = m ((c : Thread nD τ).loc main_arg10) :=
  V5_launch m outs c main_arg10 (by decide) (by decide) (by decide) (by decide) (by decide)

theorem edgeTerm_eq (e : Fin 32768) (h : Fin 128) :
    Cert.KernelIdeal.R1.edgeTerm (Cert.KernelIdeal.Hand.VR5 m outs) c e h = kmsg m outs c e h := by
  unfold Cert.KernelIdeal.R1.edgeTerm kmsg
  have hx2 : Cert.KernelIdeal.R1.edgesArr (Cert.KernelIdeal.Hand.VR5 m outs) c = x2 m c := V5_arg2 m outs c
  refine weightedMsg_congr (funext fun j => ?_) (funext fun j => ?_) (funext fun f => ?_) (funext fun j => funext fun k => ?_)
    (funext fun k => ?_) (funext fun k => funext fun h' => ?_) (funext fun h' => ?_) rfl h
  · rw [hx2]
    exact V5_v76_apply_left m outs c _ _ j.isLt
  · rw [hx2]
    refine (V5_v76_apply_right m outs c _ _ (Nat.le_add_right 128 j.val)).trans ?_
    exact congrArg (fun z => x1 m c (ix2 _ z)) (Fin.ext (Nat.add_sub_cancel_left 128 j.val))
  · match f with
    | ⟨0, _⟩ => exact V5_v73_apply_0 m outs c e
    | ⟨1, _⟩ => exact V5_v73_apply_1 m outs c e
    | ⟨2, _⟩ => exact V5_v73_apply_2 m outs c e
    | ⟨3, _⟩ => exact V5_v73_apply_3 m outs c e
  · exact congrFun (V5_v77 m outs c) (ix2 j k)
  · exact congrFun (V5_arg8 m outs c) (ix1 k)
  · exact congrFun (V5_v78 m outs c) (ix2 k h')
  · exact congrFun (V5_arg10 m outs c) (ix1 h')

theorem inRange_of (hrange : ∀ i : S2x32768.Idx, 0 ≤ (x2 m c i).toInt ∧ (x2 m c i).toInt < 2048) :
    Cert.KernelIdeal.R1.InRange (Cert.KernelIdeal.Hand.VR5 m outs) c := by
  intro r e
  show 0 ≤ ((V5 m outs c main_arg2 : IVec S2x32768 32) (ix2 r e)).toInt
    ∧ ((V5 m outs c main_arg2 : IVec S2x32768 32) (ix2 r e)).toInt < 2048
  rw [V5_arg2]
  exact hrange (ix2 r e)

theorem agg_halves_of (X : FVec Ideal S2x2048x128 .f32) (n : Fin 2048) (j : Fin 128)
    (hX : ∀ q : Fin 2, X (ix3 q n j) = ∑ B : Fin 16384,
      Cert.KernelIdeal.R1.edgeShare (Cert.KernelIdeal.Hand.VR5 m outs) c n j
        (⟨16384 * q.val + B.val, Cert.KernelIdeal.R1.half_lt q B⟩ : Fin 32768)) :
    X (ix3 (0 : Fin 2) n j) + X (ix3 (1 : Fin 2) n j)
      = ∑ e : Fin 32768, if Cert.Spec.node (x2 m c (ix2 (1 : Fin 2) e)) = n then kmsg m outs c e j else 0 := by
  rw [hX 0, hX 1]
  refine (sum_two_halves (fun e => Cert.KernelIdeal.R1.edgeShare (Cert.KernelIdeal.Hand.VR5 m outs) c n j e)
    Cert.KernelIdeal.R1.half_lt).trans ?_
  refine Finset.sum_congr rfl fun e _ => ?_
  unfold Cert.KernelIdeal.R1.edgeShare
  rw [Cert.Spec.ind_mul, edgeTerm_eq m outs c e j]
  have hx2 : Cert.KernelIdeal.R1.edgesArr (Cert.KernelIdeal.Hand.VR5 m outs) c = x2 m c := V5_arg2 m outs c
  rw [hx2]

end Program

theorem v79_eq (m : (ℓ : Loc nD τ sig) → Buf (Elt Ideal) ℓ) (c : Dev nD) :
    V7 m (Cert.KernelIdeal.Hand.outs m) c main_v79
      = (Cert.KernelIdeal.R1.dat1 (Cert.KernelIdeal.Hand.VR5 m (Cert.KernelIdeal.Hand.outs m)) c).arrAt 7 cfg1.N := by
  rw [V7_of m (Cert.KernelIdeal.Hand.outs m) c main_v79 (by decide), Cert.KernelIdeal.Hand.V6_out,
    Cert.KernelIdeal.Hand.outs_79]

abbrev aggArr (m : (ℓ : Loc nD τ sig) → Buf (Elt Ideal) ℓ) (c : Dev nD) : FVec Ideal S2x2048x128 .f32 :=
  V7 m (Cert.KernelIdeal.Hand.outs m) c main_v79

theorem agg_halves (m : (ℓ : Loc nD τ sig) → Buf (Elt Ideal) ℓ) (c : Dev nD)
    (hrange : ∀ i : S2x32768.Idx, 0 ≤ (x2 m c i).toInt ∧ (x2 m c i).toInt < 2048) (n : Fin 2048) (j : Fin 128) :
    aggArr m c (ix3 (0 : Fin 2) n j) + aggArr m c (ix3 (1 : Fin 2) n j)
      = ∑ e : Fin 32768, if Cert.Spec.node (x2 m c (ix2 (1 : Fin 2) e)) = n
          then kmsg m (Cert.KernelIdeal.Hand.outs m) c e j else 0 := by
  refine agg_halves_of m (Cert.KernelIdeal.Hand.outs m) c (aggArr m c) n j fun q => ?_
  show (V7 m (Cert.KernelIdeal.Hand.outs m) c main_v79 : FVec Ideal S2x2048x128 .f32) (ix3 q n j) = _
  rw [v79_eq]
  exact Cert.KernelIdeal.R1.value7 _ c (inRange_of m (Cert.KernelIdeal.Hand.outs m) c hrange) q n j

end Cert.Assembly

end
-- ==== Proof.Final.lean ====
import proofs.«418543_j27023934227041_3_alg».proof.Defs
import proofs.«418543_j27023934227041_3_alg».proof.Proof.Gen.Pre_finite_inputs
import proofs.«418543_j27023934227041_3_alg».proof.Proof.KIFrame
import proofs.«418543_j27023934227041_3_alg».proof.Proof.RefRun
import proofs.«418543_j27023934227041_3_alg».proof.Proof.RefRead
import proofs.«418543_j27023934227041_3_alg».proof.Proof.RefValue
import proofs.«418543_j27023934227041_3_alg».proof.Proof.KHost
import proofs.«418543_j27023934227041_3_alg».proof.Proof.Match
import proofs.«418543_j27023934227041_3_alg».proof.Proof.PreFacts
import proofs.«418543_j27023934227041_3_alg».proof.Proof.KResidual
import proofs.«418543_j27023934227041_3_alg».proof.Proof.KNode
import proofs.«418543_j27023934227041_3_alg».proof.Proof.KAggregate

set_option maxRecDepth 16384

noncomputable section

namespace Cert.Final

open Idealize.ShloMosaic Idealize.ShloMosaic.TcCoe Idealize.ShloMosaic.ValueIdx
open Idealize.SL Idealize.SL.Sem
open Cert.KernelIdeal Cert.KernelIdeal.Gen Cert.KernelIdeal.Host
open Cert.Spec
open scoped BigOperators

abbrev KMem : Type := (ℓ : Loc Cert.KernelIdeal.nD Cert.KernelIdeal.τ Cert.KernelIdeal.sig) → Buf (Elt Ideal) ℓ

/-- A run that ends with every argument as launched is in particular a frame. -/
theorem frame_ref : Cert.frame_ReferenceIdeal :=
  fun m ρ _ => (θ_run Cert.ReferenceIdeal.defs _ _).mono (fun _ h c => (h c).2.2.2)
    (Cert.ReferenceIdeal.Value.run (F := Ideal) m ρ)

section Values

variable (m : KMem) (c : Dev nD)

abbrev b8 : FVec Ideal S128 .f32 := m ((c : Thread nD τ).loc main_arg8)
abbrev b10 : FVec Ideal S128 .f32 := m ((c : Thread nD τ).loc main_arg10)
abbrev b12 : FVec Ideal S128 .f32 := m ((c : Thread nD τ).loc main_arg12)
abbrev b14 : FVec Ideal S128 .f32 := m ((c : Thread nD τ).loc main_arg14)
abbrev b16 : FVec Ideal S128 .f32 := m ((c : Thread nD τ).loc main_arg16)
abbrev b18 : FVec Ideal S128 .f32 := m ((c : Thread nD τ).loc main_arg18)

/-- Both programs build the adjacency array by the same operations from the same edge list and distances. -/
theorem adj_eq : Cert.Assembly.adjK m c = Cert.RefValue.adj (x2 m c) (x3 m c) := by
  funext p q
  show (V1 m c main_v21 : FVec Ideal S2048x2048 .f32) (ix2 p q) = _
  rw [V1_v21]
  rfl

variable (h3 : AllReal (x3 m c)) (h2 : ∀ i, 0 ≤ (x2 m c i).toInt ∧ (x2 m c i).toInt < 2048)
include h3 h2

theorem resV_eq : resV m (Hand.outs m) c = Cert.ReferenceIdeal.Read.val_main_v58 (F := Ideal) (x2 m c) (x3 m c) := by
  rw [← V5_v59 m (Hand.outs m) c]
  funext i
  obtain ⟨e, z, rfl⟩ : ∃ (e : Fin 32768) (z : Fin 1), i = ix2 e z := ⟨i 0, i 1, eq_ix2 i⟩
  obtain rfl : z = 0 := Subsingleton.elim _ _
  rw [Cert.RefValue.residuals_apply (x2 m c) (x3 m c) h2 e, Cert.Assembly.res5_eq m c h3 h2 e, adj_eq m c]
  rfl

theorem wsum_eq (n : Fin 2048) : Cert.Assembly.wsumN m c n = Cert.RefValue.wsum (x2 m c) (x3 m c) n :=
  Cert.Match.wsum_match_apply (x2 m c) (x3 m c) _ (resV_eq m c h3 h2) n
theorem rsum_eq (n : Fin 2048) : Cert.Assembly.rsumN m c n = Cert.RefValue.rsum (x2 m c) (x3 m c) n :=
  Cert.Match.rsum_match_apply (x2 m c) (x3 m c) _ (resV_eq m c h3 h2) n
omit h3 h2 in
theorem cnt_eq (n : Fin 2048) : Cert.Assembly.cntN m c n = Cert.RefValue.cnt (x2 m c) n :=
  Cert.Match.cnt_match_apply (x2 m c) n

theorem kmsg_eq (e : Fin 32768) (h : Fin 128) :
    Cert.Assembly.kmsg m (Hand.outs m) c e h
      = Cert.RefValue.wmsg (x0 m c) (x1 m c) (x2 m c) (x3 m c) (x4 m c) (x5 m c) (x6 m c) (x7 m c) (b8 m c) (x9 m c) (b10 m c) e h := by
  unfold Cert.Assembly.kmsg Cert.RefValue.wmsg
  rw [Cert.Assembly.edge4_eq m c h3 h2 e, adj_eq m c]
  rfl

/-- The two halves' partial sums added are the sum over all edges, and each edge's weighted message is the same number on both sides. -/
theorem agg_eq (n : Fin 2048) (j : Fin 128) :
    Cert.Assembly.aggIn m c (Hand.outs m) (ix3 (0 : Fin 2) n j) + Cert.Assembly.aggIn m c (Hand.outs m) (ix3 (1 : Fin 2) n j)
      = Cert.RefValue.agg (x0 m c) (x1 m c) (x2 m c) (x3 m c) (x4 m c) (x5 m c) (x6 m c) (x7 m c) (b8 m c) (x9 m c) (b10 m c) n j := by
  refine (Cert.Assembly.agg_halves m c h2 n j).trans ?_
  unfold Cert.RefValue.agg
  refine Finset.sum_congr rfl fun e _ => ?_
  rw [kmsg_eq m c h3 h2 e j]
  rfl

theorem mu_apply (n : Fin 2048) (h : Fin 128) :
    (V8 m (Hand.outs m) c main_v84_0 : FVec Ideal S2048x128 .f32) (ix2 n h)
      = Cert.ReferenceIdeal.Read.val_main_v107 (F := Ideal) (x0 m c) (x1 m c) (x2 m c) (x3 m c) (x4 m c) (x5 m c) (x6 m c) (x7 m c) (b8 m c) (x9 m c) (b10 m c) (x11 m c) (b12 m c) (x13 m c) (b14 m c) (ix2 n h) := by
  rw [Cert.RefValue.muNew_apply (x0 m c) (x1 m c) (x2 m c) (x3 m c) (x4 m c) (x5 m c) (x6 m c) (x7 m c) (b8 m c) (x9 m c) (b10 m c) (x11 m c) (b12 m c) (x13 m c) (b14 m c) h2 n h,
    Cert.Assembly.node_mu m c (Cert.RefValue.agg (x0 m c) (x1 m c) (x2 m c) (x3 m c) (x4 m c) (x5 m c) (x6 m c) (x7 m c) (b8 m c) (x9 m c) (b10 m c)) (agg_eq m c h3 h2) n h, wsum_eq m c h3 h2 n]
  rfl

theorem sig_apply (n : Fin 2048) (h : Fin 128) :
    (V8 m (Hand.outs m) c main_v84_1 : FVec Ideal S2048x128 .f32) (ix2 n h)
      = Cert.ReferenceIdeal.Read.val_main_v128 (F := Ideal) (x0 m c) (x1 m c) (x2 m c) (x3 m c) (x4 m c) (x5 m c) (x6 m c) (x7 m c) (b8 m c) (x9 m c) (b10 m c) (x15 m c) (b16 m c) (x17 m c) (b18 m c) (ix2 n h) := by
  rw [Cert.RefValue.sigNew_apply (x0 m c) (x1 m c) (x2 m c) (x3 m c) (x4 m c) (x5 m c) (x6 m c) (x7 m c) (b8 m c) (x9 m c) (b10 m c) (x15 m c) (b16 m c) (x17 m c) (b18 m c) h2 n h,
    Cert.Assembly.node_sig m c (Cert.RefValue.agg (x0 m c) (x1 m c) (x2 m c) (x3 m c) (x4 m c) (x5 m c) (x6 m c) (x7 m c) (b8 m c) (x9 m c) (b10 m c)) (agg_eq m c h3 h2) n h, wsum_eq m c h3 h2 n,
    rsum_eq m c h3 h2 n, cnt_eq m c n]
  rfl

theorem res_apply (e : Fin 32768) :
    (V8 m (Hand.outs m) c main_v59 : FVec Ideal S32768x1 .f32) (ix2 e (0 : Fin 1))
      = Cert.ReferenceIdeal.Read.val_main_v58 (F := Ideal) (x2 m c) (x3 m c) (ix2 e (0 : Fin 1)) := by
  rw [Cert.RefValue.residuals_apply (x2 m c) (x3 m c) h2 e, Cert.Assembly.res_eq m c h3 h2 e, adj_eq m c]
  rfl

end Values

/-- The precondition gives real distances and node indices in range, which the entrywise comparisons need; the agreement of the memories moves them to the reference's arguments. -/
theorem algebraic : Cert.algebraic_KernelIdeal_ReferenceIdeal := by
  intro m g m' g' hpre hagree
  refine ⟨fun c => V8 m (Hand.outs m) c main_v84_0, fun c => V8 m (Hand.outs m) c main_v84_1,
    fun c => V8 m (Hand.outs m) c main_v59, ?_, ?_⟩
  · refine (θ_run _ _ _).mono (fun r h c => ?_) (Hand.run m g)
    have at_ := fun (b : Ref sig .tc) (hb : ¬(Proc.devRef (τ := τ) .tc b).isScoped) =>
      h c (Proc.devRef .tc b) (Finset.mem_filter.mpr ⟨StableHlo.devRef_mem_tcRefs b, hb⟩)
    exact ⟨at_ main_v84_0 (by decide), at_ main_v84_1 (by decide), at_ main_v59 (by decide),
      (at_ main_arg0 (by decide)).trans (V8_main_arg0 m _ c),
      (at_ main_arg1 (by decide)).trans (V8_main_arg1 m _ c),
      (at_ main_arg2 (by decide)).trans (V8_main_arg2 m _ c),
      (at_ main_arg3 (by decide)).trans (V8_main_arg3 m _ c),
      (at_ main_arg4 (by decide)).trans (V8_main_arg4 m _ c),
      (at_ main_arg5 (by decide)).trans (V8_main_arg5 m _ c),
      (at_ main_arg6 (by decide)).trans (V8_main_arg6 m _ c),
      (at_ main_arg7 (by decide)).trans (V8_main_arg7 m _ c),
      (at_ main_arg8 (by decide)).trans (V8_main_arg8 m _ c),
      (at_ main_arg9 (by decide)).trans (V8_main_arg9 m _ c),
      (at_ main_arg10 (by decide)).trans (V8_main_arg10 m _ c),
      (at_ main_arg11 (by decide)).trans (V8_main_arg11 m _ c),
      (at_ main_arg12 (by decide)).trans (V8_main_arg12 m _ c),
      (at_ main_arg13 (by decide)).trans (V8_main_arg13 m _ c),
      (at_ main_arg14 (by decide)).trans (V8_main_arg14 m _ c),
      (at_ main_arg15 (by decide)).trans (V8_main_arg15 m _ c),
      (at_ main_arg16 (by decide)).trans (V8_main_arg16 m _ c),
      (at_ main_arg17 (by decide)).trans (V8_main_arg17 m _ c),
      (at_ main_arg18 (by decide)).trans (V8_main_arg18 m _ c)⟩
  · refine (θ_run _ _ _).mono (fun r h c => ?_) (Cert.ReferenceIdeal.Value.run (F := Ideal) m' g')
    have D := Cert.PreFacts.decode (hpre c)
    obtain ⟨a0, a1, a2, a3, a4, a5, a6, a7, a8, a9, a10, a11, a12, a13, a14, a15, a16, a17, a18⟩ := hagree c
    refine ⟨(h c).1.trans ?_, (h c).2.1.trans ?_, (h c).2.2.1.trans ?_, (h c).2.2.2⟩
    · show (Cert.ReferenceIdeal.Value.res_main_v107 (F := Ideal) m' c : S2048x128.Idx → EReal)
        = (V8 m (Hand.outs m) c main_v84_0 : FVec Ideal S2048x128 .f32)
      unfold Cert.ReferenceIdeal.Value.res_main_v107
      rw [a0, a1, a2, a3, a4, a5, a6, a7, a8, a9, a10, a11, a12, a13, a14]
      funext i
      obtain ⟨n, j, rfl⟩ : ∃ (n : Fin 2048) (j : Fin 128), i = ix2 n j := ⟨i 0, i 1, eq_ix2 i⟩
      exact (mu_apply m c D.real3 D.range2 n j).symm
    · show (Cert.ReferenceIdeal.Value.res_main_v128 (F := Ideal) m' c : S2048x128.Idx → EReal)
        = (V8 m (Hand.outs m) c main_v84_1 : FVec Ideal S2048x128 .f32)
      unfold Cert.ReferenceIdeal.Value.res_main_v128
      rw [a0, a1, a2, a3, a4, a5, a6, a7, a8, a9, a10, a15, a16, a17, a18]
      funext i
      obtain ⟨n, j, rfl⟩ : ∃ (n : Fin 2048) (j : Fin 128), i = ix2 n j := ⟨i 0, i 1, eq_ix2 i⟩
      exact (sig_apply m c D.real3 D.range2 n j).symm
    · show (Cert.ReferenceIdeal.Value.res_main_v58 (F := Ideal) m' c : S32768x1.Idx → EReal)
        = (V8 m (Hand.outs m) c main_v59 : FVec Ideal S32768x1 .f32)
      unfold Cert.ReferenceIdeal.Value.res_main_v58
      rw [a2, a3]
      funext i
      obtain ⟨e, z, rfl⟩ : ∃ (e : Fin 32768) (z : Fin 1), i = ix2 e z := ⟨i 0, i 1, eq_ix2 i⟩
      obtain rfl : z = 0 := Subsingleton.elim _ _
      exact (res_apply m c D.real3 D.range2 e).symm

end Cert.Final

end
-- ==== Proof.lean ====
import proofs.«418543_j27023934227041_3_alg».proof.Defs
import proofs.«418543_j27023934227041_3_alg».proof.Proof.Gen.Kernel
import proofs.«418543_j27023934227041_3_alg».proof.Proof.Gen.KernelIdeal
import proofs.«418543_j27023934227041_3_alg».proof.Proof.Gen.ReferenceIdeal
import proofs.«418543_j27023934227041_3_alg».proof.Proof.Gen.Pre_finite_inputs
import proofs.«418543_j27023934227041_3_alg».proof.Proof.KFrame
import proofs.«418543_j27023934227041_3_alg».proof.Proof.KIFrame
import proofs.«418543_j27023934227041_3_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem preserves : Cert.preserves_Kernel_KernelIdeal :=
  ⟨IdealRules.truncf_extf.statement _ .f32 .bf16, IdealRules.truncf_extf.statement _ .f32 .bf16⟩

theorem claim : Cert.Claim :=
  ⟨Cert.Kernel.Gen.facts, Cert.KernelIdeal.Gen.facts, Cert.ReferenceIdeal.Gen.facts, Cert.Pre_finite_inputs.Gen.facts,
    frame_k, frame_ki, Cert.Final.frame_ref, preserves, Cert.Final.algebraic⟩

end Cert.Proof

end
